-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x1024 .f32) (main_arg1 : FVec F S4096x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .f32) (main_arg1 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S3x1024x1024 : Shape := ⟨3, ![3, 1024, 1024]⟩
abbrev S4x128x1024 : Shape := ⟨3, ![4, 128, 1024]⟩
abbrev S1024x1024 : Shape := ⟨2, ![1024, 1024]⟩
abbrev S3x1024x2048 : Shape := ⟨3, ![3, 1024, 2048]⟩
abbrev S24 : Shape := ⟨1, ![24]⟩
abbrev S4 : Shape := ⟨1, ![4]⟩
abbrev S_ : Shape := ⟨0, ![]⟩
abbrev S3 : Shape := ⟨1, ![3]⟩
abbrev S8 : Shape := ⟨1, ![8]⟩
abbrev S1 : Shape := ⟨1, ![1]⟩
abbrev S1x128x1024 : Shape := ⟨3, ![1, 128, 1024]⟩
abbrev S128x1024 : Shape := ⟨2, ![128, 1024]⟩
abbrev S1x1024x2048 : Shape := ⟨3, ![1, 1024, 2048]⟩
abbrev S128x2048 : Shape := ⟨2, ![128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S3x1024x1024, .bf16⟩
  | .local _ .vmem, ⟨1, _⟩ => ⟨S4x128x1024, .f32⟩
  | .local _ .vmem, ⟨2, _⟩ => ⟨S1024x1024, .f32⟩
  | .local _ .vmem, ⟨3, _⟩ => ⟨S3x1024x1024, .bf16⟩
  | .local _ .vmem, ⟨4, _⟩ => ⟨S3x1024x2048, .f32⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) (c0_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v14 : BitVec 32 := Scalar.muli v13 c1024_i32
  let v15 : BitVec 32 := Scalar.addi v14 c0_i32_6
  let c0_i32_11 : BitVec 32 := 0#32
  ![v15.toNat, 0]
def k0_dev1 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v76 : BitVec 32 := Scalar.addi v2 c1_i32_51
  let c4_i32_52 : BitVec 32 := 4#32
  let c0_i32_53 : BitVec 32 := 0#32
  let v77 : BitVec 1 := Scalar.cmpi .eq c4_i32_52 c0_i32_53
  let c1_i32_54 : BitVec 32 := 1#32
  let v78 : BitVec 32 := Scalar.select v77 c1_i32_54 c4_i32_52
  let v79 : BitVec 32 := Scalar.remsi v76 v78
  let c0_i32_56 : BitVec 32 := 0#32
  let v81 : BitVec 1 := Scalar.cmpi .slt v79 c0_i32_56
  let c0_i32_57 : BitVec 32 := 0#32
  let v82 : BitVec 1 := Scalar.cmpi .slt v78 c0_i32_57
  let v83 : BitVec 1 := Scalar.xori v81 v82
  let c0_i32_55 : BitVec 32 := 0#32
  let v80 : BitVec 1 := Scalar.cmpi .ne v79 c0_i32_55
  let v84 : BitVec 1 := Scalar.andi v83 v80
  let v85 : BitVec 32 := Scalar.addi v79 v78
  let v86 : BitVec 32 := Scalar.select v84 v85 v79
  let c1_i32_59 : BitVec 32 := 1#32
  let v87 : BitVec 32 := Scalar.muli v86 c1_i32_59
  let v88 : BitVec 32 := Scalar.addi c0_i32_60 v87
  v88.toNat
def k0_dev2 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_61 : BitVec 32 := 2#32
  let v89 : BitVec 32 := Scalar.addi v2 c2_i32_61
  let c4_i32_62 : BitVec 32 := 4#32
  let c0_i32_63 : BitVec 32 := 0#32
  let v90 : BitVec 1 := Scalar.cmpi .eq c4_i32_62 c0_i32_63
  let c1_i32_64 : BitVec 32 := 1#32
  let v91 : BitVec 32 := Scalar.select v90 c1_i32_64 c4_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_dev3 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v102 : BitVec 32 := Scalar.addi v2 c3_i32_71
  let c4_i32_72 : BitVec 32 := 4#32
  let c0_i32_73 : BitVec 32 := 0#32
  let v103 : BitVec 1 := Scalar.cmpi .eq c4_i32_72 c0_i32_73
  let c1_i32_74 : BitVec 32 := 1#32
  let v104 : BitVec 32 := Scalar.select v103 c1_i32_74 c4_i32_72
  let v105 : BitVec 32 := Scalar.remsi v102 v104
  let c0_i32_76 : BitVec 32 := 0#32
  let v107 : BitVec 1 := Scalar.cmpi .slt v105 c0_i32_76
  let c0_i32_77 : BitVec 32 := 0#32
  let v108 : BitVec 1 := Scalar.cmpi .slt v104 c0_i32_77
  let v109 : BitVec 1 := Scalar.xori v107 v108
  let c0_i32_75 : BitVec 32 := 0#32
  let v106 : BitVec 1 := Scalar.cmpi .ne v105 c0_i32_75
  let v110 : BitVec 1 := Scalar.andi v109 v106
  let v111 : BitVec 32 := Scalar.addi v105 v104
  let v112 : BitVec 32 := Scalar.select v110 v111 v105
  let c1_i32_79 : BitVec 32 := 1#32
  let v113 : BitVec 32 := Scalar.muli v112 c1_i32_79
  let v114 : BitVec 32 := Scalar.addi c0_i32_80 v113
  v114.toNat
def k0_dev4 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v115 : BitVec 32 := Scalar.addi v2 c1_i32_82
  let c4_i32_83 : BitVec 32 := 4#32
  let c0_i32_84 : BitVec 32 := 0#32
  let v116 : BitVec 1 := Scalar.cmpi .eq c4_i32_83 c0_i32_84
  let c1_i32_85 : BitVec 32 := 1#32
  let v117 : BitVec 32 := Scalar.select v116 c1_i32_85 c4_i32_83
  let v118 : BitVec 32 := Scalar.remsi v115 v117
  let c0_i32_87 : BitVec 32 := 0#32
  let v120 : BitVec 1 := Scalar.cmpi .slt v118 c0_i32_87
  let c0_i32_88 : BitVec 32 := 0#32
  let v121 : BitVec 1 := Scalar.cmpi .slt v117 c0_i32_88
  let v122 : BitVec 1 := Scalar.xori v120 v121
  let c0_i32_86 : BitVec 32 := 0#32
  let v119 : BitVec 1 := Scalar.cmpi .ne v118 c0_i32_86
  let v123 : BitVec 1 := Scalar.andi v122 v119
  let v124 : BitVec 32 := Scalar.addi v118 v117
  let v125 : BitVec 32 := Scalar.select v123 v124 v118
  let c1_i32_116 : BitVec 32 := 1#32
  let v155 : BitVec 32 := Scalar.muli v125 c1_i32_116
  let v156 : BitVec 32 := Scalar.addi c0_i32_117 v155
  v156.toNat
def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_122 : BitVec 32 := 3#32
  let v165 : BitVec 32 := Scalar.addi v2 c3_i32_122
  let c4_i32_123 : BitVec 32 := 4#32
  let c0_i32_124 : BitVec 32 := 0#32
  let v166 : BitVec 1 := Scalar.cmpi .eq c4_i32_123 c0_i32_124
  let c1_i32_125 : BitVec 32 := 1#32
  let v167 : BitVec 32 := Scalar.select v166 c1_i32_125 c4_i32_123
  let v168 : BitVec 32 := Scalar.remsi v165 v167
  let c0_i32_127 : BitVec 32 := 0#32
  let v170 : BitVec 1 := Scalar.cmpi .slt v168 c0_i32_127
  let c0_i32_128 : BitVec 32 := 0#32
  let v171 : BitVec 1 := Scalar.cmpi .slt v167 c0_i32_128
  let v172 : BitVec 1 := Scalar.xori v170 v171
  let c0_i32_126 : BitVec 32 := 0#32
  let v169 : BitVec 1 := Scalar.cmpi .ne v168 c0_i32_126
  let v173 : BitVec 1 := Scalar.andi v172 v169
  let v174 : BitVec 32 := Scalar.addi v168 v167
  let v175 : BitVec 32 := Scalar.select v173 v174 v168
  let c1_i32_156 : BitVec 32 := 1#32
  let v205 : BitVec 32 := Scalar.muli v175 c1_i32_156
  let v206 : BitVec 32 := Scalar.addi c0_i32_157 v205
  v206.toNat
def k0_dev6 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_162 : BitVec 32 := 1#32
  let v215 : BitVec 32 := Scalar.addi v2 c1_i32_162
  let c4_i32_163 : BitVec 32 := 4#32
  let c0_i32_164 : BitVec 32 := 0#32
  let v216 : BitVec 1 := Scalar.cmpi .eq c4_i32_163 c0_i32_164
  let c1_i32_165 : BitVec 32 := 1#32
  let v217 : BitVec 32 := Scalar.select v216 c1_i32_165 c4_i32_163
  let v218 : BitVec 32 := Scalar.remsi v215 v217
  let c0_i32_167 : BitVec 32 := 0#32
  let v220 : BitVec 1 := Scalar.cmpi .slt v218 c0_i32_167
  let c0_i32_168 : BitVec 32 := 0#32
  let v221 : BitVec 1 := Scalar.cmpi .slt v217 c0_i32_168
  let v222 : BitVec 1 := Scalar.xori v220 v221
  let c0_i32_166 : BitVec 32 := 0#32
  let v219 : BitVec 1 := Scalar.cmpi .ne v218 c0_i32_166
  let v223 : BitVec 1 := Scalar.andi v222 v219
  let v224 : BitVec 32 := Scalar.addi v218 v217
  let v225 : BitVec 32 := Scalar.select v223 v224 v218
  let c1_i32_195 : BitVec 32 := 1#32
  let v255 : BitVec 32 := Scalar.muli v225 c1_i32_195
  let v256 : BitVec 32 := Scalar.addi c0_i32_196 v255
  v256.toNat
def k0_dev7 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_201 : BitVec 32 := 3#32
  let v265 : BitVec 32 := Scalar.addi v2 c3_i32_201
  let c4_i32_202 : BitVec 32 := 4#32
  let c0_i32_203 : BitVec 32 := 0#32
  let v266 : BitVec 1 := Scalar.cmpi .eq c4_i32_202 c0_i32_203
  let c1_i32_204 : BitVec 32 := 1#32
  let v267 : BitVec 32 := Scalar.select v266 c1_i32_204 c4_i32_202
  let v268 : BitVec 32 := Scalar.remsi v265 v267
  let c0_i32_206 : BitVec 32 := 0#32
  let v270 : BitVec 1 := Scalar.cmpi .slt v268 c0_i32_206
  let c0_i32_207 : BitVec 32 := 0#32
  let v271 : BitVec 1 := Scalar.cmpi .slt v267 c0_i32_207
  let v272 : BitVec 1 := Scalar.xori v270 v271
  let c0_i32_205 : BitVec 32 := 0#32
  let v269 : BitVec 1 := Scalar.cmpi .ne v268 c0_i32_205
  let v273 : BitVec 1 := Scalar.andi v272 v269
  let v274 : BitVec 32 := Scalar.addi v268 v267
  let v275 : BitVec 32 := Scalar.select v273 v274 v268
  let c1_i32_235 : BitVec 32 := 1#32
  let v305 : BitVec 32 := Scalar.muli v275 c1_i32_235
  let v306 : BitVec 32 := Scalar.addi c0_i32_236 v305
  v306.toNat
def k0_dev8 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_241 : BitVec 32 := 1#32
  let v315 : BitVec 32 := Scalar.addi v2 c1_i32_241
  let c4_i32_242 : BitVec 32 := 4#32
  let c0_i32_243 : BitVec 32 := 0#32
  let v316 : BitVec 1 := Scalar.cmpi .eq c4_i32_242 c0_i32_243
  let c1_i32_244 : BitVec 32 := 1#32
  let v317 : BitVec 32 := Scalar.select v316 c1_i32_244 c4_i32_242
  let v318 : BitVec 32 := Scalar.remsi v315 v317
  let c0_i32_246 : BitVec 32 := 0#32
  let v320 : BitVec 1 := Scalar.cmpi .slt v318 c0_i32_246
  let c0_i32_247 : BitVec 32 := 0#32
  let v321 : BitVec 1 := Scalar.cmpi .slt v317 c0_i32_247
  let v322 : BitVec 1 := Scalar.xori v320 v321
  let c0_i32_245 : BitVec 32 := 0#32
  let v319 : BitVec 1 := Scalar.cmpi .ne v318 c0_i32_245
  let v323 : BitVec 1 := Scalar.andi v322 v319
  let v324 : BitVec 32 := Scalar.addi v318 v317
  let v325 : BitVec 32 := Scalar.select v323 v324 v318
  let c1_i32_275 : BitVec 32 := 1#32
  let v355 : BitVec 32 := Scalar.muli v325 c1_i32_275
  let v356 : BitVec 32 := Scalar.addi c0_i32_276 v355
  v356.toNat
def k0_dev9 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_281 : BitVec 32 := 3#32
  let v365 : BitVec 32 := Scalar.addi v2 c3_i32_281
  let c4_i32_282 : BitVec 32 := 4#32
  let c0_i32_283 : BitVec 32 := 0#32
  let v366 : BitVec 1 := Scalar.cmpi .eq c4_i32_282 c0_i32_283
  let c1_i32_284 : BitVec 32 := 1#32
  let v367 : BitVec 32 := Scalar.select v366 c1_i32_284 c4_i32_282
  let v368 : BitVec 32 := Scalar.remsi v365 v367
  let c0_i32_286 : BitVec 32 := 0#32
  let v370 : BitVec 1 := Scalar.cmpi .slt v368 c0_i32_286
  let c0_i32_287 : BitVec 32 := 0#32
  let v371 : BitVec 1 := Scalar.cmpi .slt v367 c0_i32_287
  let v372 : BitVec 1 := Scalar.xori v370 v371
  let c0_i32_285 : BitVec 32 := 0#32
  let v369 : BitVec 1 := Scalar.cmpi .ne v368 c0_i32_285
  let v373 : BitVec 1 := Scalar.andi v372 v369
  let v374 : BitVec 32 := Scalar.addi v368 v367
  let v375 : BitVec 32 := Scalar.select v373 v374 v368
  let c1_i32_316 : BitVec 32 := 1#32
  let v405 : BitVec 32 := Scalar.muli v375 c1_i32_316
  let v406 : BitVec 32 := Scalar.addi c0_i32_317 v405
  v406.toNat
def k0_dev10 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_322 : BitVec 32 := 1#32
  let v415 : BitVec 32 := Scalar.addi v2 c1_i32_322
  let c4_i32_323 : BitVec 32 := 4#32
  let c0_i32_324 : BitVec 32 := 0#32
  let v416 : BitVec 1 := Scalar.cmpi .eq c4_i32_323 c0_i32_324
  let c1_i32_325 : BitVec 32 := 1#32
  let v417 : BitVec 32 := Scalar.select v416 c1_i32_325 c4_i32_323
  let v418 : BitVec 32 := Scalar.remsi v415 v417
  let c0_i32_327 : BitVec 32 := 0#32
  let v420 : BitVec 1 := Scalar.cmpi .slt v418 c0_i32_327
  let c0_i32_328 : BitVec 32 := 0#32
  let v421 : BitVec 1 := Scalar.cmpi .slt v417 c0_i32_328
  let v422 : BitVec 1 := Scalar.xori v420 v421
  let c0_i32_326 : BitVec 32 := 0#32
  let v419 : BitVec 1 := Scalar.cmpi .ne v418 c0_i32_326
  let v423 : BitVec 1 := Scalar.andi v422 v419
  let v424 : BitVec 32 := Scalar.addi v418 v417
  let v425 : BitVec 32 := Scalar.select v423 v424 v418
  let c1_i32_356 : BitVec 32 := 1#32
  let v455 : BitVec 32 := Scalar.muli v425 c1_i32_356
  let v456 : BitVec 32 := Scalar.addi c0_i32_357 v455
  v456.toNat
def k0_dev11 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_362 : BitVec 32 := 3#32
  let v465 : BitVec 32 := Scalar.addi v2 c3_i32_362
  let c4_i32_363 : BitVec 32 := 4#32
  let c0_i32_364 : BitVec 32 := 0#32
  let v466 : BitVec 1 := Scalar.cmpi .eq c4_i32_363 c0_i32_364
  let c1_i32_365 : BitVec 32 := 1#32
  let v467 : BitVec 32 := Scalar.select v466 c1_i32_365 c4_i32_363
  let v468 : BitVec 32 := Scalar.remsi v465 v467
  let c0_i32_367 : BitVec 32 := 0#32
  let v470 : BitVec 1 := Scalar.cmpi .slt v468 c0_i32_367
  let c0_i32_368 : BitVec 32 := 0#32
  let v471 : BitVec 1 := Scalar.cmpi .slt v467 c0_i32_368
  let v472 : BitVec 1 := Scalar.xori v470 v471
  let c0_i32_366 : BitVec 32 := 0#32
  let v469 : BitVec 1 := Scalar.cmpi .ne v468 c0_i32_366
  let v473 : BitVec 1 := Scalar.andi v472 v469
  let v474 : BitVec 32 := Scalar.addi v468 v467
  let v475 : BitVec 32 := Scalar.select v473 v474 v468
  let c1_i32_397 : BitVec 32 := 1#32
  let v505 : BitVec 32 := Scalar.muli v475 c1_i32_397
  let v506 : BitVec 32 := Scalar.addi c0_i32_398 v505
  v506.toNat
def k0_dev12 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_403 : BitVec 32 := 1#32
  let v515 : BitVec 32 := Scalar.addi v2 c1_i32_403
  let c4_i32_404 : BitVec 32 := 4#32
  let c0_i32_405 : BitVec 32 := 0#32
  let v516 : BitVec 1 := Scalar.cmpi .eq c4_i32_404 c0_i32_405
  let c1_i32_406 : BitVec 32 := 1#32
  let v517 : BitVec 32 := Scalar.select v516 c1_i32_406 c4_i32_404
  let v518 : BitVec 32 := Scalar.remsi v515 v517
  let c0_i32_408 : BitVec 32 := 0#32
  let v520 : BitVec 1 := Scalar.cmpi .slt v518 c0_i32_408
  let c0_i32_409 : BitVec 32 := 0#32
  let v521 : BitVec 1 := Scalar.cmpi .slt v517 c0_i32_409
  let v522 : BitVec 1 := Scalar.xori v520 v521
  let c0_i32_407 : BitVec 32 := 0#32
  let v519 : BitVec 1 := Scalar.cmpi .ne v518 c0_i32_407
  let v523 : BitVec 1 := Scalar.andi v522 v519
  let v524 : BitVec 32 := Scalar.addi v518 v517
  let v525 : BitVec 32 := Scalar.select v523 v524 v518
  let c1_i32_437 : BitVec 32 := 1#32
  let v555 : BitVec 32 := Scalar.muli v525 c1_i32_437
  let v556 : BitVec 32 := Scalar.addi c0_i32_438 v555
  v556.toNat
def k0_dev13 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_443 : BitVec 32 := 3#32
  let v565 : BitVec 32 := Scalar.addi v2 c3_i32_443
  let c4_i32_444 : BitVec 32 := 4#32
  let c0_i32_445 : BitVec 32 := 0#32
  let v566 : BitVec 1 := Scalar.cmpi .eq c4_i32_444 c0_i32_445
  let c1_i32_446 : BitVec 32 := 1#32
  let v567 : BitVec 32 := Scalar.select v566 c1_i32_446 c4_i32_444
  let v568 : BitVec 32 := Scalar.remsi v565 v567
  let c0_i32_448 : BitVec 32 := 0#32
  let v570 : BitVec 1 := Scalar.cmpi .slt v568 c0_i32_448
  let c0_i32_449 : BitVec 32 := 0#32
  let v571 : BitVec 1 := Scalar.cmpi .slt v567 c0_i32_449
  let v572 : BitVec 1 := Scalar.xori v570 v571
  let c0_i32_447 : BitVec 32 := 0#32
  let v569 : BitVec 1 := Scalar.cmpi .ne v568 c0_i32_447
  let v573 : BitVec 1 := Scalar.andi v572 v569
  let v574 : BitVec 32 := Scalar.addi v568 v567
  let v575 : BitVec 32 := Scalar.select v573 v574 v568
  let c1_i32_478 : BitVec 32 := 1#32
  let v605 : BitVec 32 := Scalar.muli v575 c1_i32_478
  let v606 : BitVec 32 := Scalar.addi c0_i32_479 v605
  v606.toNat
def k0_dev14 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_484 : BitVec 32 := 1#32
  let v615 : BitVec 32 := Scalar.addi v2 c1_i32_484
  let c4_i32_485 : BitVec 32 := 4#32
  let c0_i32_486 : BitVec 32 := 0#32
  let v616 : BitVec 1 := Scalar.cmpi .eq c4_i32_485 c0_i32_486
  let c1_i32_487 : BitVec 32 := 1#32
  let v617 : BitVec 32 := Scalar.select v616 c1_i32_487 c4_i32_485
  let v618 : BitVec 32 := Scalar.remsi v615 v617
  let c0_i32_489 : BitVec 32 := 0#32
  let v620 : BitVec 1 := Scalar.cmpi .slt v618 c0_i32_489
  let c0_i32_490 : BitVec 32 := 0#32
  let v621 : BitVec 1 := Scalar.cmpi .slt v617 c0_i32_490
  let v622 : BitVec 1 := Scalar.xori v620 v621
  let c0_i32_488 : BitVec 32 := 0#32
  let v619 : BitVec 1 := Scalar.cmpi .ne v618 c0_i32_488
  let v623 : BitVec 1 := Scalar.andi v622 v619
  let v624 : BitVec 32 := Scalar.addi v618 v617
  let v625 : BitVec 32 := Scalar.select v623 v624 v618
  let c1_i32_517 : BitVec 32 := 1#32
  let v655 : BitVec 32 := Scalar.muli v625 c1_i32_517
  let v656 : BitVec 32 := Scalar.addi c0_i32_518 v655
  v656.toNat
def k0_dev15 (d0 : Dev nD) : Nat :=
  let c0_i32_559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_523 : BitVec 32 := 3#32
  let v665 : BitVec 32 := Scalar.addi v2 c3_i32_523
  let c4_i32_524 : BitVec 32 := 4#32
  let c0_i32_525 : BitVec 32 := 0#32
  let v666 : BitVec 1 := Scalar.cmpi .eq c4_i32_524 c0_i32_525
  let c1_i32_526 : BitVec 32 := 1#32
  let v667 : BitVec 32 := Scalar.select v666 c1_i32_526 c4_i32_524
  let v668 : BitVec 32 := Scalar.remsi v665 v667
  let c0_i32_528 : BitVec 32 := 0#32
  let v670 : BitVec 1 := Scalar.cmpi .slt v668 c0_i32_528
  let c0_i32_529 : BitVec 32 := 0#32
  let v671 : BitVec 1 := Scalar.cmpi .slt v667 c0_i32_529
  let v672 : BitVec 1 := Scalar.xori v670 v671
  let c0_i32_527 : BitVec 32 := 0#32
  let v669 : BitVec 1 := Scalar.cmpi .ne v668 c0_i32_527
  let v673 : BitVec 1 := Scalar.andi v672 v669
  let v674 : BitVec 32 := Scalar.addi v668 v667
  let v675 : BitVec 32 := Scalar.select v673 v674 v668
  let c1_i32_558 : BitVec 32 := 1#32
  let v705 : BitVec 32 := Scalar.muli v675 c1_i32_558
  let v706 : BitVec 32 := Scalar.addi c0_i32_559 v705
  v706.toNat
def k0_dev16 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_564 : BitVec 32 := 1#32
  let v715 : BitVec 32 := Scalar.addi v2 c1_i32_564
  let c4_i32_565 : BitVec 32 := 4#32
  let c0_i32_566 : BitVec 32 := 0#32
  let v716 : BitVec 1 := Scalar.cmpi .eq c4_i32_565 c0_i32_566
  let c1_i32_567 : BitVec 32 := 1#32
  let v717 : BitVec 32 := Scalar.select v716 c1_i32_567 c4_i32_565
  let v718 : BitVec 32 := Scalar.remsi v715 v717
  let c0_i32_569 : BitVec 32 := 0#32
  let v720 : BitVec 1 := Scalar.cmpi .slt v718 c0_i32_569
  let c0_i32_570 : BitVec 32 := 0#32
  let v721 : BitVec 1 := Scalar.cmpi .slt v717 c0_i32_570
  let v722 : BitVec 1 := Scalar.xori v720 v721
  let c0_i32_568 : BitVec 32 := 0#32
  let v719 : BitVec 1 := Scalar.cmpi .ne v718 c0_i32_568
  let v723 : BitVec 1 := Scalar.andi v722 v719
  let v724 : BitVec 32 := Scalar.addi v718 v717
  let v725 : BitVec 32 := Scalar.select v723 v724 v718
  let c1_i32_598 : BitVec 32 := 1#32
  let v755 : BitVec 32 := Scalar.muli v725 c1_i32_598
  let v756 : BitVec 32 := Scalar.addi c0_i32_599 v755
  v756.toNat
def k0_dev17 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_604 : BitVec 32 := 3#32
  let v765 : BitVec 32 := Scalar.addi v2 c3_i32_604
  let c4_i32_605 : BitVec 32 := 4#32
  let c0_i32_606 : BitVec 32 := 0#32
  let v766 : BitVec 1 := Scalar.cmpi .eq c4_i32_605 c0_i32_606
  let c1_i32_607 : BitVec 32 := 1#32
  let v767 : BitVec 32 := Scalar.select v766 c1_i32_607 c4_i32_605
  let v768 : BitVec 32 := Scalar.remsi v765 v767
  let c0_i32_609 : BitVec 32 := 0#32
  let v770 : BitVec 1 := Scalar.cmpi .slt v768 c0_i32_609
  let c0_i32_610 : BitVec 32 := 0#32
  let v771 : BitVec 1 := Scalar.cmpi .slt v767 c0_i32_610
  let v772 : BitVec 1 := Scalar.xori v770 v771
  let c0_i32_608 : BitVec 32 := 0#32
  let v769 : BitVec 1 := Scalar.cmpi .ne v768 c0_i32_608
  let v773 : BitVec 1 := Scalar.andi v772 v769
  let v774 : BitVec 32 := Scalar.addi v768 v767
  let v775 : BitVec 32 := Scalar.select v773 v774 v768
  let c1_i32_639 : BitVec 32 := 1#32
  let v805 : BitVec 32 := Scalar.muli v775 c1_i32_639
  let v806 : BitVec 32 := Scalar.addi c0_i32_640 v805
  v806.toNat
def k0_dev18 (d0 : Dev nD) : Nat :=
  let c0_i32_680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_645 : BitVec 32 := 1#32
  let v815 : BitVec 32 := Scalar.addi v2 c1_i32_645
  let c4_i32_646 : BitVec 32 := 4#32
  let c0_i32_647 : BitVec 32 := 0#32
  let v816 : BitVec 1 := Scalar.cmpi .eq c4_i32_646 c0_i32_647
  let c1_i32_648 : BitVec 32 := 1#32
  let v817 : BitVec 32 := Scalar.select v816 c1_i32_648 c4_i32_646
  let v818 : BitVec 32 := Scalar.remsi v815 v817
  let c0_i32_650 : BitVec 32 := 0#32
  let v820 : BitVec 1 := Scalar.cmpi .slt v818 c0_i32_650
  let c0_i32_651 : BitVec 32 := 0#32
  let v821 : BitVec 1 := Scalar.cmpi .slt v817 c0_i32_651
  let v822 : BitVec 1 := Scalar.xori v820 v821
  let c0_i32_649 : BitVec 32 := 0#32
  let v819 : BitVec 1 := Scalar.cmpi .ne v818 c0_i32_649
  let v823 : BitVec 1 := Scalar.andi v822 v819
  let v824 : BitVec 32 := Scalar.addi v818 v817
  let v825 : BitVec 32 := Scalar.select v823 v824 v818
  let c1_i32_679 : BitVec 32 := 1#32
  let v855 : BitVec 32 := Scalar.muli v825 c1_i32_679
  let v856 : BitVec 32 := Scalar.addi c0_i32_680 v855
  v856.toNat
def k0_dev19 (d0 : Dev nD) : Nat :=
  let c0_i32_721 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_685 : BitVec 32 := 3#32
  let v865 : BitVec 32 := Scalar.addi v2 c3_i32_685
  let c4_i32_686 : BitVec 32 := 4#32
  let c0_i32_687 : BitVec 32 := 0#32
  let v866 : BitVec 1 := Scalar.cmpi .eq c4_i32_686 c0_i32_687
  let c1_i32_688 : BitVec 32 := 1#32
  let v867 : BitVec 32 := Scalar.select v866 c1_i32_688 c4_i32_686
  let v868 : BitVec 32 := Scalar.remsi v865 v867
  let c0_i32_690 : BitVec 32 := 0#32
  let v870 : BitVec 1 := Scalar.cmpi .slt v868 c0_i32_690
  let c0_i32_691 : BitVec 32 := 0#32
  let v871 : BitVec 1 := Scalar.cmpi .slt v867 c0_i32_691
  let v872 : BitVec 1 := Scalar.xori v870 v871
  let c0_i32_689 : BitVec 32 := 0#32
  let v869 : BitVec 1 := Scalar.cmpi .ne v868 c0_i32_689
  let v873 : BitVec 1 := Scalar.andi v872 v869
  let v874 : BitVec 32 := Scalar.addi v868 v867
  let v875 : BitVec 32 := Scalar.select v873 v874 v868
  let c1_i32_720 : BitVec 32 := 1#32
  let v905 : BitVec 32 := Scalar.muli v875 c1_i32_720
  let v906 : BitVec 32 := Scalar.addi c0_i32_721 v905
  v906.toNat
def k0_dev20 (d0 : Dev nD) : Nat :=
  let c0_i32_762 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_726 : BitVec 32 := 2#32
  let v915 : BitVec 32 := Scalar.addi v2 c2_i32_726
  let c4_i32_727 : BitVec 32 := 4#32
  let c0_i32_728 : BitVec 32 := 0#32
  let v916 : BitVec 1 := Scalar.cmpi .eq c4_i32_727 c0_i32_728
  let c1_i32_729 : BitVec 32 := 1#32
  let v917 : BitVec 32 := Scalar.select v916 c1_i32_729 c4_i32_727
  let v918 : BitVec 32 := Scalar.remsi v915 v917
  let c0_i32_731 : BitVec 32 := 0#32
  let v920 : BitVec 1 := Scalar.cmpi .slt v918 c0_i32_731
  let c0_i32_732 : BitVec 32 := 0#32
  let v921 : BitVec 1 := Scalar.cmpi .slt v917 c0_i32_732
  let v922 : BitVec 1 := Scalar.xori v920 v921
  let c0_i32_730 : BitVec 32 := 0#32
  let v919 : BitVec 1 := Scalar.cmpi .ne v918 c0_i32_730
  let v923 : BitVec 1 := Scalar.andi v922 v919
  let v924 : BitVec 32 := Scalar.addi v918 v917
  let v925 : BitVec 32 := Scalar.select v923 v924 v918
  let c1_i32_761 : BitVec 32 := 1#32
  let v955 : BitVec 32 := Scalar.muli v925 c1_i32_761
  let v956 : BitVec 32 := Scalar.addi c0_i32_762 v955
  v956.toNat
def k0_dev21 (d0 : Dev nD) : Nat :=
  let c0_i32_803 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_767 : BitVec 32 := 2#32
  let v965 : BitVec 32 := Scalar.addi v2 c2_i32_767
  let c4_i32_768 : BitVec 32 := 4#32
  let c0_i32_769 : BitVec 32 := 0#32
  let v966 : BitVec 1 := Scalar.cmpi .eq c4_i32_768 c0_i32_769
  let c1_i32_770 : BitVec 32 := 1#32
  let v967 : BitVec 32 := Scalar.select v966 c1_i32_770 c4_i32_768
  let v968 : BitVec 32 := Scalar.remsi v965 v967
  let c0_i32_772 : BitVec 32 := 0#32
  let v970 : BitVec 1 := Scalar.cmpi .slt v968 c0_i32_772
  let c0_i32_773 : BitVec 32 := 0#32
  let v971 : BitVec 1 := Scalar.cmpi .slt v967 c0_i32_773
  let v972 : BitVec 1 := Scalar.xori v970 v971
  let c0_i32_771 : BitVec 32 := 0#32
  let v969 : BitVec 1 := Scalar.cmpi .ne v968 c0_i32_771
  let v973 : BitVec 1 := Scalar.andi v972 v969
  let v974 : BitVec 32 := Scalar.addi v968 v967
  let v975 : BitVec 32 := Scalar.select v973 v974 v968
  let c1_i32_802 : BitVec 32 := 1#32
  let v1005 : BitVec 32 := Scalar.muli v975 c1_i32_802
  let v1006 : BitVec 32 := Scalar.addi c0_i32_803 v1005
  v1006.toNat
def k0_dev22 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_808 : BitVec 32 := 2#32
  let v1015 : BitVec 32 := Scalar.addi v2 c2_i32_808
  let c4_i32_809 : BitVec 32 := 4#32
  let c0_i32_810 : BitVec 32 := 0#32
  let v1016 : BitVec 1 := Scalar.cmpi .eq c4_i32_809 c0_i32_810
  let c1_i32_811 : BitVec 32 := 1#32
  let v1017 : BitVec 32 := Scalar.select v1016 c1_i32_811 c4_i32_809
  let v1018 : BitVec 32 := Scalar.remsi v1015 v1017
  let c0_i32_813 : BitVec 32 := 0#32
  let v1020 : BitVec 1 := Scalar.cmpi .slt v1018 c0_i32_813
  let c0_i32_814 : BitVec 32 := 0#32
  let v1021 : BitVec 1 := Scalar.cmpi .slt v1017 c0_i32_814
  let v1022 : BitVec 1 := Scalar.xori v1020 v1021
  let c0_i32_812 : BitVec 32 := 0#32
  let v1019 : BitVec 1 := Scalar.cmpi .ne v1018 c0_i32_812
  let v1023 : BitVec 1 := Scalar.andi v1022 v1019
  let v1024 : BitVec 32 := Scalar.addi v1018 v1017
  let v1025 : BitVec 32 := Scalar.select v1023 v1024 v1018
  let c1_i32_843 : BitVec 32 := 1#32
  let v1055 : BitVec 32 := Scalar.muli v1025 c1_i32_843
  let v1056 : BitVec 32 := Scalar.addi c0_i32_844 v1055
  v1056.toNat
def k0_dev23 (d0 : Dev nD) : Nat :=
  let c0_i32_885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_849 : BitVec 32 := 2#32
  let v1065 : BitVec 32 := Scalar.addi v2 c2_i32_849
  let c4_i32_850 : BitVec 32 := 4#32
  let c0_i32_851 : BitVec 32 := 0#32
  let v1066 : BitVec 1 := Scalar.cmpi .eq c4_i32_850 c0_i32_851
  let c1_i32_852 : BitVec 32 := 1#32
  let v1067 : BitVec 32 := Scalar.select v1066 c1_i32_852 c4_i32_850
  let v1068 : BitVec 32 := Scalar.remsi v1065 v1067
  let c0_i32_854 : BitVec 32 := 0#32
  let v1070 : BitVec 1 := Scalar.cmpi .slt v1068 c0_i32_854
  let c0_i32_855 : BitVec 32 := 0#32
  let v1071 : BitVec 1 := Scalar.cmpi .slt v1067 c0_i32_855
  let v1072 : BitVec 1 := Scalar.xori v1070 v1071
  let c0_i32_853 : BitVec 32 := 0#32
  let v1069 : BitVec 1 := Scalar.cmpi .ne v1068 c0_i32_853
  let v1073 : BitVec 1 := Scalar.andi v1072 v1069
  let v1074 : BitVec 32 := Scalar.addi v1068 v1067
  let v1075 : BitVec 32 := Scalar.select v1073 v1074 v1068
  let c1_i32_884 : BitVec 32 := 1#32
  let v1105 : BitVec 32 := Scalar.muli v1075 c1_i32_884
  let v1106 : BitVec 32 := Scalar.addi c0_i32_885 v1105
  v1106.toNat
def k0_dev24 (d0 : Dev nD) : Nat :=
  let c0_i32_912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_890 : BitVec 32 := 2#32
  let v1115 : BitVec 32 := Scalar.addi v2 c2_i32_890
  let c4_i32_891 : BitVec 32 := 4#32
  let c0_i32_892 : BitVec 32 := 0#32
  let v1116 : BitVec 1 := Scalar.cmpi .eq c4_i32_891 c0_i32_892
  let c1_i32_893 : BitVec 32 := 1#32
  let v1117 : BitVec 32 := Scalar.select v1116 c1_i32_893 c4_i32_891
  let v1118 : BitVec 32 := Scalar.remsi v1115 v1117
  let c0_i32_895 : BitVec 32 := 0#32
  let v1120 : BitVec 1 := Scalar.cmpi .slt v1118 c0_i32_895
  let c0_i32_896 : BitVec 32 := 0#32
  let v1121 : BitVec 1 := Scalar.cmpi .slt v1117 c0_i32_896
  let v1122 : BitVec 1 := Scalar.xori v1120 v1121
  let c0_i32_894 : BitVec 32 := 0#32
  let v1119 : BitVec 1 := Scalar.cmpi .ne v1118 c0_i32_894
  let v1123 : BitVec 1 := Scalar.andi v1122 v1119
  let v1124 : BitVec 32 := Scalar.addi v1118 v1117
  let v1125 : BitVec 32 := Scalar.select v1123 v1124 v1118
  let c1_i32_911 : BitVec 32 := 1#32
  let v1137 : BitVec 32 := Scalar.muli v1125 c1_i32_911
  let v1138 : BitVec 32 := Scalar.addi c0_i32_912 v1137
  v1138.toNat
def k0_dev25 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_917 : BitVec 32 := 2#32
  let v1147 : BitVec 32 := Scalar.addi v2 c2_i32_917
  let c4_i32_918 : BitVec 32 := 4#32
  let c0_i32_919 : BitVec 32 := 0#32
  let v1148 : BitVec 1 := Scalar.cmpi .eq c4_i32_918 c0_i32_919
  let c1_i32_920 : BitVec 32 := 1#32
  let v1149 : BitVec 32 := Scalar.select v1148 c1_i32_920 c4_i32_918
  let v1150 : BitVec 32 := Scalar.remsi v1147 v1149
  let c0_i32_922 : BitVec 32 := 0#32
  let v1152 : BitVec 1 := Scalar.cmpi .slt v1150 c0_i32_922
  let c0_i32_923 : BitVec 32 := 0#32
  let v1153 : BitVec 1 := Scalar.cmpi .slt v1149 c0_i32_923
  let v1154 : BitVec 1 := Scalar.xori v1152 v1153
  let c0_i32_921 : BitVec 32 := 0#32
  let v1151 : BitVec 1 := Scalar.cmpi .ne v1150 c0_i32_921
  let v1155 : BitVec 1 := Scalar.andi v1154 v1151
  let v1156 : BitVec 32 := Scalar.addi v1150 v1149
  let v1157 : BitVec 32 := Scalar.select v1155 v1156 v1150
  let c1_i32_938 : BitVec 32 := 1#32
  let v1169 : BitVec 32 := Scalar.muli v1157 c1_i32_938
  let v1170 : BitVec 32 := Scalar.addi c0_i32_939 v1169
  v1170.toNat
def k0_dev26 (d0 : Dev nD) : Nat :=
  let c0_i32_966 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_944 : BitVec 32 := 2#32
  let v1179 : BitVec 32 := Scalar.addi v2 c2_i32_944
  let c4_i32_945 : BitVec 32 := 4#32
  let c0_i32_946 : BitVec 32 := 0#32
  let v1180 : BitVec 1 := Scalar.cmpi .eq c4_i32_945 c0_i32_946
  let c1_i32_947 : BitVec 32 := 1#32
  let v1181 : BitVec 32 := Scalar.select v1180 c1_i32_947 c4_i32_945
  let v1182 : BitVec 32 := Scalar.remsi v1179 v1181
  let c0_i32_949 : BitVec 32 := 0#32
  let v1184 : BitVec 1 := Scalar.cmpi .slt v1182 c0_i32_949
  let c0_i32_950 : BitVec 32 := 0#32
  let v1185 : BitVec 1 := Scalar.cmpi .slt v1181 c0_i32_950
  let v1186 : BitVec 1 := Scalar.xori v1184 v1185
  let c0_i32_948 : BitVec 32 := 0#32
  let v1183 : BitVec 1 := Scalar.cmpi .ne v1182 c0_i32_948
  let v1187 : BitVec 1 := Scalar.andi v1186 v1183
  let v1188 : BitVec 32 := Scalar.addi v1182 v1181
  let v1189 : BitVec 32 := Scalar.select v1187 v1188 v1182
  let c1_i32_965 : BitVec 32 := 1#32
  let v1201 : BitVec 32 := Scalar.muli v1189 c1_i32_965
  let v1202 : BitVec 32 := Scalar.addi c0_i32_966 v1201
  v1202.toNat
def k0_dev27 (d0 : Dev nD) : Nat :=
  let c0_i32_993 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_971 : BitVec 32 := 2#32
  let v1211 : BitVec 32 := Scalar.addi v2 c2_i32_971
  let c4_i32_972 : BitVec 32 := 4#32
  let c0_i32_973 : BitVec 32 := 0#32
  let v1212 : BitVec 1 := Scalar.cmpi .eq c4_i32_972 c0_i32_973
  let c1_i32_974 : BitVec 32 := 1#32
  let v1213 : BitVec 32 := Scalar.select v1212 c1_i32_974 c4_i32_972
  let v1214 : BitVec 32 := Scalar.remsi v1211 v1213
  let c0_i32_976 : BitVec 32 := 0#32
  let v1216 : BitVec 1 := Scalar.cmpi .slt v1214 c0_i32_976
  let c0_i32_977 : BitVec 32 := 0#32
  let v1217 : BitVec 1 := Scalar.cmpi .slt v1213 c0_i32_977
  let v1218 : BitVec 1 := Scalar.xori v1216 v1217
  let c0_i32_975 : BitVec 32 := 0#32
  let v1215 : BitVec 1 := Scalar.cmpi .ne v1214 c0_i32_975
  let v1219 : BitVec 1 := Scalar.andi v1218 v1215
  let v1220 : BitVec 32 := Scalar.addi v1214 v1213
  let v1221 : BitVec 32 := Scalar.select v1219 v1220 v1214
  let c1_i32_992 : BitVec 32 := 1#32
  let v1233 : BitVec 32 := Scalar.muli v1221 c1_i32_992
  let v1234 : BitVec 32 := Scalar.addi c0_i32_993 v1233
  v1234.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_998 : BitVec 32 := 1024#32
  let v1243 : BitVec 32 := Scalar.muli v2 c1024_i32_998
  let c0_i32_999 : BitVec 32 := 0#32
  ![v1243.toNat, 0]
def k0_off3 (d0 : Dev nD) (c0_i32_1000 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1245 : BitVec 32 := Scalar.addi v2 c0_i32_1000
  let c4_i32_1001 : BitVec 32 := 4#32
  let c0_i32_1002 : BitVec 32 := 0#32
  let v1246 : BitVec 1 := Scalar.cmpi .eq c4_i32_1001 c0_i32_1002
  let c1_i32_1003 : BitVec 32 := 1#32
  let v1247 : BitVec 32 := Scalar.select v1246 c1_i32_1003 c4_i32_1001
  let v1248 : BitVec 32 := Scalar.remsi v1245 v1247
  let c0_i32_1005 : BitVec 32 := 0#32
  let v1250 : BitVec 1 := Scalar.cmpi .slt v1248 c0_i32_1005
  let c0_i32_1006 : BitVec 32 := 0#32
  let v1251 : BitVec 1 := Scalar.cmpi .slt v1247 c0_i32_1006
  let v1252 : BitVec 1 := Scalar.xori v1250 v1251
  let c0_i32_1004 : BitVec 32 := 0#32
  let v1249 : BitVec 1 := Scalar.cmpi .ne v1248 c0_i32_1004
  let v1253 : BitVec 1 := Scalar.andi v1252 v1249
  let v1254 : BitVec 32 := Scalar.addi v1248 v1247
  let v1255 : BitVec 32 := Scalar.select v1253 v1254 v1248
  let c1024_i32_1007 : BitVec 32 := 1024#32
  let v1256 : BitVec 32 := Scalar.muli v1255 c1024_i32_1007
  let c0_i32_1012 : BitVec 32 := 0#32
  ![v1256.toNat, 0]

class Facts₀ : Prop where
  inb_S4_S1_0 : ∀ a, (![0] : Fin 1 → Nat) a + S1.size a ≤ S4.size a
  squeezes_S1_S_ : S1.Squeezes S_
  inb_S4x128x1024_S1x128x1024_0_0_0 : ∀ a, (![0, 0, 0] : Fin 3 → Nat) a + S1x128x1024.size a ≤ S4x128x1024.size a
  squeezes_S1x128x1024_S128x1024 : S1x128x1024.Squeezes S128x1024
  inb_S4_S1_1 : ∀ a, (![1] : Fin 1 → Nat) a + S1.size a ≤ S4.size a
  inb_S4x128x1024_S1x128x1024_1_0_0 : ∀ a, (![1, 0, 0] : Fin 3 → Nat) a + S1x128x1024.size a ≤ S4x128x1024.size a
  inb_S4_S1_2 : ∀ a, (![2] : Fin 1 → Nat) a + S1.size a ≤ S4.size a
  inb_S4x128x1024_S1x128x1024_2_0_0 : ∀ a, (![2, 0, 0] : Fin 3 → Nat) a + S1x128x1024.size a ≤ S4x128x1024.size a
  inb_S4_S1_3 : ∀ a, (![3] : Fin 1 → Nat) a + S1.size a ≤ S4.size a
  inb_S4x128x1024_S1x128x1024_3_0_0 : ∀ a, (![3, 0, 0] : Fin 3 → Nat) a + S1x128x1024.size a ≤ S4x128x1024.size a
  hamt_1 : (1#32 : BitVec 32).msb = false
  hamt_3 : (3#32 : BitVec 32).msb = false
  h_S1x128x1024 : 0 < S1x128x1024.numel
  shapeCasts_S1x128x1024_S128x1024 : S1x128x1024.ShapeCasts S128x1024
  bitsLt_bf16_f32 : FTy.bits .bf16 < FTy.bits .f32
  inb_S3x1024x1024_S1x128x1024_0_0_0 : ∀ a, (![0, 0, 0] : Fin 3 → Nat) a + S1x128x1024.size a ≤ S3x1024x1024.size a
  shapeCasts_S128x1024_S1x128x1024 : S128x1024.ShapeCasts S1x128x1024
  packedbf16_S3x1024x1024_S1x128x1024_0_0_0 : (Rect.unit (s := S3x1024x1024) ![0, 0, 0] S1x128x1024.size inb_S3x1024x1024_S1x128x1024_0_0_0).PackedRows (EltTy.packing .bf16)
  inb_S24_S1_0 : ∀ a, (![0] : Fin 1 → Nat) a + S1.size a ≤ S24.size a
  wordsbf16_S3x1024x1024_S1x128x1024_0_0_0 : (Rect.unit (s := S3x1024x1024) ![0, 0, 0] S1x128x1024.size inb_S3x1024x1024_S1x128x1024_0_0_0).WholeWords (EltTy.packing .bf16)
  inb_S3x1024x1024_S1x128x1024_1_0_0 : ∀ a, (![1, 0, 0] : Fin 3 → Nat) a + S1x128x1024.size a ≤ S3x1024x1024.size a
  packedbf16_S3x1024x1024_S1x128x1024_1_0_0 : (Rect.unit (s := S3x1024x1024) ![1, 0, 0] S1x128x1024.size inb_S3x1024x1024_S1x128x1024_1_0_0).PackedRows (EltTy.packing .bf16)
  inb_S24_S1_8 : ∀ a, (![8] : Fin 1 → Nat) a + S1.size a ≤ S24.size a
  inb_S3x1024x1024_S1x128x1024_2_0_0 : ∀ a, (![2, 0, 0] : Fin 3 → Nat) a + S1x128x1024.size a ≤ S3x1024x1024.size a
  wordsbf16_S3x1024x1024_S1x128x1024_1_0_0 : (Rect.unit (s := S3x1024x1024) ![1, 0, 0] S1x128x1024.size inb_S3x1024x1024_S1x128x1024_1_0_0).WholeWords (EltTy.packing .bf16)
  wordsbf16_S3x1024x1024_S1x128x1024_2_0_0 : (Rect.unit (s := S3x1024x1024) ![2, 0, 0] S1x128x1024.size inb_S3x1024x1024_S1x128x1024_2_0_0).WholeWords (EltTy.packing .bf16)
  inb_S3x1024x1024_S1x128x1024_0_128_0 : ∀ a, (![0, 128, 0] : Fin 3 → Nat) a + S1x128x1024.size a ≤ S3x1024x1024.size a
  packedbf16_S3x1024x1024_S1x128x1024_0_128_0 : (Rect.unit (s := S3x1024x1024) ![0, 128, 0] S1x128x1024.size inb_S3x1024x1024_S1x128x1024_0_128_0).PackedRows (EltTy.packing .bf16)
  inb_S24_S1_1 : ∀ a, (![1] : Fin 1 → Nat) a + S1.size a ≤ S24.size a
  wordsbf16_S3x1024x1024_S1x128x1024_0_128_0 : (Rect.unit (s := S3x1024x1024) ![0, 128, 0] S1x128x1024.size inb_S3x1024x1024_S1x128x1024_0_128_0).WholeWords (EltTy.packing .bf16)
  inb_S3x1024x1024_S1x128x1024_1_128_0 : ∀ a, (![1, 128, 0] : Fin 3 → Nat) a + S1x128x1024.size a ≤ S3x1024x1024.size a
  packedbf16_S3x1024x1024_S1x128x1024_1_128_0 : (Rect.unit (s := S3x1024x1024) ![1, 128, 0] S1x128x1024.size inb_S3x1024x1024_S1x128x1024_1_128_0).PackedRows (EltTy.packing .bf16)
  inb_S24_S1_9 : ∀ a, (![9] : Fin 1 → Nat) a + S1.size a ≤ S24.size a
  inb_S3x1024x1024_S1x128x1024_2_128_0 : ∀ a, (![2, 128, 0] : Fin 3 → Nat) a + S1x128x1024.size a ≤ S3x1024x1024.size a
  wordsbf16_S3x1024x1024_S1x128x1024_1_128_0 : (Rect.unit (s := S3x1024x1024) ![1, 128, 0] S1x128x1024.size inb_S3x1024x1024_S1x128x1024_1_128_0).WholeWords (EltTy.packing .bf16)
  wordsbf16_S3x1024x1024_S1x128x1024_2_128_0 : (Rect.unit (s := S3x1024x1024) ![2, 128, 0] S1x128x1024.size inb_S3x1024x1024_S1x128x1024_2_128_0).WholeWords (EltTy.packing .bf16)
  inb_S3x1024x1024_S1x128x1024_0_256_0 : ∀ a, (![0, 256, 0] : Fin 3 → Nat) a + S1x128x1024.size a ≤ S3x1024x1024.size a
  packedbf16_S3x1024x1024_S1x128x1024_0_256_0 : (Rect.unit (s := S3x1024x1024) ![0, 256, 0] S1x128x1024.size inb_S3x1024x1024_S1x128x1024_0_256_0).PackedRows (EltTy.packing .bf16)
  inb_S24_S1_2 : ∀ a, (![2] : Fin 1 → Nat) a + S1.size a ≤ S24.size a
  wordsbf16_S3x1024x1024_S1x128x1024_0_256_0 : (Rect.unit (s := S3x1024x1024) ![0, 256, 0] S1x128x1024.size inb_S3x1024x1024_S1x128x1024_0_256_0).WholeWords (EltTy.packing .bf16)
  inb_S3x1024x1024_S1x128x1024_1_256_0 : ∀ a, (![1, 256, 0] : Fin 3 → Nat) a + S1x128x1024.size a ≤ S3x1024x1024.size a
  packedbf16_S3x1024x1024_S1x128x1024_1_256_0 : (Rect.unit (s := S3x1024x1024) ![1, 256, 0] S1x128x1024.size inb_S3x1024x1024_S1x128x1024_1_256_0).PackedRows (EltTy.packing .bf16)
  inb_S24_S1_10 : ∀ a, (![10] : Fin 1 → Nat) a + S1.size a ≤ S24.size a
  inb_S3x1024x1024_S1x128x1024_2_256_0 : ∀ a, (![2, 256, 0] : Fin 3 → Nat) a + S1x128x1024.size a ≤ S3x1024x1024.size a
  wordsbf16_S3x1024x1024_S1x128x1024_1_256_0 : (Rect.unit (s := S3x1024x1024) ![1, 256, 0] S1x128x1024.size inb_S3x1024x1024_S1x128x1024_1_256_0).WholeWords (EltTy.packing .bf16)
  wordsbf16_S3x1024x1024_S1x128x1024_2_256_0 : (Rect.unit (s := S3x1024x1024) ![2, 256, 0] S1x128x1024.size inb_S3x1024x1024_S1x128x1024_2_256_0).WholeWords (EltTy.packing .bf16)
  inb_S3x1024x1024_S1x128x1024_0_384_0 : ∀ a, (![0, 384, 0] : Fin 3 → Nat) a + S1x128x1024.size a ≤ S3x1024x1024.size a
  packedbf16_S3x1024x1024_S1x128x1024_0_384_0 : (Rect.unit (s := S3x1024x1024) ![0, 384, 0] S1x128x1024.size inb_S3x1024x1024_S1x128x1024_0_384_0).PackedRows (EltTy.packing .bf16)
  inb_S24_S1_3 : ∀ a, (![3] : Fin 1 → Nat) a + S1.size a ≤ S24.size a
  wordsbf16_S3x1024x1024_S1x128x1024_0_384_0 : (Rect.unit (s := S3x1024x1024) ![0, 384, 0] S1x128x1024.size inb_S3x1024x1024_S1x128x1024_0_384_0).WholeWords (EltTy.packing .bf16)
  inb_S3x1024x1024_S1x128x1024_1_384_0 : ∀ a, (![1, 384, 0] : Fin 3 → Nat) a + S1x128x1024.size a ≤ S3x1024x1024.size a
  packedbf16_S3x1024x1024_S1x128x1024_1_384_0 : (Rect.unit (s := S3x1024x1024) ![1, 384, 0] S1x128x1024.size inb_S3x1024x1024_S1x128x1024_1_384_0).PackedRows (EltTy.packing .bf16)
  inb_S24_S1_11 : ∀ a, (![11] : Fin 1 → Nat) a + S1.size a ≤ S24.size a
  inb_S3x1024x1024_S1x128x1024_2_384_0 : ∀ a, (![2, 384, 0] : Fin 3 → Nat) a + S1x128x1024.size a ≤ S3x1024x1024.size a
  wordsbf16_S3x1024x1024_S1x128x1024_1_384_0 : (Rect.unit (s := S3x1024x1024) ![1, 384, 0] S1x128x1024.size inb_S3x1024x1024_S1x128x1024_1_384_0).WholeWords (EltTy.packing .bf16)
  wordsbf16_S3x1024x1024_S1x128x1024_2_384_0 : (Rect.unit (s := S3x1024x1024) ![2, 384, 0] S1x128x1024.size inb_S3x1024x1024_S1x128x1024_2_384_0).WholeWords (EltTy.packing .bf16)
  inb_S3x1024x1024_S1x128x1024_0_512_0 : ∀ a, (![0, 512, 0] : Fin 3 → Nat) a + S1x128x1024.size a ≤ S3x1024x1024.size a
  packedbf16_S3x1024x1024_S1x128x1024_0_512_0 : (Rect.unit (s := S3x1024x1024) ![0, 512, 0] S1x128x1024.size inb_S3x1024x1024_S1x128x1024_0_512_0).PackedRows (EltTy.packing .bf16)
  inb_S24_S1_4 : ∀ a, (![4] : Fin 1 → Nat) a + S1.size a ≤ S24.size a
  wordsbf16_S3x1024x1024_S1x128x1024_0_512_0 : (Rect.unit (s := S3x1024x1024) ![0, 512, 0] S1x128x1024.size inb_S3x1024x1024_S1x128x1024_0_512_0).WholeWords (EltTy.packing .bf16)
  inb_S3x1024x1024_S1x128x1024_1_512_0 : ∀ a, (![1, 512, 0] : Fin 3 → Nat) a + S1x128x1024.size a ≤ S3x1024x1024.size a
  packedbf16_S3x1024x1024_S1x128x1024_1_512_0 : (Rect.unit (s := S3x1024x1024) ![1, 512, 0] S1x128x1024.size inb_S3x1024x1024_S1x128x1024_1_512_0).PackedRows (EltTy.packing .bf16)
  inb_S24_S1_12 : ∀ a, (![12] : Fin 1 → Nat) a + S1.size a ≤ S24.size a
  inb_S3x1024x1024_S1x128x1024_2_512_0 : ∀ a, (![2, 512, 0] : Fin 3 → Nat) a + S1x128x1024.size a ≤ S3x1024x1024.size a
  wordsbf16_S3x1024x1024_S1x128x1024_1_512_0 : (Rect.unit (s := S3x1024x1024) ![1, 512, 0] S1x128x1024.size inb_S3x1024x1024_S1x128x1024_1_512_0).WholeWords (EltTy.packing .bf16)
  wordsbf16_S3x1024x1024_S1x128x1024_2_512_0 : (Rect.unit (s := S3x1024x1024) ![2, 512, 0] S1x128x1024.size inb_S3x1024x1024_S1x128x1024_2_512_0).WholeWords (EltTy.packing .bf16)
  inb_S3x1024x1024_S1x128x1024_0_640_0 : ∀ a, (![0, 640, 0] : Fin 3 → Nat) a + S1x128x1024.size a ≤ S3x1024x1024.size a
  packedbf16_S3x1024x1024_S1x128x1024_0_640_0 : (Rect.unit (s := S3x1024x1024) ![0, 640, 0] S1x128x1024.size inb_S3x1024x1024_S1x128x1024_0_640_0).PackedRows (EltTy.packing .bf16)
  inb_S24_S1_5 : ∀ a, (![5] : Fin 1 → Nat) a + S1.size a ≤ S24.size a
  wordsbf16_S3x1024x1024_S1x128x1024_0_640_0 : (Rect.unit (s := S3x1024x1024) ![0, 640, 0] S1x128x1024.size inb_S3x1024x1024_S1x128x1024_0_640_0).WholeWords (EltTy.packing .bf16)
  inb_S3x1024x1024_S1x128x1024_1_640_0 : ∀ a, (![1, 640, 0] : Fin 3 → Nat) a + S1x128x1024.size a ≤ S3x1024x1024.size a
  packedbf16_S3x1024x1024_S1x128x1024_1_640_0 : (Rect.unit (s := S3x1024x1024) ![1, 640, 0] S1x128x1024.size inb_S3x1024x1024_S1x128x1024_1_640_0).PackedRows (EltTy.packing .bf16)
  inb_S24_S1_13 : ∀ a, (![13] : Fin 1 → Nat) a + S1.size a ≤ S24.size a
  inb_S3x1024x1024_S1x128x1024_2_640_0 : ∀ a, (![2, 640, 0] : Fin 3 → Nat) a + S1x128x1024.size a ≤ S3x1024x1024.size a
  wordsbf16_S3x1024x1024_S1x128x1024_1_640_0 : (Rect.unit (s := S3x1024x1024) ![1, 640, 0] S1x128x1024.size inb_S3x1024x1024_S1x128x1024_1_640_0).WholeWords (EltTy.packing .bf16)
  wordsbf16_S3x1024x1024_S1x128x1024_2_640_0 : (Rect.unit (s := S3x1024x1024) ![2, 640, 0] S1x128x1024.size inb_S3x1024x1024_S1x128x1024_2_640_0).WholeWords (EltTy.packing .bf16)
  inb_S3x1024x1024_S1x128x1024_0_768_0 : ∀ a, (![0, 768, 0] : Fin 3 → Nat) a + S1x128x1024.size a ≤ S3x1024x1024.size a
  packedbf16_S3x1024x1024_S1x128x1024_0_768_0 : (Rect.unit (s := S3x1024x1024) ![0, 768, 0] S1x128x1024.size inb_S3x1024x1024_S1x128x1024_0_768_0).PackedRows (EltTy.packing .bf16)
  inb_S24_S1_6 : ∀ a, (![6] : Fin 1 → Nat) a + S1.size a ≤ S24.size a
  wordsbf16_S3x1024x1024_S1x128x1024_0_768_0 : (Rect.unit (s := S3x1024x1024) ![0, 768, 0] S1x128x1024.size inb_S3x1024x1024_S1x128x1024_0_768_0).WholeWords (EltTy.packing .bf16)
  inb_S3x1024x1024_S1x128x1024_1_768_0 : ∀ a, (![1, 768, 0] : Fin 3 → Nat) a + S1x128x1024.size a ≤ S3x1024x1024.size a
  packedbf16_S3x1024x1024_S1x128x1024_1_768_0 : (Rect.unit (s := S3x1024x1024) ![1, 768, 0] S1x128x1024.size inb_S3x1024x1024_S1x128x1024_1_768_0).PackedRows (EltTy.packing .bf16)
  inb_S24_S1_14 : ∀ a, (![14] : Fin 1 → Nat) a + S1.size a ≤ S24.size a
  inb_S3x1024x1024_S1x128x1024_2_768_0 : ∀ a, (![2, 768, 0] : Fin 3 → Nat) a + S1x128x1024.size a ≤ S3x1024x1024.size a
  wordsbf16_S3x1024x1024_S1x128x1024_1_768_0 : (Rect.unit (s := S3x1024x1024) ![1, 768, 0] S1x128x1024.size inb_S3x1024x1024_S1x128x1024_1_768_0).WholeWords (EltTy.packing .bf16)
  wordsbf16_S3x1024x1024_S1x128x1024_2_768_0 : (Rect.unit (s := S3x1024x1024) ![2, 768, 0] S1x128x1024.size inb_S3x1024x1024_S1x128x1024_2_768_0).WholeWords (EltTy.packing .bf16)
  inb_S3x1024x1024_S1x128x1024_0_896_0 : ∀ a, (![0, 896, 0] : Fin 3 → Nat) a + S1x128x1024.size a ≤ S3x1024x1024.size a
  packedbf16_S3x1024x1024_S1x128x1024_0_896_0 : (Rect.unit (s := S3x1024x1024) ![0, 896, 0] S1x128x1024.size inb_S3x1024x1024_S1x128x1024_0_896_0).PackedRows (EltTy.packing .bf16)
  inb_S24_S1_7 : ∀ a, (![7] : Fin 1 → Nat) a + S1.size a ≤ S24.size a
  wordsbf16_S3x1024x1024_S1x128x1024_0_896_0 : (Rect.unit (s := S3x1024x1024) ![0, 896, 0] S1x128x1024.size inb_S3x1024x1024_S1x128x1024_0_896_0).WholeWords (EltTy.packing .bf16)
  inb_S3x1024x1024_S1x128x1024_1_896_0 : ∀ a, (![1, 896, 0] : Fin 3 → Nat) a + S1x128x1024.size a ≤ S3x1024x1024.size a
  packedbf16_S3x1024x1024_S1x128x1024_1_896_0 : (Rect.unit (s := S3x1024x1024) ![1, 896, 0] S1x128x1024.size inb_S3x1024x1024_S1x128x1024_1_896_0).PackedRows (EltTy.packing .bf16)
  inb_S24_S1_15 : ∀ a, (![15] : Fin 1 → Nat) a + S1.size a ≤ S24.size a
  inb_S3x1024x1024_S1x128x1024_2_896_0 : ∀ a, (![2, 896, 0] : Fin 3 → Nat) a + S1x128x1024.size a ≤ S3x1024x1024.size a
  wordsbf16_S3x1024x1024_S1x128x1024_1_896_0 : (Rect.unit (s := S3x1024x1024) ![1, 896, 0] S1x128x1024.size inb_S3x1024x1024_S1x128x1024_1_896_0).WholeWords (EltTy.packing .bf16)
  wordsbf16_S3x1024x1024_S1x128x1024_2_896_0 : (Rect.unit (s := S3x1024x1024) ![2, 896, 0] S1x128x1024.size inb_S3x1024x1024_S1x128x1024_2_896_0).WholeWords (EltTy.packing .bf16)
  packedbf16_S3x1024x1024_S1x128x1024_2_0_0 : (Rect.unit (s := S3x1024x1024) ![2, 0, 0] S1x128x1024.size inb_S3x1024x1024_S1x128x1024_2_0_0).PackedRows (EltTy.packing .bf16)
  inb_S24_S1_16 : ∀ a, (![16] : Fin 1 → Nat) a + S1.size a ≤ S24.size a
  packedbf16_S3x1024x1024_S1x128x1024_2_128_0 : (Rect.unit (s := S3x1024x1024) ![2, 128, 0] S1x128x1024.size inb_S3x1024x1024_S1x128x1024_2_128_0).PackedRows (EltTy.packing .bf16)
  inb_S24_S1_17 : ∀ a, (![17] : Fin 1 → Nat) a + S1.size a ≤ S24.size a
  packedbf16_S3x1024x1024_S1x128x1024_2_256_0 : (Rect.unit (s := S3x1024x1024) ![2, 256, 0] S1x128x1024.size inb_S3x1024x1024_S1x128x1024_2_256_0).PackedRows (EltTy.packing .bf16)
  inb_S24_S1_18 : ∀ a, (![18] : Fin 1 → Nat) a + S1.size a ≤ S24.size a
  packedbf16_S3x1024x1024_S1x128x1024_2_384_0 : (Rect.unit (s := S3x1024x1024) ![2, 384, 0] S1x128x1024.size inb_S3x1024x1024_S1x128x1024_2_384_0).PackedRows (EltTy.packing .bf16)
  inb_S24_S1_19 : ∀ a, (![19] : Fin 1 → Nat) a + S1.size a ≤ S24.size a
  packedbf16_S3x1024x1024_S1x128x1024_2_512_0 : (Rect.unit (s := S3x1024x1024) ![2, 512, 0] S1x128x1024.size inb_S3x1024x1024_S1x128x1024_2_512_0).PackedRows (EltTy.packing .bf16)
  inb_S24_S1_20 : ∀ a, (![20] : Fin 1 → Nat) a + S1.size a ≤ S24.size a
  packedbf16_S3x1024x1024_S1x128x1024_2_640_0 : (Rect.unit (s := S3x1024x1024) ![2, 640, 0] S1x128x1024.size inb_S3x1024x1024_S1x128x1024_2_640_0).PackedRows (EltTy.packing .bf16)
  inb_S24_S1_21 : ∀ a, (![21] : Fin 1 → Nat) a + S1.size a ≤ S24.size a
  packedbf16_S3x1024x1024_S1x128x1024_2_768_0 : (Rect.unit (s := S3x1024x1024) ![2, 768, 0] S1x128x1024.size inb_S3x1024x1024_S1x128x1024_2_768_0).PackedRows (EltTy.packing .bf16)
  inb_S24_S1_22 : ∀ a, (![22] : Fin 1 → Nat) a + S1.size a ≤ S24.size a
  packedbf16_S3x1024x1024_S1x128x1024_2_896_0 : (Rect.unit (s := S3x1024x1024) ![2, 896, 0] S1x128x1024.size inb_S3x1024x1024_S1x128x1024_2_896_0).PackedRows (EltTy.packing .bf16)
  inb_S24_S1_23 : ∀ a, (![23] : Fin 1 → Nat) a + S1.size a ≤ S24.size a
  inb_S3_S1_0 : ∀ a, (![0] : Fin 1 → Nat) a + S1.size a ≤ S3.size a
  inb_S3x1024x2048_S1x1024x2048_0_0_0 : ∀ a, (![0, 0, 0] : Fin 3 → Nat) a + S1x1024x2048.size a ≤ S3x1024x2048.size a
  squeezes_S1x1024x2048_S1024x2048 : S1x1024x2048.Squeezes S1024x2048
  inb_S3_S1_1 : ∀ a, (![1] : Fin 1 → Nat) a + S1.size a ≤ S3.size a
  inb_S3x1024x2048_S1x1024x2048_1_0_0 : ∀ a, (![1, 0, 0] : Fin 3 → Nat) a + S1x1024x2048.size a ≤ S3x1024x2048.size a
  inb_S3_S1_2 : ∀ a, (![2] : Fin 1 → Nat) a + S1.size a ≤ S3.size a
  inb_S3x1024x2048_S1x1024x2048_2_0_0 : ∀ a, (![2, 0, 0] : Fin 3 → Nat) a + S1x1024x2048.size a ≤ S3x1024x2048.size a
  inb_S1024x1024_S1024x1024_0_0 : ∀ a, (![0, 0] : Fin 2 → Nat) a + S1024x1024.size a ≤ S1024x1024.size a
  h_S1024x1024 : 0 < S1024x1024.numel
  h_S1x1024x2048 : 0 < S1x1024x2048.numel
  shapeCasts_S1x1024x2048_S1024x2048 : S1x1024x2048.ShapeCasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x2048_S128x2048_0_0 : ∀ a, (![0, 0] : Fin 2 → Nat) a + S128x2048.size a ≤ S1024x2048.size a
  h_S128x2048 : 0 < S128x2048.numel
  shapeCasts_S128x2048_S128x2048 : S128x2048.ShapeCasts S128x2048
  inb_S1024x2048_S128x2048_128_0 : ∀ a, (![128, 0] : Fin 2 → Nat) a + S128x2048.size a ≤ S1024x2048.size a
  inb_S1024x2048_S128x2048_256_0 : ∀ a, (![256, 0] : Fin 2 → Nat) a + S128x2048.size a ≤ S1024x2048.size a
  inb_S1024x2048_S128x2048_384_0 : ∀ a, (![384, 0] : Fin 2 → Nat) a + S128x2048.size a ≤ S1024x2048.size a
  inb_S1024x2048_S128x2048_512_0 : ∀ a, (![512, 0] : Fin 2 → Nat) a + S128x2048.size a ≤ S1024x2048.size a
  inb_S1024x2048_S128x2048_640_0 : ∀ a, (![640, 0] : Fin 2 → Nat) a + S128x2048.size a ≤ S1024x2048.size a
  inb_S1024x2048_S128x2048_768_0 : ∀ a, (![768, 0] : Fin 2 → Nat) a + S128x2048.size a ≤ S1024x2048.size a
  inb_S1024x2048_S128x2048_896_0 : ∀ a, (![896, 0] : Fin 2 → Nat) a + S128x2048.size a ≤ S1024x2048.size a
  inb_S8_S1_0 : ∀ a, (![0] : Fin 1 → Nat) a + S1.size a ≤ S8.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  dot_S1024x1024_S1024x2048_S1024x2048_1_0_0_1_n_n_wf : DotDims.WF S1024x1024 S1024x2048 S1024x2048 [1] [0] [0] [1] [] []
  dot_S128x1024_S1024x2048_S128x2048_1_0_0_1_n_n_wf : DotDims.WF S128x1024 S1024x2048 S128x2048 [1] [0] [0] [1] [] []
  hcc0_scratch6 : 0 + S24.numel ≤ 64
  hcc0_scratch7 : 24 + S24.numel ≤ 64
  hcc0_scratch8 : 48 + S4.numel ≤ 64
  hcc0_scratch9 : 52 + S_.numel ≤ 64
  hcc0_scratch10 : 53 + S3.numel ≤ 64
  hcc0_scratch11 : 56 + S8.numel ≤ 64
  k0_off1_inb : ∀ d0 : Dev nD, ∀ (r₁ : Fin 3) (r₂ : Fin 8), ∀ a, (k0_off1 d0 (BitVec.ofNat 32 (1 + r₁.val)) (BitVec.ofNat 32 (128 * r₂.val))) a + S128x1024.size a ≤ S4096x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_off2_inb : ∀ d0 : Dev nD, ∀ a, (k0_off2 d0) a + S1024x1024.size a ≤ S4096x1024.size a
  k0_off3_inb : ∀ d0 : Dev nD, ∀ (r : Fin 4), ∀ a, (k0_off3 d0 (BitVec.ofNat 32 r.val)) a + S1024x2048.size a ≤ S4096x2048.size a

variable [Facts₀]

abbrev cc0_scratch6 : DmaSems sig S24 := SemArray.consecutive 0 S24 hcc0_scratch6
abbrev cc0_scratch7 : DmaSems sig S24 := SemArray.consecutive 24 S24 hcc0_scratch7
abbrev cc0_scratch8 : DmaSems sig S4 := SemArray.consecutive 48 S4 hcc0_scratch8
abbrev cc0_scratch9 : DmaSems sig S_ := SemArray.consecutive 52 S_ hcc0_scratch9
abbrev cc0_scratch10 : DmaSems sig S3 := SemArray.consecutive 53 S3 hcc0_scratch10
abbrev cc0_scratch11 : DmaSems sig S8 := SemArray.consecutive 56 S8 hcc0_scratch11
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Proto0.lean ====
import proofs.«900612_g7700000000000613_dist_a2a_gemm_m4096_k4096_n2048_f32_none_v7x_i4_1_alg».proof.Proof.Gen.KernelIdeal
import proofs.«900612_g7700000000000613_dist_a2a_gemm_m4096_k4096_n2048_f32_none_v7x_i4_1_alg».proof.Proof.Gen.KernelIdeal.Skeleton
import proofs.«900612_g7700000000000613_dist_a2a_gemm_m4096_k4096_n2048_f32_none_v7x_i4_1_alg».proof.Proof.Gen.KernelIdeal.Launch
import proofs.«900612_g7700000000000613_dist_a2a_gemm_m4096_k4096_n2048_f32_none_v7x_i4_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

def peer (c : Dev nD) (d : ℕ) : Dev nD := ⟨(c.val + d) % 4, Nat.mod_lt _ (by decide)⟩

def dOf : Fin 3 → ℕ := ![1, 3, 2]

def cIdx : Fin 3 → ℕ := ![0, 2, 1]

theorem peer_peer (c : Dev nD) (t : Fin 3) : peer (peer c (dOf t)) (4 - dOf t) = c := by revert c t; decide
theorem peer_peer' (c : Dev nD) (t : Fin 3) : peer (peer c (4 - dOf t)) (dOf t) = c := by revert c t; decide

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 3 := by revert c; decide +kernel
theorem dev6_eq (c : Dev nD) : (⟨k0_dev6 c, k0_dev6_lt c⟩ : Dev nD) = peer c 1 := by revert c; decide +kernel
theorem dev7_eq (c : Dev nD) : (⟨k0_dev7 c, k0_dev7_lt c⟩ : Dev nD) = peer c 3 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 3 := by revert c; decide +kernel
theorem dev10_eq (c : Dev nD) : (⟨k0_dev10 c, k0_dev10_lt c⟩ : Dev nD) = peer c 1 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 1 := by revert c; decide +kernel
theorem dev13_eq (c : Dev nD) : (⟨k0_dev13 c, k0_dev13_lt c⟩ : Dev nD) = peer c 3 := by revert c; decide +kernel
theorem dev14_eq (c : Dev nD) : (⟨k0_dev14 c, k0_dev14_lt c⟩ : Dev nD) = peer c 1 := by revert c; decide +kernel
theorem dev15_eq (c : Dev nD) : (⟨k0_dev15 c, k0_dev15_lt c⟩ : Dev nD) = peer c 3 := by revert c; decide +kernel
theorem dev16_eq (c : Dev nD) : (⟨k0_dev16 c, k0_dev16_lt c⟩ : Dev nD) = peer c 1 := by revert c; decide +kernel
theorem dev17_eq (c : Dev nD) : (⟨k0_dev17 c, k0_dev17_lt c⟩ : Dev nD) = peer c 3 := by revert c; decide +kernel
theorem dev18_eq (c : Dev nD) : (⟨k0_dev18 c, k0_dev18_lt c⟩ : Dev nD) = peer c 1 := by revert c; decide +kernel
theorem dev19_eq (c : Dev nD) : (⟨k0_dev19 c, k0_dev19_lt c⟩ : Dev nD) = peer c 3 := by revert c; decide +kernel
theorem dev20_eq (c : Dev nD) : (⟨k0_dev20 c, k0_dev20_lt c⟩ : Dev nD) = peer c 2 := by revert c; decide +kernel
theorem dev21_eq (c : Dev nD) : (⟨k0_dev21 c, k0_dev21_lt c⟩ : Dev nD) = peer c 2 := by revert c; decide +kernel
theorem dev22_eq (c : Dev nD) : (⟨k0_dev22 c, k0_dev22_lt c⟩ : Dev nD) = peer c 2 := by revert c; decide +kernel
theorem dev23_eq (c : Dev nD) : (⟨k0_dev23 c, k0_dev23_lt c⟩ : Dev nD) = peer c 2 := by revert c; decide +kernel
theorem dev24_eq (c : Dev nD) : (⟨k0_dev24 c, k0_dev24_lt c⟩ : Dev nD) = peer c 2 := by revert c; decide +kernel
theorem dev25_eq (c : Dev nD) : (⟨k0_dev25 c, k0_dev25_lt c⟩ : Dev nD) = peer c 2 := by revert c; decide +kernel
theorem dev26_eq (c : Dev nD) : (⟨k0_dev26 c, k0_dev26_lt c⟩ : Dev nD) = peer c 2 := by revert c; decide +kernel
theorem dev27_eq (c : Dev nD) : (⟨k0_dev27 c, k0_dev27_lt c⟩ : Dev nD) = peer c 2 := by revert c; decide +kernel

abbrev commM : Memref sig .tc .vmem S3x1024x1024 .bf16 := Memref.whole cc0_scratch0
abbrev sbufM : Memref sig .tc .vmem S3x1024x1024 .bf16 := Memref.whole cc0_scratch3

theorem chunk_inb (i : Fin 3) (k : Fin 8) :
    ∀ a, (![i.val, 128 * k.val, 0] : Fin 3 → Nat) a + S1x128x1024.size a ≤ S3x1024x1024.size a := by revert i k; decide

abbrev chunkRect (i : Fin 3) (k : Fin 8) : Rect S3x1024x1024 :=
  Rect.unit (s := S3x1024x1024) ![i.val, 128 * k.val, 0] S1x128x1024.size (chunk_inb i k)

abbrev chunkM (M : Memref sig .tc .vmem S3x1024x1024 .bf16) (i : Fin 3) (k : Fin 8) : Memref sig .tc .vmem S128x1024 .bf16 :=
  (M.slice (chunkRect i k) (fun _ => rfl)).squeeze S128x1024 squeezes_S1x128x1024_S128x1024

def cTile (t : Fin 3) : Fin 3 := ⟨cIdx t, by revert t; decide⟩

abbrev NC : ℕ := (chunkM commM 0 0).view.dmaCredit
theorem NC_pos : 0 < NC := View.dmaCredit_pos _ (by decide)
abbrev barS : Sem sig := (SemArray.scalar (sig.barrier 0 rfl) : Sems sig S_).sem

abbrev sendS (t : Fin 3) (k : Fin 8) : DmaSem sig := ⟨8 * t.val + k.val, by have := t.isLt; have := k.isLt; show _ < 64; omega⟩
abbrev recvS (t : Fin 3) (k : Fin 8) : DmaSem sig := ⟨24 + 8 * t.val + k.val, by have := t.isLt; have := k.isLt; show _ < 64; omega⟩

abbrev barCell (c : Dev nD) : GSem nD τ sig := ((c : Thread nD τ), .reg barS)
abbrev sendCell (c : Dev nD) (t : Fin 3) (k : Fin 8) : GSem nD τ sig := ((c : Thread nD τ), .dma (sendS t k))
abbrev recvCell (c : Dev nD) (t : Fin 3) (k : Fin 8) : GSem nD τ sig := ((c : Thread nD τ), .dma (recvS t k))

example : (((cc0_scratch6.slice (Rect.unit (s := S24) ![9] S1.size inb_S24_S1_9)).squeeze S_ squeezes_S1_S_ : DmaSems sig S_).sem) = sendS 1 1 := by decide
example : (((cc0_scratch7.slice (Rect.unit (s := S24) ![17] S1.size inb_S24_S1_17)).squeeze S_ squeezes_S1_S_ : DmaSems sig S_).sem) = recvS 2 1 := by decide
example : NC = (chunkM sbufM 2 5).view.dmaCredit := rfl

variable (m : (ℓ : Loc nD τ sig) → Buf (Elt F) ℓ)

abbrev chunkPts (c : Dev nD) (M : Memref sig .tc .vmem S3x1024x1024 .bf16) (i : Fin 3) (k : Fin 8) (q : PosShare TreeShare)
    (f : Buf (Elt F) ((chunkM M i k).view.loc (c : Thread nD τ))) : sProp 𝕄 :=
  (chunkM M i k).view.loc (c : Thread nD τ) ↦[(chunkM M i k).view.set]{q} f

abbrev xSlice (s : Dev nD) (t : Fin 3) (k : Fin 8) : Memref sig .tc .hbm S128x1024 .f32 :=
  (Memref.whole main_arg0 : Memref sig .tc .hbm S4096x1024 .f32).slice
    (Rect.unit (s := S4096x1024) (k0_off1 s (BitVec.ofNat 32 (1 + (cTile t).val)) (BitVec.ofNat 32 (128 * k.val))) S128x1024.size (k0_off1_inb s (cTile t) k)) (fun _ => rfl)

def sentVal (s : Dev nD) (t : Fin 3) (k : Fin 8) : FVec F S128x1024 .bf16 :=
  truncf .bf16 ((xSlice s t k).view.read (Elt F) (m ((s : Thread nD τ).loc main_arg0)) : FVec F S128x1024 .f32) bitsLt_bf16_f32

def bTile (e : Fin 3) : Fin 3 := ⟨2 - e.val, by omega⟩

def barPay (c : Dev nD) (e : Fin 3) : sProp 𝕄 :=
  bigSep (Finset.univ : Finset (Fin 8)) fun k => iprop(∃ f, chunkPts (F := F) (peer c (3 - e.val)) commM (bTile e) k fullShare f)

def sendPay (c : Dev nD) (t : Fin 3) (k : Fin 8) : sProp 𝕄 := iprop(∃ f, chunkPts (F := F) c sbufM t k fullShare f)
theorem idx_lt_128 (x : S3x1024x1024.Idx) : (x 1).val % 128 < 128 := Nat.mod_lt _ (by decide)
theorem idx_lt_1024 (x : S3x1024x1024.Idx) : (x 2).val < 1024 := (x 2).isLt

def landed (c : Dev nD) (t : Fin 3) (k : Fin 8) : Buf (Elt F) ((c : Thread nD τ).loc cc0_scratch0) :=
  fun x => sentVal m (peer c (4 - dOf t)) t k (ValueIdx.ix2 ⟨(x 1).val % 128, idx_lt_128 x⟩ ⟨(x 2).val, idx_lt_1024 x⟩)

def recvPay (c : Dev nD) (t : Fin 3) (k : Fin 8) : sProp 𝕄 := chunkPts c commM (cTile t) k fullShare (landed m c t k)

def tOf (n : ℕ) : Fin 3 := ⟨n % 24 / 8, by omega⟩
def kOf (n : ℕ) : Fin 8 := ⟨n % 8, by omega⟩
theorem tOf_send (t : Fin 3) (k : Fin 8) : tOf (sendS t k).val = t := by revert t k; decide
theorem kOf_send (t : Fin 3) (k : Fin 8) : kOf (sendS t k).val = k := by revert t k; decide
theorem tOf_recv (t : Fin 3) (k : Fin 8) : tOf (recvS t k).val = t := by revert t k; decide
theorem kOf_recv (t : Fin 3) (k : Fin 8) : kOf (recvS t k).val = k := by revert t k; decide

def sch : Rounds.Schedule (GSem nD τ sig) (Fin 3) 𝕄 where
  duties g r := if r = 0 ∧ g.1.2 = .tc then
      (match g.2 with
        | .reg _ => Finset.univ
        | .dma s => if s.val < 48 then {0} else ∅)
    else ∅
  unitless _ := False
  amount g _ _ := match g.2 with | .reg _ => 1 | .dma _ => NC
  payload g _ d := match g.2 with
    | .reg _ => barPay g.1.1 d
    | .dma s => if s.val < 24 then sendPay g.1.1 (tOf s.val) (kOf s.val)
        else if s.val < 48 then recvPay m g.1.1 (tOf s.val) (kOf s.val) else iprop(emp)
  amount_pos g _ _ _ := by
    cases g.2 with
    | reg _ => exact Nat.one_pos
    | dma _ => exact NC_pos

def ord (i : Fin 24) : Fin 3 × Fin 8 :=
  if h : i.val < 16 then (⟨i.val % 2, by omega⟩, ⟨i.val / 2, by omega⟩) else (2, ⟨i.val - 16, by omega⟩)

def owedList (c : Dev nD) : List (CellTallies nD τ sig Unit) :=
  (List.ofFn fun e : Fin 3 => tallyAt (barCell (peer c (e.val + 1))) () 1)
    ++ (List.ofFn fun i : Fin 24 => tallyAt (recvCell (peer c (dOf (ord i).1)) (ord i).1 (ord i).2) () NC)

def owedFrom (c : Dev nD) (n : ℕ) : CellTallies nD τ sig Unit := ((owedList c).drop n).sum

def O₀ (c : Dev nD) : CellTallies nD τ sig Unit := owedFrom c 0

def L (g : GSem nD τ sig) : Finset Unit := if g.1.2 = .tc then {()} else ∅
def lv (g : GSem nD τ sig) (_ : Unit) : ℕ :=
  match g.2 with
  | .reg _ => 1
  | .dma s => if 24 ≤ s.val ∧ s.val < 48 then 2 else 0

abbrev TK : Type := Fin 3 × Fin 8

def invs (K : GSem nD τ sig → ℕ) (c : Dev nD) : sProp 𝕄 :=
  iprop(cellInv ER (sch m) (K (barCell c)) (barCell c)
    ∗ (bigSep (Finset.univ : Finset (Fin 3)) fun e => cellInv ER (sch m) (K (barCell (peer c (e.val + 1)))) (barCell (peer c (e.val + 1))))
    ∗ (bigSep (Finset.univ : Finset TK) fun tk => iprop(cellInv ER (sch m) (K (sendCell c tk.1 tk.2)) (sendCell c tk.1 tk.2)
        ∗ cellInv ER (sch m) (K (recvCell c tk.1 tk.2)) (recvCell c tk.1 tk.2)
        ∗ cellInv ER (sch m) (K (recvCell (peer c (dOf tk.1)) tk.1 tk.2)) (recvCell (peer c (dOf tk.1)) tk.1 tk.2))))

def reacheds (c : Dev nD) : sProp 𝕄 :=
  iprop(reached ER (barCell c) 0
    ∗ (bigSep (Finset.univ : Finset (Fin 3)) fun e => reached ER (barCell (peer c (e.val + 1))) 0)
    ∗ (bigSep (Finset.univ : Finset TK) fun tk => iprop(reached ER (sendCell c tk.1 tk.2) 0 ∗ reached ER (recvCell c tk.1 tk.2) 0
        ∗ reached ER (recvCell (peer c (dOf tk.1)) tk.1 tk.2) 0)))

def linear (c : Dev nD) : sProp 𝕄 :=
  iprop(atPos ER (barCell c) 0 ∅ 0
    ∗ (bigSep (Finset.univ : Finset TK) fun tk => iprop(atPos ER (sendCell c tk.1 tk.2) 0 ∅ 0 ∗ atPos ER (recvCell c tk.1 tk.2) 0 ∅ 0))
    ∗ (bigSep (Finset.univ : Finset (Fin 3)) fun e => dutyTok ER (barCell (peer c (e.val + 1))) 0 e)
    ∗ (bigSep (Finset.univ : Finset TK) fun tk => iprop(dutyTok ER (sendCell c tk.1 tk.2) 0 (0 : Fin 3)
        ∗ dutyTok ER (recvCell (peer c (dOf tk.1)) tk.1 tk.2) 0 (0 : Fin 3))))

def ghost (K : GSem nD τ sig → ℕ) (c : Dev nD) : sProp 𝕄 := iprop(invs m K c ∗ reacheds c ∗ linear c)

abbrev locS (i : Fin 16) : DmaSem sig := ⟨48 + i.val, by have := i.isLt; show _ < 64; omega⟩
def localSems (c : Dev nD) : sProp 𝕄 := bigSep (Finset.univ : Finset (Fin 16)) fun i => semVal ((c : Thread nD τ), SemLoc.dma (locS i)) 0

def creds (c : Dev nD) : sProp 𝕄 :=
  iprop(cred (tallyAt (barCell c) () 3) ∗ bigSep (Finset.univ : Finset TK) fun tk => cred (tallyAt (recvCell c tk.1 tk.2) () NC))

def args (c : Dev nD) (o : Buf (Elt F) ((c : Thread nD τ).loc main_v1)) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} o))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def start (c : Dev nD) : sProp 𝕄 :=
  iprop((∃ K, ghost m K c) ∗ localSems c ∗ creds c ∗ levAts L lv ∗ args m c (m ((c : Thread nD τ).loc main_v1)))

end Cert.KernelIdealPf

end
-- ==== Proof.OutSpec.lean ====
import proofs.«900612_g7700000000000613_dist_a2a_gemm_m4096_k4096_n2048_f32_none_v7x_i4_1_alg».proof.Proof.Proto0
import Idealize.ShloMosaic.Lib.ValueIdx

noncomputable section

namespace Cert.KernelIdealPf

open Cert.KernelIdeal Cert.KernelIdeal.Gen

open Idealize.ShloMosaic Idealize.ShloMosaic.ValueIdx
open Idealize.ShloMosaic.TcCoe

variable {F : FTy → Type} [FloatOps F]

def blkRow (b : Dev nD) (p : Fin 1024) : Fin 4096 :=
  ⟨1024 * b.val + p.val, by have hb : b.val < 4 := b.isLt; have := p.isLt; omega⟩

@[simp] theorem blkRow_val (b : Dev nD) (p : Fin 1024) : (blkRow b p).val = 1024 * b.val + p.val := rfl

def chunkRow (k : Fin 8) (r : Fin 128) : Fin 1024 :=
  ⟨128 * k.val + r.val, by have := k.isLt; have := r.isLt; omega⟩

@[simp] theorem chunkRow_val (k : Fin 8) (r : Fin 128) : (chunkRow k r).val = 128 * k.val + r.val := rfl

theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

variable (m : (ℓ : Loc nD τ sig) → Buf (Elt F) ℓ)

def xlocV (c : Dev nD) : Vec F S1024x1024 .f32 := fun i =>
  m ((c : Thread nD τ).loc main_arg0) (ix2 (blkRow c ⟨(i 0).val, idx2_lt0 i⟩) (⟨(i 1).val, idx2_lt1 i⟩ : Fin 1024))

def wV (c : Dev nD) (off : ℕ) : Vec F S1x1024x2048 .f32 := fun i =>
  m ((c : Thread nD τ).loc main_arg1) (ix2 (blkRow (peer c off) ⟨(i 1).val, idx3_lt1 i⟩) (⟨(i 2).val, idx3_lt2 i⟩ : Fin 2048))

def acc0 (c : Dev nD) (k : Fin 8) : Vec F S128x2048 .f32 := fun i =>
  k0_pay29 (xlocV m c) (wV m c 0) (ix2 (chunkRow k ⟨(i 0).val, idx2_lt0 i⟩) (⟨(i 1).val, idx2_lt1 i⟩ : Fin 2048))

def cmV (c : Dev nD) (t : Fin 3) (k : Fin 8) : Vec F S1x128x1024 .bf16 := fun i =>
  sentVal m (peer c (4 - dOf t)) t k (ix2 (⟨(i 1).val, idx3_lt1 i⟩ : Fin 128) (⟨(i 2).val, idx3_lt2 i⟩ : Fin 1024))

def chunkFinal (c : Dev nD) (k : Fin 8) : FVec F S128x2048 .f32 :=
  k0_pay30 (k0_pay30 (k0_pay30 (acc0 m c k) (cmV m c 0 k) (wV m c 3)) (cmV m c 1 k) (wV m c 1)) (cmV m c 2 k) (wV m c 2)

theorem xlocV_apply (c : Dev nD) (p q : Fin 1024) :
    xlocV m c (ix2 p q) = m ((c : Thread nD τ).loc main_arg0) (ix2 (blkRow c p) q) := rfl

theorem wV_apply (c : Dev nD) (off : ℕ) (u : Fin 1) (q : Fin 1024) (j : Fin 2048) :
    wV m c off (ix3 u q j) = m ((c : Thread nD τ).loc main_arg1) (ix2 (blkRow (peer c off) q) j) := rfl

theorem acc0_apply (c : Dev nD) (k : Fin 8) (p : Fin 128) (j : Fin 2048) :
    acc0 m c k (ix2 p j) = k0_pay29 (xlocV m c) (wV m c 0) (ix2 (chunkRow k p) j) := rfl

theorem cmV_apply (c : Dev nD) (t : Fin 3) (k : Fin 8) (u : Fin 1) (r : Fin 128) (q : Fin 1024) :
    cmV m c t k (ix3 u r q) = sentVal m (peer c (4 - dOf t)) t k (ix2 r q) := rfl

def OutSpec' (c : Dev nD) (o : Buf (Elt F) ((c : Thread nD τ).loc main_v1)) : Prop :=
  ∀ (k : Fin 8) (p : Fin 128) (j : Fin 2048), o (ix2 (chunkRow k p) j) = chunkFinal m c k (ix2 p j)

end Cert.KernelIdealPf

end
-- ==== Proof.Proto.lean ====
import proofs.«900612_g7700000000000613_dist_a2a_gemm_m4096_k4096_n2048_f32_none_v7x_i4_1_alg».proof.Proof.OutSpec

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def OutSpec (c : Dev nD) (o : Buf (Elt F) ((c : Thread nD τ).loc main_v1)) : Prop := OutSpec' m c o

abbrev osem : Fin 64 → SemLoc sig := fun i => .dma i

def Φ₀ (c : Dev nD) : sProp 𝕄 := iprop(start m c ∗ scratch c)

def Φ₁ (c : Dev nD) : sProp 𝕄 :=
  iprop((∃ o, ⌜OutSpec m c o⌝ ∗ args m c o) ∗ scratch c ∗ bigSep (Finset.univ : Finset (Fin 64)) fun i => semVal ((c : Thread nD τ), osem i) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

def G' (c : Dev nD) : sProp 𝕄 := iprop((∃ K, ghost m K c) ∗ localSems c)

def QC : PUnit × MemSt nD τ sig (Elt F) → Prop := fun r =>
  ∀ c : Dev nD, OutSpec m c (r.2.mem ((c : Thread nD τ).loc main_v1))
    ∧ r.2.mem ((c : Thread nD τ).loc main_arg0) = m ((c : Thread nD τ).loc main_arg0)
    ∧ r.2.mem ((c : Thread nD τ).loc main_arg1) = m ((c : Thread nD τ).loc main_arg1)

end Cert.KernelIdealPf

end
-- ==== Proof.Tables.lean ====
import proofs.«900612_g7700000000000613_dist_a2a_gemm_m4096_k4096_n2048_f32_none_v7x_i4_1_alg».proof.Proof.Proto

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sendS_lt (t : Fin 3) (k : Fin 8) : (sendS t k).val < 24 := by
  have := t.isLt; have := k.isLt; show 8 * t.val + k.val < 24; omega
theorem sendS_lt' (t : Fin 3) (k : Fin 8) : (sendS t k).val < 48 := Nat.lt_trans (sendS_lt t k) (by decide)
theorem recvS_ge (t : Fin 3) (k : Fin 8) : 24 ≤ (recvS t k).val := by
  show 24 ≤ 24 + 8 * t.val + k.val; omega
theorem recvS_lt (t : Fin 3) (k : Fin 8) : (recvS t k).val < 48 := by
  have := t.isLt; have := k.isLt; show 24 + 8 * t.val + k.val < 48; omega
theorem recvS_not_lt (t : Fin 3) (k : Fin 8) : ¬ (recvS t k).val < 24 := Nat.not_lt.mpr (recvS_ge t k)

section Sched
variable (c : Dev nD)

theorem duties_bar : (sch (F := F) m).duties (barCell c) 0 = Finset.univ := by
  dsimp only [sch]; exact if_pos ⟨rfl, rfl⟩
theorem duties_send (t : Fin 3) (k : Fin 8) : (sch (F := F) m).duties (sendCell c t k) 0 = {0} := by
  dsimp only [sch]; rw [if_pos ⟨rfl, rfl⟩]; exact if_pos (sendS_lt' t k)
theorem duties_recv (t : Fin 3) (k : Fin 8) : (sch (F := F) m).duties (recvCell c t k) 0 = {0} := by
  dsimp only [sch]; rw [if_pos ⟨rfl, rfl⟩]; exact if_pos (recvS_lt t k)
theorem duties_later (g : GSem nD τ sig) : ∀ r, 1 ≤ r → (sch (F := F) m).duties g r = ∅ :=
  fun r hr => by dsimp only [sch]; rw [if_neg fun h => by omega]

theorem amount_bar (d : Fin 3) : (sch (F := F) m).amount (barCell c) 0 d = 1 := rfl
theorem amount_send (t : Fin 3) (k : Fin 8) (d : Fin 3) : (sch (F := F) m).amount (sendCell c t k) 0 d = NC := rfl
theorem amount_recv (t : Fin 3) (k : Fin 8) (d : Fin 3) : (sch (F := F) m).amount (recvCell c t k) 0 d = NC := rfl

theorem expect_bar : (sch (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (t : Fin 3) (k : Fin 8) : (sch (F := F) m).expect (sendCell c t k) 0 = NC := by
  unfold Schedule.expect Schedule.amountOf; rw [duties_send, Finset.sum_singleton, amount_send]
theorem expect_recv (t : Fin 3) (k : Fin 8) : (sch (F := F) m).expect (recvCell c t k) 0 = NC := by
  unfold Schedule.expect Schedule.amountOf; rw [duties_recv, Finset.sum_singleton, amount_recv]

theorem payload_bar (e : Fin 3) : (sch (F := F) m).payload (barCell c) 0 e = barPay c e := rfl
theorem payload_send (t : Fin 3) (k : Fin 8) (d : Fin 3) : (sch (F := F) m).payload (sendCell c t k) 0 d = sendPay c t k := by
  show (if (sendS t k).val < 24 then sendPay (F := F) c (tOf (sendS t k).val) (kOf (sendS t k).val)
    else if (sendS t k).val < 48 then recvPay m c (tOf (sendS t k).val) (kOf (sendS t k).val) else iprop(emp)) = _
  rw [if_pos (sendS_lt t k), tOf_send, kOf_send]
theorem payload_recv (t : Fin 3) (k : Fin 8) (d : Fin 3) : (sch (F := F) m).payload (recvCell c t k) 0 d = recvPay m c t k := by
  show (if (recvS t k).val < 24 then sendPay (F := F) c (tOf (recvS t k).val) (kOf (recvS t k).val)
    else if (recvS t k).val < 48 then recvPay m c (tOf (recvS t k).val) (kOf (recvS t k).val) else iprop(emp)) = _
  rw [if_neg (recvS_not_lt t k), if_pos (recvS_lt t k), tOf_recv, kOf_recv]

end Sched

instance barPay_storable (c : Dev nD) (e : Fin 3) : BI.Storable (upEmb : UEmb _ 𝕄) (barPay (F := F) c e) := by
  unfold barPay; infer_instance
instance sendPay_storable (c : Dev nD) (t : Fin 3) (k : Fin 8) : BI.Storable (upEmb : UEmb _ 𝕄) (sendPay (F := F) c t k) := by
  unfold sendPay; infer_instance
instance recvPay_storable (c : Dev nD) (t : Fin 3) (k : Fin 8) : BI.Storable (upEmb : UEmb _ 𝕄) (recvPay m c t k) := by
  unfold recvPay; infer_instance

instance payload_storable (g : GSem nD τ sig) (r : ℕ) (d : Fin 3) : BI.Storable (upEmb : UEmb _ 𝕄) ((sch (F := F) m).payload g r d) := by
  show BI.Storable upEmb (match g.2 with
    | .reg _ => barPay g.1.1 d
    | .dma s => if s.val < 24 then sendPay g.1.1 (tOf s.val) (kOf s.val)
        else if s.val < 48 then recvPay m g.1.1 (tOf s.val) (kOf s.val) else iprop(emp))
  (repeat' split) <;> infer_instance

theorem peer_bar_back (c : Dev nD) (e : Fin 3) : peer (peer c (e.val + 1)) (3 - e.val) = c := by revert c e; decide
theorem peer_zero (c : Dev nD) : peer c 0 = c := by revert c; decide
theorem bar_eq_iff {a b : Dev nD} : Iff (barCell a = barCell b) (a = b) :=
  ⟨fun h => congrArg (fun g : GSem nD τ sig => g.1.1) h, fun h => h ▸ rfl⟩

theorem recvS_inj {t t' : Fin 3} {k k' : Fin 8} (h : recvS t k = recvS t' k') : t = t' ∧ k = k' :=
  ⟨by rw [← tOf_recv t k, h, tOf_recv], by rw [← kOf_recv t k, h, kOf_recv]⟩
theorem recv_eq_iff {a b : Dev nD} {t t' : Fin 3} {k k' : Fin 8} : Iff (recvCell a t k = recvCell b t' k') (a = b ∧ t = t' ∧ k = k') :=
  ⟨fun h => ⟨congrArg (fun g : GSem nD τ sig => g.1.1) h, recvS_inj (SemLoc.dma.inj (congrArg Prod.snd h))⟩,
   fun ⟨h₁, h₂, h₃⟩ => by rw [h₁, h₂, h₃]⟩
theorem recv_ne_bar (a b : Dev nD) (t : Fin 3) (k : Fin 8) : recvCell a t k ≠ barCell b := fun h => by
  have := congrArg Prod.snd h; cases this
theorem owedList_length (c : Dev nD) : (owedList c).length = 27 := by
  unfold owedList; rw [List.length_append, List.length_ofFn, List.length_ofFn]

-- What a device owes, payment by payment, in the order it pays.
theorem owedList_eq (c : Dev nD) : owedList c = [tallyAt (barCell (peer c 1)) () 1,
    tallyAt (barCell (peer c 2)) () 1,
    tallyAt (barCell (peer c 3)) () 1,
    tallyAt (recvCell (peer c 1) 0 0) () NC,
    tallyAt (recvCell (peer c 3) 1 0) () NC,
    tallyAt (recvCell (peer c 1) 0 1) () NC,
    tallyAt (recvCell (peer c 3) 1 1) () NC,
    tallyAt (recvCell (peer c 1) 0 2) () NC,
    tallyAt (recvCell (peer c 3) 1 2) () NC,
    tallyAt (recvCell (peer c 1) 0 3) () NC,
    tallyAt (recvCell (peer c 3) 1 3) () NC,
    tallyAt (recvCell (peer c 1) 0 4) () NC,
    tallyAt (recvCell (peer c 3) 1 4) () NC,
    tallyAt (recvCell (peer c 1) 0 5) () NC,
    tallyAt (recvCell (peer c 3) 1 5) () NC,
    tallyAt (recvCell (peer c 1) 0 6) () NC,
    tallyAt (recvCell (peer c 3) 1 6) () NC,
    tallyAt (recvCell (peer c 1) 0 7) () NC,
    tallyAt (recvCell (peer c 3) 1 7) () NC,
    tallyAt (recvCell (peer c 2) 2 0) () NC,
    tallyAt (recvCell (peer c 2) 2 1) () NC,
    tallyAt (recvCell (peer c 2) 2 2) () NC,
    tallyAt (recvCell (peer c 2) 2 3) () NC,
    tallyAt (recvCell (peer c 2) 2 4) () NC,
    tallyAt (recvCell (peer c 2) 2 5) () NC,
    tallyAt (recvCell (peer c 2) 2 6) () NC,
    tallyAt (recvCell (peer c 2) 2 7) () NC] := rfl

theorem owedFrom_three_add (c : Dev nD) (j : ℕ) :
    owedFrom c (3 + j)
      = ((List.ofFn fun i : Fin 24 => (tallyAt (recvCell (peer c (dOf (ord i).1)) (ord i).1 (ord i).2) () NC : CellTallies nD τ sig Unit)).drop j).sum := by
  have h := List.drop_length_add_append
    (l₁ := List.ofFn fun e : Fin 3 => (tallyAt (barCell (peer c (e.val + 1))) () 1 : CellTallies nD τ sig Unit))
    (l₂ := List.ofFn fun i : Fin 24 => (tallyAt (recvCell (peer c (dOf (ord i).1)) (ord i).1 (ord i).2) () NC : CellTallies nD τ sig Unit)) j
  rw [List.length_ofFn] at h
  unfold owedFrom owedList
  rw [h]

theorem owedFrom_ge (c : Dev nD) (n : ℕ) (h : 27 ≤ n) : owedFrom c n = 0 := by
  unfold owedFrom; rw [List.drop_of_length_le (by rw [owedList_length]; exact h), List.sum_nil]
theorem owedFrom_end (c : Dev nD) : owedFrom c 27 = 0 := owedFrom_ge c 27 (Nat.le_refl _)

theorem sum_pos_mem (l : List (CellTallies nD τ sig Unit)) (g : GSem nD τ sig) (u : Unit) (h : 0 < l.sum g u) :
    ∃ x ∈ l, 0 < x g u := by
  induction l with
  | nil => rw [List.sum_nil] at h; exact absurd h (Nat.lt_irrefl 0)
  | cons a l ih =>
    rw [List.sum_cons, Pi.add_apply, Finsupp.add_apply] at h
    by_cases ha : 0 < a g u
    · exact ⟨a, List.mem_cons_self, ha⟩
    · obtain ⟨x, hx, hx'⟩ := ih (by omega)
      exact ⟨x, List.mem_cons_of_mem _ hx, hx'⟩

theorem tallyAt_pos {g' g : GSem nD τ sig} {k : ℕ} {u : Unit} (h : 0 < (tallyAt g' () k : CellTallies nD τ sig Unit) g u) : g = g' := by
  rw [tallyAt_apply] at h
  by_contra hn
  rw [if_neg fun h' => hn h'.1] at h
  exact Nat.lt_irrefl 0 h

theorem owed_pos {c : Dev nD} {n : ℕ} {g : GSem nD τ sig} {u : Unit} (h : 0 < owedFrom c n g u) :
    (∃ e : Fin 3, g = barCell (peer c (e.val + 1))) ∨ (∃ i : Fin 24, g = recvCell (peer c (dOf (ord i).1)) (ord i).1 (ord i).2) := by
  obtain ⟨x, hx, hx'⟩ := sum_pos_mem _ g u h
  have hx₁ := List.mem_of_mem_drop hx
  unfold owedList at hx₁
  rcases List.mem_append.mp hx₁ with hm | hm
  · obtain ⟨e, rfl⟩ := List.mem_ofFn.mp hm
    exact .inl ⟨e, tallyAt_pos hx'⟩
  · obtain ⟨i, rfl⟩ := List.mem_ofFn.mp hm
    exact .inr ⟨i, tallyAt_pos hx'⟩

theorem owed_pos_recv {c : Dev nD} {n : ℕ} (hn : 3 ≤ n) {g : GSem nD τ sig} {u : Unit} (h : 0 < owedFrom c n g u) :
    ∃ i : Fin 24, g = recvCell (peer c (dOf (ord i).1)) (ord i).1 (ord i).2 := by
  obtain ⟨j, rfl⟩ : ∃ j, n = 3 + j := ⟨n - 3, by omega⟩
  rw [owedFrom_three_add] at h
  obtain ⟨x, hx, hx'⟩ := sum_pos_mem _ g u h
  obtain ⟨i, rfl⟩ := List.mem_ofFn.mp (List.mem_of_mem_drop hx)
  exact ⟨i, tallyAt_pos hx'⟩

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (t : Fin 3) (k : Fin 8) (u : Unit) : lv (recvCell c t k) u = 2 := if_pos ⟨recvS_ge t k, recvS_lt t k⟩
theorem owed_mem_L {c : Dev nD} {n : ℕ} {g : GSem nD τ sig} {u : Unit} (h : 0 < owedFrom c n g u) : u ∈ L g := by
  rcases owed_pos h with ⟨e, rfl⟩ | ⟨i, rfl⟩ <;> (rw [L_tc]; exact Finset.mem_singleton_self _)

theorem owed_lv_recv {c : Dev nD} {n : ℕ} (hn : 3 ≤ n) {g : GSem nD τ sig} {u : Unit} (h : 0 < owedFrom c n g u) : lv g u = 2 := by
  obtain ⟨i, rfl⟩ := owed_pos_recv hn h
  exact lv_recv _ _ _ _

attribute [sl_rounds] duties_bar duties_send duties_recv duties_later amount_bar amount_send amount_recv
  expect_bar expect_send expect_recv payload_bar payload_send payload_recv

end Cert.KernelIdealPf

end
-- ==== Proof.Launch.lean ====
import proofs.«900612_g7700000000000613_dist_a2a_gemm_m4096_k4096_n2048_f32_none_v7x_i4_1_alg».proof.Proof.Tables
import Idealize.ShloMosaic.Lib.Pipeline.Launch
import Idealize.ShloMosaic.Lib.Pipeline.Kit
import Idealize.ShloMosaic.Lib.Tactic

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide, fun a b h => SemLoc.dma.inj h, fun k w => w.elim0⟩

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

omit [FloatOps F] in

theorem O₀_sum (d : Dev nD) : O₀ d = (∑ e : Fin 3, tallyAt (barCell (peer d (e.val + 1))) () 1)
    + ∑ i : Fin 24, tallyAt (recvCell (peer d (dOf (ord i).1)) (ord i).1 (ord i).2) () NC := by
  unfold O₀ owedFrom owedList
  rw [List.drop_zero, List.sum_append, List.sum_ofFn, List.sum_ofFn]

omit [FloatOps F] in

theorem owed_bar (d c : Dev nD) : O₀ d (barCell c) () = ∑ e : Fin 3, if c = peer d (e.val + 1) then 1 else 0 := by
  rw [O₀_sum, Pi.add_apply, Finsupp.add_apply, Finset.sum_apply, Finset.sum_apply, Finsupp.finsetSum_apply, Finsupp.finsetSum_apply,
    Finset.sum_eq_zero (s := Finset.univ) (f := fun i : Fin 24 => tallyAt (recvCell (peer d (dOf (ord i).1)) (ord i).1 (ord i).2) () NC (barCell c) ())
      (fun i _ => by rw [tallyAt_ne_cell (fun h => recv_ne_bar _ _ _ _ h.symm), Finsupp.zero_apply]), Nat.add_zero]
  refine Finset.sum_congr rfl fun e _ => ?_
  rw [tallyAt_apply]
  exact if_congr ⟨fun h => bar_eq_iff.mp h.1, fun h => ⟨h ▸ rfl, rfl⟩⟩ rfl rfl

omit [FloatOps F] in

theorem owed_recv (d c : Dev nD) (t : Fin 3) (k : Fin 8) :
    O₀ d (recvCell c t k) () = ∑ i : Fin 24, if c = peer d (dOf (ord i).1) ∧ t = (ord i).1 ∧ k = (ord i).2 then NC else 0 := by
  rw [O₀_sum, Pi.add_apply, Finsupp.add_apply, Finset.sum_apply, Finset.sum_apply, Finsupp.finsetSum_apply, Finsupp.finsetSum_apply,
    Finset.sum_eq_zero (s := Finset.univ) (f := fun e : Fin 3 => tallyAt (barCell (peer d (e.val + 1))) () 1 (recvCell c t k) ())
      (fun e _ => by rw [tallyAt_ne_cell (recv_ne_bar _ _ _ _), Finsupp.zero_apply]), Nat.zero_add]
  refine Finset.sum_congr rfl fun i _ => ?_
  rw [tallyAt_apply]
  exact if_congr ⟨fun h => recv_eq_iff.mp h.1, fun h => ⟨recv_eq_iff.mpr h, rfl⟩⟩ rfl rfl

omit [FloatOps F] in

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in

theorem one_sender (c : Dev nD) (t : Fin 3) (k : Fin 8) :
    (∑ d : Dev nD, ∑ i : Fin 24, if c = peer d (dOf (ord i).1) ∧ t = (ord i).1 ∧ k = (ord i).2 then 1 else 0) = 1 := by
  revert c t k; decide

omit [FloatOps F] in
theorem launch_recv (c : Dev nD) (t : Fin 3) (k : Fin 8) :
    tallyOn (recvCell c t k) (launchCredit (Pipeline.owing O₀) 0 (recvCell c t k)) = (tallyAt (recvCell c t k) () NC : CellTallies nD τ sig Unit) := by
  unfold tallyAt; refine congrArg _ (Finsupp.ext fun u => ?_); cases u
  rw [Pipeline.launchCredit_owing, Finsupp.single_eq_same, Finset.sum_congr rfl fun d _ => owed_recv d c t k]
  have h1 : ∀ (P : Prop) [Decidable P], (if P then NC else 0) = (if P then 1 else 0) * NC := fun P _ => by
    split
    · rw [Nat.one_mul]
    · rw [Nat.zero_mul]
  simp only [h1, ← Finset.sum_mul]
  rw [one_sender, Nat.one_mul]

def recvEmb : TK ↪ SemLoc sig :=
  ⟨fun tk => .dma (recvS tk.1 tk.2), fun a b h => by
    have h2 : (recvS a.1 a.2).val = (recvS b.1 b.2).val := congrArg Fin.val (SemLoc.dma.inj h)
    have h3 : 24 + 8 * a.1.val + a.2.val = 24 + 8 * b.1.val + b.2.val := h2
    have := a.1.isLt; have := b.1.isLt; have := a.2.isLt; have := b.2.isLt
    exact Prod.ext (Fin.ext (by omega)) (Fin.ext (by omega))⟩

omit [FloatOps F] in

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) (fun sm h => ?_)).trans ?_
  · obtain ⟨tk, -, rfl⟩ := Finset.mem_map.mp h
    exact Finset.mem_erase.mpr ⟨fun h' => (by cases h'), Finset.mem_univ _⟩
  · rw [bigSep_map]
    exact bigSep_mono fun tk _ => Entails.of_eq (congrArg cred (launch_recv c tk.1 tk.2))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds_intro (F := F) c) $$ Hcr
  imodintro
  unfold start G' args
  icases HG with ⟨Hg, Hl⟩
  isplitl
  · isplitl [Hg]; · iexact Hg
    isplitl [Hl]; · iexact Hl
    isplitl [Hc]; · iexact Hc
    isplitl [Hlev]; · iexact Hlev
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

def Yout (c : Dev nD) : sProp 𝕄 := iprop(∃ o, ⌜OutSpec m c o⌝ ∗ args m c o)

theorem phi1_exit (c : Dev nD) :
    (dats m 0 c).Φ (Fin.last cfg0.N) ⊢ iprop(Yout m c ∗ Pipeline.ownSems0 osem c ∗ Pipeline.scopedRest cfg0.spec c) := by
  rw [show (dats m 0 c).Φ (Fin.last cfg0.N) = Φ₁ m c from rfl, scopedRest0_eq]
  unfold Φ₁ Yout scratch Pipeline.ownSems0
  iintro ⟨Ho, Hs, Hz⟩
  isplitl [Ho]; · iexact Ho
  isplitl [Hz]; · iexact Hz
  iexact Hs

def QY (c : Dev nD) (s : MemSt nD τ sig (Elt F)) : Prop :=
  OutSpec m c (s.mem ((c : Thread nD τ).loc main_v1))
    ∧ s.mem ((c : Thread nD τ).loc main_arg0) = m ((c : Thread nD τ).loc main_arg0)
    ∧ s.mem ((c : Thread nD τ).loc main_arg1) = m ((c : Thread nD τ).loc main_arg1)

theorem read_out (c : Dev nD) (s' : Phys nD τ sig (Elt F)) :
    iprop(Yout m c ∗ emp ∗ SI s') ⊢ |={Set.univ}=> iprop(⌜QY m c s'.mem⌝ ∗ SI s') := by
  unfold Yout args
  iintro ⟨⟨%o, %ho, Hx, Hw, Ho⟩, -, HSI⟩
  icombine HSI Hx gives %hx
  icombine HSI Hw gives %hw
  icombine HSI Ho gives %hov
  imodintro
  isplitr
  · ipureintro
    unfold QY
    rw [Buf.eq_of_forall_mem_univ hov]
    exact ⟨ho, Buf.eq_of_forall_mem_univ hx, Buf.eq_of_forall_mem_univ hw⟩
  iexact HSI

set_option maxRecDepth 8000 in

theorem run_main_of (G : Dev nD → sProp 𝕄) (u₀ : UU)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' m))
    (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G) (G' := G' m) (u₀ := u₀)
    (hu₀ := hu₀)
    (hglob := hglob)
    (hA := fun _ w => w.elim0) (hpf := fun _ k => k.elim0)
    (X := start m) (Y := Yout m) (Z := fun _ => iprop(emp))
    (hX := start_intro m ρ) (hin := phi0_intro m) (hout := phi1_exit m)
    (QY := QY m)
    (hY := read_out m)
    (hQ := fun _ h c => (h c).2.2)

end Cert.KernelIdealPf

end
-- ==== Proof.Fund.lean ====
import proofs.«900612_g7700000000000613_dist_a2a_gemm_m4096_k4096_n2048_f32_none_v7x_i4_1_alg».proof.Proof.Tables

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev CI : Type := Unit ⊕ (TK ⊕ TK)

def csem : CI → SemLoc sig
  | .inl _ => .reg barS
  | .inr (.inl tk) => .dma (sendS tk.1 tk.2)
  | .inr (.inr tk) => .dma (recvS tk.1 tk.2)

abbrev kcell (ck : Dev nD × CI) : GSem nD τ sig := ((ck.1 : Thread nD τ), csem ck.2)

theorem sendS_val_inj {t t' : Fin 3} {k k' : Fin 8} (h : sendS t k = sendS t' k') : (t, k) = (t', k') := by
  have h' : 8 * t.val + k.val = 8 * t'.val + k'.val := congrArg Fin.val h
  have := k.isLt; have := k'.isLt
  exact Prod.ext (Fin.ext (by show t.val = t'.val; omega)) (Fin.ext (by show k.val = k'.val; omega))
theorem recvS_val_inj {t t' : Fin 3} {k k' : Fin 8} (h : recvS t k = recvS t' k') : (t, k) = (t', k') := by
  have h' : 24 + 8 * t.val + k.val = 24 + 8 * t'.val + k'.val := congrArg Fin.val h
  have := k.isLt; have := k'.isLt
  exact Prod.ext (Fin.ext (by show t.val = t'.val; omega)) (Fin.ext (by show k.val = k'.val; omega))
theorem sendS_val_ne_recvS (t t' : Fin 3) (k k' : Fin 8) : sendS t k ≠ recvS t' k' := fun h => by
  have h' : 8 * t.val + k.val = 24 + 8 * t'.val + k'.val := congrArg Fin.val h
  have := t.isLt; have := k.isLt
  omega

theorem csem_injective : Function.Injective csem := by
  rintro (_ | ⟨t, k⟩ | ⟨t, k⟩) (_ | ⟨t', k'⟩ | ⟨t', k'⟩) h
  · rfl
  · cases h
  · cases h
  · cases h
  · exact congrArg (fun x => Sum.inr (Sum.inl x)) (sendS_val_inj (SemLoc.dma.inj h))
  · exact absurd (SemLoc.dma.inj h) (sendS_val_ne_recvS _ _ _ _)
  · cases h
  · exact absurd (SemLoc.dma.inj h).symm (sendS_val_ne_recvS _ _ _ _)
  · exact congrArg (fun x => Sum.inr (Sum.inr x)) (recvS_val_inj (SemLoc.dma.inj h))

theorem kcell_injective : Function.Injective (kcell : Dev nD × CI → GSem nD τ sig) := by
  rintro ⟨c, x⟩ ⟨c', x'⟩ h
  have h1 : c = c' := congrArg (fun g : GSem nD τ sig => g.1.1) h
  have h2 : x = x' := csem_injective (congrArg Prod.snd h)
  rw [h1, h2]

def ringCells : Finset (GSem nD τ sig) := Finset.univ.map ⟨kcell, kcell_injective⟩

theorem bar_mem (c : Dev nD) : barCell c ∈ ringCells := Finset.mem_map.mpr ⟨(c, .inl ()), Finset.mem_univ _, rfl⟩
theorem send_mem (c : Dev nD) (t : Fin 3) (k : Fin 8) : sendCell c t k ∈ ringCells :=
  Finset.mem_map.mpr ⟨(c, .inr (.inl (t, k))), Finset.mem_univ _, rfl⟩
theorem recv_mem (c : Dev nD) (t : Fin 3) (k : Fin 8) : recvCell c t k ∈ ringCells :=
  Finset.mem_map.mpr ⟨(c, .inr (.inr (t, k))), Finset.mem_univ _, rfl⟩

abbrev TI : Type := Fin 3 ⊕ (TK ⊕ TK)

def cellIx : TI → CI
  | .inl _ => .inl ()
  | .inr x => .inr x

def tokOf (cj : Dev nD × TI) : GSem nD τ sig × ℕ × Fin 3 := match cj.2 with
  | .inl e => (barCell cj.1, 0, e)
  | .inr (.inl tk) => (sendCell cj.1 tk.1 tk.2, 0, 0)
  | .inr (.inr tk) => (recvCell cj.1 tk.1 tk.2, 0, 0)

theorem tokOf_cell (cj : Dev nD × TI) : (tokOf cj).1 = kcell (cj.1, cellIx cj.2) := by
  obtain ⟨c, (e | tk | tk)⟩ := cj <;> rfl

theorem tokOf_injective : Function.Injective (tokOf : Dev nD × TI → GSem nD τ sig × ℕ × Fin 3) := by
  rintro ⟨c, x⟩ ⟨c', x'⟩ h
  have hc : (c, cellIx x) = (c', cellIx x') := kcell_injective (by rw [← tokOf_cell (c, x), ← tokOf_cell (c', x'), h])
  have h1 : c = c' := congrArg Prod.fst hc
  have h2 : cellIx x = cellIx x' := congrArg Prod.snd hc
  subst h1
  rcases x with e | y <;> rcases x' with e' | y'
  · have : e = e' := congrArg (fun z : GSem nD τ sig × ℕ × Fin 3 => z.2.2) h
    rw [this]
  · cases h2
  · cases h2
  · rw [Sum.inr.inj h2]

def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

def perCell (Φ : GSem nD τ sig → sProp 𝕄) (c : Dev nD) : sProp 𝕄 :=
  iprop(Φ (barCell c) ∗ bigSep (Finset.univ : Finset TK) fun tk => iprop(Φ (sendCell c tk.1 tk.2) ∗ Φ (recvCell c tk.1 tk.2)))

def toks (c : Dev nD) : sProp 𝕄 :=
  iprop((bigSep (Finset.univ : Finset (Fin 3)) fun e => dutyTok ER (barCell c) 0 e)
    ∗ bigSep (Finset.univ : Finset TK) fun tk => iprop(dutyTok ER (sendCell c tk.1 tk.2) 0 (0 : Fin 3) ∗ dutyTok ER (recvCell c tk.1 tk.2) 0 (0 : Fin 3)))

def G (c : Dev nD) : sProp 𝕄 :=
  iprop(perCell (fun g => roundState ER (sch m) g 0) c ∗ perCell (fun g => atPos ER g 0 ∅ 0) c ∗ perCell (fun g => reached ER g 0) c ∗ toks c)

theorem bigSep_ringCells (Φ : GSem nD τ sig → sProp 𝕄) : bigSep ringCells Φ = bigSep Finset.univ (perCell Φ) := by
  unfold ringCells
  rw [bigSep_map, bigSep_univ_prod]
  refine bigSep_congr fun c _ => ?_
  rw [bigSep_univ_sum, bigSep_univ_sum, bigSep_univ_of_subsingleton ()]
  unfold perCell
  rw [bigSep_sep']
  rfl

theorem bigSep_ringToks : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  rw [bigSep_univ_sum, bigSep_univ_sum]
  unfold toks
  rw [bigSep_sep']
  rfl

theorem fund_ring : BI.own (ER (initOf ringCells ringToks)) ⊢ (|==> bigSep Finset.univ (G m) : sProp 𝕄) := by
  iintro HX
  imod (Rounds.fund ER (sch m) ringCells ringToks) $$ HX with ⟨Hst, Hr, Hat, Htok⟩
  imodintro
  ihave Hst' := (Entails.of_eq (bigSep_ringCells fun g => roundState ER (sch m) g 0)) $$ Hst
  ihave Hat' := (Entails.of_eq (bigSep_ringCells fun g => (atPos ER g 0 ∅ 0 : sProp 𝕄))) $$ Hat
  ihave Hr' := (Entails.of_eq (bigSep_ringCells fun g => (reached ER g 0 : sProp 𝕄))) $$ Hr
  ihave Htok' := (Entails.of_eq (bigSep_ringToks (F := F))) $$ Htok
  unfold G; simp only [bigSep_sep']
  isplitl [Hst']; · iexact Hst'
  isplitl [Hat']; · iexact Hat'
  isplitl [Hr']; · iexact Hr'
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H' := (own_pair_emb embR _ _) $$ HX
  icases H' with ⟨HR, -⟩
  imod (fund_ring m) $$ HR with HG
  imodintro
  isplitl [HP] <;> iassumption

def semIx : TK ⊕ (TK ⊕ Fin 16) → Fin 64
  | .inl tk => sendS tk.1 tk.2
  | .inr (.inl tk) => recvS tk.1 tk.2
  | .inr (.inr i) => locS i

def semIxInv (n : Fin 64) : TK ⊕ (TK ⊕ Fin 16) :=
  if h : n.val < 24 then .inl (tOf n.val, kOf n.val)
  else if h' : n.val < 48 then .inr (.inl (tOf n.val, kOf n.val))
  else .inr (.inr ⟨n.val - 48, by have := n.isLt; omega⟩)

def semEquiv : TK ⊕ (TK ⊕ Fin 16) ≃ Fin 64 := ⟨semIx, semIxInv, by decide, by decide⟩

theorem ownSems0_eq (c : Dev nD) : (Pipeline.ownSems0 (Ix := Unit) (Name := ℕ) (U := UU) (Lvl := ℕ) (Val := Elt F) (τ := τ) osem c : sProp 𝕄)
    = iprop((bigSep (Finset.univ : Finset TK) fun tk => semVal (sendCell c tk.1 tk.2) 0)
        ∗ (bigSep (Finset.univ : Finset TK) fun tk => semVal (recvCell c tk.1 tk.2) 0) ∗ localSems c) := by
  unfold Pipeline.ownSems0 localSems
  rw [bigSep_univ_equiv semEquiv, bigSep_univ_sum, bigSep_univ_sum]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop(perCell (fun g => semVal g 0) c ∗ localSems c) : sProp 𝕄) := by
  rw [ownSems0_eq, unscopedSems0_eq]
  unfold perCell
  rw [bigSep_sep']
  iintro ⟨⟨HS, HV, HL⟩, HB⟩
  isplitr [HL]
  · isplitl [HB]; · iexact HB
    isplitl [HS] <;> iassumption
  · iexact HL

theorem allocs : iprop(bigSep ringCells (fun g => semVal g 0) ∗ bigSep ringCells (fun g => roundState ER (sch m) g 0))
    ⊢ (|={Set.univ}=> ∃ K : GSem nD τ sig → ℕ, bigSep ringCells fun g => cellInv ER (sch m) (K g) g : sProp 𝕄) := by
  rw [← bigSep_sep']
  exact ((bigSep_mono fun g _ => (Rounds.body_intro ER (sch m) g).trans inv_alloc).trans (bigSep_fupd _ _)).trans
    (BI.fupd_mono (BI.bigSep_exists_pi ringCells fun g (κ : ℕ) => (cellInv ER (sch m) κ g : sProp 𝕄)))

def records (K : GSem nD τ sig → ℕ) : sProp 𝕄 :=
  iprop((bigSep ringCells fun g => cellInv ER (sch m) (K g) g) ∗ bigSep ringCells fun g => reached ER g 0)

instance records_persistent (K : GSem nD τ sig → ℕ) : BI.Persistent (records m K) := by unfold records; infer_instance

theorem inv_at (K : GSem nD τ sig → ℕ) {g : GSem nD τ sig} (hg : g ∈ ringCells) : records m K ⊢ cellInv ER (sch m) (K g) g :=
  (show records m K ⊢ bigSep ringCells fun g => cellInv ER (sch m) (K g) g from by unfold records; iintro ⟨H, -⟩; iexact H).trans (bigSep_elim hg)
theorem reached_at (K : GSem nD τ sig → ℕ) {g : GSem nD τ sig} (hg : g ∈ ringCells) : records m K ⊢ reached ER g 0 :=
  (show records m K ⊢ bigSep ringCells fun g => (reached ER g 0 : sProp 𝕄) from by unfold records; iintro ⟨-, H⟩; iexact H).trans (bigSep_elim hg)

theorem pers_sep {R A B : sProp 𝕄} [BI.Persistent R] (hA : R ⊢ A) (hB : R ⊢ B) : R ⊢ iprop(A ∗ B) := by
  iintro #H
  isplitr
  · iapply hA; iexact H
  · iapply hB; iexact H

theorem invs_of_records (K : GSem nD τ sig → ℕ) (c : Dev nD) : records m K ⊢ invs m K c := by
  unfold invs
  exact pers_sep (inv_at m K (bar_mem c)) (pers_sep
    (BI.bigSep_intro_persistent fun e _ => inv_at m K (bar_mem (peer c (e.val + 1))))
    (BI.bigSep_intro_persistent fun tk _ => pers_sep (inv_at m K (send_mem c tk.1 tk.2))
      (pers_sep (inv_at m K (recv_mem c tk.1 tk.2)) (inv_at m K (recv_mem (peer c (dOf tk.1)) tk.1 tk.2)))))

theorem reacheds_of_records (K : GSem nD τ sig → ℕ) (c : Dev nD) : records m K ⊢ reacheds c := by
  unfold reacheds
  exact pers_sep (reached_at m K (bar_mem c)) (pers_sep
    (BI.bigSep_intro_persistent fun e _ => reached_at m K (bar_mem (peer c (e.val + 1))))
    (BI.bigSep_intro_persistent fun tk _ => pers_sep (reached_at m K (send_mem c tk.1 tk.2))
      (pers_sep (reached_at m K (recv_mem c tk.1 tk.2)) (reached_at m K (recv_mem (peer c (dOf tk.1)) tk.1 tk.2)))))

def payToks (c : Dev nD) : sProp 𝕄 :=
  iprop((bigSep (Finset.univ : Finset (Fin 3)) fun e => dutyTok ER (barCell (peer c (e.val + 1))) 0 e)
    ∗ (bigSep (Finset.univ : Finset TK) fun tk => iprop(dutyTok ER (sendCell c tk.1 tk.2) 0 (0 : Fin 3)
        ∗ dutyTok ER (recvCell (peer c (dOf tk.1)) tk.1 tk.2) 0 (0 : Fin 3))))

def peerE (d : ℕ) : Dev nD ≃ Dev nD where
  toFun c := peer c d
  invFun c := peer c (4 - d % 4)
  left_inv c := by
    have h : c.val < 4 := c.isLt
    exact Fin.ext (by simp only [peer]; omega)
  right_inv c := by
    have h : c.val < 4 := c.isLt
    exact Fin.ext (by simp only [peer]; omega)

theorem toks_around : (bigSep Finset.univ fun c : Dev nD => (toks c : sProp 𝕄)) ⊢ bigSep Finset.univ fun c : Dev nD => payToks c := by
  have hb : (bigSep Finset.univ fun c : Dev nD => bigSep Finset.univ fun e : Fin 3 => (dutyTok ER (barCell c) 0 e : sProp 𝕄))
      = bigSep Finset.univ fun c : Dev nD => bigSep Finset.univ fun e : Fin 3 => (dutyTok ER (barCell (peer c (e.val + 1))) 0 e : sProp 𝕄) := by
    rw [bigSep_univ_comm, bigSep_congr (s := Finset.univ) fun (e : Fin 3) _ =>
      bigSep_univ_equiv (peerE (e.val + 1)) fun c : Dev nD => (dutyTok ER (barCell c) 0 e : sProp 𝕄), bigSep_univ_comm]
    rfl
  have hr : (bigSep Finset.univ fun c : Dev nD => bigSep Finset.univ fun tk : TK => (dutyTok ER (recvCell c tk.1 tk.2) 0 (0 : Fin 3) : sProp 𝕄))
      = bigSep Finset.univ fun c : Dev nD => bigSep Finset.univ fun tk : TK => (dutyTok ER (recvCell (peer c (dOf tk.1)) tk.1 tk.2) 0 (0 : Fin 3) : sProp 𝕄) := by
    rw [bigSep_univ_comm, bigSep_congr (s := Finset.univ) fun (tk : TK) _ =>
      bigSep_univ_equiv (peerE (dOf tk.1)) fun c : Dev nD => (dutyTok ER (recvCell c tk.1 tk.2) 0 (0 : Fin 3) : sProp 𝕄), bigSep_univ_comm]
    rfl
  unfold toks payToks
  simp only [bigSep_sep']
  rw [hb, hr]

theorem ghost_intro (K : GSem nD τ sig → ℕ) (c : Dev nD) :
    iprop(records m K ∗ (perCell (fun g => atPos ER g 0 ∅ 0) c ∗ payToks c ∗ localSems c)) ⊢ G' m c := by
  unfold G' ghost
  iintro ⟨#HR, Hat, Htk, HL⟩
  isplitr [HL]
  · iexists K
    isplitr
    · iapply (invs_of_records m K c); iexact HR
    isplitr
    · iapply (reacheds_of_records m K c); iexact HR
    · unfold linear perCell payToks
      icases Hat with ⟨Hb, Hsr⟩
      icases Htk with ⟨Ht3, Ht24⟩
      isplitl [Hb]; · iexact Hb
      isplitl [Hsr]; · iexact Hsr
      isplitl [Ht3]; · iexact Ht3
      iexact Ht24
  · iexact HL

theorem perdev (c : Dev nD) :
    iprop(Pipeline.ownSems0 (Ix := Unit) (Name := ℕ) (U := UU) (Lvl := ℕ) (Val := Elt F) (τ := τ) osem c ∗ unscopedSems0 c ∗ G m c)
      ⊢ (iprop(perCell (fun g => semVal g 0) c ∗ perCell (fun g => roundState ER (sch m) g 0) c ∗ localSems c
          ∗ perCell (fun g => atPos ER g 0 ∅ 0) c ∗ perCell (fun g => reached ER g 0) c ∗ toks c) : sProp 𝕄) := by
  unfold G
  iintro ⟨Hos, Hus, Hst, Hat, Hr, Htok⟩
  ihave Hv := (sems0_split (F := F) c) $$ [Hos Hus]
  · isplitl [Hos] <;> iassumption
  icases Hv with ⟨Hv, HL⟩
  isplitl [Hv]; · iexact Hv
  isplitl [Hst]; · iexact Hst
  isplitl [HL]; · iexact HL
  isplitl [Hat]; · iexact Hat
  isplitl [Hr]; · iexact Hr
  iexact Htok

theorem glob_mesh :
    (iprop((bigSep ringCells fun g => semVal g 0) ∗ (bigSep ringCells fun g => roundState ER (sch m) g 0) ∗ bigSep Finset.univ localSems
      ∗ (bigSep ringCells fun g => atPos ER g 0 ∅ 0) ∗ (bigSep ringCells fun g => reached ER g 0) ∗ bigSep Finset.univ toks) : sProp 𝕄)
    ⊢ |={Set.univ}=> bigSep Finset.univ (G' m) := by
  iintro ⟨Hv, Hst, HL, Hat, #Hr, Htok⟩
  imod (allocs m) $$ [Hv Hst] with ⟨%K, #HI⟩
  · isplitl [Hv] <;> iassumption
  imodintro
  ihave Htk := (toks_around (F := F)) $$ Htok
  ihave Hat' := (Entails.of_eq (bigSep_ringCells fun g => (atPos ER g 0 ∅ 0 : sProp 𝕄))) $$ Hat
  iapply (BI.bigSep_with_persistent (R := records m K) fun c _ => ghost_intro m K c)
  isplitr
  · unfold records; isplitl; · iexact HI
    iexact Hr
  · simp only [bigSep_sep']
    isplitl [Hat']; · iexact Hat'
    isplitl [Htk]; · iexact Htk
    iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine (bigSep_mono fun c _ => perdev m c).trans ?_
  simp only [bigSep_sep']
  rw [← bigSep_ringCells, ← bigSep_ringCells, ← bigSep_ringCells, ← bigSep_ringCells]
  exact glob_mesh m

end Cert.KernelIdealPf

end
-- ==== Proof.BodyOb.lean ====
import proofs.«900612_g7700000000000613_dist_a2a_gemm_m4096_k4096_n2048_f32_none_v7x_i4_1_alg».proof.Proof.Proto
import Idealize.ShloMosaic.Lib.Pipeline.Kit
import Idealize.ShloMosaic.Lib.Tactic

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem bigSep_noWin (Φ : Fin cfg0.W → sProp 𝕄) : bigSep Finset.univ Φ = iprop(emp) := by
  rw [Finset.univ_eq_empty]; rfl

theorem body_obligation_of
    (hsound : ∀ c : Dev nD, bodyPre m c ⊢ wp frame (wpE (defs₀ (F := F)) 𝒱₀ (c : Thread nD τ) none) Set.univ (Gen.bodyAt0 (F := F) t₀) (fun _ => bodyPost m c))
    (c : Dev nD) : BodyObligation (dats (F := F) m 0 c) (defs₀ (F := F)) 𝒱₀ () Set.univ := fun t => by
  rw [fin_N t, bigSep_noWin, bigSep_noWin, show (dats m 0 c).Φ t₀.castSucc = Φ₀ m c from rfl, show (dats m 0 c).Φ t₀.succ = Φ₁ m c from rfl]
  refine (show _ ⊢ bodyPre m c from ?_).trans ((hsound c).trans (wp_mono _ _ _ fun _ => ?_))
  · unfold bodyPre
    iintro ⟨HΦ, HO, -⟩
    isplitl [HΦ]; · iexact HΦ
    iexact HO
  · unfold bodyPost
    iintro ⟨HΦ, HO⟩
    isplitl [HΦ]; · iexact HΦ
    isplitl [HO]; · iexact HO
    iempintro

end Cert.KernelIdealPf

end
-- ==== Proof.Run.lean ====
import proofs.«900612_g7700000000000613_dist_a2a_gemm_m4096_k4096_n2048_f32_none_v7x_i4_1_alg».proof.Proof.Launch
import proofs.«900612_g7700000000000613_dist_a2a_gemm_m4096_k4096_n2048_f32_none_v7x_i4_1_alg».proof.Proof.Fund
import proofs.«900612_g7700000000000613_dist_a2a_gemm_m4096_k4096_n2048_f32_none_v7x_i4_1_alg».proof.Proof.BodyOb

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_main
    (hsound : ∀ c : Dev nD, bodyPre m c ⊢ wp frame (wpE (defs₀ (F := F)) 𝒱₀ (c : Thread nD τ) none) Set.univ (Gen.bodyAt0 (F := F) t₀) (fun _ => bodyPost m c)) :
    θ_run defs (onTc (τ := τ) (main (F := F))) ⟨m, fun _ => 0, ρ⟩ (QC m) :=
  run_main_of m ρ (G m) u₀ (hu₀ m) (glob m) (body_obligation_of m hsound)

end Cert.KernelIdealPf

end
-- ==== Proof.Bits.Proto0.lean ====
import proofs.«900612_g7700000000000613_dist_a2a_gemm_m4096_k4096_n2048_f32_none_v7x_i4_1_alg».proof.Proof.Gen.Kernel
import proofs.«900612_g7700000000000613_dist_a2a_gemm_m4096_k4096_n2048_f32_none_v7x_i4_1_alg».proof.Proof.Gen.Kernel.Skeleton
import proofs.«900612_g7700000000000613_dist_a2a_gemm_m4096_k4096_n2048_f32_none_v7x_i4_1_alg».proof.Proof.Gen.Kernel.Launch
import proofs.«900612_g7700000000000613_dist_a2a_gemm_m4096_k4096_n2048_f32_none_v7x_i4_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

def peer (c : Dev nD) (d : ℕ) : Dev nD := ⟨(c.val + d) % 4, Nat.mod_lt _ (by decide)⟩

def dOf : Fin 3 → ℕ := ![1, 3, 2]

def cIdx : Fin 3 → ℕ := ![0, 2, 1]

theorem peer_peer (c : Dev nD) (t : Fin 3) : peer (peer c (dOf t)) (4 - dOf t) = c := by revert c t; decide
theorem peer_peer' (c : Dev nD) (t : Fin 3) : peer (peer c (4 - dOf t)) (dOf t) = c := by revert c t; decide

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 3 := by revert c; decide +kernel
theorem dev6_eq (c : Dev nD) : (⟨k0_dev6 c, k0_dev6_lt c⟩ : Dev nD) = peer c 1 := by revert c; decide +kernel
theorem dev7_eq (c : Dev nD) : (⟨k0_dev7 c, k0_dev7_lt c⟩ : Dev nD) = peer c 3 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 3 := by revert c; decide +kernel
theorem dev10_eq (c : Dev nD) : (⟨k0_dev10 c, k0_dev10_lt c⟩ : Dev nD) = peer c 1 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 1 := by revert c; decide +kernel
theorem dev13_eq (c : Dev nD) : (⟨k0_dev13 c, k0_dev13_lt c⟩ : Dev nD) = peer c 3 := by revert c; decide +kernel
theorem dev14_eq (c : Dev nD) : (⟨k0_dev14 c, k0_dev14_lt c⟩ : Dev nD) = peer c 1 := by revert c; decide +kernel
theorem dev15_eq (c : Dev nD) : (⟨k0_dev15 c, k0_dev15_lt c⟩ : Dev nD) = peer c 3 := by revert c; decide +kernel
theorem dev16_eq (c : Dev nD) : (⟨k0_dev16 c, k0_dev16_lt c⟩ : Dev nD) = peer c 1 := by revert c; decide +kernel
theorem dev17_eq (c : Dev nD) : (⟨k0_dev17 c, k0_dev17_lt c⟩ : Dev nD) = peer c 3 := by revert c; decide +kernel
theorem dev18_eq (c : Dev nD) : (⟨k0_dev18 c, k0_dev18_lt c⟩ : Dev nD) = peer c 1 := by revert c; decide +kernel
theorem dev19_eq (c : Dev nD) : (⟨k0_dev19 c, k0_dev19_lt c⟩ : Dev nD) = peer c 3 := by revert c; decide +kernel
theorem dev20_eq (c : Dev nD) : (⟨k0_dev20 c, k0_dev20_lt c⟩ : Dev nD) = peer c 2 := by revert c; decide +kernel
theorem dev21_eq (c : Dev nD) : (⟨k0_dev21 c, k0_dev21_lt c⟩ : Dev nD) = peer c 2 := by revert c; decide +kernel
theorem dev22_eq (c : Dev nD) : (⟨k0_dev22 c, k0_dev22_lt c⟩ : Dev nD) = peer c 2 := by revert c; decide +kernel
theorem dev23_eq (c : Dev nD) : (⟨k0_dev23 c, k0_dev23_lt c⟩ : Dev nD) = peer c 2 := by revert c; decide +kernel
theorem dev24_eq (c : Dev nD) : (⟨k0_dev24 c, k0_dev24_lt c⟩ : Dev nD) = peer c 2 := by revert c; decide +kernel
theorem dev25_eq (c : Dev nD) : (⟨k0_dev25 c, k0_dev25_lt c⟩ : Dev nD) = peer c 2 := by revert c; decide +kernel
theorem dev26_eq (c : Dev nD) : (⟨k0_dev26 c, k0_dev26_lt c⟩ : Dev nD) = peer c 2 := by revert c; decide +kernel
theorem dev27_eq (c : Dev nD) : (⟨k0_dev27 c, k0_dev27_lt c⟩ : Dev nD) = peer c 2 := by revert c; decide +kernel

abbrev commM : Memref sig .tc .vmem S3x1024x1024 .bf16 := Memref.whole cc0_scratch0
abbrev sbufM : Memref sig .tc .vmem S3x1024x1024 .bf16 := Memref.whole cc0_scratch3

theorem chunk_inb (i : Fin 3) (k : Fin 8) :
    ∀ a, (![i.val, 128 * k.val, 0] : Fin 3 → Nat) a + S1x128x1024.size a ≤ S3x1024x1024.size a := by revert i k; decide

abbrev chunkRect (i : Fin 3) (k : Fin 8) : Rect S3x1024x1024 :=
  Rect.unit (s := S3x1024x1024) ![i.val, 128 * k.val, 0] S1x128x1024.size (chunk_inb i k)

abbrev chunkM (M : Memref sig .tc .vmem S3x1024x1024 .bf16) (i : Fin 3) (k : Fin 8) : Memref sig .tc .vmem S128x1024 .bf16 :=
  (M.slice (chunkRect i k) (fun _ => rfl)).squeeze S128x1024 squeezes_S1x128x1024_S128x1024

def cTile (t : Fin 3) : Fin 3 := ⟨cIdx t, by revert t; decide⟩

abbrev NC : ℕ := (chunkM commM 0 0).view.dmaCredit
theorem NC_pos : 0 < NC := View.dmaCredit_pos _ (by decide)
abbrev barS : Sem sig := (SemArray.scalar (sig.barrier 0 rfl) : Sems sig S_).sem

abbrev sendS (t : Fin 3) (k : Fin 8) : DmaSem sig := ⟨8 * t.val + k.val, by have := t.isLt; have := k.isLt; show _ < 64; omega⟩
abbrev recvS (t : Fin 3) (k : Fin 8) : DmaSem sig := ⟨24 + 8 * t.val + k.val, by have := t.isLt; have := k.isLt; show _ < 64; omega⟩

abbrev barCell (c : Dev nD) : GSem nD τ sig := ((c : Thread nD τ), .reg barS)
abbrev sendCell (c : Dev nD) (t : Fin 3) (k : Fin 8) : GSem nD τ sig := ((c : Thread nD τ), .dma (sendS t k))
abbrev recvCell (c : Dev nD) (t : Fin 3) (k : Fin 8) : GSem nD τ sig := ((c : Thread nD τ), .dma (recvS t k))

example : (((cc0_scratch6.slice (Rect.unit (s := S24) ![9] S1.size inb_S24_S1_9)).squeeze S_ squeezes_S1_S_ : DmaSems sig S_).sem) = sendS 1 1 := by decide
example : (((cc0_scratch7.slice (Rect.unit (s := S24) ![17] S1.size inb_S24_S1_17)).squeeze S_ squeezes_S1_S_ : DmaSems sig S_).sem) = recvS 2 1 := by decide
example : NC = (chunkM sbufM 2 5).view.dmaCredit := rfl

variable (m : (ℓ : Loc nD τ sig) → Buf (Elt F) ℓ)

abbrev chunkPts (c : Dev nD) (M : Memref sig .tc .vmem S3x1024x1024 .bf16) (i : Fin 3) (k : Fin 8) (q : PosShare TreeShare)
    (f : Buf (Elt F) ((chunkM M i k).view.loc (c : Thread nD τ))) : sProp 𝕄 :=
  (chunkM M i k).view.loc (c : Thread nD τ) ↦[(chunkM M i k).view.set]{q} f

abbrev xSlice (s : Dev nD) (t : Fin 3) (k : Fin 8) : Memref sig .tc .hbm S128x1024 .f32 :=
  (Memref.whole main_arg0 : Memref sig .tc .hbm S4096x1024 .f32).slice
    (Rect.unit (s := S4096x1024) (k0_off1 s (BitVec.ofNat 32 (1 + (cTile t).val)) (BitVec.ofNat 32 (128 * k.val))) S128x1024.size (k0_off1_inb s (cTile t) k)) (fun _ => rfl)

def sentVal (s : Dev nD) (t : Fin 3) (k : Fin 8) : FVec F S128x1024 .bf16 :=
  truncf .bf16 ((xSlice s t k).view.read (Elt F) (m ((s : Thread nD τ).loc main_arg0)) : FVec F S128x1024 .f32) bitsLt_bf16_f32

def bTile (e : Fin 3) : Fin 3 := ⟨2 - e.val, by omega⟩

def barPay (c : Dev nD) (e : Fin 3) : sProp 𝕄 :=
  bigSep (Finset.univ : Finset (Fin 8)) fun k => iprop(∃ f, chunkPts (F := F) (peer c (3 - e.val)) commM (bTile e) k fullShare f)

def sendPay (c : Dev nD) (t : Fin 3) (k : Fin 8) : sProp 𝕄 := iprop(∃ f, chunkPts (F := F) c sbufM t k fullShare f)
theorem idx_lt_128 (x : S3x1024x1024.Idx) : (x 1).val % 128 < 128 := Nat.mod_lt _ (by decide)
theorem idx_lt_1024 (x : S3x1024x1024.Idx) : (x 2).val < 1024 := (x 2).isLt

def landed (c : Dev nD) (t : Fin 3) (k : Fin 8) : Buf (Elt F) ((c : Thread nD τ).loc cc0_scratch0) :=
  fun x => sentVal m (peer c (4 - dOf t)) t k (ValueIdx.ix2 ⟨(x 1).val % 128, idx_lt_128 x⟩ ⟨(x 2).val, idx_lt_1024 x⟩)

def recvPay (c : Dev nD) (t : Fin 3) (k : Fin 8) : sProp 𝕄 := chunkPts c commM (cTile t) k fullShare (landed m c t k)

def tOf (n : ℕ) : Fin 3 := ⟨n % 24 / 8, by omega⟩
def kOf (n : ℕ) : Fin 8 := ⟨n % 8, by omega⟩
theorem tOf_send (t : Fin 3) (k : Fin 8) : tOf (sendS t k).val = t := by revert t k; decide
theorem kOf_send (t : Fin 3) (k : Fin 8) : kOf (sendS t k).val = k := by revert t k; decide
theorem tOf_recv (t : Fin 3) (k : Fin 8) : tOf (recvS t k).val = t := by revert t k; decide
theorem kOf_recv (t : Fin 3) (k : Fin 8) : kOf (recvS t k).val = k := by revert t k; decide

def sch : Rounds.Schedule (GSem nD τ sig) (Fin 3) 𝕄 where
  duties g r := if r = 0 ∧ g.1.2 = .tc then
      (match g.2 with
        | .reg _ => Finset.univ
        | .dma s => if s.val < 48 then {0} else ∅)
    else ∅
  unitless _ := False
  amount g _ _ := match g.2 with | .reg _ => 1 | .dma _ => NC
  payload g _ d := match g.2 with
    | .reg _ => barPay g.1.1 d
    | .dma s => if s.val < 24 then sendPay g.1.1 (tOf s.val) (kOf s.val)
        else if s.val < 48 then recvPay m g.1.1 (tOf s.val) (kOf s.val) else iprop(emp)
  amount_pos g _ _ _ := by
    cases g.2 with
    | reg _ => exact Nat.one_pos
    | dma _ => exact NC_pos

def ord (i : Fin 24) : Fin 3 × Fin 8 :=
  if h : i.val < 16 then (⟨i.val % 2, by omega⟩, ⟨i.val / 2, by omega⟩) else (2, ⟨i.val - 16, by omega⟩)

def owedList (c : Dev nD) : List (CellTallies nD τ sig Unit) :=
  (List.ofFn fun e : Fin 3 => tallyAt (barCell (peer c (e.val + 1))) () 1)
    ++ (List.ofFn fun i : Fin 24 => tallyAt (recvCell (peer c (dOf (ord i).1)) (ord i).1 (ord i).2) () NC)

def owedFrom (c : Dev nD) (n : ℕ) : CellTallies nD τ sig Unit := ((owedList c).drop n).sum

def O₀ (c : Dev nD) : CellTallies nD τ sig Unit := owedFrom c 0

def L (g : GSem nD τ sig) : Finset Unit := if g.1.2 = .tc then {()} else ∅
def lv (g : GSem nD τ sig) (_ : Unit) : ℕ :=
  match g.2 with
  | .reg _ => 1
  | .dma s => if 24 ≤ s.val ∧ s.val < 48 then 2 else 0

abbrev TK : Type := Fin 3 × Fin 8

def invs (K : GSem nD τ sig → ℕ) (c : Dev nD) : sProp 𝕄 :=
  iprop(cellInv ER (sch m) (K (barCell c)) (barCell c)
    ∗ (bigSep (Finset.univ : Finset (Fin 3)) fun e => cellInv ER (sch m) (K (barCell (peer c (e.val + 1)))) (barCell (peer c (e.val + 1))))
    ∗ (bigSep (Finset.univ : Finset TK) fun tk => iprop(cellInv ER (sch m) (K (sendCell c tk.1 tk.2)) (sendCell c tk.1 tk.2)
        ∗ cellInv ER (sch m) (K (recvCell c tk.1 tk.2)) (recvCell c tk.1 tk.2)
        ∗ cellInv ER (sch m) (K (recvCell (peer c (dOf tk.1)) tk.1 tk.2)) (recvCell (peer c (dOf tk.1)) tk.1 tk.2))))

def reacheds (c : Dev nD) : sProp 𝕄 :=
  iprop(reached ER (barCell c) 0
    ∗ (bigSep (Finset.univ : Finset (Fin 3)) fun e => reached ER (barCell (peer c (e.val + 1))) 0)
    ∗ (bigSep (Finset.univ : Finset TK) fun tk => iprop(reached ER (sendCell c tk.1 tk.2) 0 ∗ reached ER (recvCell c tk.1 tk.2) 0
        ∗ reached ER (recvCell (peer c (dOf tk.1)) tk.1 tk.2) 0)))

def linear (c : Dev nD) : sProp 𝕄 :=
  iprop(atPos ER (barCell c) 0 ∅ 0
    ∗ (bigSep (Finset.univ : Finset TK) fun tk => iprop(atPos ER (sendCell c tk.1 tk.2) 0 ∅ 0 ∗ atPos ER (recvCell c tk.1 tk.2) 0 ∅ 0))
    ∗ (bigSep (Finset.univ : Finset (Fin 3)) fun e => dutyTok ER (barCell (peer c (e.val + 1))) 0 e)
    ∗ (bigSep (Finset.univ : Finset TK) fun tk => iprop(dutyTok ER (sendCell c tk.1 tk.2) 0 (0 : Fin 3)
        ∗ dutyTok ER (recvCell (peer c (dOf tk.1)) tk.1 tk.2) 0 (0 : Fin 3))))

def ghost (K : GSem nD τ sig → ℕ) (c : Dev nD) : sProp 𝕄 := iprop(invs m K c ∗ reacheds c ∗ linear c)

abbrev locS (i : Fin 16) : DmaSem sig := ⟨48 + i.val, by have := i.isLt; show _ < 64; omega⟩
def localSems (c : Dev nD) : sProp 𝕄 := bigSep (Finset.univ : Finset (Fin 16)) fun i => semVal ((c : Thread nD τ), SemLoc.dma (locS i)) 0

def creds (c : Dev nD) : sProp 𝕄 :=
  iprop(cred (tallyAt (barCell c) () 3) ∗ bigSep (Finset.univ : Finset TK) fun tk => cred (tallyAt (recvCell c tk.1 tk.2) () NC))

def args (c : Dev nD) (o : Buf (Elt F) ((c : Thread nD τ).loc main_v1)) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} o))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def start (c : Dev nD) : sProp 𝕄 :=
  iprop((∃ K, ghost m K c) ∗ localSems c ∗ creds c ∗ levAts L lv ∗ args m c (m ((c : Thread nD τ).loc main_v1)))

end Cert.KernelPf

end
-- ==== Proof.Bits.OutSpec.lean ====
import proofs.«900612_g7700000000000613_dist_a2a_gemm_m4096_k4096_n2048_f32_none_v7x_i4_1_alg».proof.Proof.Bits.Proto0
import Idealize.ShloMosaic.Lib.ValueIdx

noncomputable section

namespace Cert.KernelPf

open Cert.Kernel Cert.Kernel.Gen

open Idealize.ShloMosaic Idealize.ShloMosaic.ValueIdx
open Idealize.ShloMosaic.TcCoe

variable {F : FTy → Type} [FloatOps F]

def blkRow (b : Dev nD) (p : Fin 1024) : Fin 4096 :=
  ⟨1024 * b.val + p.val, by have hb : b.val < 4 := b.isLt; have := p.isLt; omega⟩

@[simp] theorem blkRow_val (b : Dev nD) (p : Fin 1024) : (blkRow b p).val = 1024 * b.val + p.val := rfl

def chunkRow (k : Fin 8) (r : Fin 128) : Fin 1024 :=
  ⟨128 * k.val + r.val, by have := k.isLt; have := r.isLt; omega⟩

@[simp] theorem chunkRow_val (k : Fin 8) (r : Fin 128) : (chunkRow k r).val = 128 * k.val + r.val := rfl

theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

variable (m : (ℓ : Loc nD τ sig) → Buf (Elt F) ℓ)

def xlocV (c : Dev nD) : Vec F S1024x1024 .f32 := fun i =>
  m ((c : Thread nD τ).loc main_arg0) (ix2 (blkRow c ⟨(i 0).val, idx2_lt0 i⟩) (⟨(i 1).val, idx2_lt1 i⟩ : Fin 1024))

def wV (c : Dev nD) (off : ℕ) : Vec F S1x1024x2048 .f32 := fun i =>
  m ((c : Thread nD τ).loc main_arg1) (ix2 (blkRow (peer c off) ⟨(i 1).val, idx3_lt1 i⟩) (⟨(i 2).val, idx3_lt2 i⟩ : Fin 2048))

def acc0 (c : Dev nD) (k : Fin 8) : Vec F S128x2048 .f32 := fun i =>
  k0_pay29 (xlocV m c) (wV m c 0) (ix2 (chunkRow k ⟨(i 0).val, idx2_lt0 i⟩) (⟨(i 1).val, idx2_lt1 i⟩ : Fin 2048))

def cmV (c : Dev nD) (t : Fin 3) (k : Fin 8) : Vec F S1x128x1024 .bf16 := fun i =>
  sentVal m (peer c (4 - dOf t)) t k (ix2 (⟨(i 1).val, idx3_lt1 i⟩ : Fin 128) (⟨(i 2).val, idx3_lt2 i⟩ : Fin 1024))

def chunkFinal (c : Dev nD) (k : Fin 8) : FVec F S128x2048 .f32 :=
  k0_pay30 (k0_pay30 (k0_pay30 (acc0 m c k) (cmV m c 0 k) (wV m c 3)) (cmV m c 1 k) (wV m c 1)) (cmV m c 2 k) (wV m c 2)

theorem xlocV_apply (c : Dev nD) (p q : Fin 1024) :
    xlocV m c (ix2 p q) = m ((c : Thread nD τ).loc main_arg0) (ix2 (blkRow c p) q) := rfl

theorem wV_apply (c : Dev nD) (off : ℕ) (u : Fin 1) (q : Fin 1024) (j : Fin 2048) :
    wV m c off (ix3 u q j) = m ((c : Thread nD τ).loc main_arg1) (ix2 (blkRow (peer c off) q) j) := rfl

theorem acc0_apply (c : Dev nD) (k : Fin 8) (p : Fin 128) (j : Fin 2048) :
    acc0 m c k (ix2 p j) = k0_pay29 (xlocV m c) (wV m c 0) (ix2 (chunkRow k p) j) := rfl

theorem cmV_apply (c : Dev nD) (t : Fin 3) (k : Fin 8) (u : Fin 1) (r : Fin 128) (q : Fin 1024) :
    cmV m c t k (ix3 u r q) = sentVal m (peer c (4 - dOf t)) t k (ix2 r q) := rfl

def OutSpec' (c : Dev nD) (o : Buf (Elt F) ((c : Thread nD τ).loc main_v1)) : Prop :=
  ∀ (k : Fin 8) (p : Fin 128) (j : Fin 2048), o (ix2 (chunkRow k p) j) = chunkFinal m c k (ix2 p j)

end Cert.KernelPf

end
-- ==== Proof.Bits.Proto.lean ====
import proofs.«900612_g7700000000000613_dist_a2a_gemm_m4096_k4096_n2048_f32_none_v7x_i4_1_alg».proof.Proof.Bits.OutSpec

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def OutSpec (c : Dev nD) (o : Buf (Elt F) ((c : Thread nD τ).loc main_v1)) : Prop := OutSpec' m c o

abbrev osem : Fin 64 → SemLoc sig := fun i => .dma i

def Φ₀ (c : Dev nD) : sProp 𝕄 := iprop(start m c ∗ scratch c)

def Φ₁ (c : Dev nD) : sProp 𝕄 :=
  iprop((∃ o, ⌜OutSpec m c o⌝ ∗ args m c o) ∗ scratch c ∗ bigSep (Finset.univ : Finset (Fin 64)) fun i => semVal ((c : Thread nD τ), osem i) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

def G' (c : Dev nD) : sProp 𝕄 := iprop((∃ K, ghost m K c) ∗ localSems c)

def QC : PUnit × MemSt nD τ sig (Elt F) → Prop := fun r =>
  ∀ c : Dev nD, OutSpec m c (r.2.mem ((c : Thread nD τ).loc main_v1))
    ∧ r.2.mem ((c : Thread nD τ).loc main_arg0) = m ((c : Thread nD τ).loc main_arg0)
    ∧ r.2.mem ((c : Thread nD τ).loc main_arg1) = m ((c : Thread nD τ).loc main_arg1)

end Cert.KernelPf

end
-- ==== Proof.Bits.Tables.lean ====
import proofs.«900612_g7700000000000613_dist_a2a_gemm_m4096_k4096_n2048_f32_none_v7x_i4_1_alg».proof.Proof.Bits.Proto

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sendS_lt (t : Fin 3) (k : Fin 8) : (sendS t k).val < 24 := by
  have := t.isLt; have := k.isLt; show 8 * t.val + k.val < 24; omega
theorem sendS_lt' (t : Fin 3) (k : Fin 8) : (sendS t k).val < 48 := Nat.lt_trans (sendS_lt t k) (by decide)
theorem recvS_ge (t : Fin 3) (k : Fin 8) : 24 ≤ (recvS t k).val := by
  show 24 ≤ 24 + 8 * t.val + k.val; omega
theorem recvS_lt (t : Fin 3) (k : Fin 8) : (recvS t k).val < 48 := by
  have := t.isLt; have := k.isLt; show 24 + 8 * t.val + k.val < 48; omega
theorem recvS_not_lt (t : Fin 3) (k : Fin 8) : ¬ (recvS t k).val < 24 := Nat.not_lt.mpr (recvS_ge t k)

section Sched
variable (c : Dev nD)

theorem duties_bar : (sch (F := F) m).duties (barCell c) 0 = Finset.univ := by
  dsimp only [sch]; exact if_pos ⟨rfl, rfl⟩
theorem duties_send (t : Fin 3) (k : Fin 8) : (sch (F := F) m).duties (sendCell c t k) 0 = {0} := by
  dsimp only [sch]; rw [if_pos ⟨rfl, rfl⟩]; exact if_pos (sendS_lt' t k)
theorem duties_recv (t : Fin 3) (k : Fin 8) : (sch (F := F) m).duties (recvCell c t k) 0 = {0} := by
  dsimp only [sch]; rw [if_pos ⟨rfl, rfl⟩]; exact if_pos (recvS_lt t k)
theorem duties_later (g : GSem nD τ sig) : ∀ r, 1 ≤ r → (sch (F := F) m).duties g r = ∅ :=
  fun r hr => by dsimp only [sch]; rw [if_neg fun h => by omega]

theorem amount_bar (d : Fin 3) : (sch (F := F) m).amount (barCell c) 0 d = 1 := rfl
theorem amount_send (t : Fin 3) (k : Fin 8) (d : Fin 3) : (sch (F := F) m).amount (sendCell c t k) 0 d = NC := rfl
theorem amount_recv (t : Fin 3) (k : Fin 8) (d : Fin 3) : (sch (F := F) m).amount (recvCell c t k) 0 d = NC := rfl

theorem expect_bar : (sch (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (t : Fin 3) (k : Fin 8) : (sch (F := F) m).expect (sendCell c t k) 0 = NC := by
  unfold Schedule.expect Schedule.amountOf; rw [duties_send, Finset.sum_singleton, amount_send]
theorem expect_recv (t : Fin 3) (k : Fin 8) : (sch (F := F) m).expect (recvCell c t k) 0 = NC := by
  unfold Schedule.expect Schedule.amountOf; rw [duties_recv, Finset.sum_singleton, amount_recv]

theorem payload_bar (e : Fin 3) : (sch (F := F) m).payload (barCell c) 0 e = barPay c e := rfl
theorem payload_send (t : Fin 3) (k : Fin 8) (d : Fin 3) : (sch (F := F) m).payload (sendCell c t k) 0 d = sendPay c t k := by
  show (if (sendS t k).val < 24 then sendPay (F := F) c (tOf (sendS t k).val) (kOf (sendS t k).val)
    else if (sendS t k).val < 48 then recvPay m c (tOf (sendS t k).val) (kOf (sendS t k).val) else iprop(emp)) = _
  rw [if_pos (sendS_lt t k), tOf_send, kOf_send]
theorem payload_recv (t : Fin 3) (k : Fin 8) (d : Fin 3) : (sch (F := F) m).payload (recvCell c t k) 0 d = recvPay m c t k := by
  show (if (recvS t k).val < 24 then sendPay (F := F) c (tOf (recvS t k).val) (kOf (recvS t k).val)
    else if (recvS t k).val < 48 then recvPay m c (tOf (recvS t k).val) (kOf (recvS t k).val) else iprop(emp)) = _
  rw [if_neg (recvS_not_lt t k), if_pos (recvS_lt t k), tOf_recv, kOf_recv]

end Sched

instance barPay_storable (c : Dev nD) (e : Fin 3) : BI.Storable (upEmb : UEmb _ 𝕄) (barPay (F := F) c e) := by
  unfold barPay; infer_instance
instance sendPay_storable (c : Dev nD) (t : Fin 3) (k : Fin 8) : BI.Storable (upEmb : UEmb _ 𝕄) (sendPay (F := F) c t k) := by
  unfold sendPay; infer_instance
instance recvPay_storable (c : Dev nD) (t : Fin 3) (k : Fin 8) : BI.Storable (upEmb : UEmb _ 𝕄) (recvPay m c t k) := by
  unfold recvPay; infer_instance

instance payload_storable (g : GSem nD τ sig) (r : ℕ) (d : Fin 3) : BI.Storable (upEmb : UEmb _ 𝕄) ((sch (F := F) m).payload g r d) := by
  show BI.Storable upEmb (match g.2 with
    | .reg _ => barPay g.1.1 d
    | .dma s => if s.val < 24 then sendPay g.1.1 (tOf s.val) (kOf s.val)
        else if s.val < 48 then recvPay m g.1.1 (tOf s.val) (kOf s.val) else iprop(emp))
  (repeat' split) <;> infer_instance

theorem peer_bar_back (c : Dev nD) (e : Fin 3) : peer (peer c (e.val + 1)) (3 - e.val) = c := by revert c e; decide
theorem peer_zero (c : Dev nD) : peer c 0 = c := by revert c; decide
theorem bar_eq_iff {a b : Dev nD} : Iff (barCell a = barCell b) (a = b) :=
  ⟨fun h => congrArg (fun g : GSem nD τ sig => g.1.1) h, fun h => h ▸ rfl⟩

theorem recvS_inj {t t' : Fin 3} {k k' : Fin 8} (h : recvS t k = recvS t' k') : t = t' ∧ k = k' :=
  ⟨by rw [← tOf_recv t k, h, tOf_recv], by rw [← kOf_recv t k, h, kOf_recv]⟩
theorem recv_eq_iff {a b : Dev nD} {t t' : Fin 3} {k k' : Fin 8} : Iff (recvCell a t k = recvCell b t' k') (a = b ∧ t = t' ∧ k = k') :=
  ⟨fun h => ⟨congrArg (fun g : GSem nD τ sig => g.1.1) h, recvS_inj (SemLoc.dma.inj (congrArg Prod.snd h))⟩,
   fun ⟨h₁, h₂, h₃⟩ => by rw [h₁, h₂, h₃]⟩
theorem recv_ne_bar (a b : Dev nD) (t : Fin 3) (k : Fin 8) : recvCell a t k ≠ barCell b := fun h => by
  have := congrArg Prod.snd h; cases this
theorem owedList_length (c : Dev nD) : (owedList c).length = 27 := by
  unfold owedList; rw [List.length_append, List.length_ofFn, List.length_ofFn]

-- What a device owes, payment by payment, in the order it pays.
theorem owedList_eq (c : Dev nD) : owedList c = [tallyAt (barCell (peer c 1)) () 1,
    tallyAt (barCell (peer c 2)) () 1,
    tallyAt (barCell (peer c 3)) () 1,
    tallyAt (recvCell (peer c 1) 0 0) () NC,
    tallyAt (recvCell (peer c 3) 1 0) () NC,
    tallyAt (recvCell (peer c 1) 0 1) () NC,
    tallyAt (recvCell (peer c 3) 1 1) () NC,
    tallyAt (recvCell (peer c 1) 0 2) () NC,
    tallyAt (recvCell (peer c 3) 1 2) () NC,
    tallyAt (recvCell (peer c 1) 0 3) () NC,
    tallyAt (recvCell (peer c 3) 1 3) () NC,
    tallyAt (recvCell (peer c 1) 0 4) () NC,
    tallyAt (recvCell (peer c 3) 1 4) () NC,
    tallyAt (recvCell (peer c 1) 0 5) () NC,
    tallyAt (recvCell (peer c 3) 1 5) () NC,
    tallyAt (recvCell (peer c 1) 0 6) () NC,
    tallyAt (recvCell (peer c 3) 1 6) () NC,
    tallyAt (recvCell (peer c 1) 0 7) () NC,
    tallyAt (recvCell (peer c 3) 1 7) () NC,
    tallyAt (recvCell (peer c 2) 2 0) () NC,
    tallyAt (recvCell (peer c 2) 2 1) () NC,
    tallyAt (recvCell (peer c 2) 2 2) () NC,
    tallyAt (recvCell (peer c 2) 2 3) () NC,
    tallyAt (recvCell (peer c 2) 2 4) () NC,
    tallyAt (recvCell (peer c 2) 2 5) () NC,
    tallyAt (recvCell (peer c 2) 2 6) () NC,
    tallyAt (recvCell (peer c 2) 2 7) () NC] := rfl

theorem owedFrom_three_add (c : Dev nD) (j : ℕ) :
    owedFrom c (3 + j)
      = ((List.ofFn fun i : Fin 24 => (tallyAt (recvCell (peer c (dOf (ord i).1)) (ord i).1 (ord i).2) () NC : CellTallies nD τ sig Unit)).drop j).sum := by
  have h := List.drop_length_add_append
    (l₁ := List.ofFn fun e : Fin 3 => (tallyAt (barCell (peer c (e.val + 1))) () 1 : CellTallies nD τ sig Unit))
    (l₂ := List.ofFn fun i : Fin 24 => (tallyAt (recvCell (peer c (dOf (ord i).1)) (ord i).1 (ord i).2) () NC : CellTallies nD τ sig Unit)) j
  rw [List.length_ofFn] at h
  unfold owedFrom owedList
  rw [h]

theorem owedFrom_ge (c : Dev nD) (n : ℕ) (h : 27 ≤ n) : owedFrom c n = 0 := by
  unfold owedFrom; rw [List.drop_of_length_le (by rw [owedList_length]; exact h), List.sum_nil]
theorem owedFrom_end (c : Dev nD) : owedFrom c 27 = 0 := owedFrom_ge c 27 (Nat.le_refl _)

theorem sum_pos_mem (l : List (CellTallies nD τ sig Unit)) (g : GSem nD τ sig) (u : Unit) (h : 0 < l.sum g u) :
    ∃ x ∈ l, 0 < x g u := by
  induction l with
  | nil => rw [List.sum_nil] at h; exact absurd h (Nat.lt_irrefl 0)
  | cons a l ih =>
    rw [List.sum_cons, Pi.add_apply, Finsupp.add_apply] at h
    by_cases ha : 0 < a g u
    · exact ⟨a, List.mem_cons_self, ha⟩
    · obtain ⟨x, hx, hx'⟩ := ih (by omega)
      exact ⟨x, List.mem_cons_of_mem _ hx, hx'⟩

theorem tallyAt_pos {g' g : GSem nD τ sig} {k : ℕ} {u : Unit} (h : 0 < (tallyAt g' () k : CellTallies nD τ sig Unit) g u) : g = g' := by
  rw [tallyAt_apply] at h
  by_contra hn
  rw [if_neg fun h' => hn h'.1] at h
  exact Nat.lt_irrefl 0 h

theorem owed_pos {c : Dev nD} {n : ℕ} {g : GSem nD τ sig} {u : Unit} (h : 0 < owedFrom c n g u) :
    (∃ e : Fin 3, g = barCell (peer c (e.val + 1))) ∨ (∃ i : Fin 24, g = recvCell (peer c (dOf (ord i).1)) (ord i).1 (ord i).2) := by
  obtain ⟨x, hx, hx'⟩ := sum_pos_mem _ g u h
  have hx₁ := List.mem_of_mem_drop hx
  unfold owedList at hx₁
  rcases List.mem_append.mp hx₁ with hm | hm
  · obtain ⟨e, rfl⟩ := List.mem_ofFn.mp hm
    exact .inl ⟨e, tallyAt_pos hx'⟩
  · obtain ⟨i, rfl⟩ := List.mem_ofFn.mp hm
    exact .inr ⟨i, tallyAt_pos hx'⟩

theorem owed_pos_recv {c : Dev nD} {n : ℕ} (hn : 3 ≤ n) {g : GSem nD τ sig} {u : Unit} (h : 0 < owedFrom c n g u) :
    ∃ i : Fin 24, g = recvCell (peer c (dOf (ord i).1)) (ord i).1 (ord i).2 := by
  obtain ⟨j, rfl⟩ : ∃ j, n = 3 + j := ⟨n - 3, by omega⟩
  rw [owedFrom_three_add] at h
  obtain ⟨x, hx, hx'⟩ := sum_pos_mem _ g u h
  obtain ⟨i, rfl⟩ := List.mem_ofFn.mp (List.mem_of_mem_drop hx)
  exact ⟨i, tallyAt_pos hx'⟩

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (t : Fin 3) (k : Fin 8) (u : Unit) : lv (recvCell c t k) u = 2 := if_pos ⟨recvS_ge t k, recvS_lt t k⟩
theorem owed_mem_L {c : Dev nD} {n : ℕ} {g : GSem nD τ sig} {u : Unit} (h : 0 < owedFrom c n g u) : u ∈ L g := by
  rcases owed_pos h with ⟨e, rfl⟩ | ⟨i, rfl⟩ <;> (rw [L_tc]; exact Finset.mem_singleton_self _)

theorem owed_lv_recv {c : Dev nD} {n : ℕ} (hn : 3 ≤ n) {g : GSem nD τ sig} {u : Unit} (h : 0 < owedFrom c n g u) : lv g u = 2 := by
  obtain ⟨i, rfl⟩ := owed_pos_recv hn h
  exact lv_recv _ _ _ _

attribute [sl_rounds] duties_bar duties_send duties_recv duties_later amount_bar amount_send amount_recv
  expect_bar expect_send expect_recv payload_bar payload_send payload_recv

end Cert.KernelPf

end
-- ==== Proof.Bits.Launch.lean ====
import proofs.«900612_g7700000000000613_dist_a2a_gemm_m4096_k4096_n2048_f32_none_v7x_i4_1_alg».proof.Proof.Bits.Tables
import Idealize.ShloMosaic.Lib.Pipeline.Launch
import Idealize.ShloMosaic.Lib.Pipeline.Kit
import Idealize.ShloMosaic.Lib.Tactic

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide, fun a b h => SemLoc.dma.inj h, fun k w => w.elim0⟩

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

omit [FloatOps F] in

theorem O₀_sum (d : Dev nD) : O₀ d = (∑ e : Fin 3, tallyAt (barCell (peer d (e.val + 1))) () 1)
    + ∑ i : Fin 24, tallyAt (recvCell (peer d (dOf (ord i).1)) (ord i).1 (ord i).2) () NC := by
  unfold O₀ owedFrom owedList
  rw [List.drop_zero, List.sum_append, List.sum_ofFn, List.sum_ofFn]

omit [FloatOps F] in

theorem owed_bar (d c : Dev nD) : O₀ d (barCell c) () = ∑ e : Fin 3, if c = peer d (e.val + 1) then 1 else 0 := by
  rw [O₀_sum, Pi.add_apply, Finsupp.add_apply, Finset.sum_apply, Finset.sum_apply, Finsupp.finsetSum_apply, Finsupp.finsetSum_apply,
    Finset.sum_eq_zero (s := Finset.univ) (f := fun i : Fin 24 => tallyAt (recvCell (peer d (dOf (ord i).1)) (ord i).1 (ord i).2) () NC (barCell c) ())
      (fun i _ => by rw [tallyAt_ne_cell (fun h => recv_ne_bar _ _ _ _ h.symm), Finsupp.zero_apply]), Nat.add_zero]
  refine Finset.sum_congr rfl fun e _ => ?_
  rw [tallyAt_apply]
  exact if_congr ⟨fun h => bar_eq_iff.mp h.1, fun h => ⟨h ▸ rfl, rfl⟩⟩ rfl rfl

omit [FloatOps F] in

theorem owed_recv (d c : Dev nD) (t : Fin 3) (k : Fin 8) :
    O₀ d (recvCell c t k) () = ∑ i : Fin 24, if c = peer d (dOf (ord i).1) ∧ t = (ord i).1 ∧ k = (ord i).2 then NC else 0 := by
  rw [O₀_sum, Pi.add_apply, Finsupp.add_apply, Finset.sum_apply, Finset.sum_apply, Finsupp.finsetSum_apply, Finsupp.finsetSum_apply,
    Finset.sum_eq_zero (s := Finset.univ) (f := fun e : Fin 3 => tallyAt (barCell (peer d (e.val + 1))) () 1 (recvCell c t k) ())
      (fun e _ => by rw [tallyAt_ne_cell (recv_ne_bar _ _ _ _), Finsupp.zero_apply]), Nat.zero_add]
  refine Finset.sum_congr rfl fun i _ => ?_
  rw [tallyAt_apply]
  exact if_congr ⟨fun h => recv_eq_iff.mp h.1, fun h => ⟨recv_eq_iff.mpr h, rfl⟩⟩ rfl rfl

omit [FloatOps F] in

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in

theorem one_sender (c : Dev nD) (t : Fin 3) (k : Fin 8) :
    (∑ d : Dev nD, ∑ i : Fin 24, if c = peer d (dOf (ord i).1) ∧ t = (ord i).1 ∧ k = (ord i).2 then 1 else 0) = 1 := by
  revert c t k; decide

omit [FloatOps F] in
theorem launch_recv (c : Dev nD) (t : Fin 3) (k : Fin 8) :
    tallyOn (recvCell c t k) (launchCredit (Pipeline.owing O₀) 0 (recvCell c t k)) = (tallyAt (recvCell c t k) () NC : CellTallies nD τ sig Unit) := by
  unfold tallyAt; refine congrArg _ (Finsupp.ext fun u => ?_); cases u
  rw [Pipeline.launchCredit_owing, Finsupp.single_eq_same, Finset.sum_congr rfl fun d _ => owed_recv d c t k]
  have h1 : ∀ (P : Prop) [Decidable P], (if P then NC else 0) = (if P then 1 else 0) * NC := fun P _ => by
    split
    · rw [Nat.one_mul]
    · rw [Nat.zero_mul]
  simp only [h1, ← Finset.sum_mul]
  rw [one_sender, Nat.one_mul]

def recvEmb : TK ↪ SemLoc sig :=
  ⟨fun tk => .dma (recvS tk.1 tk.2), fun a b h => by
    have h2 : (recvS a.1 a.2).val = (recvS b.1 b.2).val := congrArg Fin.val (SemLoc.dma.inj h)
    have h3 : 24 + 8 * a.1.val + a.2.val = 24 + 8 * b.1.val + b.2.val := h2
    have := a.1.isLt; have := b.1.isLt; have := a.2.isLt; have := b.2.isLt
    exact Prod.ext (Fin.ext (by omega)) (Fin.ext (by omega))⟩

omit [FloatOps F] in

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) (fun sm h => ?_)).trans ?_
  · obtain ⟨tk, -, rfl⟩ := Finset.mem_map.mp h
    exact Finset.mem_erase.mpr ⟨fun h' => (by cases h'), Finset.mem_univ _⟩
  · rw [bigSep_map]
    exact bigSep_mono fun tk _ => Entails.of_eq (congrArg cred (launch_recv c tk.1 tk.2))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds_intro (F := F) c) $$ Hcr
  imodintro
  unfold start G' args
  icases HG with ⟨Hg, Hl⟩
  isplitl
  · isplitl [Hg]; · iexact Hg
    isplitl [Hl]; · iexact Hl
    isplitl [Hc]; · iexact Hc
    isplitl [Hlev]; · iexact Hlev
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

def Yout (c : Dev nD) : sProp 𝕄 := iprop(∃ o, ⌜OutSpec m c o⌝ ∗ args m c o)

theorem phi1_exit (c : Dev nD) :
    (dats m 0 c).Φ (Fin.last cfg0.N) ⊢ iprop(Yout m c ∗ Pipeline.ownSems0 osem c ∗ Pipeline.scopedRest cfg0.spec c) := by
  rw [show (dats m 0 c).Φ (Fin.last cfg0.N) = Φ₁ m c from rfl, scopedRest0_eq]
  unfold Φ₁ Yout scratch Pipeline.ownSems0
  iintro ⟨Ho, Hs, Hz⟩
  isplitl [Ho]; · iexact Ho
  isplitl [Hz]; · iexact Hz
  iexact Hs

def QY (c : Dev nD) (s : MemSt nD τ sig (Elt F)) : Prop :=
  OutSpec m c (s.mem ((c : Thread nD τ).loc main_v1))
    ∧ s.mem ((c : Thread nD τ).loc main_arg0) = m ((c : Thread nD τ).loc main_arg0)
    ∧ s.mem ((c : Thread nD τ).loc main_arg1) = m ((c : Thread nD τ).loc main_arg1)

theorem read_out (c : Dev nD) (s' : Phys nD τ sig (Elt F)) :
    iprop(Yout m c ∗ emp ∗ SI s') ⊢ |={Set.univ}=> iprop(⌜QY m c s'.mem⌝ ∗ SI s') := by
  unfold Yout args
  iintro ⟨⟨%o, %ho, Hx, Hw, Ho⟩, -, HSI⟩
  icombine HSI Hx gives %hx
  icombine HSI Hw gives %hw
  icombine HSI Ho gives %hov
  imodintro
  isplitr
  · ipureintro
    unfold QY
    rw [Buf.eq_of_forall_mem_univ hov]
    exact ⟨ho, Buf.eq_of_forall_mem_univ hx, Buf.eq_of_forall_mem_univ hw⟩
  iexact HSI

set_option maxRecDepth 8000 in

theorem run_main_of (G : Dev nD → sProp 𝕄) (u₀ : UU)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' m))
    (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G) (G' := G' m) (u₀ := u₀)
    (hu₀ := hu₀)
    (hglob := hglob)
    (hA := fun _ w => w.elim0) (hpf := fun _ k => k.elim0)
    (X := start m) (Y := Yout m) (Z := fun _ => iprop(emp))
    (hX := start_intro m ρ) (hin := phi0_intro m) (hout := phi1_exit m)
    (QY := QY m)
    (hY := read_out m)
    (hQ := fun _ h c => (h c).2.2)

end Cert.KernelPf

end
-- ==== Proof.Bits.Fund.lean ====
import proofs.«900612_g7700000000000613_dist_a2a_gemm_m4096_k4096_n2048_f32_none_v7x_i4_1_alg».proof.Proof.Bits.Tables

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev CI : Type := Unit ⊕ (TK ⊕ TK)

def csem : CI → SemLoc sig
  | .inl _ => .reg barS
  | .inr (.inl tk) => .dma (sendS tk.1 tk.2)
  | .inr (.inr tk) => .dma (recvS tk.1 tk.2)

abbrev kcell (ck : Dev nD × CI) : GSem nD τ sig := ((ck.1 : Thread nD τ), csem ck.2)

theorem sendS_val_inj {t t' : Fin 3} {k k' : Fin 8} (h : sendS t k = sendS t' k') : (t, k) = (t', k') := by
  have h' : 8 * t.val + k.val = 8 * t'.val + k'.val := congrArg Fin.val h
  have := k.isLt; have := k'.isLt
  exact Prod.ext (Fin.ext (by show t.val = t'.val; omega)) (Fin.ext (by show k.val = k'.val; omega))
theorem recvS_val_inj {t t' : Fin 3} {k k' : Fin 8} (h : recvS t k = recvS t' k') : (t, k) = (t', k') := by
  have h' : 24 + 8 * t.val + k.val = 24 + 8 * t'.val + k'.val := congrArg Fin.val h
  have := k.isLt; have := k'.isLt
  exact Prod.ext (Fin.ext (by show t.val = t'.val; omega)) (Fin.ext (by show k.val = k'.val; omega))
theorem sendS_val_ne_recvS (t t' : Fin 3) (k k' : Fin 8) : sendS t k ≠ recvS t' k' := fun h => by
  have h' : 8 * t.val + k.val = 24 + 8 * t'.val + k'.val := congrArg Fin.val h
  have := t.isLt; have := k.isLt
  omega

theorem csem_injective : Function.Injective csem := by
  rintro (_ | ⟨t, k⟩ | ⟨t, k⟩) (_ | ⟨t', k'⟩ | ⟨t', k'⟩) h
  · rfl
  · cases h
  · cases h
  · cases h
  · exact congrArg (fun x => Sum.inr (Sum.inl x)) (sendS_val_inj (SemLoc.dma.inj h))
  · exact absurd (SemLoc.dma.inj h) (sendS_val_ne_recvS _ _ _ _)
  · cases h
  · exact absurd (SemLoc.dma.inj h).symm (sendS_val_ne_recvS _ _ _ _)
  · exact congrArg (fun x => Sum.inr (Sum.inr x)) (recvS_val_inj (SemLoc.dma.inj h))

theorem kcell_injective : Function.Injective (kcell : Dev nD × CI → GSem nD τ sig) := by
  rintro ⟨c, x⟩ ⟨c', x'⟩ h
  have h1 : c = c' := congrArg (fun g : GSem nD τ sig => g.1.1) h
  have h2 : x = x' := csem_injective (congrArg Prod.snd h)
  rw [h1, h2]

def ringCells : Finset (GSem nD τ sig) := Finset.univ.map ⟨kcell, kcell_injective⟩

theorem bar_mem (c : Dev nD) : barCell c ∈ ringCells := Finset.mem_map.mpr ⟨(c, .inl ()), Finset.mem_univ _, rfl⟩
theorem send_mem (c : Dev nD) (t : Fin 3) (k : Fin 8) : sendCell c t k ∈ ringCells :=
  Finset.mem_map.mpr ⟨(c, .inr (.inl (t, k))), Finset.mem_univ _, rfl⟩
theorem recv_mem (c : Dev nD) (t : Fin 3) (k : Fin 8) : recvCell c t k ∈ ringCells :=
  Finset.mem_map.mpr ⟨(c, .inr (.inr (t, k))), Finset.mem_univ _, rfl⟩

abbrev TI : Type := Fin 3 ⊕ (TK ⊕ TK)

def cellIx : TI → CI
  | .inl _ => .inl ()
  | .inr x => .inr x

def tokOf (cj : Dev nD × TI) : GSem nD τ sig × ℕ × Fin 3 := match cj.2 with
  | .inl e => (barCell cj.1, 0, e)
  | .inr (.inl tk) => (sendCell cj.1 tk.1 tk.2, 0, 0)
  | .inr (.inr tk) => (recvCell cj.1 tk.1 tk.2, 0, 0)

theorem tokOf_cell (cj : Dev nD × TI) : (tokOf cj).1 = kcell (cj.1, cellIx cj.2) := by
  obtain ⟨c, (e | tk | tk)⟩ := cj <;> rfl

theorem tokOf_injective : Function.Injective (tokOf : Dev nD × TI → GSem nD τ sig × ℕ × Fin 3) := by
  rintro ⟨c, x⟩ ⟨c', x'⟩ h
  have hc : (c, cellIx x) = (c', cellIx x') := kcell_injective (by rw [← tokOf_cell (c, x), ← tokOf_cell (c', x'), h])
  have h1 : c = c' := congrArg Prod.fst hc
  have h2 : cellIx x = cellIx x' := congrArg Prod.snd hc
  subst h1
  rcases x with e | y <;> rcases x' with e' | y'
  · have : e = e' := congrArg (fun z : GSem nD τ sig × ℕ × Fin 3 => z.2.2) h
    rw [this]
  · cases h2
  · cases h2
  · rw [Sum.inr.inj h2]

def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

def perCell (Φ : GSem nD τ sig → sProp 𝕄) (c : Dev nD) : sProp 𝕄 :=
  iprop(Φ (barCell c) ∗ bigSep (Finset.univ : Finset TK) fun tk => iprop(Φ (sendCell c tk.1 tk.2) ∗ Φ (recvCell c tk.1 tk.2)))

def toks (c : Dev nD) : sProp 𝕄 :=
  iprop((bigSep (Finset.univ : Finset (Fin 3)) fun e => dutyTok ER (barCell c) 0 e)
    ∗ bigSep (Finset.univ : Finset TK) fun tk => iprop(dutyTok ER (sendCell c tk.1 tk.2) 0 (0 : Fin 3) ∗ dutyTok ER (recvCell c tk.1 tk.2) 0 (0 : Fin 3)))

def G (c : Dev nD) : sProp 𝕄 :=
  iprop(perCell (fun g => roundState ER (sch m) g 0) c ∗ perCell (fun g => atPos ER g 0 ∅ 0) c ∗ perCell (fun g => reached ER g 0) c ∗ toks c)

theorem bigSep_ringCells (Φ : GSem nD τ sig → sProp 𝕄) : bigSep ringCells Φ = bigSep Finset.univ (perCell Φ) := by
  unfold ringCells
  rw [bigSep_map, bigSep_univ_prod]
  refine bigSep_congr fun c _ => ?_
  rw [bigSep_univ_sum, bigSep_univ_sum, bigSep_univ_of_subsingleton ()]
  unfold perCell
  rw [bigSep_sep']
  rfl

theorem bigSep_ringToks : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  rw [bigSep_univ_sum, bigSep_univ_sum]
  unfold toks
  rw [bigSep_sep']
  rfl

theorem fund_ring : BI.own (ER (initOf ringCells ringToks)) ⊢ (|==> bigSep Finset.univ (G m) : sProp 𝕄) := by
  iintro HX
  imod (Rounds.fund ER (sch m) ringCells ringToks) $$ HX with ⟨Hst, Hr, Hat, Htok⟩
  imodintro
  ihave Hst' := (Entails.of_eq (bigSep_ringCells fun g => roundState ER (sch m) g 0)) $$ Hst
  ihave Hat' := (Entails.of_eq (bigSep_ringCells fun g => (atPos ER g 0 ∅ 0 : sProp 𝕄))) $$ Hat
  ihave Hr' := (Entails.of_eq (bigSep_ringCells fun g => (reached ER g 0 : sProp 𝕄))) $$ Hr
  ihave Htok' := (Entails.of_eq (bigSep_ringToks (F := F))) $$ Htok
  unfold G; simp only [bigSep_sep']
  isplitl [Hst']; · iexact Hst'
  isplitl [Hat']; · iexact Hat'
  isplitl [Hr']; · iexact Hr'
  iexact Htok'

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H' := (own_pair_emb embR _ _) $$ HX
  icases H' with ⟨HR, -⟩
  imod (fund_ring m) $$ HR with HG
  imodintro
  isplitl [HP] <;> iassumption

def semIx : TK ⊕ (TK ⊕ Fin 16) → Fin 64
  | .inl tk => sendS tk.1 tk.2
  | .inr (.inl tk) => recvS tk.1 tk.2
  | .inr (.inr i) => locS i

def semIxInv (n : Fin 64) : TK ⊕ (TK ⊕ Fin 16) :=
  if h : n.val < 24 then .inl (tOf n.val, kOf n.val)
  else if h' : n.val < 48 then .inr (.inl (tOf n.val, kOf n.val))
  else .inr (.inr ⟨n.val - 48, by have := n.isLt; omega⟩)

def semEquiv : TK ⊕ (TK ⊕ Fin 16) ≃ Fin 64 := ⟨semIx, semIxInv, by decide, by decide⟩

theorem ownSems0_eq (c : Dev nD) : (Pipeline.ownSems0 (Ix := Unit) (Name := ℕ) (U := UU) (Lvl := ℕ) (Val := Elt F) (τ := τ) osem c : sProp 𝕄)
    = iprop((bigSep (Finset.univ : Finset TK) fun tk => semVal (sendCell c tk.1 tk.2) 0)
        ∗ (bigSep (Finset.univ : Finset TK) fun tk => semVal (recvCell c tk.1 tk.2) 0) ∗ localSems c) := by
  unfold Pipeline.ownSems0 localSems
  rw [bigSep_univ_equiv semEquiv, bigSep_univ_sum, bigSep_univ_sum]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop(perCell (fun g => semVal g 0) c ∗ localSems c) : sProp 𝕄) := by
  rw [ownSems0_eq, unscopedSems0_eq]
  unfold perCell
  rw [bigSep_sep']
  iintro ⟨⟨HS, HV, HL⟩, HB⟩
  isplitr [HL]
  · isplitl [HB]; · iexact HB
    isplitl [HS] <;> iassumption
  · iexact HL

theorem allocs : iprop(bigSep ringCells (fun g => semVal g 0) ∗ bigSep ringCells (fun g => roundState ER (sch m) g 0))
    ⊢ (|={Set.univ}=> ∃ K : GSem nD τ sig → ℕ, bigSep ringCells fun g => cellInv ER (sch m) (K g) g : sProp 𝕄) := by
  rw [← bigSep_sep']
  exact ((bigSep_mono fun g _ => (Rounds.body_intro ER (sch m) g).trans inv_alloc).trans (bigSep_fupd _ _)).trans
    (BI.fupd_mono (BI.bigSep_exists_pi ringCells fun g (κ : ℕ) => (cellInv ER (sch m) κ g : sProp 𝕄)))

def records (K : GSem nD τ sig → ℕ) : sProp 𝕄 :=
  iprop((bigSep ringCells fun g => cellInv ER (sch m) (K g) g) ∗ bigSep ringCells fun g => reached ER g 0)

instance records_persistent (K : GSem nD τ sig → ℕ) : BI.Persistent (records m K) := by unfold records; infer_instance

theorem inv_at (K : GSem nD τ sig → ℕ) {g : GSem nD τ sig} (hg : g ∈ ringCells) : records m K ⊢ cellInv ER (sch m) (K g) g :=
  (show records m K ⊢ bigSep ringCells fun g => cellInv ER (sch m) (K g) g from by unfold records; iintro ⟨H, -⟩; iexact H).trans (bigSep_elim hg)
theorem reached_at (K : GSem nD τ sig → ℕ) {g : GSem nD τ sig} (hg : g ∈ ringCells) : records m K ⊢ reached ER g 0 :=
  (show records m K ⊢ bigSep ringCells fun g => (reached ER g 0 : sProp 𝕄) from by unfold records; iintro ⟨-, H⟩; iexact H).trans (bigSep_elim hg)

theorem pers_sep {R A B : sProp 𝕄} [BI.Persistent R] (hA : R ⊢ A) (hB : R ⊢ B) : R ⊢ iprop(A ∗ B) := by
  iintro #H
  isplitr
  · iapply hA; iexact H
  · iapply hB; iexact H

theorem invs_of_records (K : GSem nD τ sig → ℕ) (c : Dev nD) : records m K ⊢ invs m K c := by
  unfold invs
  exact pers_sep (inv_at m K (bar_mem c)) (pers_sep
    (BI.bigSep_intro_persistent fun e _ => inv_at m K (bar_mem (peer c (e.val + 1))))
    (BI.bigSep_intro_persistent fun tk _ => pers_sep (inv_at m K (send_mem c tk.1 tk.2))
      (pers_sep (inv_at m K (recv_mem c tk.1 tk.2)) (inv_at m K (recv_mem (peer c (dOf tk.1)) tk.1 tk.2)))))

theorem reacheds_of_records (K : GSem nD τ sig → ℕ) (c : Dev nD) : records m K ⊢ reacheds c := by
  unfold reacheds
  exact pers_sep (reached_at m K (bar_mem c)) (pers_sep
    (BI.bigSep_intro_persistent fun e _ => reached_at m K (bar_mem (peer c (e.val + 1))))
    (BI.bigSep_intro_persistent fun tk _ => pers_sep (reached_at m K (send_mem c tk.1 tk.2))
      (pers_sep (reached_at m K (recv_mem c tk.1 tk.2)) (reached_at m K (recv_mem (peer c (dOf tk.1)) tk.1 tk.2)))))

def payToks (c : Dev nD) : sProp 𝕄 :=
  iprop((bigSep (Finset.univ : Finset (Fin 3)) fun e => dutyTok ER (barCell (peer c (e.val + 1))) 0 e)
    ∗ (bigSep (Finset.univ : Finset TK) fun tk => iprop(dutyTok ER (sendCell c tk.1 tk.2) 0 (0 : Fin 3)
        ∗ dutyTok ER (recvCell (peer c (dOf tk.1)) tk.1 tk.2) 0 (0 : Fin 3))))

def peerE (d : ℕ) : Dev nD ≃ Dev nD where
  toFun c := peer c d
  invFun c := peer c (4 - d % 4)
  left_inv c := by
    have h : c.val < 4 := c.isLt
    exact Fin.ext (by simp only [peer]; omega)
  right_inv c := by
    have h : c.val < 4 := c.isLt
    exact Fin.ext (by simp only [peer]; omega)

theorem toks_around : (bigSep Finset.univ fun c : Dev nD => (toks c : sProp 𝕄)) ⊢ bigSep Finset.univ fun c : Dev nD => payToks c := by
  have hb : (bigSep Finset.univ fun c : Dev nD => bigSep Finset.univ fun e : Fin 3 => (dutyTok ER (barCell c) 0 e : sProp 𝕄))
      = bigSep Finset.univ fun c : Dev nD => bigSep Finset.univ fun e : Fin 3 => (dutyTok ER (barCell (peer c (e.val + 1))) 0 e : sProp 𝕄) := by
    rw [bigSep_univ_comm, bigSep_congr (s := Finset.univ) fun (e : Fin 3) _ =>
      bigSep_univ_equiv (peerE (e.val + 1)) fun c : Dev nD => (dutyTok ER (barCell c) 0 e : sProp 𝕄), bigSep_univ_comm]
    rfl
  have hr : (bigSep Finset.univ fun c : Dev nD => bigSep Finset.univ fun tk : TK => (dutyTok ER (recvCell c tk.1 tk.2) 0 (0 : Fin 3) : sProp 𝕄))
      = bigSep Finset.univ fun c : Dev nD => bigSep Finset.univ fun tk : TK => (dutyTok ER (recvCell (peer c (dOf tk.1)) tk.1 tk.2) 0 (0 : Fin 3) : sProp 𝕄) := by
    rw [bigSep_univ_comm, bigSep_congr (s := Finset.univ) fun (tk : TK) _ =>
      bigSep_univ_equiv (peerE (dOf tk.1)) fun c : Dev nD => (dutyTok ER (recvCell c tk.1 tk.2) 0 (0 : Fin 3) : sProp 𝕄), bigSep_univ_comm]
    rfl
  unfold toks payToks
  simp only [bigSep_sep']
  rw [hb, hr]

theorem ghost_intro (K : GSem nD τ sig → ℕ) (c : Dev nD) :
    iprop(records m K ∗ (perCell (fun g => atPos ER g 0 ∅ 0) c ∗ payToks c ∗ localSems c)) ⊢ G' m c := by
  unfold G' ghost
  iintro ⟨#HR, Hat, Htk, HL⟩
  isplitr [HL]
  · iexists K
    isplitr
    · iapply (invs_of_records m K c); iexact HR
    isplitr
    · iapply (reacheds_of_records m K c); iexact HR
    · unfold linear perCell payToks
      icases Hat with ⟨Hb, Hsr⟩
      icases Htk with ⟨Ht3, Ht24⟩
      isplitl [Hb]; · iexact Hb
      isplitl [Hsr]; · iexact Hsr
      isplitl [Ht3]; · iexact Ht3
      iexact Ht24
  · iexact HL

theorem perdev (c : Dev nD) :
    iprop(Pipeline.ownSems0 (Ix := Unit) (Name := ℕ) (U := UU) (Lvl := ℕ) (Val := Elt F) (τ := τ) osem c ∗ unscopedSems0 c ∗ G m c)
      ⊢ (iprop(perCell (fun g => semVal g 0) c ∗ perCell (fun g => roundState ER (sch m) g 0) c ∗ localSems c
          ∗ perCell (fun g => atPos ER g 0 ∅ 0) c ∗ perCell (fun g => reached ER g 0) c ∗ toks c) : sProp 𝕄) := by
  unfold G
  iintro ⟨Hos, Hus, Hst, Hat, Hr, Htok⟩
  ihave Hv := (sems0_split (F := F) c) $$ [Hos Hus]
  · isplitl [Hos] <;> iassumption
  icases Hv with ⟨Hv, HL⟩
  isplitl [Hv]; · iexact Hv
  isplitl [Hst]; · iexact Hst
  isplitl [HL]; · iexact HL
  isplitl [Hat]; · iexact Hat
  isplitl [Hr]; · iexact Hr
  iexact Htok

theorem glob_mesh :
    (iprop((bigSep ringCells fun g => semVal g 0) ∗ (bigSep ringCells fun g => roundState ER (sch m) g 0) ∗ bigSep Finset.univ localSems
      ∗ (bigSep ringCells fun g => atPos ER g 0 ∅ 0) ∗ (bigSep ringCells fun g => reached ER g 0) ∗ bigSep Finset.univ toks) : sProp 𝕄)
    ⊢ |={Set.univ}=> bigSep Finset.univ (G' m) := by
  iintro ⟨Hv, Hst, HL, Hat, #Hr, Htok⟩
  imod (allocs m) $$ [Hv Hst] with ⟨%K, #HI⟩
  · isplitl [Hv] <;> iassumption
  imodintro
  ihave Htk := (toks_around (F := F)) $$ Htok
  ihave Hat' := (Entails.of_eq (bigSep_ringCells fun g => (atPos ER g 0 ∅ 0 : sProp 𝕄))) $$ Hat
  iapply (BI.bigSep_with_persistent (R := records m K) fun c _ => ghost_intro m K c)
  isplitr
  · unfold records; isplitl; · iexact HI
    iexact Hr
  · simp only [bigSep_sep']
    isplitl [Hat']; · iexact Hat'
    isplitl [Htk]; · iexact Htk
    iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine (bigSep_mono fun c _ => perdev m c).trans ?_
  simp only [bigSep_sep']
  rw [← bigSep_ringCells, ← bigSep_ringCells, ← bigSep_ringCells, ← bigSep_ringCells]
  exact glob_mesh m

end Cert.KernelPf

end
-- ==== Proof.Bits.BodyOb.lean ====
import proofs.«900612_g7700000000000613_dist_a2a_gemm_m4096_k4096_n2048_f32_none_v7x_i4_1_alg».proof.Proof.Bits.Proto
import Idealize.ShloMosaic.Lib.Pipeline.Kit
import Idealize.ShloMosaic.Lib.Tactic

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem bigSep_noWin (Φ : Fin cfg0.W → sProp 𝕄) : bigSep Finset.univ Φ = iprop(emp) := by
  rw [Finset.univ_eq_empty]; rfl

theorem body_obligation_of
    (hsound : ∀ c : Dev nD, bodyPre m c ⊢ wp frame (wpE (defs₀ (F := F)) 𝒱₀ (c : Thread nD τ) none) Set.univ (Gen.bodyAt0 (F := F) t₀) (fun _ => bodyPost m c))
    (c : Dev nD) : BodyObligation (dats (F := F) m 0 c) (defs₀ (F := F)) 𝒱₀ () Set.univ := fun t => by
  rw [fin_N t, bigSep_noWin, bigSep_noWin, show (dats m 0 c).Φ t₀.castSucc = Φ₀ m c from rfl, show (dats m 0 c).Φ t₀.succ = Φ₁ m c from rfl]
  refine (show _ ⊢ bodyPre m c from ?_).trans ((hsound c).trans (wp_mono _ _ _ fun _ => ?_))
  · unfold bodyPre
    iintro ⟨HΦ, HO, -⟩
    isplitl [HΦ]; · iexact HΦ
    iexact HO
  · unfold bodyPost
    iintro ⟨HΦ, HO⟩
    isplitl [HΦ]; · iexact HΦ
    isplitl [HO]; · iexact HO
    iempintro

end Cert.KernelPf

end
-- ==== Proof.Bits.Run.lean ====
import proofs.«900612_g7700000000000613_dist_a2a_gemm_m4096_k4096_n2048_f32_none_v7x_i4_1_alg».proof.Proof.Bits.Launch
import proofs.«900612_g7700000000000613_dist_a2a_gemm_m4096_k4096_n2048_f32_none_v7x_i4_1_alg».proof.Proof.Bits.Fund
import proofs.«900612_g7700000000000613_dist_a2a_gemm_m4096_k4096_n2048_f32_none_v7x_i4_1_alg».proof.Proof.Bits.BodyOb

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_main
    (hsound : ∀ c : Dev nD, bodyPre m c ⊢ wp frame (wpE (defs₀ (F := F)) 𝒱₀ (c : Thread nD τ) none) Set.univ (Gen.bodyAt0 (F := F) t₀) (fun _ => bodyPost m c)) :
    θ_run defs (onTc (τ := τ) (main (F := F))) ⟨m, fun _ => 0, ρ⟩ (QC m) :=
  run_main_of m ρ (G m) u₀ (hu₀ m) (glob m) (body_obligation_of m hsound)

end Cert.KernelPf

end
-- ==== Proof.Moves.lean ====
import proofs.«900612_g7700000000000613_dist_a2a_gemm_m4096_k4096_n2048_f32_none_v7x_i4_1_alg».proof.Proof.Proto0
import Idealize.ShloMosaic.Lib.Pipeline.Value
import Idealize.ShloMosaic.Lib.ValueIdx
import Idealize.ShloMosaic.Lib.ValueLayout

noncomputable section

namespace Cert.A2aGemm.Moves

open Idealize.ShloMosaic Idealize.ShloMosaic.ValueIdx Idealize.ShloMosaic.TcCoe
open Cert.KernelIdeal Cert.KernelIdeal.Gen Cert.KernelIdealPf

def at8 (k : Fin 8) (r : Fin 128) : Fin 1024 := ⟨128 * k.val + r.val, by omega⟩

@[simp] theorem at8_val (k : Fin 8) (r : Fin 128) : (at8 k r).val = 128 * k.val + r.val := rfl

theorem chunkRect_emb (i : Fin 3) (k : Fin 8) (u : Fin 1) (r : Fin 128) (q : Fin 1024) :
    (chunkRect i k).emb (ix3 u r q) = ix3 i (at8 k r) q := by
  have hu : u.val = 0 := by omega
  funext a
  match a with
  | ⟨0, _⟩ => exact Fin.ext (by show i.val + 1 * u.val = i.val; omega)
  | ⟨1, _⟩ => exact Fin.ext (by show 128 * k.val + 1 * r.val = 128 * k.val + r.val; omega)
  | ⟨2, _⟩ => exact Fin.ext (by show 0 + 1 * q.val = q.val; omega)

section Views
variable {Val : EltTy → Type}

theorem read_whole (b : Ref sig .tc) (f : b.ty.Contents Val) : (View.whole b : View sig .tc _ _ _).read Val f = f := rfl

theorem read_chunkM (M : Memref sig .tc .vmem S3x1024x1024 .bf16) (i : Fin 3) (k : Fin 8) (f : M.view.ty.Contents Val)
    (r : Fin 128) (q : Fin 1024) :
    (chunkM M i k).view.read Val f (ix2 r q) = M.view.read Val f (ix3 i (at8 k r) q) := by
  show M.view.read Val f ((chunkRect i k).emb (Shape.reshapeEquiv _ (ix2 r q))) = _
  rw [reshapeEquiv_ix2_1ab, chunkRect_emb]

theorem read_access_chunk (M : Memref sig .tc .vmem S3x1024x1024 .bf16) (i : Fin 3) (k : Fin 8) (f : M.view.ty.Contents Val)
    (u : Fin 1) (r : Fin 128) (q : Fin 1024) :
    (M.access (chunkRect i k)).read Val f (ix3 u r q) = M.view.read Val f (ix3 i (at8 k r) q) := by
  show M.view.read Val f ((chunkRect i k).emb (ix3 u r q)) = _
  rw [chunkRect_emb]

theorem readAt_chunk (M : Memref sig .tc .vmem S3x1024x1024 .bf16) (i : Fin 3) (k : Fin 8) (f : M.view.ty.Contents Val)
    (u : Fin 1) (r : Fin 128) (q : Fin 1024) :
    M.view.readAt Val (chunkRect i k).toLoadRect f (ix3 u r q) = M.view.read Val f (ix3 i (at8 k r) q) :=
  read_access_chunk M i k f u r q

theorem read_chunkM_write_access (M : Memref sig .tc .vmem S3x1024x1024 .bf16) (i : Fin 3) (k : Fin 8) (f : M.view.ty.Contents Val)
    (v : S1x128x1024.Idx → Val .bf16) (r : Fin 128) (q : Fin 1024) :
    (chunkM M i k).view.read Val ((M.access (chunkRect i k)).write Val f v Finset.univ) (ix2 r q)
      = v (ix3 (0 : Fin 1) r q) := by
  show (M.access (chunkRect i k)).read Val ((M.access (chunkRect i k)).write Val f v Finset.univ)
      (Shape.reshapeEquiv _ (ix2 r q)) = _
  rw [View.read_write_univ, reshapeEquiv_ix2_1ab]
  rfl

theorem read_chunkM_write_access_eq (M : Memref sig .tc .vmem S3x1024x1024 .bf16) (i : Fin 3) (k : Fin 8) (f : M.view.ty.Contents Val)
    (v : S1x128x1024.Idx → Val .bf16) :
    (chunkM M i k).view.read Val ((M.access (chunkRect i k)).write Val f v Finset.univ)
      = fun j : S128x1024.Idx => v (ix3 (0 : Fin 1) (j 0) (j 1)) := by
  funext j
  obtain ⟨r, q, rfl⟩ : ∃ (r : Fin 128) (q : Fin 1024), j = ix2 r q := ⟨j 0, j 1, eq_ix2 j⟩
  exact read_chunkM_write_access M i k f v r q

end Views

theorem off1_eq (c : Dev nD) (r₁ : Fin 3) (r₂ : Fin 8) :
    k0_off1 c (BitVec.ofNat 32 (1 + r₁.val)) (BitVec.ofNat 32 (128 * r₂.val))
      = ![1024 * ((c.val + 1 + r₁.val) % 4) + 128 * r₂.val, 0] := by
  revert c r₁ r₂; decide +kernel

theorem off3_eq (c : Dev nD) (r : Fin 4) :
    k0_off3 c (BitVec.ofNat 32 r.val) = ![1024 * ((c.val + r.val) % 4), 0] := by
  revert c r; decide +kernel

theorem off2_eq (c : Dev nD) : k0_off2 c = ![1024 * c.val, 0] := by
  revert c; decide +kernel

theorem one_add_cTile (t : Fin 3) : 1 + (cTile t).val = dOf t := by revert t; decide

section Staged
variable {Val : EltTy → Type}

def srcRow (s : Dev nD) (t : Fin 3) (k : Fin 8) (r : Fin 128) : Fin 4096 :=
  ⟨1024 * ((s.val + dOf t) % 4) + 128 * k.val + r.val, by have := Nat.mod_lt (s.val + dOf t) (show 0 < 4 by decide); omega⟩

@[simp] theorem srcRow_val (s : Dev nD) (t : Fin 3) (k : Fin 8) (r : Fin 128) :
    (srcRow s t k r).val = 1024 * ((s.val + dOf t) % 4) + 128 * k.val + r.val := rfl

theorem xSlice_emb (s : Dev nD) (t : Fin 3) (k : Fin 8) (r : Fin 128) (q : Fin 1024) :
    (xSlice s t k).view.emb (ix2 r q) = ix2 (srcRow s t k r) q := by
  funext a
  match a with
  | ⟨0, _⟩ =>
    refine Fin.ext ?_
    show k0_off1 s (BitVec.ofNat 32 (1 + (cTile t).val)) (BitVec.ofNat 32 (128 * k.val)) 0 + 1 * r.val = _
    rw [off1_eq, Nat.add_assoc s.val, one_add_cTile]
    show 1024 * ((s.val + dOf t) % 4) + 128 * k.val + 1 * r.val = 1024 * ((s.val + dOf t) % 4) + 128 * k.val + r.val
    omega
  | ⟨1, _⟩ =>
    refine Fin.ext ?_
    show k0_off1 s (BitVec.ofNat 32 (1 + (cTile t).val)) (BitVec.ofNat 32 (128 * k.val)) 1 + 1 * q.val = _
    rw [off1_eq]
    show 0 + 1 * q.val = q.val
    omega

theorem read_xSlice (s : Dev nD) (t : Fin 3) (k : Fin 8) (x : (⟨S4096x1024, .f32⟩ : BufTy).Contents Val) (r : Fin 128) (q : Fin 1024) :
    (xSlice s t k).view.read Val x (ix2 r q) = x (ix2 (srcRow s t k r) q) := by
  show x ((xSlice s t k).view.emb (ix2 r q)) = _
  rw [xSlice_emb]

end Staged

theorem sentVal_apply (m : (ℓ : Loc nD τ sig) → Buf (Elt Ideal) ℓ) (s : Dev nD) (t : Fin 3) (k : Fin 8) (r : Fin 128) (q : Fin 1024) :
    sentVal (F := Ideal) m s t k (ix2 r q) = m ((s : Thread nD τ).loc main_arg0) (ix2 (srcRow s t k r) q) := by
  unfold sentVal
  rw [truncf_apply, read_xSlice]

end Cert.A2aGemm.Moves

end
-- ==== Proof.KernelDot.lean ====
import proofs.«900612_g7700000000000613_dist_a2a_gemm_m4096_k4096_n2048_f32_none_v7x_i4_1_alg».proof.Proof.Gen.KernelIdeal
import Idealize.ShloMosaic.Lib.ValueIdx
import Idealize.ShloMosaic.PureOps.Ideal.Laws

noncomputable section

namespace Cert.A2aGemm.KernelDot

open Idealize.ShloMosaic Idealize.ShloMosaic.ValueIdx
open Cert.KernelIdeal Cert.KernelIdeal.Gen

theorem lhs_mm1024_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem lhs_mm1024_1 (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem rhs_mm1024_0 (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem rhs_mm1024_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

theorem mm1024_apply {φ₁ φ₂ : FTy} (l : FVec Ideal S1024x1024 φ₁) (r : FVec Ideal S1024x2048 φ₂) (p : Fin 1024) (j : Fin 2048) :
    matmul (F := Ideal) dot_S1024x1024_S1024x2048_S1024x2048_1_0_0_1_n_n none l r (constant (F := Ideal) S1024x2048 .f32 0x00000000#32) (ix2 p j)
      = ∑ q : Fin 1024, l (ix2 p q) * r (ix2 q j) := by
  show FloatOps.matmul dot_S1024x1024_S1024x2048_S1024x2048_1_0_0_1_n_n none l r (constant S1024x2048 .f32 0x00000000#32) (ix2 p j) = _
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 p j) ((contrEquiv1 dot_S1024x1024_S1024x2048_S1024x2048_1_0_0_1_n_n 1024 rfl rfl).symm k) = ix2 p k := funext fun a => Fin.ext (by
    match a with
    | ⟨0, _⟩ => exact lhs_mm1024_0 _ _
    | ⟨1, _⟩ => exact (lhs_mm1024_1 _ _).trans hk)
  have er : dot_S1024x1024_S1024x2048_S1024x2048_1_0_0_1_n_n.rhsIdx (ix2 p j) ((contrEquiv1 dot_S1024x1024_S1024x2048_S1024x2048_1_0_0_1_n_n 1024 rfl rfl).symm k) = ix2 k j := funext fun a => Fin.ext (by
    match a with
    | ⟨0, _⟩ => exact (rhs_mm1024_0 _ _).trans hk
    | ⟨1, _⟩ => exact rhs_mm1024_1 _ _)
  rw [el, er]

theorem lhs_mm128_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem lhs_mm128_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
theorem rhs_mm128_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
theorem rhs_mm128_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

theorem mm128_apply {φ₁ φ₂ : FTy} (l : FVec Ideal S128x1024 φ₁) (r : FVec Ideal S1024x2048 φ₂) (p : Fin 128) (j : Fin 2048) :
    matmul (F := Ideal) dot_S128x1024_S1024x2048_S128x2048_1_0_0_1_n_n none l r (constant (F := Ideal) S128x2048 .f32 0x00000000#32) (ix2 p j)
      = ∑ q : Fin 1024, l (ix2 p q) * r (ix2 q j) := by
  show FloatOps.matmul dot_S128x1024_S1024x2048_S128x2048_1_0_0_1_n_n none l r (constant S128x2048 .f32 0x00000000#32) (ix2 p j) = _
  rw [Ideal.matmul_constant_zero_apply, ← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p j) ((contrEquiv1 dot_S128x1024_S1024x2048_S128x2048_1_0_0_1_n_n 1024 rfl rfl).symm k) = ix2 p k := funext fun a => Fin.ext (by
    match a with
    | ⟨0, _⟩ => exact lhs_mm128_0 _ _
    | ⟨1, _⟩ => exact (lhs_mm128_1 _ _).trans hk)
  have er : dot_S128x1024_S1024x2048_S128x2048_1_0_0_1_n_n.rhsIdx (ix2 p j) ((contrEquiv1 dot_S128x1024_S1024x2048_S128x2048_1_0_0_1_n_n 1024 rfl rfl).symm k) = ix2 k j := funext fun a => Fin.ext (by
    match a with
    | ⟨0, _⟩ => exact (rhs_mm128_0 _ _).trans hk
    | ⟨1, _⟩ => exact rhs_mm128_1 _ _)
  rw [el, er]

end Cert.A2aGemm.KernelDot

end
-- ==== Proof.PayloadValue.lean ====
import proofs.«900612_g7700000000000613_dist_a2a_gemm_m4096_k4096_n2048_f32_none_v7x_i4_1_alg».proof.Proof.Gen.KernelIdeal.Skeleton
import proofs.«900612_g7700000000000613_dist_a2a_gemm_m4096_k4096_n2048_f32_none_v7x_i4_1_alg».proof.Proof.KernelDot
import Idealize.ShloMosaic.Lib.ValueIdx
import Idealize.ShloMosaic.Lib.ValueLayout
import Idealize.ShloMosaic.Lib.Pipeline.Value
import Idealize.ShloMosaic.PureOps.Ideal.Laws

noncomputable section

namespace Cert.A2aGemm.PayloadValue

open Idealize.ShloMosaic Idealize.ShloMosaic.ValueIdx
open Cert.KernelIdeal Cert.KernelIdeal.Gen

theorem pay29_apply_sum (a : Vec Ideal S1024x1024 .f32) (w : Vec Ideal S1x1024x2048 .f32) (p : Fin 1024) (j : Fin 2048) :
    k0_pay29 (F := Ideal) a w (ix2 p j) = ∑ q : Fin 1024, a (ix2 p q) * w (ix3 (0 : Fin 1) q j) := by
  unfold k0_pay29
  rw [shapeCast_self, KernelDot.mm1024_apply]
  refine Finset.sum_congr rfl fun q _ => ?_
  rw [shapeCast_1ab_ab_apply]

theorem pay29_apply (a : Vec Ideal S1024x1024 .f32) (w : Vec Ideal S1x1024x2048 .f32) (p : Fin 1024) (j : Fin 2048) :
    k0_pay29 (F := Ideal) a w (ix2 p j) = 0 + ∑ q : Fin 1024, a (ix2 p q) * w (ix3 (0 : Fin 1) q j) := by
  rw [pay29_apply_sum, zero_add]

theorem chunkUpd_apply_sum (acc : Vec Ideal S128x2048 .f32) (cm : Vec Ideal S1x128x1024 .bf16) (w : Vec Ideal S1x1024x2048 .f32)
    (p : Fin 128) (j : Fin 2048) :
    k0_pay30 (F := Ideal) acc cm w (ix2 p j)
      = acc (ix2 p j) + ∑ q : Fin 1024, cm (ix3 (0 : Fin 1) p q) * w (ix3 (0 : Fin 1) q j) := by
  unfold k0_pay30
  rw [shapeCast_self, addf_apply, KernelDot.mm128_apply]
  refine congrArg (acc (ix2 p j) + ·) (Finset.sum_congr rfl fun q _ => ?_)
  rw [extf_apply, shapeCast_1ab_ab_apply, shapeCast_1ab_ab_apply]

theorem chunkUpd_apply (acc : Vec Ideal S128x2048 .f32) (cm : Vec Ideal S1x128x1024 .bf16) (w : Vec Ideal S1x1024x2048 .f32)
    (p : Fin 128) (j : Fin 2048) :
    k0_pay30 (F := Ideal) acc cm w (ix2 p j)
      = acc (ix2 p j) + (0 + ∑ q : Fin 1024, cm (ix3 (0 : Fin 1) p q) * w (ix3 (0 : Fin 1) q j)) := by
  rw [chunkUpd_apply_sum, zero_add]

section Same
variable {F : FTy → Type} [FloatOps F]

end Same

end Cert.A2aGemm.PayloadValue

end
-- ==== Proof.BlockSum.lean ====
import Idealize.ShloMosaic.PureOps.Ideal
import Mathlib.Algebra.BigOperators.Fin
import Mathlib.Logic.Equiv.Fin.Basic
import Mathlib.Tactic.Abel

open scoped BigOperators

namespace Cert.A2aGemm

def at4 (b : Fin 4) (q : Fin 1024) : Fin 4096 := ⟨1024 * b.val + q.val, by omega⟩

@[simp] theorem at4_val (b : Fin 4) (q : Fin 1024) : (at4 b q).val = 1024 * b.val + q.val := rfl

namespace BlockSum

theorem sum_blocks {M : Type*} [AddCommMonoid M] (m n : ℕ) (f : Fin (m * n) → M) :
    ∑ k, f k = ∑ b : Fin m, ∑ q : Fin n, f (finProdFinEquiv (b, q)) := by
  rw [← Equiv.sum_comp finProdFinEquiv f, Fintype.sum_prod_type]

theorem sum_fin4096 {M : Type*} [AddCommMonoid M] (f : Fin 4096 → M) :
    ∑ k, f k = ∑ b : Fin 4, ∑ q : Fin 1024, f ⟨1024 * b.val + q.val, by omega⟩ := by
  have h := sum_blocks 4 1024 (M := M) (fun k => f ⟨k.val, k.isLt⟩)
  refine h.trans ?_
  refine Finset.sum_congr rfl fun b _ => Finset.sum_congr rfl fun q _ => ?_
  exact congrArg f (Fin.ext (by simp [finProdFinEquiv]; omega))

theorem sum_fin4096_at4 {M : Type*} [AddCommMonoid M] (f : Fin 4096 → M) :
    ∑ k, f k = ∑ b : Fin 4, ∑ q : Fin 1024, f (at4 b q) := sum_fin4096 f

theorem rot4_sum {M : Type*} [AddCommMonoid M] (g : Fin 4 → M) (c : Fin 4) :
    ((g c + g ⟨(c.val + 3) % 4, Nat.mod_lt _ (by norm_num)⟩) + g ⟨(c.val + 1) % 4, Nat.mod_lt _ (by norm_num)⟩)
      + g ⟨(c.val + 2) % 4, Nat.mod_lt _ (by norm_num)⟩ = ∑ b, g b := by
  rw [Fin.sum_univ_four]
  fin_cases c <;> simp <;> abel

theorem rot4_sum_of_val {M : Type*} [AddCommMonoid M] (g : Fin 4 → M) (c b1 b3 b2 : Fin 4)
    (h1 : b1.val = (c.val + 3) % 4) (h3 : b3.val = (c.val + 1) % 4) (h2 : b2.val = (c.val + 2) % 4) :
    ((g c + g b1) + g b3) + g b2 = ∑ b, g b := by
  have e1 : b1 = ⟨(c.val + 3) % 4, Nat.mod_lt _ (by norm_num)⟩ := Fin.ext h1
  have e3 : b3 = ⟨(c.val + 1) % 4, Nat.mod_lt _ (by norm_num)⟩ := Fin.ext h3
  have e2 : b2 = ⟨(c.val + 2) % 4, Nat.mod_lt _ (by norm_num)⟩ := Fin.ext h2
  rw [e1, e3, e2]; exact rot4_sum g c

theorem blocked_matmul (X : Fin 4096 → Fin 4096 → EReal) (W : Fin 4096 → Fin 2048 → EReal)
    (r : Fin 4096) (j : Fin 2048) (c b1 b3 b2 : Fin 4)
    (h1 : b1.val = (c.val + 3) % 4) (h3 : b3.val = (c.val + 1) % 4) (h2 : b2.val = (c.val + 2) % 4) :
    (((∑ q : Fin 1024, X r (at4 c q) * W (at4 c q) j)
        + ∑ q : Fin 1024, X r (at4 b1 q) * W (at4 b1 q) j)
        + ∑ q : Fin 1024, X r (at4 b3 q) * W (at4 b3 q) j)
        + ∑ q : Fin 1024, X r (at4 b2 q) * W (at4 b2 q) j
      = ∑ k : Fin 4096, X r k * W k j := by
  rw [sum_fin4096_at4 (fun k => X r k * W k j)]
  exact rot4_sum_of_val (fun b => ∑ q : Fin 1024, X r (at4 b q) * W (at4 b q) j) c b1 b3 b2 h1 h3 h2

theorem blocked_matmul_of_blocks (X : Fin 4096 → Fin 4096 → EReal) (W : Fin 4096 → Fin 2048 → EReal)
    (x : Fin 4 → Fin 4096 → Fin 1024 → EReal) (hx : ∀ b r q, x b r q = X r (at4 b q))
    (r : Fin 4096) (j : Fin 2048) (c b1 b3 b2 : Fin 4)
    (h1 : b1.val = (c.val + 3) % 4) (h3 : b3.val = (c.val + 1) % 4) (h2 : b2.val = (c.val + 2) % 4) :
    (((∑ q : Fin 1024, x c r q * W (at4 c q) j)
        + ∑ q : Fin 1024, x b1 r q * W (at4 b1 q) j)
        + ∑ q : Fin 1024, x b3 r q * W (at4 b3 q) j)
        + ∑ q : Fin 1024, x b2 r q * W (at4 b2 q) j
      = ∑ k : Fin 4096, X r k * W k j := by
  simp only [hx]
  exact blocked_matmul X W r j c b1 b3 b2 h1 h3 h2

end BlockSum

end Cert.A2aGemm
-- ==== Proof.BlockLayout.lean ====
import proofs.«900612_g7700000000000613_dist_a2a_gemm_m4096_k4096_n2048_f32_none_v7x_i4_1_alg».proof.Proof.BlockSum
import Idealize.ShloMosaic.Lib.Layout
import Idealize.ShloMosaic.Lib.ValueIdx

namespace Cert.A2aGemm.BlockLayout

open Idealize.ShloMosaic Idealize.ShloMosaic.ValueIdx Cert.A2aGemm

theorem idx_cols (h : Layout.Tiles ⟨2, ![4096, 1024]⟩ ⟨2, ![4096, 4096]⟩ 1 4) (c : Fin 4) (r : Fin 4096) (q : Fin 1024) :
    h.idx c (ix2 r q) = ix2 r (at4 c q) := by
  funext b
  match b with
  | ⟨0, _⟩ => exact Fin.ext rfl
  | ⟨1, _⟩ => exact Fin.ext (Nat.add_right_cancel_iff.mpr (Nat.mul_comm c.val 1024))

theorem idx_rows (h : Layout.Tiles ⟨2, ![1024, 2048]⟩ ⟨2, ![4096, 2048]⟩ 0 4) (c : Fin 4) (p : Fin 1024) (j : Fin 2048) :
    h.idx c (ix2 p j) = ix2 (at4 c p) j := by
  funext b
  match b with
  | ⟨0, _⟩ => exact Fin.ext (Nat.add_right_cancel_iff.mpr (Nat.mul_comm c.val 1024))
  | ⟨1, _⟩ => exact Fin.ext rfl

variable {α : Type}

theorem block_cols_apply (c : Fin 4) (X : (⟨2, ![4096, 4096]⟩ : Shape).Idx → α)
    (h : Layout.Tiles ⟨2, ![4096, 1024]⟩ ⟨2, ![4096, 4096]⟩ 1 4) (r : Fin 4096) (q : Fin 1024) :
    Layout.block ⟨2, ![4096, 1024]⟩ ⟨2, ![4096, 4096]⟩ 1 4 c X h (ix2 r q) = X (ix2 r (at4 c q)) := by
  rw [Layout.block_apply, idx_cols]

theorem block_rows_apply (c : Fin 4) (Y : (⟨2, ![4096, 2048]⟩ : Shape).Idx → α)
    (h : Layout.Tiles ⟨2, ![1024, 2048]⟩ ⟨2, ![4096, 2048]⟩ 0 4) (p : Fin 1024) (j : Fin 2048) :
    Layout.block ⟨2, ![1024, 2048]⟩ ⟨2, ![4096, 2048]⟩ 0 4 c Y h (ix2 p j) = Y (ix2 (at4 c p) j) := by
  rw [Layout.block_apply, idx_rows]

theorem eq_block_rows (c : Fin 4) (Y : (⟨2, ![4096, 2048]⟩ : Shape).Idx → α)
    (h : Layout.Tiles ⟨2, ![1024, 2048]⟩ ⟨2, ![4096, 2048]⟩ 0 4)
    (out : (⟨2, ![1024, 2048]⟩ : Shape).Idx → α)
    (hout : ∀ (p : Fin 1024) (j : Fin 2048), out (ix2 p j) = Y (ix2 (at4 c p) j)) :
    out = Layout.block ⟨2, ![1024, 2048]⟩ ⟨2, ![4096, 2048]⟩ 0 4 c Y h := by
  funext i
  obtain ⟨p, j, rfl⟩ : ∃ (p : Fin 1024) (j : Fin 2048), i = ix2 p j := ⟨i 0, i 1, eq_ix2 i⟩
  rw [hout, block_rows_apply]

end Cert.A2aGemm.BlockLayout
-- ==== Proof.RefValue.lean ====
import proofs.«900612_g7700000000000613_dist_a2a_gemm_m4096_k4096_n2048_f32_none_v7x_i4_1_alg».proof.Defs
import proofs.«900612_g7700000000000613_dist_a2a_gemm_m4096_k4096_n2048_f32_none_v7x_i4_1_alg».proof.Proof.Gen.ReferenceIdeal.Run
import proofs.«900612_g7700000000000613_dist_a2a_gemm_m4096_k4096_n2048_f32_none_v7x_i4_1_alg».proof.Proof.Gen.ReferenceIdeal.Read
import proofs.«900612_g7700000000000613_dist_a2a_gemm_m4096_k4096_n2048_f32_none_v7x_i4_1_alg».proof.Proof.Gen.Pre_finite_inputs_ReferenceIdeal
import Idealize.ShloMosaic.Lib.ValueIdx
import Idealize.ShloMosaic.PureOps.Ideal.Laws

noncomputable section

namespace Cert.A2aGemm.RefValue

open Idealize.ShloMosaic Idealize.SL.Sem Idealize.ShloMosaic.ValueIdx
open Cert.ReferenceIdeal Cert.ReferenceIdeal.Gen

theorem frame_ri : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

theorem lidx_ix2 (i : Fin 4096) (j : Fin 2048) (k : Fin 4096) :
    Cert.ReferenceIdeal.Read.lidx_main_v0 (ix2 i j) k = ix2 i k :=
  funext fun a => Fin.ext (by match a with | ⟨0, _⟩ => rfl | ⟨1, _⟩ => rfl)

theorem ridx_ix2 (i : Fin 4096) (j : Fin 2048) (k : Fin 4096) :
    Cert.ReferenceIdeal.Read.ridx_main_v0 (ix2 i j) k = ix2 k j :=
  funext fun a => Fin.ext (by match a with | ⟨0, _⟩ => rfl | ⟨1, _⟩ => rfl)

theorem val_apply (X : (⟨S4096x4096, .f32⟩ : BufTy).Contents (Elt Ideal)) (W : (⟨S4096x2048, .f32⟩ : BufTy).Contents (Elt Ideal))
    (i : Fin 4096) (j : Fin 2048) :
    Cert.ReferenceIdeal.Read.val_main_v0 (F := Ideal) X W (ix2 i j) = ∑ k : Fin 4096, X (ix2 i k) * W (ix2 k j) := by
  rw [Cert.ReferenceIdeal.Read.val_main_v0_apply]
  simp only [lidx_ix2, ridx_ix2]

theorem run_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
          = Cert.ReferenceIdeal.Read.val_main_v0 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  Cert.ReferenceIdeal.Value.run (F := Ideal) m ρ

end Cert.A2aGemm.RefValue

end
-- ==== Proof.Bridge.lean ====
import proofs.«900612_g7700000000000613_dist_a2a_gemm_m4096_k4096_n2048_f32_none_v7x_i4_1_alg».proof.Proof.BlockLayout
import proofs.«900612_g7700000000000613_dist_a2a_gemm_m4096_k4096_n2048_f32_none_v7x_i4_1_alg».proof.Proof.RefValue

noncomputable section

namespace Cert.A2aGemm.Bridge

open Idealize.ShloMosaic Idealize.ShloMosaic.ValueIdx Cert.A2aGemm
open Cert.ReferenceIdeal Cert.ReferenceIdeal.Gen

theorem partials_eq_val (X : (⟨S4096x4096, .f32⟩ : BufTy).Contents (Elt Ideal)) (W : (⟨S4096x2048, .f32⟩ : BufTy).Contents (Elt Ideal))
    (x : Fin 4 → (⟨2, ![4096, 1024]⟩ : Shape).Idx → EReal)
    (hx : ∀ b : Fin 4, x b = Layout.block ⟨2, ![4096, 1024]⟩ ⟨2, ![4096, 4096]⟩ 1 4 b X)
    (c b1 b3 b2 : Fin 4)
    (h1 : b1.val = (c.val + 3) % 4) (h3 : b3.val = (c.val + 1) % 4) (h2 : b2.val = (c.val + 2) % 4)
    (p : Fin 1024) (j : Fin 2048) :
    (((∑ q : Fin 1024, x c (ix2 (at4 c p) q) * W (ix2 (at4 c q) j))
        + ∑ q : Fin 1024, x b1 (ix2 (at4 c p) q) * W (ix2 (at4 b1 q) j))
        + ∑ q : Fin 1024, x b3 (ix2 (at4 c p) q) * W (ix2 (at4 b3 q) j))
        + ∑ q : Fin 1024, x b2 (ix2 (at4 c p) q) * W (ix2 (at4 b2 q) j)
      = Cert.ReferenceIdeal.Read.val_main_v0 (F := Ideal) X W (ix2 (at4 c p) j) := by
  rw [RefValue.val_apply]
  exact BlockSum.blocked_matmul_of_blocks (fun r k => X (ix2 r k)) (fun k j => W (ix2 k j))
    (fun b r q => x b (ix2 r q))
    (fun b r q => by rw [hx b]; exact BlockLayout.block_cols_apply b X _ r q)
    (at4 c p) j c b1 b3 b2 h1 h3 h2

theorem out_eq_block (X : (⟨S4096x4096, .f32⟩ : BufTy).Contents (Elt Ideal)) (W : (⟨S4096x2048, .f32⟩ : BufTy).Contents (Elt Ideal))
    (x : Fin 4 → (⟨2, ![4096, 1024]⟩ : Shape).Idx → EReal)
    (hx : ∀ b : Fin 4, x b = Layout.block ⟨2, ![4096, 1024]⟩ ⟨2, ![4096, 4096]⟩ 1 4 b X)
    (c b1 b3 b2 : Fin 4)
    (h1 : b1.val = (c.val + 3) % 4) (h3 : b3.val = (c.val + 1) % 4) (h2 : b2.val = (c.val + 2) % 4)
    (out : (⟨2, ![1024, 2048]⟩ : Shape).Idx → EReal)
    (hout : ∀ (p : Fin 1024) (j : Fin 2048), out (ix2 p j) =
      (((∑ q : Fin 1024, x c (ix2 (at4 c p) q) * W (ix2 (at4 c q) j))
        + ∑ q : Fin 1024, x b1 (ix2 (at4 c p) q) * W (ix2 (at4 b1 q) j))
        + ∑ q : Fin 1024, x b3 (ix2 (at4 c p) q) * W (ix2 (at4 b3 q) j))
        + ∑ q : Fin 1024, x b2 (ix2 (at4 c p) q) * W (ix2 (at4 b2 q) j)) :
    out = Layout.block ⟨2, ![1024, 2048]⟩ ⟨2, ![4096, 2048]⟩ 0 4 c
      (Cert.ReferenceIdeal.Read.val_main_v0 (F := Ideal) X W) :=
  BlockLayout.eq_block_rows c _ (by decide) out fun p j => by
    rw [hout p j]; exact partials_eq_val X W x hx c b1 b3 b2 h1 h3 h2 p j

theorem out_eq_block_zero_add (X : (⟨S4096x4096, .f32⟩ : BufTy).Contents (Elt Ideal)) (W : (⟨S4096x2048, .f32⟩ : BufTy).Contents (Elt Ideal))
    (x : Fin 4 → (⟨2, ![4096, 1024]⟩ : Shape).Idx → EReal)
    (hx : ∀ b : Fin 4, x b = Layout.block ⟨2, ![4096, 1024]⟩ ⟨2, ![4096, 4096]⟩ 1 4 b X)
    (c b1 b3 b2 : Fin 4)
    (h1 : b1.val = (c.val + 3) % 4) (h3 : b3.val = (c.val + 1) % 4) (h2 : b2.val = (c.val + 2) % 4)
    (out : (⟨2, ![1024, 2048]⟩ : Shape).Idx → EReal)
    (hout : ∀ (p : Fin 1024) (j : Fin 2048), out (ix2 p j) =
      ((((0 : EReal) + ∑ q : Fin 1024, x c (ix2 (at4 c p) q) * W (ix2 (at4 c q) j))
        + ((0 : EReal) + ∑ q : Fin 1024, x b1 (ix2 (at4 c p) q) * W (ix2 (at4 b1 q) j)))
        + ((0 : EReal) + ∑ q : Fin 1024, x b3 (ix2 (at4 c p) q) * W (ix2 (at4 b3 q) j)))
        + ((0 : EReal) + ∑ q : Fin 1024, x b2 (ix2 (at4 c p) q) * W (ix2 (at4 b2 q) j))) :
    out = Layout.block ⟨2, ![1024, 2048]⟩ ⟨2, ![4096, 2048]⟩ 0 4 c
      (Cert.ReferenceIdeal.Read.val_main_v0 (F := Ideal) X W) :=
  out_eq_block X W x hx c b1 b3 b2 h1 h3 h2 out fun p j => by
    rw [hout p j]; simp only [zero_add]

end Cert.A2aGemm.Bridge

end
-- ==== Proof.OutValue.lean ====
import proofs.«900612_g7700000000000613_dist_a2a_gemm_m4096_k4096_n2048_f32_none_v7x_i4_1_alg».proof.Proof.OutSpec
import proofs.«900612_g7700000000000613_dist_a2a_gemm_m4096_k4096_n2048_f32_none_v7x_i4_1_alg».proof.Proof.Moves
import proofs.«900612_g7700000000000613_dist_a2a_gemm_m4096_k4096_n2048_f32_none_v7x_i4_1_alg».proof.Proof.PayloadValue
import proofs.«900612_g7700000000000613_dist_a2a_gemm_m4096_k4096_n2048_f32_none_v7x_i4_1_alg».proof.Proof.Bridge

noncomputable section

namespace Cert.KernelIdealPf

open Cert.KernelIdeal Cert.KernelIdeal.Gen
open Idealize.ShloMosaic Idealize.ShloMosaic.ValueIdx Idealize.ShloMosaic.TcCoe
open Cert.A2aGemm

theorem peer_zero (c : Dev nD) : peer c 0 = c := by revert c; decide

theorem sender_zero (c : Dev nD) : peer c (4 - dOf 0) = peer c 3 := rfl
theorem sender_one (c : Dev nD) : peer c (4 - dOf 1) = peer c 1 := rfl
theorem sender_two (c : Dev nD) : peer c (4 - dOf 2) = peer c 2 := rfl

theorem exists_chunkRow (p : Fin 1024) : ∃ (k : Fin 8) (r : Fin 128), p = chunkRow k r :=
  ⟨⟨p.val / 128, by have := p.isLt; omega⟩, ⟨p.val % 128, Nat.mod_lt _ (by decide)⟩,
    Fin.ext (by show p.val = 128 * (p.val / 128) + p.val % 128; omega)⟩

theorem srcRow_peer (c : Dev nD) (t : Fin 3) (k : Fin 8) (r : Fin 128) :
    Moves.srcRow (peer c (4 - dOf t)) t k r = at4 c (chunkRow k r) := by
  have h : ((peer c (4 - dOf t)).val + dOf t) % 4 = c.val := congrArg Fin.val (peer_peer' c t)
  refine Fin.ext ?_
  rw [Moves.srcRow_val, h, at4_val, chunkRow_val]
  omega

section Terms
variable (m : (ℓ : Loc nD τ sig) → Buf (Elt Ideal) ℓ)

theorem xloc_term (c : Dev nD) (p q : Fin 1024) :
    xlocV m c (ix2 p q) = m ((c : Thread nD τ).loc main_arg0) (ix2 (at4 c p) q) := rfl

theorem w_term (Wt : (⟨⟨2, ![4096, 2048]⟩, .f32⟩ : BufTy).Contents (Elt Ideal))
    (hw : ∀ b : Dev nD, m ((b : Thread nD τ).loc main_arg1) = Wt)
    (c : Dev nD) (off : ℕ) (u : Fin 1) (q : Fin 1024) (j : Fin 2048) :
    wV m c off (ix3 u q j) = Wt (ix2 (at4 (peer c off) q) j) :=
  congrFun (hw c) (ix2 (at4 (peer c off) q) j)

theorem cm_term (c : Dev nD) (t : Fin 3) (k : Fin 8) (u : Fin 1) (r : Fin 128) (q : Fin 1024) :
    cmV m c t k (ix3 u r q)
      = m (((peer c (4 - dOf t) : Dev nD) : Thread nD τ).loc main_arg0) (ix2 (at4 c (chunkRow k r)) q) := by
  rw [cmV_apply, Moves.sentVal_apply, srcRow_peer]

end Terms

theorem out_is_block (m : (ℓ : Loc nD τ sig) → Buf (Elt Ideal) ℓ)
    (X : (⟨⟨2, ![4096, 4096]⟩, .f32⟩ : BufTy).Contents (Elt Ideal)) (Wt : (⟨⟨2, ![4096, 2048]⟩, .f32⟩ : BufTy).Contents (Elt Ideal))
    (hx : ∀ b : Dev nD, m ((b : Thread nD τ).loc main_arg0) = Layout.block ⟨2, ![4096, 1024]⟩ ⟨2, ![4096, 4096]⟩ 1 4 b X)
    (hw : ∀ b : Dev nD, m ((b : Thread nD τ).loc main_arg1) = Wt)
    (c : Dev nD) (o : Buf (Elt Ideal) ((c : Thread nD τ).loc main_v1)) (ho : OutSpec' m c o) :
    o = Layout.block ⟨2, ![1024, 2048]⟩ ⟨2, ![4096, 2048]⟩ 0 4 c (Cert.ReferenceIdeal.Read.val_main_v0 (F := Ideal) X Wt) := by
  refine Bridge.out_eq_block_zero_add X Wt (fun b => m ((b : Thread nD τ).loc main_arg0)) hx c
    (peer c 3) (peer c 1) (peer c 2) rfl rfl rfl o ?_
  intro p j
  obtain ⟨k, r, rfl⟩ := exists_chunkRow p
  rw [ho k r j]
  unfold chunkFinal
  rw [PayloadValue.chunkUpd_apply, PayloadValue.chunkUpd_apply, PayloadValue.chunkUpd_apply, acc0_apply,
    PayloadValue.pay29_apply]
  simp only [xloc_term, w_term m Wt hw, cm_term, peer_zero, sender_zero, sender_one, sender_two]

end Cert.KernelIdealPf

end
-- ==== Proof.Assemble.lean ====
import proofs.«900612_g7700000000000613_dist_a2a_gemm_m4096_k4096_n2048_f32_none_v7x_i4_1_alg».proof.Defs
import proofs.«900612_g7700000000000613_dist_a2a_gemm_m4096_k4096_n2048_f32_none_v7x_i4_1_alg».proof.Proof.Run
import proofs.«900612_g7700000000000613_dist_a2a_gemm_m4096_k4096_n2048_f32_none_v7x_i4_1_alg».proof.Proof.Bits.Run
import proofs.«900612_g7700000000000613_dist_a2a_gemm_m4096_k4096_n2048_f32_none_v7x_i4_1_alg».proof.Proof.OutValue
import proofs.«900612_g7700000000000613_dist_a2a_gemm_m4096_k4096_n2048_f32_none_v7x_i4_1_alg».proof.Proof.Gen.Kernel
import proofs.«900612_g7700000000000613_dist_a2a_gemm_m4096_k4096_n2048_f32_none_v7x_i4_1_alg».proof.Proof.Gen.KernelIdeal
import proofs.«900612_g7700000000000613_dist_a2a_gemm_m4096_k4096_n2048_f32_none_v7x_i4_1_alg».proof.Proof.Gen.ReferenceIdeal
import proofs.«900612_g7700000000000613_dist_a2a_gemm_m4096_k4096_n2048_f32_none_v7x_i4_1_alg».proof.Proof.Gen.Pre_finite_inputs_Kernel
import proofs.«900612_g7700000000000613_dist_a2a_gemm_m4096_k4096_n2048_f32_none_v7x_i4_1_alg».proof.Proof.Gen.Pre_finite_inputs_ReferenceIdeal

noncomputable section

namespace Cert.Proof.A2a

open Idealize.ShloMosaic Idealize.SL.Sem
open Idealize.ShloMosaic.TcCoe
open Idealize.SL Idealize.SL.BI
open scoped Idealize.SL.BI
open Idealize.SL.BI.BIBase Idealize.SL.BI.Laws

theorem frame_KI (hrunI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (Cert.KernelIdealPf.QC m)) :
    Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun _ h c => (h c).2) (hrunI m ρ)

theorem alg (hrunI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (Cert.KernelIdealPf.QC m)) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m g m' g' _ hag =>
    ⟨Cert.ReferenceIdeal.Read.val_main_v0 (F := Ideal)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono
        (fun r h c => ⟨Cert.KernelIdealPf.out_is_block m _ _ (fun b => (hag b).1) (fun b => (hag b).2) c _ (h c).1, (h c).2.1, (h c).2.2⟩)
        (hrunI m g),
      (θ_run Cert.ReferenceIdeal.defs _ _).mono (fun r h => h 0) (Cert.A2aGemm.RefValue.run_ri m' g')⟩

theorem frame_K (hrunB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (Cert.KernelPf.QC m)) :
    Cert.frame_Kernel (hKernel := Cert.Kernel.Gen.facts) (hPre_finite_inputs_Kernel := Cert.Pre_finite_inputs_Kernel.Gen.facts) :=
  fun m ρ _ => (θ_run Cert.Kernel.defs _ _).mono (fun _ h c => (h c).2) (hrunB m ρ)

theorem claim_of (hrunI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (Cert.KernelIdealPf.QC m))
    (hrunB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (Cert.KernelPf.QC m)) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_K hrunB, frame_KI hrunI, Cert.A2aGemm.RefValue.frame_ri, trivial, alg hrunI⟩

theorem claim_of_sound (hsI : ∀ (m : (ℓ : Loc Cert.KernelIdeal.nD Cert.KernelIdeal.τ Cert.KernelIdeal.sig) → Buf (Elt Ideal) ℓ) (c : Dev Cert.KernelIdeal.nD),
      Cert.KernelIdealPf.bodyPre m c ⊢ wp frame (wpE (Cert.KernelIdeal.defs₀ (F := Ideal)) Cert.KernelIdealPf.𝒱₀ (c.tc : Thread Cert.KernelIdeal.nD Cert.KernelIdeal.τ) none) Set.univ
        (Cert.KernelIdeal.Gen.bodyAt0 (F := Ideal) Cert.KernelIdealPf.t₀) (fun _ => Cert.KernelIdealPf.bodyPost m c))
    (hsB : ∀ (m : (ℓ : Loc Cert.Kernel.nD Cert.Kernel.τ Cert.Kernel.sig) → Buf (Elt Bits) ℓ) (c : Dev Cert.Kernel.nD),
      Cert.KernelPf.bodyPre m c ⊢ wp frame (wpE (Cert.Kernel.defs₀ (F := Bits)) Cert.KernelPf.𝒱₀ (c.tc : Thread Cert.Kernel.nD Cert.Kernel.τ) none) Set.univ
        (Cert.Kernel.Gen.bodyAt0 (F := Bits) Cert.KernelPf.t₀) (fun _ => Cert.KernelPf.bodyPost m c)) : Cert.Claim :=
  claim_of (fun m ρ => Cert.KernelIdealPf.run_main m ρ (hsI m)) (fun m ρ => Cert.KernelPf.run_main m ρ (hsB m))

end Cert.Proof.A2a

end
-- ==== Proof.Resources.lean ====
import proofs.«900612_g7700000000000613_dist_a2a_gemm_m4096_k4096_n2048_f32_none_v7x_i4_1_alg».proof.Proof.Proto0
import Idealize.ShloMosaic.Rules.PointsTo
import Idealize.ShloMosaic.Lib.Transfers

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem mem_chunkRect (i : Fin 3) (k : Fin 8) (x : S3x1024x1024.Idx) :
    x ∈ (chunkRect i k).set ↔ (x 0).val = i.val ∧ 128 * k.val ≤ (x 1).val ∧ (x 1).val < 128 * k.val + 128 := by
  rw [Rect.mem_set_unit]
  constructor
  · intro h
    have h0 := h 0; have h1 := h 1
    simp only [Matrix.cons_val_zero, Matrix.cons_val_one] at h0 h1
    change i.val ≤ (x 0).val ∧ (x 0).val < i.val + 1 at h0
    change 128 * k.val ≤ (x 1).val ∧ (x 1).val < 128 * k.val + 128 at h1
    omega
  · rintro ⟨h0, h1, h2⟩ a
    have h3 := (x 2).isLt
    change (x 2).val < 1024 at h3
    fin_cases a
    · change i.val ≤ (x 0).val ∧ (x 0).val < i.val + 1; omega
    · change 128 * k.val ≤ (x 1).val ∧ (x 1).val < 128 * k.val + 128; omega
    · change 0 ≤ (x 2).val ∧ (x 2).val < 0 + 1024; omega

theorem chunkRect_disjoint (t t' : TK) (h : t ≠ t') : Disjoint (chunkRect t.1 t.2).set (chunkRect t'.1 t'.2).set := by
  rw [Finset.disjoint_left]
  intro x hx hx'
  rw [mem_chunkRect] at hx hx'
  apply h
  obtain ⟨i, k⟩ := t; obtain ⟨i', k'⟩ := t'
  simp only at hx hx'
  have : i = i' := Fin.ext (by omega)
  have : k = k' := Fin.ext (by omega)
  subst_vars; rfl

def chunkOf (x : S3x1024x1024.Idx) : TK :=
  (⟨(x 0).val, (x 0).isLt⟩, ⟨(x 1).val / 128, by have h := (x 1).isLt; change (x 1).val < 1024 at h; omega⟩)

theorem mem_chunkOf (x : S3x1024x1024.Idx) : x ∈ (chunkRect (chunkOf x).1 (chunkOf x).2).set := by
  rw [mem_chunkRect]
  refine ⟨rfl, ?_, ?_⟩
  · show 128 * ((x 1).val / 128) ≤ (x 1).val; omega
  · show (x 1).val < 128 * ((x 1).val / 128) + 128; omega

theorem comm_chunk_set (i : Fin 3) (k : Fin 8) : (chunkM commM i k).view.set = (chunkRect i k).set :=
  (View.set_reshape _ _).trans (View.set_slice_whole cc0_scratch0 (chunkRect i k))

theorem sbuf_chunk_set (i : Fin 3) (k : Fin 8) : (chunkM sbufM i k).view.set = (chunkRect i k).set :=
  (View.set_reshape _ _).trans (View.set_slice_whole cc0_scratch3 (chunkRect i k))

section Partition

variable {ℓ : Loc nD τ sig} (K : TK → Finset (Idx ℓ))

theorem univ_eq_biUnion (hc : ∀ x, ∃ t, x ∈ K t) : (Finset.univ : Finset (Idx ℓ)) = Finset.univ.biUnion K := by
  ext x
  simp only [Finset.mem_univ, Finset.mem_biUnion, true_and, true_iff]
  exact hc x

theorem pointsTo_partition (hd : ∀ t t', t ≠ t' → Disjoint (K t) (K t')) (hc : ∀ x, ∃ t, x ∈ K t)
    (q : PosShare TreeShare) (f : Buf (Elt F) ℓ) :
    (ℓ ↦{q} f : sProp 𝕄) = bigSep (Finset.univ : Finset TK) fun t => ℓ ↦[K t]{q} f := by
  rw [univ_eq_biUnion K hc]
  exact pointsTo_biUnion Finset.univ K fun t _ t' _ h => hd t t' h

theorem pointsTo_partition_join (hd : ∀ t t', t ≠ t' → Disjoint (K t) (K t')) (pick : Idx ℓ → TK) (hp : ∀ x, x ∈ K (pick x))
    (q : PosShare TreeShare) (g : TK → Buf (Elt F) ℓ) :
    bigSep (Finset.univ : Finset TK) (fun t => ℓ ↦[K t]{q} g t) ⊢ (ℓ ↦{q} (fun x => g (pick x) x) : sProp 𝕄) := by
  have hpick : ∀ t x, x ∈ K t → pick x = t := fun t x hx => by
    by_contra hne
    exact Finset.disjoint_left.mp (hd _ _ hne) (hp x) hx
  refine (pointsTo_biUnion_join Finset.univ K g (g ((0 : Fin 3), (0 : Fin 8))) fun t _ t' _ h => hd t t' h).trans ?_
  iintro ⟨%g', %hg', H⟩
  rw [univ_eq_biUnion K fun x => ⟨pick x, hp x⟩,
    pointsTo_congr (f := fun x => g (pick x) x) (g := g') fun i hi => by
      obtain ⟨t, -, ht⟩ := Finset.mem_biUnion.mp hi
      rw [hpick t i ht]; exact (hg' t (Finset.mem_univ t) i ht).symm]
  iexact H

end Partition

theorem comm_split (c : Dev nD) (f : Buf (Elt F) ((c : Thread nD τ).loc cc0_scratch0)) :
    (((c : Thread nD τ).loc cc0_scratch0) ↦{fullShare} f : sProp 𝕄)
      ⊢ bigSep (Finset.univ : Finset TK) fun ik => chunkPts c commM ik.1 ik.2 fullShare f :=
  Entails.of_eq (pointsTo_partition (ℓ := (c : Thread nD τ).loc cc0_scratch0) (fun ik : TK => (chunkM commM ik.1 ik.2).view.set)
    (fun t t' h => by rw [comm_chunk_set, comm_chunk_set]; exact chunkRect_disjoint t t' h)
    (fun x => ⟨chunkOf x, by rw [comm_chunk_set]; exact mem_chunkOf x⟩) fullShare f)

theorem comm_join (c : Dev nD) (g : TK → Buf (Elt F) ((c : Thread nD τ).loc cc0_scratch0)) :
    bigSep (Finset.univ : Finset TK) (fun ik => chunkPts c commM ik.1 ik.2 fullShare (g ik))
      ⊢ (((c : Thread nD τ).loc cc0_scratch0) ↦{fullShare} (fun x => g (chunkOf x) x) : sProp 𝕄) :=
  pointsTo_partition_join (ℓ := (c : Thread nD τ).loc cc0_scratch0) (fun ik : TK => (chunkM commM ik.1 ik.2).view.set)
    (fun t t' h => by rw [comm_chunk_set, comm_chunk_set]; exact chunkRect_disjoint t t' h)
    chunkOf (fun x => by rw [comm_chunk_set]; exact mem_chunkOf x) fullShare g

theorem sbuf_split (c : Dev nD) (f : Buf (Elt F) ((c : Thread nD τ).loc cc0_scratch3)) :
    (((c : Thread nD τ).loc cc0_scratch3) ↦{fullShare} f : sProp 𝕄)
      ⊢ bigSep (Finset.univ : Finset TK) fun ik => chunkPts c sbufM ik.1 ik.2 fullShare f :=
  Entails.of_eq (pointsTo_partition (ℓ := (c : Thread nD τ).loc cc0_scratch3) (fun ik : TK => (chunkM sbufM ik.1 ik.2).view.set)
    (fun t t' h => by rw [sbuf_chunk_set, sbuf_chunk_set]; exact chunkRect_disjoint t t' h)
    (fun x => ⟨chunkOf x, by rw [sbuf_chunk_set]; exact mem_chunkOf x⟩) fullShare f)

theorem sbuf_join (c : Dev nD) (g : TK → Buf (Elt F) ((c : Thread nD τ).loc cc0_scratch3)) :
    bigSep (Finset.univ : Finset TK) (fun ik => chunkPts c sbufM ik.1 ik.2 fullShare (g ik))
      ⊢ (((c : Thread nD τ).loc cc0_scratch3) ↦{fullShare} (fun x => g (chunkOf x) x) : sProp 𝕄) :=
  pointsTo_partition_join (ℓ := (c : Thread nD τ).loc cc0_scratch3) (fun ik : TK => (chunkM sbufM ik.1 ik.2).view.set)
    (fun t t' h => by rw [sbuf_chunk_set, sbuf_chunk_set]; exact chunkRect_disjoint t t' h)
    chunkOf (fun x => by rw [sbuf_chunk_set]; exact mem_chunkOf x) fullShare g

theorem bigSep_exists {I X : Type} [DecidableEq I] (Φ : I → X → sProp 𝕄) {s : Finset I} (hs : s.Nonempty) :
    bigSep s (fun i => iprop(∃ x, Φ i x)) ⊢ iprop(∃ g : I → X, bigSep s fun i => Φ i (g i)) := by
  induction hs using Finset.Nonempty.cons_induction with
  | singleton i =>
    rw [bigSep_singleton]
    iintro ⟨%x, Hi⟩
    iexists fun _ => x
    rw [bigSep_singleton]
    iexact Hi
  | cons i s hi hs ih =>
    have hsplit : ∀ Ψ : I → sProp 𝕄, bigSep (Finset.cons i s hi) Ψ = iprop(Ψ i ∗ bigSep s Ψ) := fun Ψ => by
      rw [Finset.cons_eq_insert, bigSep_insert hi]; rfl
    rw [hsplit]
    iintro ⟨⟨%x, Hi⟩, Hs⟩
    ihave Hs := ih $$ Hs
    icases Hs with ⟨%g, Hs⟩
    iexists Function.update g i x
    have hcongr : bigSep s (fun j => Φ j (Function.update g i x j)) = bigSep s fun j => Φ j (g j) :=
      bigSep_congr fun j hj => by
        have hne : j ≠ i := fun e => hi (e ▸ hj)
        rw [Function.update_of_ne hne]
    rw [hsplit, Function.update_self, hcongr]
    isplitl [Hi] <;> iassumption

theorem comm_choose (c : Dev nD) :
    bigSep (Finset.univ : Finset TK) (fun ik => iprop(∃ f, chunkPts (F := F) c commM ik.1 ik.2 fullShare f))
      ⊢ iprop(∃ g : TK → Buf (Elt F) ((c : Thread nD τ).loc cc0_scratch0),
          bigSep (Finset.univ : Finset TK) (fun ik => chunkPts (F := F) c commM ik.1 ik.2 fullShare (g ik))) :=
  bigSep_exists (I := TK) (X := Buf (Elt F) ((c : Thread nD τ).loc cc0_scratch0))
    (fun ik f => chunkPts (F := F) c commM ik.1 ik.2 fullShare f) (s := Finset.univ) Finset.univ_nonempty

theorem comm_join_any (c : Dev nD) :
    bigSep (Finset.univ : Finset TK) (fun ik => iprop(∃ f, chunkPts (F := F) c commM ik.1 ik.2 fullShare f))
      ⊢ iprop(∃ f, (((c : Thread nD τ).loc cc0_scratch0) ↦{fullShare} f : sProp 𝕄)) := by
  refine (comm_choose c).trans ?_
  iintro ⟨%g, H⟩
  iexists (fun x => g (chunkOf x) x)
  iapply (comm_join c g)
  iexact H

theorem sbuf_choose (c : Dev nD) :
    bigSep (Finset.univ : Finset TK) (fun ik => iprop(∃ f, chunkPts (F := F) c sbufM ik.1 ik.2 fullShare f))
      ⊢ iprop(∃ g : TK → Buf (Elt F) ((c : Thread nD τ).loc cc0_scratch3),
          bigSep (Finset.univ : Finset TK) (fun ik => chunkPts (F := F) c sbufM ik.1 ik.2 fullShare (g ik))) :=
  bigSep_exists (I := TK) (X := Buf (Elt F) ((c : Thread nD τ).loc cc0_scratch3))
    (fun ik f => chunkPts (F := F) c sbufM ik.1 ik.2 fullShare f) (s := Finset.univ) Finset.univ_nonempty

theorem sbuf_join_any (c : Dev nD) :
    bigSep (Finset.univ : Finset TK) (fun ik => iprop(∃ f, chunkPts (F := F) c sbufM ik.1 ik.2 fullShare f))
      ⊢ iprop(∃ f, (((c : Thread nD τ).loc cc0_scratch3) ↦{fullShare} f : sProp 𝕄)) := by
  refine (sbuf_choose c).trans ?_
  iintro ⟨%g, H⟩
  iexists (fun x => g (chunkOf x) x)
  iapply (sbuf_join c g)
  iexact H

section Tokens

variable (ℓ : Loc nD τ sig) (x : Buf (Elt F) ℓ)

def tokRest (lo hi : ℕ) : sProp 𝕄 :=
  iprop((ℓ ↦{Transfers.shareDrop fullShare hi} x)
    ∗ bigSep (Finset.range lo) fun i => (ℓ ↦{Transfers.shareTokN fullShare i} x : sProp 𝕄))

theorem tokRest_all (hi : ℕ) : (ℓ ↦{fullShare} x : sProp 𝕄) ⊣⊢ tokRest ℓ x hi hi :=
  Transfers.pointsTo_toks_range fullShare hi

theorem tokRest_peel (lo hi : ℕ) :
    tokRest ℓ x (lo + 1) hi ⊣⊢ iprop((ℓ ↦{Transfers.shareTokN fullShare lo} x : sProp 𝕄) ∗ tokRest ℓ x lo hi) := by
  have hb : bigSep (Finset.range (lo + 1)) (fun i => (ℓ ↦{Transfers.shareTokN fullShare i} x : sProp 𝕄))
      = iprop((ℓ ↦{Transfers.shareTokN fullShare lo} x)
          ∗ bigSep (Finset.range lo) fun i => (ℓ ↦{Transfers.shareTokN fullShare i} x : sProp 𝕄)) := by
    rw [Finset.range_add_one, bigSep_insert Finset.notMem_range_self]; rfl
  unfold tokRest
  rw [hb]
  constructor
  · iintro ⟨Hd, Ht, Hts⟩
    isplitl [Ht]; · iexact Ht
    isplitl [Hd] <;> iassumption
  · iintro ⟨Ht, Hd, Hts⟩
    isplitl [Hd]; · iexact Hd
    isplitl [Ht] <;> iassumption

end Tokens

theorem x_toks (c : Dev nD) (x : Buf (Elt F) ((c : Thread nD τ).loc main_arg0)) :
    (((c : Thread nD τ).loc main_arg0) ↦{fullShare} x : sProp 𝕄) ⊣⊢
      iprop(((Memref.whole main_arg0).view.loc (c : Thread nD τ) ↦{Transfers.shareTokN fullShare 48} x)
        ∗ ((Memref.whole main_arg0).view.loc (c : Thread nD τ) ↦{Transfers.shareTokN fullShare 49} x)
        ∗ ((Memref.whole main_arg0).view.loc (c : Thread nD τ) ↦{Transfers.shareTokN fullShare 50} x)
        ∗ ((Memref.whole main_arg0).view.loc (c : Thread nD τ) ↦{Transfers.shareTokN fullShare 51} x)
        ∗ ((Memref.whole main_arg0).view.loc (c : Thread nD τ) ↦{Transfers.shareTokN fullShare 52} x)
        ∗ tokRest ((c : Thread nD τ).loc main_arg0) x 48 53) := by
  have h52 := tokRest_peel ((c : Thread nD τ).loc main_arg0) x 52 53
  have h51 := tokRest_peel ((c : Thread nD τ).loc main_arg0) x 51 53
  have h50 := tokRest_peel ((c : Thread nD τ).loc main_arg0) x 50 53
  have h49 := tokRest_peel ((c : Thread nD τ).loc main_arg0) x 49 53
  have h48 := tokRest_peel ((c : Thread nD τ).loc main_arg0) x 48 53
  constructor
  · iintro H
    ihave H := (tokRest_all ((c : Thread nD τ).loc main_arg0) x 53).1 $$ H
    ihave H := h52.1 $$ H
    icases H with ⟨H52, H⟩
    ihave H := h51.1 $$ H
    icases H with ⟨H51, H⟩
    ihave H := h50.1 $$ H
    icases H with ⟨H50, H⟩
    ihave H := h49.1 $$ H
    icases H with ⟨H49, H⟩
    ihave H := h48.1 $$ H
    icases H with ⟨H48, H⟩
    isplitl [H48]; · iexact H48
    isplitl [H49]; · iexact H49
    isplitl [H50]; · iexact H50
    isplitl [H51]; · iexact H51
    isplitl [H52]; · iexact H52
    iexact H
  · iintro ⟨H48, H49, H50, H51, H52, H⟩
    iapply (tokRest_all ((c : Thread nD τ).loc main_arg0) x 53).2
    iapply h52.2
    isplitl [H52]; · iexact H52
    iapply h51.2
    isplitl [H51]; · iexact H51
    iapply h50.2
    isplitl [H50]; · iexact H50
    iapply h49.2
    isplitl [H49]; · iexact H49
    iapply h48.2
    isplitl [H48]; · iexact H48
    iexact H

theorem w_toks (c : Dev nD) (w : Buf (Elt F) ((c : Thread nD τ).loc main_arg1)) :
    (((c : Thread nD τ).loc main_arg1) ↦{fullShare} w : sProp 𝕄) ⊣⊢
      iprop(((Memref.whole main_arg1).view.loc (c : Thread nD τ) ↦{Transfers.shareTokN fullShare 53} w)
        ∗ ((Memref.whole main_arg1).view.loc (c : Thread nD τ) ↦{Transfers.shareTokN fullShare 54} w)
        ∗ ((Memref.whole main_arg1).view.loc (c : Thread nD τ) ↦{Transfers.shareTokN fullShare 55} w)
        ∗ tokRest ((c : Thread nD τ).loc main_arg1) w 53 56) := by
  have h55 := tokRest_peel ((c : Thread nD τ).loc main_arg1) w 55 56
  have h54 := tokRest_peel ((c : Thread nD τ).loc main_arg1) w 54 56
  have h53 := tokRest_peel ((c : Thread nD τ).loc main_arg1) w 53 56
  constructor
  · iintro H
    ihave H := (tokRest_all ((c : Thread nD τ).loc main_arg1) w 56).1 $$ H
    ihave H := h55.1 $$ H
    icases H with ⟨H55, H⟩
    ihave H := h54.1 $$ H
    icases H with ⟨H54, H⟩
    ihave H := h53.1 $$ H
    icases H with ⟨H53, H⟩
    isplitl [H53]; · iexact H53
    isplitl [H54]; · iexact H54
    isplitl [H55]; · iexact H55
    iexact H
  · iintro ⟨H53, H54, H55, H⟩
    iapply (tokRest_all ((c : Thread nD τ).loc main_arg1) w 56).2
    iapply h55.2
    isplitl [H55]; · iexact H55
    iapply h54.2
    isplitl [H54]; · iexact H54
    iapply h53.2
    isplitl [H53]; · iexact H53
    iexact H

end Cert.KernelIdealPf

end
-- ==== Proof.Resources2.lean ====
import proofs.«900612_g7700000000000613_dist_a2a_gemm_m4096_k4096_n2048_f32_none_v7x_i4_1_alg».proof.Proof.Resources
import Idealize.ShloMosaic.Lib.Pipeline.Kit

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem cTile_cTile (t : Fin 3) : cTile (cTile t) = t := by revert t; decide

def tileSwap : TK ≃ TK where
  toFun tk := (cTile tk.1, tk.2)
  invFun tk := (cTile tk.1, tk.2)
  left_inv tk := Prod.ext (cTile_cTile tk.1) rfl
  right_inv tk := Prod.ext (cTile_cTile tk.1) rfl

theorem bigSep_TK_ord (Φ : TK → sProp 𝕄) : bigSep Finset.univ Φ = iprop(Φ ((0 : Fin 3), (0 : Fin 8)) ∗ Φ ((1 : Fin 3), (0 : Fin 8)) ∗ Φ ((0 : Fin 3), (1 : Fin 8)) ∗ Φ ((1 : Fin 3), (1 : Fin 8)) ∗ Φ ((0 : Fin 3), (2 : Fin 8)) ∗ Φ ((1 : Fin 3), (2 : Fin 8)) ∗ Φ ((0 : Fin 3), (3 : Fin 8)) ∗ Φ ((1 : Fin 3), (3 : Fin 8)) ∗ Φ ((0 : Fin 3), (4 : Fin 8)) ∗ Φ ((1 : Fin 3), (4 : Fin 8)) ∗ Φ ((0 : Fin 3), (5 : Fin 8)) ∗ Φ ((1 : Fin 3), (5 : Fin 8)) ∗ Φ ((0 : Fin 3), (6 : Fin 8)) ∗ Φ ((1 : Fin 3), (6 : Fin 8)) ∗ Φ ((0 : Fin 3), (7 : Fin 8)) ∗ Φ ((1 : Fin 3), (7 : Fin 8)) ∗ Φ ((2 : Fin 3), (0 : Fin 8)) ∗ Φ ((2 : Fin 3), (1 : Fin 8)) ∗ Φ ((2 : Fin 3), (2 : Fin 8)) ∗ Φ ((2 : Fin 3), (3 : Fin 8)) ∗ Φ ((2 : Fin 3), (4 : Fin 8)) ∗ Φ ((2 : Fin 3), (5 : Fin 8)) ∗ Φ ((2 : Fin 3), (6 : Fin 8)) ∗ Φ ((2 : Fin 3), (7 : Fin 8))) :=
  bigSep_univ_eq_bigSepL [((0 : Fin 3), (0 : Fin 8)), ((1 : Fin 3), (0 : Fin 8)), ((0 : Fin 3), (1 : Fin 8)), ((1 : Fin 3), (1 : Fin 8)), ((0 : Fin 3), (2 : Fin 8)), ((1 : Fin 3), (2 : Fin 8)), ((0 : Fin 3), (3 : Fin 8)), ((1 : Fin 3), (3 : Fin 8)), ((0 : Fin 3), (4 : Fin 8)), ((1 : Fin 3), (4 : Fin 8)), ((0 : Fin 3), (5 : Fin 8)), ((1 : Fin 3), (5 : Fin 8)), ((0 : Fin 3), (6 : Fin 8)), ((1 : Fin 3), (6 : Fin 8)), ((0 : Fin 3), (7 : Fin 8)), ((1 : Fin 3), (7 : Fin 8)), ((2 : Fin 3), (0 : Fin 8)), ((2 : Fin 3), (1 : Fin 8)), ((2 : Fin 3), (2 : Fin 8)), ((2 : Fin 3), (3 : Fin 8)), ((2 : Fin 3), (4 : Fin 8)), ((2 : Fin 3), (5 : Fin 8)), ((2 : Fin 3), (6 : Fin 8)), ((2 : Fin 3), (7 : Fin 8))] (by decide) (by decide) Φ

-- `flat24 Φ` writes `Φ d t k` out over the 24 chunks in the order their copies are issued, `d` the destination's offset.
def flat24 (Φ : ℕ → Fin 3 → Fin 8 → sProp 𝕄) : sProp 𝕄 :=
  iprop(Φ 1 0 0 ∗ Φ 3 1 0 ∗ Φ 1 0 1 ∗ Φ 3 1 1 ∗ Φ 1 0 2 ∗ Φ 3 1 2 ∗ Φ 1 0 3 ∗ Φ 3 1 3 ∗ Φ 1 0 4 ∗ Φ 3 1 4 ∗ Φ 1 0 5 ∗ Φ 3 1 5 ∗ Φ 1 0 6 ∗ Φ 3 1 6 ∗ Φ 1 0 7 ∗ Φ 3 1 7 ∗ Φ 2 2 0 ∗ Φ 2 2 1 ∗ Φ 2 2 2 ∗ Φ 2 2 3 ∗ Φ 2 2 4 ∗ Φ 2 2 5 ∗ Φ 2 2 6 ∗ Φ 2 2 7)

theorem flat24_eq (Φ : ℕ → Fin 3 → Fin 8 → sProp 𝕄) : flat24 Φ = bigSep (Finset.univ : Finset TK) fun tk => Φ (dOf tk.1) tk.1 tk.2 :=
  (bigSep_TK_ord fun tk => Φ (dOf tk.1) tk.1 tk.2).symm

theorem comm_join_any_cTile (c : Dev nD) :
    bigSep (Finset.univ : Finset TK) (fun tk => iprop(∃ f, chunkPts (F := F) c commM (cTile tk.1) tk.2 fullShare f))
      ⊢ iprop(∃ f, (((c : Thread nD τ).loc cc0_scratch0) ↦{fullShare} f : sProp 𝕄)) :=
  (Entails.of_eq (bigSep_univ_equiv tileSwap fun ik : TK => iprop(∃ f, chunkPts (F := F) c commM ik.1 ik.2 fullShare f)).symm).trans
    (comm_join_any c)

end Cert.KernelIdealPf

end
-- ==== Proof.Flat.lean ====
import proofs.«900612_g7700000000000613_dist_a2a_gemm_m4096_k4096_n2048_f32_none_v7x_i4_1_alg».proof.Proof.Tables
import proofs.«900612_g7700000000000613_dist_a2a_gemm_m4096_k4096_n2048_f32_none_v7x_i4_1_alg».proof.Proof.Resources2

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev tokX (c : Dev nD) (i : ℕ) (x : Buf (Elt F) ((Memref.whole main_arg0).view.loc (c : Thread nD τ))) : sProp 𝕄 :=
  (Memref.whole main_arg0).view.loc (c : Thread nD τ) ↦{Transfers.shareTokN fullShare i} x
abbrev tokW (c : Dev nD) (i : ℕ) (w : Buf (Elt F) ((Memref.whole main_arg1).view.loc (c : Thread nD τ))) : sProp 𝕄 :=
  (Memref.whole main_arg1).view.loc (c : Thread nD τ) ↦{Transfers.shareTokN fullShare i} w
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
abbrev dsem (i : ℕ) (h : i < 64 := by decide) : DmaSem sig := ⟨i, h⟩

def owedSum (c : Dev nD) : CellTallies nD τ sig Unit :=
  (((((((((((((((((((((((((((owedFrom c 27 + tallyAt (recvCell (peer c 2) 2 7) () NC) + tallyAt (recvCell (peer c 2) 2 6) () NC) + tallyAt (recvCell (peer c 2) 2 5) () NC) + tallyAt (recvCell (peer c 2) 2 4) () NC) + tallyAt (recvCell (peer c 2) 2 3) () NC) + tallyAt (recvCell (peer c 2) 2 2) () NC) + tallyAt (recvCell (peer c 2) 2 1) () NC) + tallyAt (recvCell (peer c 2) 2 0) () NC) + tallyAt (recvCell (peer c 3) 1 7) () NC) + tallyAt (recvCell (peer c 1) 0 7) () NC) + tallyAt (recvCell (peer c 3) 1 6) () NC) + tallyAt (recvCell (peer c 1) 0 6) () NC) + tallyAt (recvCell (peer c 3) 1 5) () NC) + tallyAt (recvCell (peer c 1) 0 5) () NC) + tallyAt (recvCell (peer c 3) 1 4) () NC) + tallyAt (recvCell (peer c 1) 0 4) () NC) + tallyAt (recvCell (peer c 3) 1 3) () NC) + tallyAt (recvCell (peer c 1) 0 3) () NC) + tallyAt (recvCell (peer c 3) 1 2) () NC) + tallyAt (recvCell (peer c 1) 0 2) () NC) + tallyAt (recvCell (peer c 3) 1 1) () NC) + tallyAt (recvCell (peer c 1) 0 1) () NC) + tallyAt (recvCell (peer c 3) 1 0) () NC) + tallyAt (recvCell (peer c 1) 0 0) () NC) + tallyAt (barCell (peer c 3)) () 1) + tallyAt (barCell (peer c 2)) () 1) + tallyAt (barCell (peer c 1)) () 1)

def localsFlat (c : Dev nD) : sProp 𝕄 :=
  iprop(semVal ((c : Thread nD τ), SemLoc.dma (dsem 48)) 0
    ∗ semVal ((c : Thread nD τ), SemLoc.dma (dsem 49)) 0
    ∗ semVal ((c : Thread nD τ), SemLoc.dma (dsem 50)) 0
    ∗ semVal ((c : Thread nD τ), SemLoc.dma (dsem 51)) 0
    ∗ semVal ((c : Thread nD τ), SemLoc.dma (dsem 52)) 0
    ∗ semVal ((c : Thread nD τ), SemLoc.dma (dsem 53)) 0
    ∗ semVal ((c : Thread nD τ), SemLoc.dma (dsem 54)) 0
    ∗ semVal ((c : Thread nD τ), SemLoc.dma (dsem 55)) 0
    ∗ semVal ((c : Thread nD τ), SemLoc.dma (dsem 56)) 0
    ∗ semVal ((c : Thread nD τ), SemLoc.dma (dsem 57)) 0
    ∗ semVal ((c : Thread nD τ), SemLoc.dma (dsem 58)) 0
    ∗ semVal ((c : Thread nD τ), SemLoc.dma (dsem 59)) 0
    ∗ semVal ((c : Thread nD τ), SemLoc.dma (dsem 60)) 0
    ∗ semVal ((c : Thread nD τ), SemLoc.dma (dsem 61)) 0
    ∗ semVal ((c : Thread nD τ), SemLoc.dma (dsem 62)) 0
    ∗ semVal ((c : Thread nD τ), SemLoc.dma (dsem 63)) 0)

def flatPers (c : Dev nD) (K : GSem nD τ sig → ℕ) : sProp 𝕄 :=
  iprop(cellInv ER (sch m) (K (barCell c)) (barCell c)
    ∗ cellInv ER (sch m) (K (barCell (peer c 1))) (barCell (peer c 1)) ∗ cellInv ER (sch m) (K (barCell (peer c 2))) (barCell (peer c 2)) ∗ cellInv ER (sch m) (K (barCell (peer c 3))) (barCell (peer c 3))
    ∗ flat24 (fun _ t k => cellInv ER (sch m) (K (sendCell c t k)) (sendCell c t k))
    ∗ flat24 (fun d t k => cellInv ER (sch m) (K (recvCell (peer c d) t k)) (recvCell (peer c d) t k))
    ∗ flat24 (fun _ t k => cellInv ER (sch m) (K (recvCell c t k)) (recvCell c t k))
    ∗ reached ER (barCell c) 0
    ∗ reached ER (barCell (peer c 1)) 0 ∗ reached ER (barCell (peer c 2)) 0 ∗ reached ER (barCell (peer c 3)) 0
    ∗ flat24 (fun _ t k => reached ER (sendCell c t k) 0)
    ∗ flat24 (fun d t k => reached ER (recvCell (peer c d) t k) 0)
    ∗ flat24 (fun _ t k => reached ER (recvCell c t k) 0)
    ∗ levAts L lv)

def flatLin (c : Dev nD)
    (x : Buf (Elt F) ((Memref.whole main_arg0).view.loc (c : Thread nD τ)))
    (w : Buf (Elt F) ((Memref.whole main_arg1).view.loc (c : Thread nD τ)))
    (o : Buf (Elt F) ((Memref.whole main_v1).view.loc (c : Thread nD τ)))
    (s1 : Buf (Elt F) ((Memref.whole cc0_scratch1).view.loc (c : Thread nD τ)))
    (s2 : Buf (Elt F) ((Memref.whole cc0_scratch2).view.loc (c : Thread nD τ)))
    (s4 : Buf (Elt F) ((Memref.whole cc0_scratch4).view.loc (c : Thread nD τ)))
    (s5 : Buf (Elt F) ((Memref.whole cc0_scratch5).view.loc (c : Thread nD τ)))
    (f0 : Buf (Elt F) ((c : Thread nD τ).loc cc0_scratch0))
    (f3 : Buf (Elt F) ((c : Thread nD τ).loc cc0_scratch3))
    (W : Waits sig Unit) : sProp 𝕄 :=
  iprop(dutyTok ER (barCell (peer c 1)) 0 (0 : Fin 3) ∗ dutyTok ER (barCell (peer c 2)) 0 (1 : Fin 3) ∗ dutyTok ER (barCell (peer c 3)) 0 (2 : Fin 3)
    ∗ flat24 (fun _ t k => dutyTok ER (sendCell c t k) 0 (0 : Fin 3))
    ∗ flat24 (fun d t k => dutyTok ER (recvCell (peer c d) t k) 0 (0 : Fin 3))
    ∗ atPos ER (barCell c) 0 ∅ 0
    ∗ flat24 (fun _ t k => atPos ER (sendCell c t k) 0 ∅ 0)
    ∗ flat24 (fun _ t k => atPos ER (recvCell c t k) 0 ∅ 0)
    ∗ cred (tallyAt (barCell c) () 3)
    ∗ flat24 (fun _ t k => cred (tallyAt (recvCell c t k) () NC))
    ∗ chunkPts c commM 2 0 fullShare f0 ∗ chunkPts c commM 2 1 fullShare f0 ∗ chunkPts c commM 2 2 fullShare f0 ∗ chunkPts c commM 2 3 fullShare f0 ∗ chunkPts c commM 2 4 fullShare f0 ∗ chunkPts c commM 2 5 fullShare f0 ∗ chunkPts c commM 2 6 fullShare f0 ∗ chunkPts c commM 2 7 fullShare f0
    ∗ chunkPts c commM 1 0 fullShare f0 ∗ chunkPts c commM 1 1 fullShare f0 ∗ chunkPts c commM 1 2 fullShare f0 ∗ chunkPts c commM 1 3 fullShare f0 ∗ chunkPts c commM 1 4 fullShare f0 ∗ chunkPts c commM 1 5 fullShare f0 ∗ chunkPts c commM 1 6 fullShare f0 ∗ chunkPts c commM 1 7 fullShare f0
    ∗ chunkPts c commM 0 0 fullShare f0 ∗ chunkPts c commM 0 1 fullShare f0 ∗ chunkPts c commM 0 2 fullShare f0 ∗ chunkPts c commM 0 3 fullShare f0 ∗ chunkPts c commM 0 4 fullShare f0 ∗ chunkPts c commM 0 5 fullShare f0 ∗ chunkPts c commM 0 6 fullShare f0 ∗ chunkPts c commM 0 7 fullShare f0
    ∗ flat24 (fun _ t k => chunkPts c sbufM t k fullShare f3)
    ∗ tokX c 48 x ∗ tokX c 49 x ∗ tokX c 50 x ∗ tokX c 51 x ∗ tokX c 52 x
    ∗ tokW c 53 w ∗ tokW c 54 w ∗ tokW c 55 w
    ∗ pt c (Memref.whole main_v1) o
    ∗ pt c (Memref.whole cc0_scratch1) s1 ∗ pt c (Memref.whole cc0_scratch2) s2
    ∗ pt c (Memref.whole cc0_scratch4) s4 ∗ pt c (Memref.whole cc0_scratch5) s5
    ∗ localsFlat c
    ∗ owes (c : Thread nD τ) (owedSum c) W)

end Cert.KernelIdealPf

end
-- ==== Proof.Ctx.lean ====
import proofs.«900612_g7700000000000613_dist_a2a_gemm_m4096_k4096_n2048_f32_none_v7x_i4_1_alg».proof.Proof.Proto

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ UU ℕ

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_TK (Φ : TK → sProp 𝕄) : bigSep Finset.univ Φ = iprop(Φ ((0 : Fin 3), (0 : Fin 8)) ∗ Φ ((0 : Fin 3), (1 : Fin 8)) ∗ Φ ((0 : Fin 3), (2 : Fin 8)) ∗ Φ ((0 : Fin 3), (3 : Fin 8)) ∗ Φ ((0 : Fin 3), (4 : Fin 8)) ∗ Φ ((0 : Fin 3), (5 : Fin 8)) ∗ Φ ((0 : Fin 3), (6 : Fin 8)) ∗ Φ ((0 : Fin 3), (7 : Fin 8)) ∗ Φ ((1 : Fin 3), (0 : Fin 8)) ∗ Φ ((1 : Fin 3), (1 : Fin 8)) ∗ Φ ((1 : Fin 3), (2 : Fin 8)) ∗ Φ ((1 : Fin 3), (3 : Fin 8)) ∗ Φ ((1 : Fin 3), (4 : Fin 8)) ∗ Φ ((1 : Fin 3), (5 : Fin 8)) ∗ Φ ((1 : Fin 3), (6 : Fin 8)) ∗ Φ ((1 : Fin 3), (7 : Fin 8)) ∗ Φ ((2 : Fin 3), (0 : Fin 8)) ∗ Φ ((2 : Fin 3), (1 : Fin 8)) ∗ Φ ((2 : Fin 3), (2 : Fin 8)) ∗ Φ ((2 : Fin 3), (3 : Fin 8)) ∗ Φ ((2 : Fin 3), (4 : Fin 8)) ∗ Φ ((2 : Fin 3), (5 : Fin 8)) ∗ Φ ((2 : Fin 3), (6 : Fin 8)) ∗ Φ ((2 : Fin 3), (7 : Fin 8))) :=
  bigSep_univ_eq_bigSepL [((0 : Fin 3), (0 : Fin 8)), ((0 : Fin 3), (1 : Fin 8)), ((0 : Fin 3), (2 : Fin 8)), ((0 : Fin 3), (3 : Fin 8)), ((0 : Fin 3), (4 : Fin 8)), ((0 : Fin 3), (5 : Fin 8)), ((0 : Fin 3), (6 : Fin 8)), ((0 : Fin 3), (7 : Fin 8)), ((1 : Fin 3), (0 : Fin 8)), ((1 : Fin 3), (1 : Fin 8)), ((1 : Fin 3), (2 : Fin 8)), ((1 : Fin 3), (3 : Fin 8)), ((1 : Fin 3), (4 : Fin 8)), ((1 : Fin 3), (5 : Fin 8)), ((1 : Fin 3), (6 : Fin 8)), ((1 : Fin 3), (7 : Fin 8)), ((2 : Fin 3), (0 : Fin 8)), ((2 : Fin 3), (1 : Fin 8)), ((2 : Fin 3), (2 : Fin 8)), ((2 : Fin 3), (3 : Fin 8)), ((2 : Fin 3), (4 : Fin 8)), ((2 : Fin 3), (5 : Fin 8)), ((2 : Fin 3), (6 : Fin 8)), ((2 : Fin 3), (7 : Fin 8))] (by decide) (by decide) Φ

end Cert.KernelIdealPf

end
-- ==== Proof.BodyCtx.lean ====
import proofs.«900612_g7700000000000613_dist_a2a_gemm_m4096_k4096_n2048_f32_none_v7x_i4_1_alg».proof.Proof.Ctx
import proofs.«900612_g7700000000000613_dist_a2a_gemm_m4096_k4096_n2048_f32_none_v7x_i4_1_alg».proof.Proof.Tables
import proofs.«900612_g7700000000000613_dist_a2a_gemm_m4096_k4096_n2048_f32_none_v7x_i4_1_alg».proof.Proof.Resources

noncomputable section

namespace Cert.KernelIdealPf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem barPay_at1 (c : Dev nD) : barPay (F := F) (peer c 1) 0 = iprop((∃ f, chunkPts (F := F) c commM 2 0 fullShare f) ∗ (∃ f, chunkPts (F := F) c commM 2 1 fullShare f) ∗ (∃ f, chunkPts (F := F) c commM 2 2 fullShare f) ∗ (∃ f, chunkPts (F := F) c commM 2 3 fullShare f) ∗ (∃ f, chunkPts (F := F) c commM 2 4 fullShare f) ∗ (∃ f, chunkPts (F := F) c commM 2 5 fullShare f) ∗ (∃ f, chunkPts (F := F) c commM 2 6 fullShare f) ∗ (∃ f, chunkPts (F := F) c commM 2 7 fullShare f)) := by
  have h : peer (peer c 1) (3 - (0 : Fin 3).val) = c := peer_bar_back c 0
  unfold barPay; rw [bigSep_fin8, h]; rfl
theorem barPay_at2 (c : Dev nD) : barPay (F := F) (peer c 2) 1 = iprop((∃ f, chunkPts (F := F) c commM 1 0 fullShare f) ∗ (∃ f, chunkPts (F := F) c commM 1 1 fullShare f) ∗ (∃ f, chunkPts (F := F) c commM 1 2 fullShare f) ∗ (∃ f, chunkPts (F := F) c commM 1 3 fullShare f) ∗ (∃ f, chunkPts (F := F) c commM 1 4 fullShare f) ∗ (∃ f, chunkPts (F := F) c commM 1 5 fullShare f) ∗ (∃ f, chunkPts (F := F) c commM 1 6 fullShare f) ∗ (∃ f, chunkPts (F := F) c commM 1 7 fullShare f)) := by
  have h : peer (peer c 2) (3 - (1 : Fin 3).val) = c := peer_bar_back c 1
  unfold barPay; rw [bigSep_fin8, h]; rfl
theorem barPay_at3 (c : Dev nD) : barPay (F := F) (peer c 3) 2 = iprop((∃ f, chunkPts (F := F) c commM 0 0 fullShare f) ∗ (∃ f, chunkPts (F := F) c commM 0 1 fullShare f) ∗ (∃ f, chunkPts (F := F) c commM 0 2 fullShare f) ∗ (∃ f, chunkPts (F := F) c commM 0 3 fullShare f) ∗ (∃ f, chunkPts (F := F) c commM 0 4 fullShare f) ∗ (∃ f, chunkPts (F := F) c commM 0 5 fullShare f) ∗ (∃ f, chunkPts (F := F) c commM 0 6 fullShare f) ∗ (∃ f, chunkPts (F := F) c commM 0 7 fullShare f)) := by
  have h : peer (peer c 3) (3 - (2 : Fin 3).val) = c := peer_bar_back c 2
  unfold barPay; rw [bigSep_fin8, h]; rfl

theorem barPay_own0 (c : Dev nD) : barPay (F := F) c 0 = iprop((∃ f, chunkPts (F := F) (peer c 3) commM 2 0 fullShare f) ∗ (∃ f, chunkPts (F := F) (peer c 3) commM 2 1 fullShare f) ∗ (∃ f, chunkPts (F := F) (peer c 3) commM 2 2 fullShare f) ∗ (∃ f, chunkPts (F := F) (peer c 3) commM 2 3 fullShare f) ∗ (∃ f, chunkPts (F := F) (peer c 3) commM 2 4 fullShare f) ∗ (∃ f, chunkPts (F := F) (peer c 3) commM 2 5 fullShare f) ∗ (∃ f, chunkPts (F := F) (peer c 3) commM 2 6 fullShare f) ∗ (∃ f, chunkPts (F := F) (peer c 3) commM 2 7 fullShare f)) := by
  unfold barPay; rw [bigSep_fin8]; rfl
theorem barPay_own1 (c : Dev nD) : barPay (F := F) c 1 = iprop((∃ f, chunkPts (F := F) (peer c 2) commM 1 0 fullShare f) ∗ (∃ f, chunkPts (F := F) (peer c 2) commM 1 1 fullShare f) ∗ (∃ f, chunkPts (F := F) (peer c 2) commM 1 2 fullShare f) ∗ (∃ f, chunkPts (F := F) (peer c 2) commM 1 3 fullShare f) ∗ (∃ f, chunkPts (F := F) (peer c 2) commM 1 4 fullShare f) ∗ (∃ f, chunkPts (F := F) (peer c 2) commM 1 5 fullShare f) ∗ (∃ f, chunkPts (F := F) (peer c 2) commM 1 6 fullShare f) ∗ (∃ f, chunkPts (F := F) (peer c 2) commM 1 7 fullShare f)) := by
  unfold barPay; rw [bigSep_fin8]; rfl
theorem barPay_own2 (c : Dev nD) : barPay (F := F) c 2 = iprop((∃ f, chunkPts (F := F) (peer c 1) commM 0 0 fullShare f) ∗ (∃ f, chunkPts (F := F) (peer c 1) commM 0 1 fullShare f) ∗ (∃ f, chunkPts (F := F) (peer c 1) commM 0 2 fullShare f) ∗ (∃ f, chunkPts (F := F) (peer c 1) commM 0 3 fullShare f) ∗ (∃ f, chunkPts (F := F) (peer c 1) commM 0 4 fullShare f) ∗ (∃ f, chunkPts (F := F) (peer c 1) commM 0 5 fullShare f) ∗ (∃ f, chunkPts (F := F) (peer c 1) commM 0 6 fullShare f) ∗ (∃ f, chunkPts (F := F) (peer c 1) commM 0 7 fullShare f)) := by
  unfold barPay; rw [bigSep_fin8]; rfl

theorem own_bar_split (c : Dev nD) :
    (bigSep (Finset.univ : Finset (Fin 3)) fun d => barPay (F := F) c d)
      ⊢ iprop((∃ f, chunkPts (F := F) (peer c 1) commM 0 0 fullShare f)
        ∗ (∃ f, chunkPts (F := F) (peer c 3) commM 2 0 fullShare f)
        ∗ (∃ f, chunkPts (F := F) (peer c 1) commM 0 1 fullShare f)
        ∗ (∃ f, chunkPts (F := F) (peer c 3) commM 2 1 fullShare f)
        ∗ (∃ f, chunkPts (F := F) (peer c 1) commM 0 2 fullShare f)
        ∗ (∃ f, chunkPts (F := F) (peer c 3) commM 2 2 fullShare f)
        ∗ (∃ f, chunkPts (F := F) (peer c 1) commM 0 3 fullShare f)
        ∗ (∃ f, chunkPts (F := F) (peer c 3) commM 2 3 fullShare f)
        ∗ (∃ f, chunkPts (F := F) (peer c 1) commM 0 4 fullShare f)
        ∗ (∃ f, chunkPts (F := F) (peer c 3) commM 2 4 fullShare f)
        ∗ (∃ f, chunkPts (F := F) (peer c 1) commM 0 5 fullShare f)
        ∗ (∃ f, chunkPts (F := F) (peer c 3) commM 2 5 fullShare f)
        ∗ (∃ f, chunkPts (F := F) (peer c 1) commM 0 6 fullShare f)
        ∗ (∃ f, chunkPts (F := F) (peer c 3) commM 2 6 fullShare f)
        ∗ (∃ f, chunkPts (F := F) (peer c 1) commM 0 7 fullShare f)
        ∗ (∃ f, chunkPts (F := F) (peer c 3) commM 2 7 fullShare f)
        ∗ (∃ f, chunkPts (F := F) (peer c 2) commM 1 0 fullShare f)
        ∗ (∃ f, chunkPts (F := F) (peer c 2) commM 1 1 fullShare f)
        ∗ (∃ f, chunkPts (F := F) (peer c 2) commM 1 2 fullShare f)
        ∗ (∃ f, chunkPts (F := F) (peer c 2) commM 1 3 fullShare f)
        ∗ (∃ f, chunkPts (F := F) (peer c 2) commM 1 4 fullShare f)
        ∗ (∃ f, chunkPts (F := F) (peer c 2) commM 1 5 fullShare f)
        ∗ (∃ f, chunkPts (F := F) (peer c 2) commM 1 6 fullShare f)
        ∗ (∃ f, chunkPts (F := F) (peer c 2) commM 1 7 fullShare f)) := by
  rw [bigSep_fin3, barPay_own0, barPay_own1, barPay_own2]
  iintro ⟨⟨H0_0, H0_1, H0_2, H0_3, H0_4, H0_5, H0_6, H0_7⟩, ⟨H1_0, H1_1, H1_2, H1_3, H1_4, H1_5, H1_6, H1_7⟩, H2_0, H2_1, H2_2, H2_3, H2_4, H2_5, H2_6, H2_7⟩
  isplitl [H2_0]; · iexact H2_0
  isplitl [H0_0]; · iexact H0_0
  isplitl [H2_1]; · iexact H2_1
  isplitl [H0_1]; · iexact H0_1
  isplitl [H2_2]; · iexact H2_2
  isplitl [H0_2]; · iexact H0_2
  isplitl [H2_3]; · iexact H2_3
  isplitl [H0_3]; · iexact H0_3
  isplitl [H2_4]; · iexact H2_4
  isplitl [H0_4]; · iexact H0_4
  isplitl [H2_5]; · iexact H2_5
  isplitl [H0_5]; · iexact H0_5
  isplitl [H2_6]; · iexact H2_6
  isplitl [H0_6]; · iexact H0_6
  isplitl [H2_7]; · iexact H2_7
  isplitl [H0_7]; · iexact H0_7
  isplitl [H1_0]; · iexact H1_0
  isplitl [H1_1]; · iexact H1_1
  isplitl [H1_2]; · iexact H1_2
  isplitl [H1_3]; · iexact H1_3
  isplitl [H1_4]; · iexact H1_4
  isplitl [H1_5]; · iexact H1_5
  isplitl [H1_6]; · iexact H1_6
  iexact H1_7

theorem sendPay_eq (c : Dev nD) (t : Fin 3) (k : Fin 8) : sendPay (F := F) c t k
    = (iprop(∃ f : Buf (Elt F) ((chunkM sbufM t k).view.loc (c : Thread nD τ)),
        (chunkM sbufM t k).view.loc (c : Thread nD τ) ↦[(chunkM sbufM t k).view.set]{fullShare} f) : sProp 𝕄) := rfl
theorem recvPay_eq (c : Dev nD) (t : Fin 3) (k : Fin 8) : recvPay m c t k
    = ((chunkM commM (cTile t) k).view.loc (c : Thread nD τ) ↦[(chunkM commM (cTile t) k).view.set]{fullShare} landed m c t k : sProp 𝕄) := rfl

theorem comm_entry (c : Dev nD) (f : Buf (Elt F) ((c : Thread nD τ).loc cc0_scratch0)) :
    (((c : Thread nD τ).loc cc0_scratch0) ↦{fullShare} f : sProp 𝕄)
      ⊢ iprop(chunkPts c commM 2 0 fullShare f ∗ chunkPts c commM 2 1 fullShare f ∗ chunkPts c commM 2 2 fullShare f ∗ chunkPts c commM 2 3 fullShare f ∗ chunkPts c commM 2 4 fullShare f ∗ chunkPts c commM 2 5 fullShare f ∗ chunkPts c commM 2 6 fullShare f ∗ chunkPts c commM 2 7 fullShare f ∗ chunkPts c commM 1 0 fullShare f ∗ chunkPts c commM 1 1 fullShare f ∗ chunkPts c commM 1 2 fullShare f ∗ chunkPts c commM 1 3 fullShare f ∗ chunkPts c commM 1 4 fullShare f ∗ chunkPts c commM 1 5 fullShare f ∗ chunkPts c commM 1 6 fullShare f ∗ chunkPts c commM 1 7 fullShare f ∗ chunkPts c commM 0 0 fullShare f ∗ chunkPts c commM 0 1 fullShare f ∗ chunkPts c commM 0 2 fullShare f ∗ chunkPts c commM 0 3 fullShare f ∗ chunkPts c commM 0 4 fullShare f ∗ chunkPts c commM 0 5 fullShare f ∗ chunkPts c commM 0 6 fullShare f ∗ chunkPts c commM 0 7 fullShare f) := by
  refine (comm_split c f).trans ?_
  rw [bigSep_TK]
  iintro ⟨H0_0, H0_1, H0_2, H0_3, H0_4, H0_5, H0_6, H0_7, H1_0, H1_1, H1_2, H1_3, H1_4, H1_5, H1_6, H1_7, H2_0, H2_1, H2_2, H2_3, H2_4, H2_5, H2_6, H2_7⟩
  isplitl [H2_0]; · iexact H2_0
  isplitl [H2_1]; · iexact H2_1
  isplitl [H2_2]; · iexact H2_2
  isplitl [H2_3]; · iexact H2_3
  isplitl [H2_4]; · iexact H2_4
  isplitl [H2_5]; · iexact H2_5
  isplitl [H2_6]; · iexact H2_6
  isplitl [H2_7]; · iexact H2_7
  isplitl [H1_0]; · iexact H1_0
  isplitl [H1_1]; · iexact H1_1
  isplitl [H1_2]; · iexact H1_2
  isplitl [H1_3]; · iexact H1_3
  isplitl [H1_4]; · iexact H1_4
  isplitl [H1_5]; · iexact H1_5
  isplitl [H1_6]; · iexact H1_6
  isplitl [H1_7]; · iexact H1_7
  isplitl [H0_0]; · iexact H0_0
  isplitl [H0_1]; · iexact H0_1
  isplitl [H0_2]; · iexact H0_2
  isplitl [H0_3]; · iexact H0_3
  isplitl [H0_4]; · iexact H0_4
  isplitl [H0_5]; · iexact H0_5
  isplitl [H0_6]; · iexact H0_6
  iexact H0_7

attribute [sl_rounds] barPay_at1 barPay_at2 barPay_at3 sendPay_eq recvPay_eq

end Cert.KernelIdealPf

end
-- ==== Proof.Entry.lean ====
import proofs.«900612_g7700000000000613_dist_a2a_gemm_m4096_k4096_n2048_f32_none_v7x_i4_1_alg».proof.Proof.Flat
import proofs.«900612_g7700000000000613_dist_a2a_gemm_m4096_k4096_n2048_f32_none_v7x_i4_1_alg».proof.Proof.BodyCtx

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance flat24_persistent (Φ : ℕ → Fin 3 → Fin 8 → sProp 𝕄) [∀ d t k, BI.Persistent (Φ d t k)] : BI.Persistent (flat24 Φ) := by
  unfold flat24
  iterate 23 refine @sep_persistent _ _ _ _ inferInstance ?_
  exact inferInstance

instance flatPers_persistent (c : Dev nD) (K : GSem nD τ sig → ℕ) : BI.Persistent (flatPers m c K) := by
  unfold flatPers
  iterate 14 refine @sep_persistent _ _ _ _ inferInstance ?_
  exact inferInstance

theorem owedSum_eq (c : Dev nD) : owedSum c = O₀ c := by
  unfold owedSum O₀
  rw [owedFrom_end]
  unfold owedFrom
  rw [List.drop_zero, owedList_eq]
  simp only [List.sum_cons, List.sum_nil, add_zero, zero_add]
  ac_rfl

theorem pers_enter (c : Dev nD) (K : GSem nD τ sig → ℕ) :
    iprop(invs m K c ∗ reacheds (F := F) c ∗ levAts L lv) ⊢ flatPers m c K := by
  unfold invs reacheds flatPers
  simp only [flat24_eq, bigSep_sep', bigSep_fin3]
  iintro ⟨⟨Ib, ⟨I1, I2, I3⟩, IS, IRo, IRp⟩, ⟨Rb, ⟨R1, R2, R3⟩, RS, RRo, RRp⟩, Hlv⟩
  isplitl [Ib]; · iexact Ib
  isplitl [I1]; · iexact I1
  isplitl [I2]; · iexact I2
  isplitl [I3]; · iexact I3
  isplitl [IS]; · iexact IS
  isplitl [IRp]; · iexact IRp
  isplitl [IRo]; · iexact IRo
  isplitl [Rb]; · iexact Rb
  isplitl [R1]; · iexact R1
  isplitl [R2]; · iexact R2
  isplitl [R3]; · iexact R3
  isplitl [RS]; · iexact RS
  isplitl [RRp]; · iexact RRp
  isplitl [RRo]; · iexact RRo
  iexact Hlv

theorem lin_enter (c : Dev nD)
    (x : Buf (Elt F) ((Memref.whole main_arg0).view.loc (c : Thread nD τ)))
    (w : Buf (Elt F) ((Memref.whole main_arg1).view.loc (c : Thread nD τ)))
    (o : Buf (Elt F) ((Memref.whole main_v1).view.loc (c : Thread nD τ)))
    (s1 : Buf (Elt F) ((Memref.whole cc0_scratch1).view.loc (c : Thread nD τ)))
    (s2 : Buf (Elt F) ((Memref.whole cc0_scratch2).view.loc (c : Thread nD τ)))
    (s4 : Buf (Elt F) ((Memref.whole cc0_scratch4).view.loc (c : Thread nD τ)))
    (s5 : Buf (Elt F) ((Memref.whole cc0_scratch5).view.loc (c : Thread nD τ)))
    (f0 : Buf (Elt F) ((c : Thread nD τ).loc cc0_scratch0))
    (f3 : Buf (Elt F) ((c : Thread nD τ).loc cc0_scratch3))
    (W : Waits sig Unit) :
    iprop(linear (F := F) c ∗ localSems (F := F) c ∗ creds (F := F) c
        ∗ (((c : Thread nD τ).loc cc0_scratch0) ↦{fullShare} f0)
        ∗ (((c : Thread nD τ).loc cc0_scratch3) ↦{fullShare} f3)
        ∗ tokX c 48 x ∗ tokX c 49 x ∗ tokX c 50 x ∗ tokX c 51 x ∗ tokX c 52 x
        ∗ tokW c 53 w ∗ tokW c 54 w ∗ tokW c 55 w
        ∗ (((c : Thread nD τ).loc main_v1) ↦{fullShare} o)
        ∗ (((c : Thread nD τ).loc cc0_scratch1) ↦{fullShare} s1)
        ∗ (((c : Thread nD τ).loc cc0_scratch2) ↦{fullShare} s2)
        ∗ (((c : Thread nD τ).loc cc0_scratch4) ↦{fullShare} s4)
        ∗ (((c : Thread nD τ).loc cc0_scratch5) ↦{fullShare} s5)
        ∗ owes (c : Thread nD τ) (O₀ c) W)
      ⊢ flatLin (F := F) c x w o s1 s2 s4 s5 f0 f3 W := by
  unfold linear localSems creds flatLin localsFlat
  simp only [flat24_eq, bigSep_sep', bigSep_fin3, bigSep_fin16]
  rw [owedSum_eq]
  iintro ⟨⟨Ab, ⟨AS, AR⟩, ⟨Db1, Db2, Db3⟩, DS, DR⟩, ⟨Sm48, Sm49, Sm50, Sm51, Sm52, Sm53, Sm54, Sm55, Sm56, Sm57, Sm58, Sm59, Sm60, Sm61, Sm62, Sm63⟩, ⟨Cb, Cr⟩, H0, H3, X48, X49, X50, X51, X52, W53, W54, W55, Ho, H1, H2, H4, H5, HO⟩
  ihave HM := (comm_entry c f0) $$ H0
  icases HM with ⟨M_2_0, M_2_1, M_2_2, M_2_3, M_2_4, M_2_5, M_2_6, M_2_7, M_1_0, M_1_1, M_1_2, M_1_3, M_1_4, M_1_5, M_1_6, M_1_7, M_0_0, M_0_1, M_0_2, M_0_3, M_0_4, M_0_5, M_0_6, M_0_7⟩
  ihave HB := (sbuf_split c f3) $$ H3
  isplitl [Db1]; · iexact Db1
  isplitl [Db2]; · iexact Db2
  isplitl [Db3]; · iexact Db3
  isplitl [DS]; · iexact DS
  isplitl [DR]; · iexact DR
  isplitl [Ab]; · iexact Ab
  isplitl [AS]; · iexact AS
  isplitl [AR]; · iexact AR
  isplitl [Cb]; · iexact Cb
  isplitl [Cr]; · iexact Cr
  isplitl [M_2_0]; · iexact M_2_0
  isplitl [M_2_1]; · iexact M_2_1
  isplitl [M_2_2]; · iexact M_2_2
  isplitl [M_2_3]; · iexact M_2_3
  isplitl [M_2_4]; · iexact M_2_4
  isplitl [M_2_5]; · iexact M_2_5
  isplitl [M_2_6]; · iexact M_2_6
  isplitl [M_2_7]; · iexact M_2_7
  isplitl [M_1_0]; · iexact M_1_0
  isplitl [M_1_1]; · iexact M_1_1
  isplitl [M_1_2]; · iexact M_1_2
  isplitl [M_1_3]; · iexact M_1_3
  isplitl [M_1_4]; · iexact M_1_4
  isplitl [M_1_5]; · iexact M_1_5
  isplitl [M_1_6]; · iexact M_1_6
  isplitl [M_1_7]; · iexact M_1_7
  isplitl [M_0_0]; · iexact M_0_0
  isplitl [M_0_1]; · iexact M_0_1
  isplitl [M_0_2]; · iexact M_0_2
  isplitl [M_0_3]; · iexact M_0_3
  isplitl [M_0_4]; · iexact M_0_4
  isplitl [M_0_5]; · iexact M_0_5
  isplitl [M_0_6]; · iexact M_0_6
  isplitl [M_0_7]; · iexact M_0_7
  isplitl [HB]; · iexact HB
  isplitl [X48]; · iexact X48
  isplitl [X49]; · iexact X49
  isplitl [X50]; · iexact X50
  isplitl [X51]; · iexact X51
  isplitl [X52]; · iexact X52
  isplitl [W53]; · iexact W53
  isplitl [W54]; · iexact W54
  isplitl [W55]; · iexact W55
  isplitl [Ho]; · iexact Ho
  isplitl [H1]; · iexact H1
  isplitl [H2]; · iexact H2
  isplitl [H4]; · iexact H4
  isplitl [H5]; · iexact H5
  isplitl [Sm48 Sm49 Sm50 Sm51 Sm52 Sm53 Sm54 Sm55 Sm56 Sm57 Sm58 Sm59 Sm60 Sm61 Sm62 Sm63]
  · isplitl [Sm48]; · iexact Sm48
    isplitl [Sm49]; · iexact Sm49
    isplitl [Sm50]; · iexact Sm50
    isplitl [Sm51]; · iexact Sm51
    isplitl [Sm52]; · iexact Sm52
    isplitl [Sm53]; · iexact Sm53
    isplitl [Sm54]; · iexact Sm54
    isplitl [Sm55]; · iexact Sm55
    isplitl [Sm56]; · iexact Sm56
    isplitl [Sm57]; · iexact Sm57
    isplitl [Sm58]; · iexact Sm58
    isplitl [Sm59]; · iexact Sm59
    isplitl [Sm60]; · iexact Sm60
    isplitl [Sm61]; · iexact Sm61
    isplitl [Sm62]; · iexact Sm62
    iexact Sm63
  iexact HO

theorem enter (c : Dev nD) : bodyPre m c ⊢ iprop(∃ K s1 s2 s4 s5 f0 f3 W,
    flatPers m c K
    ∗ flatLin (F := F) c (m ((c : Thread nD τ).loc main_arg0)) (m ((c : Thread nD τ).loc main_arg1)) (m ((c : Thread nD τ).loc main_v1)) s1 s2 s4 s5 f0 f3 W
    ∗ tokRest ((c : Thread nD τ).loc main_arg0) (m ((c : Thread nD τ).loc main_arg0)) 48 53
    ∗ tokRest ((c : Thread nD τ).loc main_arg1) (m ((c : Thread nD τ).loc main_arg1)) 53 56) := by
  unfold bodyPre Φ₀ start ghost args scratch
  iintro ⟨⟨⟨⟨%K, Hinv, Hreach, Hlin⟩, Hsems, Hcreds, Hlv, Hx, Hw, Ho⟩, ⟨%f0, H0⟩, ⟨%s1, H1⟩, ⟨%s2, H2⟩, ⟨%f3, H3⟩, ⟨%s4, H4⟩, ⟨%s5, H5⟩⟩, ⟨%W, -, HO⟩⟩
  ihave HX := (x_toks c (m ((c : Thread nD τ).loc main_arg0))).1 $$ Hx
  icases HX with ⟨X48, X49, X50, X51, X52, Xr⟩
  ihave HW := (w_toks c (m ((c : Thread nD τ).loc main_arg1))).1 $$ Hw
  icases HW with ⟨W53, W54, W55, Wr⟩
  iexists K, s1, s2, s4, s5, f0, f3, W
  isplitl [Hinv Hreach Hlv]
  · iapply (pers_enter m c K)
    isplitl [Hinv]; · iexact Hinv
    isplitl [Hreach]; · iexact Hreach
    iexact Hlv
  isplitr [Xr Wr]
  · iapply (lin_enter c (m ((c : Thread nD τ).loc main_arg0)) (m ((c : Thread nD τ).loc main_arg1)) (m ((c : Thread nD τ).loc main_v1)) s1 s2 s4 s5 f0 f3 W)
    isplitl [Hlin]; · iexact Hlin
    isplitl [Hsems]; · iexact Hsems
    isplitl [Hcreds]; · iexact Hcreds
    isplitl [H0]; · iexact H0
    isplitl [H3]; · iexact H3
    isplitl [X48]; · iexact X48
    isplitl [X49]; · iexact X49
    isplitl [X50]; · iexact X50
    isplitl [X51]; · iexact X51
    isplitl [X52]; · iexact X52
    isplitl [W53]; · iexact W53
    isplitl [W54]; · iexact W54
    isplitl [W55]; · iexact W55
    isplitl [Ho]; · iexact Ho
    isplitl [H1]; · iexact H1
    isplitl [H2]; · iexact H2
    isplitl [H4]; · iexact H4
    isplitl [H5]; · iexact H5
    iexact HO
  isplitl [Xr]; · iexact Xr
  iexact Wr

end Cert.KernelIdealPf

end
-- ==== Proof.Exit.lean ====
import proofs.«900612_g7700000000000613_dist_a2a_gemm_m4096_k4096_n2048_f32_none_v7x_i4_1_alg».proof.Proof.Ctx
import proofs.«900612_g7700000000000613_dist_a2a_gemm_m4096_k4096_n2048_f32_none_v7x_i4_1_alg».proof.Proof.Flat

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- A cell whose only round is finished closes: nothing is scheduled on it from round 1 on.
theorem close_cell (κ : ℕ) (g : GSem nD τ sig) :
    iprop(cellInv ER (sch m) κ g ∗ atPos ER g 1 ∅ 0) ⊢ (iprop(|={Set.univ}=> semVal g 0) : sProp 𝕄) :=
  Rounds.cell_close ER (sch m) (Set.mem_univ κ) (fun h => h) (R := 1) (duties_later m g)

theorem post_intro (c : Dev nD) (W : Waits sig Unit) :
    iprop((∃ o, ⌜OutSpec m c o⌝ ∗ args m c o) ∗ scratch c
        ∗ (bigSep (Finset.univ : Finset (Fin 64)) fun i => semVal ((c : Thread nD τ), osem i) 0)
        ∗ owes (c : Thread nD τ) 0 W)
      ⊢ bodyPost m c := by
  unfold bodyPost Φ₁ Dat.owesAt Pipeline.owesWithin
  rw [show (dats m 0 c).owed t₀.succ = 0 from rfl]
  iintro ⟨HA, HS, HV, HO⟩
  isplitl [HA HS HV]
  · isplitl [HA]; · iexact HA
    isplitl [HS]; · iexact HS
    iexact HV
  · iexists W
    isplitr; · ipureintro; exact fun _ _ => Or.inl trivial
    iexact HO

theorem post_intro_owed (c : Dev nD) (W : Waits sig Unit) :
    iprop((∃ o, ⌜OutSpec m c o⌝ ∗ args m c o) ∗ scratch c
        ∗ (bigSep (Finset.univ : Finset (Fin 64)) fun i => semVal ((c : Thread nD τ), osem i) 0)
        ∗ owes (c : Thread nD τ) (owedFrom c 27) W)
      ⊢ bodyPost m c := by
  rw [owedFrom_end]
  exact post_intro m c W

end Cert.KernelIdealPf

end
-- ==== Proof.Exit2.lean ====
import proofs.«900612_g7700000000000613_dist_a2a_gemm_m4096_k4096_n2048_f32_none_v7x_i4_1_alg».proof.Proof.Exit
import proofs.«900612_g7700000000000613_dist_a2a_gemm_m4096_k4096_n2048_f32_none_v7x_i4_1_alg».proof.Proof.Fund

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def argsOut (c : Dev nD) (o' : Buf (Elt F) ((c : Thread nD τ).loc main_v1)) : sProp 𝕄 :=
  iprop(tokX c 48 (m ((c : Thread nD τ).loc main_arg0)) ∗ tokX c 49 (m ((c : Thread nD τ).loc main_arg0)) ∗ tokX c 50 (m ((c : Thread nD τ).loc main_arg0)) ∗ tokX c 51 (m ((c : Thread nD τ).loc main_arg0)) ∗ tokX c 52 (m ((c : Thread nD τ).loc main_arg0))
    ∗ tokRest ((c : Thread nD τ).loc main_arg0) (m ((c : Thread nD τ).loc main_arg0)) 48 53
    ∗ tokW c 53 (m ((c : Thread nD τ).loc main_arg1)) ∗ tokW c 54 (m ((c : Thread nD τ).loc main_arg1)) ∗ tokW c 55 (m ((c : Thread nD τ).loc main_arg1))
    ∗ tokRest ((c : Thread nD τ).loc main_arg1) (m ((c : Thread nD τ).loc main_arg1)) 53 56
    ∗ pt c (Memref.whole main_v1) o')

-- Each finished cell closes by itself; the updates of a family of cells combine into one.
theorem close_cells (K : GSem nD τ sig → ℕ) (cell : Fin 3 → Fin 8 → GSem nD τ sig) :
    (bigSep (Finset.univ : Finset TK) fun tk => iprop(cellInv ER (sch m) (K (cell tk.1 tk.2)) (cell tk.1 tk.2) ∗ atPos ER (cell tk.1 tk.2) 1 ∅ 0))
      ⊢ (iprop(|={Set.univ}=> bigSep (Finset.univ : Finset TK) fun tk => semVal (cell tk.1 tk.2) 0) : sProp 𝕄) :=
  (bigSep_mono fun tk _ => close_cell m (K (cell tk.1 tk.2)) (cell tk.1 tk.2)).trans (bigSep_fupd _ _)

-- The 64 semaphores of a device are its 24 departure cells, its 24 arrival cells and the 16 local ones.
theorem sems_join (c : Dev nD) :
    iprop((bigSep (Finset.univ : Finset TK) fun tk => semVal (sendCell c tk.1 tk.2) 0)
        ∗ (bigSep (Finset.univ : Finset TK) fun tk => semVal (recvCell c tk.1 tk.2) 0) ∗ localsFlat (F := F) c)
      ⊢ (bigSep (Finset.univ : Finset (Fin 64)) fun i => semVal ((c : Thread nD τ), osem i) 0 : sProp 𝕄) := by
  have h := ownSems0_eq (F := F) c
  unfold Pipeline.ownSems0 at h
  rw [h]
  unfold localsFlat localSems
  rw [bigSep_fin16]
  exact Entails.rfl

theorem args_exit (c : Dev nD) (o' : Buf (Elt F) ((c : Thread nD τ).loc main_v1)) : argsOut m c o' ⊢ args m c o' := by
  unfold argsOut args
  iintro ⟨HX48, HX49, HX50, HX51, HX52, HXr, HW53, HW54, HW55, HWr, HOut⟩
  isplitl [HX48 HX49 HX50 HX51 HX52 HXr]
  · iapply (x_toks c (m ((c : Thread nD τ).loc main_arg0))).2
    iframe HX48 HX49 HX50 HX51 HX52 HXr
  isplitl [HW53 HW54 HW55 HWr]
  · iapply (w_toks c (m ((c : Thread nD τ).loc main_arg1))).2
    iframe HW53 HW54 HW55 HWr
  iexact HOut

-- From what the run leaves: the cells close, the chunks rejoin their buffers, the shares rejoin the arguments.
theorem exit_all (K : GSem nD τ sig → ℕ) (c : Dev nD) (W : Waits sig Unit)
    (o' : Buf (Elt F) ((c : Thread nD τ).loc main_v1)) (hspec : OutSpec m c o') :
    (iprop((flat24 (fun _ t k => iprop(cellInv ER (sch m) (K (sendCell c t k)) (sendCell c t k) ∗ atPos ER (sendCell c t k) 1 ∅ 0))
          ∗ flat24 (fun _ t k => iprop(cellInv ER (sch m) (K (recvCell c t k)) (recvCell c t k) ∗ atPos ER (recvCell c t k) 1 ∅ 0))
          ∗ localsFlat c)
        ∗ (flat24 (fun _ t k => iprop(∃ f, chunkPts (F := F) c commM (cTile t) k fullShare f))
          ∗ flat24 (fun _ t k => iprop(∃ f, chunkPts (F := F) c sbufM t k fullShare f))
          ∗ (∃ s, pt c (Memref.whole cc0_scratch1) s) ∗ (∃ s, pt c (Memref.whole cc0_scratch2) s)
          ∗ (∃ s, pt c (Memref.whole cc0_scratch4) s) ∗ (∃ s, pt c (Memref.whole cc0_scratch5) s))
        ∗ argsOut m c o'
        ∗ owes (c : Thread nD τ) (owedFrom c 27) W) : sProp 𝕄)
      ⊢ iprop(|={Set.univ}=> bodyPost m c) := by
  simp only [flat24_eq]
  iintro ⟨⟨HS, HR, HL⟩, ⟨HC, HB, H1, H2, H4, H5⟩, H3, HO⟩
  imod (close_cells m K (sendCell c)) $$ HS with HS
  imod (close_cells m K (recvCell c)) $$ HR with HR
  imodintro
  iapply (post_intro_owed m c W)
  isplitl [H3]
  · iexists o'
    isplitr; · ipureintro; exact hspec
    iapply (args_exit m c o'); iexact H3
  isplitl [HC HB H1 H2 H4 H5]
  · unfold scratch
    isplitl [HC]; · iapply (comm_join_any_cTile c); iexact HC
    isplitl [H1]; · iexact H1
    isplitl [H2]; · iexact H2
    isplitl [HB]; · iapply (sbuf_join_any c); iexact HB
    isplitl [H4]; · iexact H4
    iexact H5
  isplitl [HS HR HL]
  · iapply (sems_join c)
    isplitl [HS]; · iexact HS
    isplitl [HR]; · iexact HR
    iexact HL
  iexact HO

end Cert.KernelIdealPf

end
-- ==== Proof.Moves2.lean ====
import proofs.«900612_g7700000000000613_dist_a2a_gemm_m4096_k4096_n2048_f32_none_v7x_i4_1_alg».proof.Proof.Moves
import proofs.«900612_g7700000000000613_dist_a2a_gemm_m4096_k4096_n2048_f32_none_v7x_i4_1_alg».proof.Proof.BlockSum

noncomputable section

namespace Cert.A2aGemm.Moves

open Idealize.ShloMosaic Idealize.ShloMosaic.ValueIdx Idealize.ShloMosaic.TcCoe
open Cert.KernelIdeal Cert.KernelIdeal.Gen Cert.KernelIdealPf Cert.A2aGemm

variable {Val : EltTy → Type}

abbrev wSlice (c : Dev nD) (r : Fin 4) : Memref sig .tc .hbm S1024x2048 .f32 :=
  (Memref.whole main_arg1 : Memref sig .tc .hbm S4096x2048 .f32).slice
    (Rect.unit (s := S4096x2048) (k0_off3 c (BitVec.ofNat 32 r.val)) S1024x2048.size (k0_off3_inb c r)) (fun _ => rfl)

abbrev xOwn (c : Dev nD) : Memref sig .tc .hbm S1024x1024 .f32 :=
  (Memref.whole main_arg0 : Memref sig .tc .hbm S4096x1024 .f32).slice
    (Rect.unit (s := S4096x1024) (k0_off2 c) S1024x1024.size (k0_off2_inb c)) (fun _ => rfl)

theorem wSlice_emb (c : Dev nD) (r : Fin 4) (q : Fin 1024) (j : Fin 2048) :
    (wSlice c r).view.emb (ix2 q j) = ix2 (at4 (peer c r.val) q) j := by
  funext a
  match a with
  | ⟨0, _⟩ =>
    refine Fin.ext ?_
    show k0_off3 c (BitVec.ofNat 32 r.val) 0 + 1 * q.val = _
    rw [off3_eq]
    show 1024 * ((c.val + r.val) % 4) + 1 * q.val = 1024 * ((c.val + r.val) % 4) + q.val
    omega
  | ⟨1, _⟩ =>
    refine Fin.ext ?_
    show k0_off3 c (BitVec.ofNat 32 r.val) 1 + 1 * j.val = _
    rw [off3_eq]
    show 0 + 1 * j.val = j.val
    omega

theorem read_wSlice (c : Dev nD) (r : Fin 4) (w : (⟨S4096x2048, .f32⟩ : BufTy).Contents Val) (q : Fin 1024) (j : Fin 2048) :
    (wSlice c r).view.read Val w (ix2 q j) = w (ix2 (at4 (peer c r.val) q) j) := by
  show w ((wSlice c r).view.emb (ix2 q j)) = _
  rw [wSlice_emb]

theorem xOwn_emb (c : Dev nD) (p : Fin 1024) (q : Fin 1024) :
    (xOwn c).view.emb (ix2 p q) = ix2 (at4 c p) q := by
  funext a
  match a with
  | ⟨0, _⟩ =>
    refine Fin.ext ?_
    show k0_off2 c 0 + 1 * p.val = _
    rw [off2_eq]
    show 1024 * c.val + 1 * p.val = 1024 * c.val + p.val
    omega
  | ⟨1, _⟩ =>
    refine Fin.ext ?_
    show k0_off2 c 1 + 1 * q.val = _
    rw [off2_eq]
    show 0 + 1 * q.val = q.val
    omega

theorem read_xOwn (c : Dev nD) (x : (⟨S4096x1024, .f32⟩ : BufTy).Contents Val) (p : Fin 1024) (q : Fin 1024) :
    (xOwn c).view.read Val x (ix2 p q) = x (ix2 (at4 c p) q) := by
  show x ((xOwn c).view.emb (ix2 p q)) = _
  rw [xOwn_emb]

theorem write_whole_univ (b : Ref sig .tc) (f w : b.ty.Contents Val) :
    (View.whole b : View sig .tc _ _ _).write Val f w Finset.univ = w := by
  funext i
  exact View.write_emb_of_mem (v := (View.whole b : View sig .tc _ _ _)) f w (x := i) (Finset.mem_univ i)

end Cert.A2aGemm.Moves

end
-- ==== Proof.Slabs.lean ====
import Idealize.ShloMosaic.Lib.Pipeline.Value
import Idealize.ShloMosaic.Lib.ValueIdx
import Idealize.ShloMosaic.Lib.ValueLayout

noncomputable section

namespace Cert.A2aGemm.Slabs

open Idealize.ShloMosaic Idealize.ShloMosaic.ValueIdx

variable {sig : RefSig} {κ : Kind} {sp : Space} {s : Shape} {e : EltTy} {Val : EltTy → Type}

theorem write_reshape_outside (v : View sig κ sp s e) (R' : Rect s) (s' : Shape) (h : s'.numel = R'.shape.numel)
    (g : v.ty.Contents Val) (p : s'.Idx → Val e) (M : Finset s'.Idx) {x : s.Idx} (hx : x ∉ R'.set) :
    ((v.slice R').reshape s' h).write Val g p M (v.emb x) = g (v.emb x) := by
  refine View.write_of_not_mem _ _ _ fun hm => hx ?_
  obtain ⟨y, -, hy⟩ := Finset.mem_map.mp hm
  have hy' : v.emb (R'.emb (Shape.reshapeEquiv h y)) = v.emb x := hy
  rw [← v.emb.injective hy', ← Rect.map_emb_univ]
  exact Finset.mem_map_of_mem _ (Finset.mem_univ _)

def Sep (off size off' size' : Fin s.rank → Nat) : Prop :=
  ∃ a, off a + size a ≤ off' a ∨ off' a + size' a ≤ off a

instance (off size off' size' : Fin s.rank → Nat) : Decidable (Sep (s := s) off size off' size') :=
  inferInstanceAs (Decidable (∃ a, _))

theorem Sep.not_mem {off size off' size' : Fin s.rank → Nat} {inb inb'} (h : Sep (s := s) off size off' size')
    {x : s.Idx} (hx : x ∈ (Rect.unit off size inb).set) : x ∉ (Rect.unit off' size' inb').set := by
  obtain ⟨a, ha⟩ := h
  exact fun hx' => Finset.disjoint_left.mp (Rect.unit_disjoint (inb := inb) (inb' := inb') a ha) hx hx'

theorem readAt_write_reshape_sep (v : View sig κ sp s e) {off size off' size' : Fin s.rank → Nat} (inb inb')
    (s' : Shape) (h : s'.numel = (Rect.unit off' size' inb').shape.numel)
    (g : v.ty.Contents Val) (p : s'.Idx → Val e) (M : Finset s'.Idx) (hsep : Sep (s := s) off size off' size') :
    v.readAt Val (Rect.unit off size inb).toLoadRect (((v.slice (Rect.unit off' size' inb')).reshape s' h).write Val g p M)
      = v.readAt Val (Rect.unit off size inb).toLoadRect g := by
  funext y
  show _root_.cast _ (_ : Val v.ty.elt) = _root_.cast _ (_ : Val v.ty.elt)
  congr 1
  exact write_reshape_outside v _ s' h g p M (hsep.not_mem ((Rect.unit off size inb).idx_mem y))

theorem readAt_write_reshape_same (v : View sig κ sp s e) (R : Rect s) (s' : Shape) (h : s'.numel = R.shape.numel)
    (g : v.ty.Contents Val) (p : s'.Idx → Val e) :
    v.readAt Val R.toLoadRect (((v.slice R).reshape s' h).write Val g p Finset.univ)
      = fun x => p ((Shape.reshapeEquiv h).symm x) := by
  funext x
  have hr := congrFun (View.read_write_univ (v := (v.slice R).reshape s' h) g p) ((Shape.reshapeEquiv h).symm x)
  rw [← hr]
  show _ = v.readAt Val R.toLoadRect _ (Shape.reshapeEquiv h ((Shape.reshapeEquiv h).symm x))
  rw [Equiv.apply_symm_apply]

section Slab
variable {n a b : ℕ}

theorem reshapeEquiv_symm_1ab (h : (⟨2, ![a, b]⟩ : Shape).numel = (⟨3, ![1, a, b]⟩ : Shape).numel)
    (u : Fin 1) (r : Fin a) (q : Fin b) : (Shape.reshapeEquiv h).symm (ix3 u r q) = ix2 r q := by
  rw [Equiv.symm_apply_eq, reshapeEquiv_ix2_1ab]
  have hu : u = ⟨0, Nat.one_pos⟩ := Subsingleton.elim _ _
  rw [hu]

theorem readAt_slab_write_slab_same (v : View sig κ sp ⟨3, ![n, a, b]⟩ e) (off : Fin 3 → ℕ)
    (inb : ∀ c, off c + (![1, a, b] : Fin 3 → ℕ) c ≤ (⟨3, ![n, a, b]⟩ : Shape).size c)
    (h : (⟨2, ![a, b]⟩ : Shape).numel = (Rect.unit (s := ⟨3, ![n, a, b]⟩) off ![1, a, b] inb).shape.numel)
    (g : v.ty.Contents Val) (p : (⟨2, ![a, b]⟩ : Shape).Idx → Val e) :
    v.readAt Val (Rect.unit (s := ⟨3, ![n, a, b]⟩) off ![1, a, b] inb).toLoadRect
        (((v.slice (Rect.unit (s := ⟨3, ![n, a, b]⟩) off ![1, a, b] inb)).reshape ⟨2, ![a, b]⟩ h).write Val g p Finset.univ)
      = fun x => p (ix2 (n0 := a) (n1 := b) (x 1) (x 2)) := by
  rw [readAt_write_reshape_same]
  funext x
  obtain ⟨u, r, q, rfl⟩ : ∃ (u : Fin 1) (r : Fin a) (q : Fin b), x = ix3 u r q := ⟨x 0, x 1, x 2, eq_ix3 x⟩
  exact congrArg p (reshapeEquiv_symm_1ab h u r q)

end Slab

section Rows
variable {n0 n1 : ℕ}

theorem unit_emb2 {m0 m1 : ℕ} (off : Fin 2 → ℕ)
    (inb : ∀ c, off c + (![m0, m1] : Fin 2 → ℕ) c ≤ (⟨2, ![n0, n1]⟩ : Shape).size c) (r : Fin m0) (j : Fin m1) :
    (Rect.unit (s := ⟨2, ![n0, n1]⟩) off ![m0, m1] inb).emb (ix2 r j)
      = ix2 (⟨off 0 + r.val, by have := inb 0; have : off 0 + m0 ≤ n0 := this; omega⟩ : Fin n0)
          (⟨off 1 + j.val, by have := inb 1; have : off 1 + m1 ≤ n1 := this; omega⟩ : Fin n1) := by
  funext c
  match c with
  | ⟨0, _⟩ => exact Fin.ext (by show off 0 + 1 * r.val = off 0 + r.val; omega)
  | ⟨1, _⟩ => exact Fin.ext (by show off 1 + 1 * j.val = off 1 + j.val; omega)

theorem read_rect2_apply (v : View sig κ sp ⟨2, ![n0, n1]⟩ e) {m0 m1 : ℕ} (off : Fin 2 → ℕ)
    (inb : ∀ c, off c + (![m0, m1] : Fin 2 → ℕ) c ≤ (⟨2, ![n0, n1]⟩ : Shape).size c)
    (f : v.ty.Contents Val) (r : Fin m0) (j : Fin m1) :
    (v.slice (Rect.unit (s := ⟨2, ![n0, n1]⟩) off ![m0, m1] inb)).read Val f (ix2 r j)
      = v.read Val f (ix2 (⟨off 0 + r.val, by have := inb 0; have : off 0 + m0 ≤ n0 := this; omega⟩ : Fin n0)
          (⟨off 1 + j.val, by have := inb 1; have : off 1 + m1 ≤ n1 := this; omega⟩ : Fin n1)) := by
  show v.read Val f ((Rect.unit (s := ⟨2, ![n0, n1]⟩) off ![m0, m1] inb).emb (ix2 r j)) = _
  rw [unit_emb2]

theorem readAt_rect2_apply (v : View sig κ sp ⟨2, ![n0, n1]⟩ e) {m0 m1 : ℕ} (off : Fin 2 → ℕ)
    (inb : ∀ c, off c + (![m0, m1] : Fin 2 → ℕ) c ≤ (⟨2, ![n0, n1]⟩ : Shape).size c)
    (f : v.ty.Contents Val) (r : Fin m0) (j : Fin m1) :
    v.readAt Val (Rect.unit (s := ⟨2, ![n0, n1]⟩) off ![m0, m1] inb).toLoadRect f (ix2 r j)
      = v.read Val f (ix2 (⟨off 0 + r.val, by have := inb 0; have : off 0 + m0 ≤ n0 := this; omega⟩ : Fin n0)
          (⟨off 1 + j.val, by have := inb 1; have : off 1 + m1 ≤ n1 := this; omega⟩ : Fin n1)) :=
  read_rect2_apply v off inb f r j

theorem read_write_rect2_hit (v : View sig κ sp ⟨2, ![n0, n1]⟩ e) {m0 m1 : ℕ} (off : Fin 2 → ℕ)
    (inb : ∀ c, off c + (![m0, m1] : Fin 2 → ℕ) c ≤ (⟨2, ![n0, n1]⟩ : Shape).size c)
    (g : v.ty.Contents Val) (p : (⟨2, ![m0, m1]⟩ : Shape).Idx → Val e) (i : Fin n0) (j : Fin n1) (r : Fin m0) (l : Fin m1)
    (hi : i.val = off 0 + r.val) (hj : j.val = off 1 + l.val) :
    v.read Val ((v.slice (Rect.unit (s := ⟨2, ![n0, n1]⟩) off ![m0, m1] inb)).write Val g p Finset.univ) (ix2 i j) = p (ix2 r l) := by
  have hx : ix2 i j = (Rect.unit (s := ⟨2, ![n0, n1]⟩) off ![m0, m1] inb).emb (ix2 r l) := by
    rw [unit_emb2]
    funext c
    match c with
    | ⟨0, _⟩ => exact Fin.ext hi
    | ⟨1, _⟩ => exact Fin.ext hj
  rw [hx]
  exact View.read_slice_write_emb (Rect.unit (s := ⟨2, ![n0, n1]⟩) off ![m0, m1] inb) g p (Finset.mem_univ _)

theorem readAt_write_rect2_inside (v : View sig κ sp ⟨2, ![n0, n1]⟩ e) {m0 m1 m0' m1' : ℕ} (off off' : Fin 2 → ℕ)
    (inb : ∀ c, off c + (![m0, m1] : Fin 2 → ℕ) c ≤ (⟨2, ![n0, n1]⟩ : Shape).size c)
    (inb' : ∀ c, off' c + (![m0', m1'] : Fin 2 → ℕ) c ≤ (⟨2, ![n0, n1]⟩ : Shape).size c)
    (g : v.ty.Contents Val) (p : (⟨2, ![m0', m1']⟩ : Shape).Idx → Val e) (r : Fin m0) (j : Fin m1) (r' : Fin m0') (j' : Fin m1')
    (hr : off' 0 + r'.val = off 0 + r.val) (hj : off' 1 + j'.val = off 1 + j.val) :
    v.readAt Val (Rect.unit (s := ⟨2, ![n0, n1]⟩) off ![m0, m1] inb).toLoadRect
        ((v.slice (Rect.unit (s := ⟨2, ![n0, n1]⟩) off' ![m0', m1'] inb')).write Val g p Finset.univ) (ix2 r j)
      = p (ix2 r' j') := by
  rw [readAt_rect2_apply]
  exact read_write_rect2_hit v off' inb' g p _ _ r' j' hr.symm hj.symm

end Rows

end Cert.A2aGemm.Slabs

end
-- ==== Proof.SendValue.lean ====
import proofs.«900612_g7700000000000613_dist_a2a_gemm_m4096_k4096_n2048_f32_none_v7x_i4_1_alg».proof.Proof.Proto
import proofs.«900612_g7700000000000613_dist_a2a_gemm_m4096_k4096_n2048_f32_none_v7x_i4_1_alg».proof.Proof.Moves

noncomputable section

namespace Cert.KernelIdealPf

open Cert.KernelIdeal Cert.KernelIdeal.Gen
open Idealize.ShloMosaic Idealize.ShloMosaic.ValueIdx
open Idealize.ShloMosaic.TcCoe
open Cert.A2aGemm.Moves

variable {F : FTy → Type} [FloatOps F]

variable (m : (ℓ : Loc nD τ sig) → Buf (Elt F) ℓ)

theorem pay1_apply (v : Vec F S1x128x1024 .f32) (u : Fin 1) (r : Fin 128) (q : Fin 1024) :
    k0_pay1 (F := F) v (ix3 u r q) = FloatOps.truncf .bf16 bitsLt_bf16_f32 (v (ix3 (0 : Fin 1) r q)) := by
  unfold k0_pay1
  rw [shapeCast_ab_1ab_apply]
  show FloatOps.truncf .bf16 _ (shapeCast S128x1024 v shapeCasts_S1x128x1024_S128x1024 (ix2 r q)) = _
  rw [shapeCast_1ab_ab_apply]

theorem sent_of_staged (p : FVec F S128x1024 .f32) :
    (fun j : S128x1024.Idx => k0_pay1 (F := F) (fun y : S1x128x1024.Idx => p (ix2 (y 1) (y 2))) (ix3 (0 : Fin 1) (j 0) (j 1)))
      = truncf .bf16 p bitsLt_bf16_f32 := by
  funext j
  refine (pay1_apply (F := F) (fun y : S1x128x1024.Idx => p (ix2 (y 1) (y 2))) 0 (j 0) (j 1)).trans ?_
  exact congrArg (fun z => FloatOps.truncf .bf16 bitsLt_bf16_f32 (p z)) (eq_ix2 j).symm

theorem read_sbuf_store (t : Fin 3) (k : Fin 8) (f3 : (cc0_scratch3 : Ref sig .tc).ty.Contents (Elt F)) (V : Vec F S1x128x1024 .f32) :
    (chunkM sbufM t k).view.read (Elt F) ((sbufM.access (chunkRect t k)).write (Elt F) f3 (k0_pay1 (F := F) V) Finset.univ)
      = fun j : S128x1024.Idx => k0_pay1 (F := F) V (ix3 (0 : Fin 1) (j 0) (j 1)) :=
  read_chunkM_write_access_eq sbufM t k f3 (k0_pay1 (F := F) V)

theorem read_sbuf_staged (t : Fin 3) (k : Fin 8) (f3 : (cc0_scratch3 : Ref sig .tc).ty.Contents (Elt F)) (p : FVec F S128x1024 .f32) :
    (chunkM sbufM t k).view.read (Elt F)
        ((sbufM.access (chunkRect t k)).write (Elt F) f3 (k0_pay1 (F := F) (fun y : S1x128x1024.Idx => p (ix2 (y 1) (y 2)))) Finset.univ)
      = truncf .bf16 p bitsLt_bf16_f32 :=
  (read_sbuf_store t k f3 _).trans (sent_of_staged p)

theorem read_sbuf_sent (c : Dev nD) (t : Fin 3) (k : Fin 8) (f3 : (cc0_scratch3 : Ref sig .tc).ty.Contents (Elt F)) :
    (chunkM sbufM t k).view.read (Elt F)
        ((sbufM.access (chunkRect t k)).write (Elt F) f3
          (k0_pay1 (F := F) (fun y : S1x128x1024.Idx =>
            ((xSlice c t k).view.read (Elt F) (m ((c : Thread nD τ).loc main_arg0)) : FVec F S128x1024 .f32) (ix2 (y 1) (y 2)))) Finset.univ)
      = sentVal m c t k :=
  read_sbuf_staged t k f3 _

theorem read_landed (c : Dev nD) (t : Fin 3) (k : Fin 8) (r : Fin 128) (q : Fin 1024) :
    (Memref.whole cc0_scratch0 : Memref sig .tc .vmem S3x1024x1024 .bf16).view.readAt (Elt F) (chunkRect (cTile t) k).toLoadRect
        (landed m c t k) (ix3 (0 : Fin 1) r q)
      = sentVal m (peer c (4 - dOf t)) t k (ix2 r q) := by
  rw [readAt_chunk]
  show landed m c t k (ix3 (cTile t) (at8 k r) q) = _
  unfold landed
  have h1 : (⟨((ix3 (cTile t) (at8 k r) q : S3x1024x1024.Idx) 1).val % 128, idx_lt_128 _⟩ : Fin 128) = r :=
    Fin.ext (by show (128 * k.val + r.val) % 128 = r.val; omega)
  have h2 : (⟨((ix3 (cTile t) (at8 k r) q : S3x1024x1024.Idx) 2).val, idx_lt_1024 _⟩ : Fin 1024) = q := Fin.ext rfl
  exact congrArg (sentVal m (peer c (4 - dOf t)) t k) (congrArg₂ ix2 h1 h2)

theorem read_landed_eq (c : Dev nD) (t : Fin 3) (k : Fin 8) :
    (Memref.whole cc0_scratch0 : Memref sig .tc .vmem S3x1024x1024 .bf16).view.readAt (Elt F) (chunkRect (cTile t) k).toLoadRect
        (landed m c t k)
      = fun y : S1x128x1024.Idx => sentVal m (peer c (4 - dOf t)) t k (ix2 (y 1) (y 2)) := by
  funext y
  obtain ⟨u, r, q, rfl⟩ : ∃ (u : Fin 1) (r : Fin 128) (q : Fin 1024), y = ix3 u r q := ⟨y 0, y 1, y 2, eq_ix3 y⟩
  have hu : u = 0 := Subsingleton.elim _ _
  rw [hu]
  exact read_landed m c t k r q

end Cert.KernelIdealPf

end
-- ==== Proof.AccValue.lean ====
import proofs.«900612_g7700000000000613_dist_a2a_gemm_m4096_k4096_n2048_f32_none_v7x_i4_1_alg».proof.Proof.Moves2
import proofs.«900612_g7700000000000613_dist_a2a_gemm_m4096_k4096_n2048_f32_none_v7x_i4_1_alg».proof.Proof.Slabs
import proofs.«900612_g7700000000000613_dist_a2a_gemm_m4096_k4096_n2048_f32_none_v7x_i4_1_alg».proof.Proof.SendValue
import proofs.«900612_g7700000000000613_dist_a2a_gemm_m4096_k4096_n2048_f32_none_v7x_i4_1_alg».proof.Proof.PayloadValue
import Idealize.ShloMosaic.Lib.Pipeline.RowLoads
import Idealize.ShloMosaic.Lib.Pipeline.FrameBody
import Idealize.ShloMosaic.Lib.WritesUnit

noncomputable section

namespace Cert.KernelIdealPf

open Cert.KernelIdeal Cert.KernelIdeal.Gen
open Idealize.ShloMosaic Idealize.ShloMosaic.ValueIdx
open Idealize.ShloMosaic.TcCoe
open Cert.A2aGemm Cert.A2aGemm.Moves Cert.A2aGemm.Slabs

variable {F : FTy → Type} [FloatOps F]

variable (m : (ℓ : Loc nD τ sig) → Buf (Elt F) ℓ)

theorem at4_eq_blkRow (b : Dev nD) (p : Fin 1024) : at4 b p = blkRow b p := rfl
theorem xlocV_of_slice (c : Dev nD) :
    ((xOwn c).view.read (Elt F) (m ((c : Thread nD τ).loc main_arg0)) : Vec F S1024x1024 .f32) = xlocV m c := by
  funext i
  obtain ⟨p, q, rfl⟩ : ∃ (p : Fin 1024) (q : Fin 1024), i = ix2 p q := ⟨i 0, i 1, eq_ix2 i⟩
  rw [read_xOwn, xlocV_apply, at4_eq_blkRow]

theorem read_own (c : Dev nD) (s2 : (cc0_scratch2 : Ref sig .tc).ty.Contents (Elt F)) :
    (Memref.whole cc0_scratch2 : Memref sig .tc .vmem S1024x1024 .f32).view.readAt (Elt F)
        (Rect.unit (s := S1024x1024) ![0, 0] S1024x1024.size inb_S1024x1024_S1024x1024_0_0).toLoadRect
        ((Memref.whole cc0_scratch2 : Memref sig .tc .vmem S1024x1024 .f32).view.write (Elt F) s2
          ((xOwn c).view.read (Elt F) (m ((c : Thread nD τ).loc main_arg0))) Finset.univ)
      = xlocV m c := by
  rw [show (Memref.whole cc0_scratch2 : Memref sig .tc .vmem S1024x1024 .f32).view.write (Elt F) s2
        ((xOwn c).view.read (Elt F) (m ((c : Thread nD τ).loc main_arg0))) Finset.univ
      = ((xOwn c).view.read (Elt F) (m ((c : Thread nD τ).loc main_arg0))) from write_whole_univ cc0_scratch2 s2 _,
    xlocV_of_slice]
  funext i
  obtain ⟨p, q, rfl⟩ : ∃ (p : Fin 1024) (q : Fin 1024), i = ix2 p q := ⟨i 0, i 1, eq_ix2 i⟩
  rw [readAt_rect2_apply]
  show xlocV m c (ix2 ⟨0 + p.val, _⟩ ⟨0 + q.val, _⟩) = _
  congr 1
  exact congrArg₂ ix2 (Fin.ext (Nat.zero_add _)) (Fin.ext (Nat.zero_add _))

theorem wV_of_slice (c : Dev nD) (r : Fin 4) :
    (fun y : S1x1024x2048.Idx =>
        ((wSlice c r).view.read (Elt F) (m ((c : Thread nD τ).loc main_arg1)) : Vec F S1024x2048 .f32) (ix2 (y 1) (y 2)))
      = wV m c r.val := by
  funext y
  obtain ⟨u, q, j, rfl⟩ : ∃ (u : Fin 1) (q : Fin 1024) (j : Fin 2048), y = ix3 u q j := ⟨y 0, y 1, y 2, eq_ix3 y⟩
  show (wSlice c r).view.read (Elt F) (m ((c : Thread nD τ).loc main_arg1)) (ix2 q j) = _
  rw [read_wSlice, wV_apply, at4_eq_blkRow]

theorem read_cm (c : Dev nD) (t : Fin 3) (k : Fin 8) :
    (Memref.whole cc0_scratch0 : Memref sig .tc .vmem S3x1024x1024 .bf16).view.readAt (Elt F) (chunkRect (cTile t) k).toLoadRect
        (landed m c t k)
      = cmV m c t k :=
  read_landed_eq m c t k

theorem read_band_write_whole (k : Fin 8) (inbk : ∀ a, (![128 * k.val, 0] : Fin 2 → ℕ) a + S128x2048.size a ≤ S1024x2048.size a)
    (s5 : (cc0_scratch5 : Ref sig .tc).ty.Contents (Elt F)) (P : Vec F S1024x2048 .f32) :
    (Memref.whole cc0_scratch5 : Memref sig .tc .vmem S1024x2048 .f32).view.readAt (Elt F)
        (Rect.unit (s := S1024x2048) ![128 * k.val, 0] S128x2048.size inbk).toLoadRect
        (((Memref.whole cc0_scratch5 : Memref sig .tc .vmem S1024x2048 .f32).view.slice
            (Rect.unit (s := S1024x2048) ![0, 0] S1024x2048.size inb_S1024x2048_S1024x2048_0_0)).write (Elt F) s5 P Finset.univ)
      = fun y : S128x2048.Idx => P (ix2 (chunkRow k ⟨(y 0).val, idx2_lt0 y⟩) (⟨(y 1).val, idx2_lt1 y⟩ : Fin 2048)) := by
  funext y
  obtain ⟨p, j, rfl⟩ : ∃ (p : Fin 128) (j : Fin 2048), y = ix2 p j := ⟨y 0, y 1, eq_ix2 y⟩
  exact readAt_write_rect2_inside (Memref.whole cc0_scratch5 : Memref sig .tc .vmem S1024x2048 .f32).view ![128 * k.val, 0] ![0, 0]
    inbk inb_S1024x2048_S1024x2048_0_0 s5 P p j (chunkRow k p) j (by show 0 + (128 * k.val + p.val) = 128 * k.val + p.val; omega)
    (by show 0 + j.val = 0 + j.val; rfl)

section Cov
open Idealize.ShloMosaic.View

theorem cov_skip (o o' : ℕ) (h : o + 128 ≤ o' ∨ o' + 128 ≤ o) (x : Vec F S128x2048 .f32)
    (L : List (Piece (Elt F) S1024x2048 .f32))
    (inb : ∀ a, (![o, 0] : Fin 2 → ℕ) a + S128x2048.size a ≤ S1024x2048.size a)
    (inb' : ∀ a, (![o', 0] : Fin 2 → ℕ) a + S128x2048.size a ≤ S1024x2048.size a) :
    (Memref.whole cc0_scratch5 : Memref sig .tc .vmem S1024x2048 .f32).view.readCov
        ((⟨Rect.unit (s := S1024x2048) ![o, 0] S128x2048.size inb, x⟩ : Piece (Elt F) S1024x2048 .f32) :: L)
        (Rect.unit (s := S1024x2048) ![o', 0] S128x2048.size inb').toLoadRect
      = (Memref.whole cc0_scratch5 : Memref sig .tc .vmem S1024x2048 .f32).view.readCov L
          (Rect.unit (s := S1024x2048) ![o', 0] S128x2048.size inb').toLoadRect :=
  View.readCov_cons_of_rows_disjoint (Memref.whole cc0_scratch5 : Memref sig .tc .vmem S1024x2048 .f32).view o o' h x L inb inb'

theorem cov_hit (o : ℕ) (x : Vec F S128x2048 .f32) (L : List (Piece (Elt F) S1024x2048 .f32))
    (inb inb' : ∀ a, (![o, 0] : Fin 2 → ℕ) a + S128x2048.size a ≤ S1024x2048.size a) :
    (Memref.whole cc0_scratch5 : Memref sig .tc .vmem S1024x2048 .f32).view.readCov
        ((⟨Rect.unit (s := S1024x2048) ![o, 0] S128x2048.size inb, x⟩ : Piece (Elt F) S1024x2048 .f32) :: L)
        (Rect.unit (s := S1024x2048) ![o, 0] S128x2048.size inb').toLoadRect
      = x :=
  View.readCov_cons_toLoadRect (Memref.whole cc0_scratch5 : Memref sig .tc .vmem S1024x2048 .f32).view
    (Rect.unit (s := S1024x2048) ![o, 0] S128x2048.size inb) x L

theorem cov_whole (o : ℕ) (k : Fin 8) (ho : o = 128 * k.val) (P : Vec F S1024x2048 .f32)
    (inb0 : ∀ a, (![0, 0] : Fin 2 → ℕ) a + S1024x2048.size a ≤ S1024x2048.size a)
    (inb : ∀ a, (![o, 0] : Fin 2 → ℕ) a + S128x2048.size a ≤ S1024x2048.size a) :
    (Memref.whole cc0_scratch5 : Memref sig .tc .vmem S1024x2048 .f32).view.readCov
        [(⟨Rect.unit (s := S1024x2048) ![0, 0] S1024x2048.size inb0, P⟩ : Piece (Elt F) S1024x2048 .f32)]
        (Rect.unit (s := S1024x2048) ![o, 0] S128x2048.size inb).toLoadRect
      = fun y : S128x2048.Idx => P (ix2 (chunkRow k ⟨(y 0).val, idx2_lt0 y⟩) (⟨(y 1).val, idx2_lt1 y⟩ : Fin 2048)) := by
  subst ho
  unfold View.readCov
  exact read_band_write_whole k inb _ P

theorem cov_acc0 (c : Dev nD) (o : ℕ) (k : Fin 8) (ho : o = 128 * k.val)
    (inb0 : ∀ a, (![0, 0] : Fin 2 → ℕ) a + S1024x2048.size a ≤ S1024x2048.size a)
    (inb : ∀ a, (![o, 0] : Fin 2 → ℕ) a + S128x2048.size a ≤ S1024x2048.size a) :
    (Memref.whole cc0_scratch5 : Memref sig .tc .vmem S1024x2048 .f32).view.readCov
        [(⟨Rect.unit (s := S1024x2048) ![0, 0] S1024x2048.size inb0, k0_pay29 (xlocV m c) (wV m c 0)⟩ : Piece (Elt F) S1024x2048 .f32)]
        (Rect.unit (s := S1024x2048) ![o, 0] S128x2048.size inb).toLoadRect
      = acc0 m c k :=
  cov_whole o k ho _ inb0 inb

end Cov

section Out
open Idealize.ShloMosaic.View

theorem out_band_eq (o : ℕ) (inb : ∀ a, (![o, 0] : Fin 2 → ℕ) a + S128x2048.size a ≤ S1024x2048.size a)
    (prf : ∀ a, (Rect.unit (s := S1024x2048) ![o, 0] S128x2048.size inb).stride a = 1)
    (s5 : (cc0_scratch5 : Ref sig .tc).ty.Contents (Elt F)) (w : Vec F S128x2048 .f32) (L : List (Piece (Elt F) S1024x2048 .f32)) :
    View.read (Elt F) ((Memref.whole cc0_scratch5 : Memref sig .tc .vmem S1024x2048 .f32).slice
        (Rect.unit (s := S1024x2048) ![o, 0] S128x2048.size inb) prf).view
      ((Memref.whole cc0_scratch5 : Memref sig .tc .vmem S1024x2048 .f32).view.writes (Elt F) s5
        ((⟨Rect.unit (s := S1024x2048) ![o, 0] S128x2048.size inb, w⟩ : Piece (Elt F) S1024x2048 .f32) :: L))
      = w :=
  View.read_write_univ (v := (Memref.whole cc0_scratch5 : Memref sig .tc .vmem S1024x2048 .f32).view.slice
    (Rect.unit (s := S1024x2048) ![o, 0] S128x2048.size inb)) _ w

variable {κ : Kind} {sp : Space}

theorem wr_skip (v : View sig κ sp S1024x2048 .f32) (f : v.ty.Contents (Elt F)) (o : ℕ) (x : Vec F S128x2048 .f32)
    (L : List (Piece (Elt F) S1024x2048 .f32)) (inb : ∀ a, (![o, 0] : Fin 2 → ℕ) a + S128x2048.size a ≤ S1024x2048.size a)
    (i : Fin 1024) (j : Fin 2048) (h : i.val < o ∨ o + 128 ≤ i.val) :
    v.read (Elt F) (v.writes (Elt F) f ((⟨Rect.unit (s := S1024x2048) ![o, 0] S128x2048.size inb, x⟩ : Piece (Elt F) S1024x2048 .f32) :: L)) (ix2 i j)
      = v.read (Elt F) (v.writes (Elt F) f L) (ix2 i j) :=
  View.read_writes_cons_unit_of_not_mem (v := v) (f := f) inb x L (ix2 i j) rfl 0 h

theorem wr_hit (v : View sig κ sp S1024x2048 .f32) (f : v.ty.Contents (Elt F)) (o : ℕ) (x : Vec F S128x2048 .f32)
    (L : List (Piece (Elt F) S1024x2048 .f32)) (inb : ∀ a, (![o, 0] : Fin 2 → ℕ) a + S128x2048.size a ≤ S1024x2048.size a)
    (i : Fin 1024) (j : Fin 2048) (p : Fin 128) (hi : i.val = o + p.val) :
    v.read (Elt F) (v.writes (Elt F) f ((⟨Rect.unit (s := S1024x2048) ![o, 0] S128x2048.size inb, x⟩ : Piece (Elt F) S1024x2048 .f32) :: L)) (ix2 i j)
      = x (ix2 p j) :=
  View.read_writes_cons_unit_of_mem (v := v) (f := f) inb x L (ix2 i j) (ix2 p j) rfl
    (fun a => match a with
      | ⟨0, _⟩ => hi
      | ⟨1, _⟩ => (Nat.zero_add _).symm)

theorem out_spec_of_bands (c : Dev nD) (o₀ : (main_v1 : Ref sig .tc).ty.Contents (Elt F))
    (P0 P1 P2 P3 P4 P5 P6 P7 : Vec F S128x2048 .f32)
    (h0 : P0 = chunkFinal m c 0) (h1 : P1 = chunkFinal m c 1) (h2 : P2 = chunkFinal m c 2) (h3 : P3 = chunkFinal m c 3)
    (h4 : P4 = chunkFinal m c 4) (h5 : P5 = chunkFinal m c 5) (h6 : P6 = chunkFinal m c 6) (h7 : P7 = chunkFinal m c 7) :
    OutSpec' m c ((Memref.whole main_v1 : Memref sig .tc .hbm S1024x2048 .f32).view.writes (Elt F) o₀
      [(⟨Rect.unit (s := S1024x2048) ![896, 0] S128x2048.size inb_S1024x2048_S128x2048_896_0, P7⟩ : Piece (Elt F) S1024x2048 .f32),
        (⟨Rect.unit (s := S1024x2048) ![768, 0] S128x2048.size inb_S1024x2048_S128x2048_768_0, P6⟩ : Piece (Elt F) S1024x2048 .f32),
        (⟨Rect.unit (s := S1024x2048) ![640, 0] S128x2048.size inb_S1024x2048_S128x2048_640_0, P5⟩ : Piece (Elt F) S1024x2048 .f32),
        (⟨Rect.unit (s := S1024x2048) ![512, 0] S128x2048.size inb_S1024x2048_S128x2048_512_0, P4⟩ : Piece (Elt F) S1024x2048 .f32),
        (⟨Rect.unit (s := S1024x2048) ![384, 0] S128x2048.size inb_S1024x2048_S128x2048_384_0, P3⟩ : Piece (Elt F) S1024x2048 .f32),
        (⟨Rect.unit (s := S1024x2048) ![256, 0] S128x2048.size inb_S1024x2048_S128x2048_256_0, P2⟩ : Piece (Elt F) S1024x2048 .f32),
        (⟨Rect.unit (s := S1024x2048) ![128, 0] S128x2048.size inb_S1024x2048_S128x2048_128_0, P1⟩ : Piece (Elt F) S1024x2048 .f32),
        (⟨Rect.unit (s := S1024x2048) ![0, 0] S128x2048.size inb_S1024x2048_S128x2048_0_0, P0⟩ : Piece (Elt F) S1024x2048 .f32)]) := by
  subst h0 h1 h2 h3 h4 h5 h6 h7
  intro k p j
  match k with
  | ⟨0, _⟩ =>
    refine (congrFun (Cert.A2aGemm.Moves.read_whole (Val := Elt F) main_v1 _) (ix2 (chunkRow 0 p) j)).symm.trans ?_
    rw [wr_skip _ _ 896 _ _ _ (chunkRow 0 p) j (by have := p.isLt; have h : (chunkRow 0 p).val = 128 * 0 + p.val := rfl; omega),
      wr_skip _ _ 768 _ _ _ (chunkRow 0 p) j (by have := p.isLt; have h : (chunkRow 0 p).val = 128 * 0 + p.val := rfl; omega),
      wr_skip _ _ 640 _ _ _ (chunkRow 0 p) j (by have := p.isLt; have h : (chunkRow 0 p).val = 128 * 0 + p.val := rfl; omega),
      wr_skip _ _ 512 _ _ _ (chunkRow 0 p) j (by have := p.isLt; have h : (chunkRow 0 p).val = 128 * 0 + p.val := rfl; omega),
      wr_skip _ _ 384 _ _ _ (chunkRow 0 p) j (by have := p.isLt; have h : (chunkRow 0 p).val = 128 * 0 + p.val := rfl; omega),
      wr_skip _ _ 256 _ _ _ (chunkRow 0 p) j (by have := p.isLt; have h : (chunkRow 0 p).val = 128 * 0 + p.val := rfl; omega),
      wr_skip _ _ 128 _ _ _ (chunkRow 0 p) j (by have := p.isLt; have h : (chunkRow 0 p).val = 128 * 0 + p.val := rfl; omega),
      wr_hit _ _ 0 _ _ _ (chunkRow 0 p) j p (by show 128 * 0 + p.val = 0 + p.val; omega)]
    all_goals rfl
  | ⟨1, _⟩ =>
    refine (congrFun (Cert.A2aGemm.Moves.read_whole (Val := Elt F) main_v1 _) (ix2 (chunkRow 1 p) j)).symm.trans ?_
    rw [wr_skip _ _ 896 _ _ _ (chunkRow 1 p) j (by have := p.isLt; have h : (chunkRow 1 p).val = 128 * 1 + p.val := rfl; omega),
      wr_skip _ _ 768 _ _ _ (chunkRow 1 p) j (by have := p.isLt; have h : (chunkRow 1 p).val = 128 * 1 + p.val := rfl; omega),
      wr_skip _ _ 640 _ _ _ (chunkRow 1 p) j (by have := p.isLt; have h : (chunkRow 1 p).val = 128 * 1 + p.val := rfl; omega),
      wr_skip _ _ 512 _ _ _ (chunkRow 1 p) j (by have := p.isLt; have h : (chunkRow 1 p).val = 128 * 1 + p.val := rfl; omega),
      wr_skip _ _ 384 _ _ _ (chunkRow 1 p) j (by have := p.isLt; have h : (chunkRow 1 p).val = 128 * 1 + p.val := rfl; omega),
      wr_skip _ _ 256 _ _ _ (chunkRow 1 p) j (by have := p.isLt; have h : (chunkRow 1 p).val = 128 * 1 + p.val := rfl; omega),
      wr_hit _ _ 128 _ _ _ (chunkRow 1 p) j p (by show 128 * 1 + p.val = 128 + p.val; omega)]
    all_goals rfl
  | ⟨2, _⟩ =>
    refine (congrFun (Cert.A2aGemm.Moves.read_whole (Val := Elt F) main_v1 _) (ix2 (chunkRow 2 p) j)).symm.trans ?_
    rw [wr_skip _ _ 896 _ _ _ (chunkRow 2 p) j (by have := p.isLt; have h : (chunkRow 2 p).val = 128 * 2 + p.val := rfl; omega),
      wr_skip _ _ 768 _ _ _ (chunkRow 2 p) j (by have := p.isLt; have h : (chunkRow 2 p).val = 128 * 2 + p.val := rfl; omega),
      wr_skip _ _ 640 _ _ _ (chunkRow 2 p) j (by have := p.isLt; have h : (chunkRow 2 p).val = 128 * 2 + p.val := rfl; omega),
      wr_skip _ _ 512 _ _ _ (chunkRow 2 p) j (by have := p.isLt; have h : (chunkRow 2 p).val = 128 * 2 + p.val := rfl; omega),
      wr_skip _ _ 384 _ _ _ (chunkRow 2 p) j (by have := p.isLt; have h : (chunkRow 2 p).val = 128 * 2 + p.val := rfl; omega),
      wr_hit _ _ 256 _ _ _ (chunkRow 2 p) j p (by show 128 * 2 + p.val = 256 + p.val; omega)]
    all_goals rfl
  | ⟨3, _⟩ =>
    refine (congrFun (Cert.A2aGemm.Moves.read_whole (Val := Elt F) main_v1 _) (ix2 (chunkRow 3 p) j)).symm.trans ?_
    rw [wr_skip _ _ 896 _ _ _ (chunkRow 3 p) j (by have := p.isLt; have h : (chunkRow 3 p).val = 128 * 3 + p.val := rfl; omega),
      wr_skip _ _ 768 _ _ _ (chunkRow 3 p) j (by have := p.isLt; have h : (chunkRow 3 p).val = 128 * 3 + p.val := rfl; omega),
      wr_skip _ _ 640 _ _ _ (chunkRow 3 p) j (by have := p.isLt; have h : (chunkRow 3 p).val = 128 * 3 + p.val := rfl; omega),
      wr_skip _ _ 512 _ _ _ (chunkRow 3 p) j (by have := p.isLt; have h : (chunkRow 3 p).val = 128 * 3 + p.val := rfl; omega),
      wr_hit _ _ 384 _ _ _ (chunkRow 3 p) j p (by show 128 * 3 + p.val = 384 + p.val; omega)]
    all_goals rfl
  | ⟨4, _⟩ =>
    refine (congrFun (Cert.A2aGemm.Moves.read_whole (Val := Elt F) main_v1 _) (ix2 (chunkRow 4 p) j)).symm.trans ?_
    rw [wr_skip _ _ 896 _ _ _ (chunkRow 4 p) j (by have := p.isLt; have h : (chunkRow 4 p).val = 128 * 4 + p.val := rfl; omega),
      wr_skip _ _ 768 _ _ _ (chunkRow 4 p) j (by have := p.isLt; have h : (chunkRow 4 p).val = 128 * 4 + p.val := rfl; omega),
      wr_skip _ _ 640 _ _ _ (chunkRow 4 p) j (by have := p.isLt; have h : (chunkRow 4 p).val = 128 * 4 + p.val := rfl; omega),
      wr_hit _ _ 512 _ _ _ (chunkRow 4 p) j p (by show 128 * 4 + p.val = 512 + p.val; omega)]
    all_goals rfl
  | ⟨5, _⟩ =>
    refine (congrFun (Cert.A2aGemm.Moves.read_whole (Val := Elt F) main_v1 _) (ix2 (chunkRow 5 p) j)).symm.trans ?_
    rw [wr_skip _ _ 896 _ _ _ (chunkRow 5 p) j (by have := p.isLt; have h : (chunkRow 5 p).val = 128 * 5 + p.val := rfl; omega),
      wr_skip _ _ 768 _ _ _ (chunkRow 5 p) j (by have := p.isLt; have h : (chunkRow 5 p).val = 128 * 5 + p.val := rfl; omega),
      wr_hit _ _ 640 _ _ _ (chunkRow 5 p) j p (by show 128 * 5 + p.val = 640 + p.val; omega)]
    all_goals rfl
  | ⟨6, _⟩ =>
    refine (congrFun (Cert.A2aGemm.Moves.read_whole (Val := Elt F) main_v1 _) (ix2 (chunkRow 6 p) j)).symm.trans ?_
    rw [wr_skip _ _ 896 _ _ _ (chunkRow 6 p) j (by have := p.isLt; have h : (chunkRow 6 p).val = 128 * 6 + p.val := rfl; omega),
      wr_hit _ _ 768 _ _ _ (chunkRow 6 p) j p (by show 128 * 6 + p.val = 768 + p.val; omega)]
    all_goals rfl
  | ⟨7, _⟩ =>
    refine (congrFun (Cert.A2aGemm.Moves.read_whole (Val := Elt F) main_v1 _) (ix2 (chunkRow 7 p) j)).symm.trans ?_
    rw [wr_hit _ _ 896 _ _ _ (chunkRow 7 p) j p (by show 128 * 7 + p.val = 896 + p.val; omega)]
    all_goals rfl

end Out

end Cert.KernelIdealPf

end
-- ==== Proof.Ledger.lean ====
import proofs.«900612_g7700000000000613_dist_a2a_gemm_m4096_k4096_n2048_f32_none_v7x_i4_1_alg».proof.Proof.Tables

noncomputable section

namespace Cert.KernelIdealPf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def Above (O : CellTallies nD τ sig Unit) : Prop :=
  ∀ (g : GSem nD τ sig) (u : Unit), 0 < O g u → u ∈ L g ∧ lv g u = 2

theorem Above.zero : Above 0 := fun g u h => by
  rw [Pi.zero_apply, Finsupp.coe_zero, Pi.zero_apply] at h
  exact absurd h (Nat.lt_irrefl 0)

theorem Above.add {O₁ O₂ : CellTallies nD τ sig Unit} (h₁ : Above O₁) (h₂ : Above O₂) : Above (O₁ + O₂) := fun g u h => by
  rw [Pi.add_apply, Finsupp.add_apply] at h
  by_cases h1 : 0 < O₁ g u
  · exact h₁ g u h1
  · exact h₂ g u (by omega)

theorem Above.tally_dma (p : Dev nD) (s : DmaSem sig) (hs : 24 ≤ s.val ∧ s.val < 48) (n : ℕ) :
    Above (tallyAt ((p : Thread nD τ), SemLoc.dma s) () n) := fun g u h => by
  obtain rfl : g = ((p : Thread nD τ), SemLoc.dma s) := tallyAt_pos h
  exact ⟨by rw [L_tc]; exact Finset.mem_singleton_self _, if_pos hs⟩

theorem Above.tally (p : Dev nD) (t : Fin 3) (k : Fin 8) (n : ℕ) : Above (tallyAt (recvCell p t k) () n) :=
  Above.tally_dma p (recvS t k) ⟨recvS_ge t k, recvS_lt t k⟩ n

theorem Above.owed (c : Dev nD) (n : ℕ) (hn : 3 ≤ n) : Above (owedFrom c n) :=
  fun g u h => ⟨owed_mem_L h, owed_lv_recv hn h⟩

macro "above_tac" : tactic => `(tactic|
  (repeat' with_reducible first
    | exact Above.zero
    | exact Above.owed _ _ (by omega)
    | exact Above.tally _ _ _ _
    | exact Above.tally_dma _ _ (by decide) _
    | apply Above.add
   done))

theorem mayWait_any (c : Dev nD) (sm : SemLoc sig) (hsm : lv ((c : Thread nD τ), sm) () < 2)
    (O : CellTallies nD τ sig Unit) (h : Above O) :
    (levAts L lv : sProp 𝕄) ⊢ MayWait (c : Thread nD τ) sm () O :=
  MayOwe.of_cut (L := L) (lev := lv) 1
    (fun p hp => by rw [Finset.mem_singleton.mp hp, L_tc]; exact Finset.mem_singleton_self _)
    (fun g u hg => (h g u hg).1)
    (fun p hp => by rw [Finset.mem_singleton.mp hp]; exact Nat.le_of_lt_succ hsm)
    (fun g u hg => by rw [(h g u hg).2]; decide)

def semLv (sm : SemLoc sig) : ℕ :=
  match sm with
  | .reg _ => 1
  | .dma s => if 24 ≤ s.val ∧ s.val < 48 then 2 else 0

theorem lv_eq_semLv (g : GSem nD τ sig) (u : Unit) : lv g u = semLv g.2 := by
  obtain ⟨th, sm⟩ := g
  cases sm <;> rfl

def lowSem (sm : SemLoc sig) : Bool := decide (semLv sm < 2)

theorem mayWait_lowSem (c : Dev nD) (sm : SemLoc sig) (hsm : lowSem sm = true)
    (O : CellTallies nD τ sig Unit) (h : Above O) :
    (levAts L lv : sProp 𝕄) ⊢ MayWait (c : Thread nD τ) sm () O :=
  mayWait_any c sm (by rw [lv_eq_semLv]; exact of_decide_eq_true hsm) O h

end Cert.KernelIdealPf

end
-- ==== Proof.Send.lean ====
import proofs.«900612_g7700000000000613_dist_a2a_gemm_m4096_k4096_n2048_f32_none_v7x_i4_1_alg».proof.Proof.Tables
import proofs.«900612_g7700000000000613_dist_a2a_gemm_m4096_k4096_n2048_f32_none_v7x_i4_1_alg».proof.Proof.Moves

noncomputable section

namespace Cert.KernelIdealPf

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.A2aGemm.Moves

variable {F : FTy → Type} [FloatOps F]

local notation "𝕄" => MT nD τ sig Unit (Elt F) ℕ UU ℕ

variable (m : (ℓ : Loc nD τ sig) → Buf (Elt F) ℓ)

theorem cast_cancel {α β : Type} (h : α = β) {a b : α} (hab : cast h a = cast h b) : a = b := by subst h; exact hab

theorem agree_of_read {Val : EltTy → Type} {sp : Space} {S : Shape} {e : EltTy} (v : View sig .tc sp S e) (f g : v.ty.Contents Val)
    (h : v.read Val f = v.read Val g) : ∀ i ∈ v.set, f i = g i := by
  intro i hi
  obtain ⟨y, rfl⟩ := View.exists_emb_of_mem_set v hi
  have hy := congrFun h y
  rw [View.read_apply, View.read_apply] at hy
  exact cast_cancel _ hy

theorem read_landed_sent (c p : Dev nD) (t i : Fin 3) (k : Fin 8) (hp : p = peer c (dOf t)) :
    (chunkM commM i k).view.read (Elt F) (landed m p t k) = sentVal m c t k := by
  subst hp
  funext y
  obtain ⟨r, q, rfl⟩ : ∃ r q, y = ix2 r q := ⟨y 0, y 1, eq_ix2 y⟩
  rw [read_chunkM]
  show sentVal m (peer (peer c (dOf t)) (4 - dOf t)) t k (ix2 (⟨(at8 k r).val % 128, _⟩ : Fin 128) (⟨q.val, _⟩ : Fin 1024)) = _
  rw [peer_peer]
  have e1 : (⟨(at8 k r).val % 128, Nat.mod_lt _ (by decide)⟩ : Fin 128) = r :=
    Fin.ext (by show (128 * k.val + r.val) % 128 = r.val; have := r.isLt; omega)
  rw [e1]

theorem send_step (c d p : Dev nD) (t i : Fin 3) (k : Fin 8) (hd : d = p) (hp : p = peer c (dOf t)) (hi : i = cTile t) (κs κr : ℕ)
    {O₀ : CellTallies nD τ sig Unit} (O : CellTallies nD τ sig Unit) (hO : O₀ = O + tallyAt (recvCell p t k) () NC) {W : Waits sig Unit}
    {fs : Buf (Elt F) ((chunkM sbufM t k).view.loc (c : Thread nD τ))} {fd : Buf (Elt F) ((chunkM commM i k).view.loc (p : Thread nD τ))}
    {α : Type} {kont : PUnit → Prog (TpuEff nD τ sig (Elt F) Λ₀ .tc) α} {Q : α → sProp 𝕄} {𝒱₀ : Variants}
    {hsc : (chunkM commM i k).view.ref.isScScratch = false} {hsrc : (chunkM sbufM t k).view.WordExact} {hdst : (chunkM commM i k).view.WordExact}
    {hsem : DmaTarget.Typed (nD := nD) (τ := τ) .vmem (.dma (recvS t k)) (.remote (Dev.tc d) (chunkM commM i k) (.dma (sendS t k)) hsc)} :
    iprop(⌜(chunkM sbufM t k).view.read (Elt F) fs = sentVal m c t k⌝
        ∗ cellInv ER (sch m) κs (sendCell c t k) ∗ cellInv ER (sch m) κr (recvCell p t k)
        ∗ chunkPts c sbufM t k fullShare fs ∗ chunkPts p commM i k fullShare fd
        ∗ owes (c : Thread nD τ) O₀ W
        ∗ dutyTok ER (sendCell c t k) 0 (0 : Fin 3) ∗ reached ER (sendCell c t k) 0
        ∗ dutyTok ER (recvCell p t k) 0 (0 : Fin 3) ∗ reached ER (recvCell p t k) 0)
      ⊢ iprop(((cred (tallyAt (sendCell c t k) () NC) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkM sbufM t k) (.remote (Dev.tc d) (chunkM commM i k) (.dma (sendS t k)) hsc) (.dma (recvS t k)) hsrc hdst hsem) kont) Q) := by
  subst hd
  subst hi
  iintro ⟨%hfs, H⟩
  have hd₁ : (0 : Fin 3) ∈ (sch m).duties (sendCell c t k) 0 := by rw [duties_send]; exact Finset.mem_singleton_self _
  have hd₂ : (0 : Fin 3) ∈ (sch m).duties (recvCell d t k) 0 := by rw [duties_recv]; exact Finset.mem_singleton_self _
  have hN : (chunkM commM (cTile t) k).view.amount (SemLoc.dma (recvS t k)) = NC := rfl
  have hk₁ : (sch m).amount (sendCell c t k) 0 (0 : Fin 3) = NC := rfl
  have hk₂ : (sch m).amount (recvCell d t k) 0 (0 : Fin 3) = NC := rfl
  have hpay₁ : ((chunkM sbufM t k).view.loc (c : Thread nD τ) ↦[(chunkM sbufM t k).view.set]{fullShare} fs : sProp 𝕄)
      ⊢ (sch m).payload (sendCell c t k) 0 (0 : Fin 3) := by
    rw [payload_send]; unfold sendPay; iintro H; iexists fs; iexact H
  have hpay₂ : ((chunkM commM (cTile t) k).view.loc (d : Thread nD τ) ↦[(chunkM commM (cTile t) k).view.set]{fullShare}
        ((chunkM commM (cTile t) k).view.write (Elt F) fd ((chunkM sbufM t k).view.read (Elt F) fs) Finset.univ) : sProp 𝕄)
      ⊢ (sch m).payload (recvCell d t k) 0 (0 : Fin 3) := by
    rw [payload_recv]; unfold recvPay
    refine Entails.of_eq (pointsTo_congr (agree_of_read (chunkM commM (cTile t) k).view _ _ ?_))
    rw [View.read_write_univ, hfs, read_landed_sent m c d t (cTile t) k hp]
  iapply (Rounds.wp_send_pointsTo (defs := defs₀ (F := F)) 𝒱₀ ER (sch m) (c : Thread nD τ) none (Γ := .empty) (Q := Q)
    (c' := (d : Thread nD τ)) (src := chunkM sbufM t k) (dst := chunkM commM (cTile t) k) (hsc := hsc)
    (sS := .dma (sendS t k)) (sem := .dma (recvS t k)) (hsrc := hsrc) (hdst := hdst) (hsem := hsem) (k := kont)
    (q := fullShare) (fs := fs) (fd := fd) (r₁ := 0) (r₂ := 0) (d₁ := (0 : Fin 3)) (d₂ := (0 : Fin 3)) (κ₁ := κs) (κ₂ := κr)
    hd₁ hd₂ () () NC hN hk₁ hk₂ (O₀ := O₀) O hO (W := W) hpay₁ hpay₂ (Es := Set.univ))
  iexact H

end Cert.KernelIdealPf

end
-- ==== Proof.Body.lean ====
import proofs.«900612_g7700000000000613_dist_a2a_gemm_m4096_k4096_n2048_f32_none_v7x_i4_1_alg».proof.Proof.Entry
import proofs.«900612_g7700000000000613_dist_a2a_gemm_m4096_k4096_n2048_f32_none_v7x_i4_1_alg».proof.Proof.Exit2
import proofs.«900612_g7700000000000613_dist_a2a_gemm_m4096_k4096_n2048_f32_none_v7x_i4_1_alg».proof.Proof.AccValue
import proofs.«900612_g7700000000000613_dist_a2a_gemm_m4096_k4096_n2048_f32_none_v7x_i4_1_alg».proof.Proof.Ledger
import proofs.«900612_g7700000000000613_dist_a2a_gemm_m4096_k4096_n2048_f32_none_v7x_i4_1_alg».proof.Proof.Send

noncomputable section

namespace Cert.KernelIdealPf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

set_option sl_exec.dmaWindow true in
set_option maxHeartbeats 8000000 in

theorem run_flat (c : Dev nD) (K : GSem nD τ sig → ℕ)
    (s1 : Buf (Elt F) ((Memref.whole cc0_scratch1).view.loc (c : Thread nD τ)))
    (s2 : Buf (Elt F) ((Memref.whole cc0_scratch2).view.loc (c : Thread nD τ)))
    (s4 : Buf (Elt F) ((Memref.whole cc0_scratch4).view.loc (c : Thread nD τ)))
    (s5 : Buf (Elt F) ((Memref.whole cc0_scratch5).view.loc (c : Thread nD τ)))
    (f0 : Buf (Elt F) ((c : Thread nD τ).loc cc0_scratch0))
    (f3 : Buf (Elt F) ((c : Thread nD τ).loc cc0_scratch3))
    (W : Waits sig Unit) :
    iprop(flatPers m c K ∗ flatLin (F := F) c (m ((c : Thread nD τ).loc main_arg0)) (m ((c : Thread nD τ).loc main_arg1)) (m ((c : Thread nD τ).loc main_v1)) s1 s2 s4 s5 f0 f3 W
        ∗ tokRest ((c : Thread nD τ).loc main_arg0) (m ((c : Thread nD τ).loc main_arg0)) 48 53
        ∗ tokRest ((c : Thread nD τ).loc main_arg1) (m ((c : Thread nD τ).loc main_arg1)) 53 56)
      ⊢ wp frame (wpE (defs₀ (F := F)) 𝒱₀ (c : Thread nD τ) none) Set.univ
          (Gen.bodyAt0 (F := F) t₀) (fun _ => bodyPost m c) := by
  unfold flatPers flatLin owedSum flat24 localsFlat
  beta_reduce
  iintro ⟨⟨#HIb, #HIb1, #HIb2, #HIb3, ⟨#HIs0_0, #HIs1_0, #HIs0_1, #HIs1_1, #HIs0_2, #HIs1_2, #HIs0_3, #HIs1_3, #HIs0_4, #HIs1_4, #HIs0_5, #HIs1_5, #HIs0_6, #HIs1_6, #HIs0_7, #HIs1_7, #HIs2_0, #HIs2_1, #HIs2_2, #HIs2_3, #HIs2_4, #HIs2_5, #HIs2_6, #HIs2_7⟩, ⟨#HIp0_0, #HIp1_0, #HIp0_1, #HIp1_1, #HIp0_2, #HIp1_2, #HIp0_3, #HIp1_3, #HIp0_4, #HIp1_4, #HIp0_5, #HIp1_5, #HIp0_6, #HIp1_6, #HIp0_7, #HIp1_7, #HIp2_0, #HIp2_1, #HIp2_2, #HIp2_3, #HIp2_4, #HIp2_5, #HIp2_6, #HIp2_7⟩, ⟨#HIr0_0, #HIr1_0, #HIr0_1, #HIr1_1, #HIr0_2, #HIr1_2, #HIr0_3, #HIr1_3, #HIr0_4, #HIr1_4, #HIr0_5, #HIr1_5, #HIr0_6, #HIr1_6, #HIr0_7, #HIr1_7, #HIr2_0, #HIr2_1, #HIr2_2, #HIr2_3, #HIr2_4, #HIr2_5, #HIr2_6, #HIr2_7⟩, #Hrb, #Hrb1, #Hrb2, #Hrb3, ⟨#Hrs0_0, #Hrs1_0, #Hrs0_1, #Hrs1_1, #Hrs0_2, #Hrs1_2, #Hrs0_3, #Hrs1_3, #Hrs0_4, #Hrs1_4, #Hrs0_5, #Hrs1_5, #Hrs0_6, #Hrs1_6, #Hrs0_7, #Hrs1_7, #Hrs2_0, #Hrs2_1, #Hrs2_2, #Hrs2_3, #Hrs2_4, #Hrs2_5, #Hrs2_6, #Hrs2_7⟩, ⟨#Hrp0_0, #Hrp1_0, #Hrp0_1, #Hrp1_1, #Hrp0_2, #Hrp1_2, #Hrp0_3, #Hrp1_3, #Hrp0_4, #Hrp1_4, #Hrp0_5, #Hrp1_5, #Hrp0_6, #Hrp1_6, #Hrp0_7, #Hrp1_7, #Hrp2_0, #Hrp2_1, #Hrp2_2, #Hrp2_3, #Hrp2_4, #Hrp2_5, #Hrp2_6, #Hrp2_7⟩, ⟨#Hrr0_0, #Hrr1_0, #Hrr0_1, #Hrr1_1, #Hrr0_2, #Hrr1_2, #Hrr0_3, #Hrr1_3, #Hrr0_4, #Hrr1_4, #Hrr0_5, #Hrr1_5, #Hrr0_6, #Hrr1_6, #Hrr0_7, #Hrr1_7, #Hrr2_0, #Hrr2_1, #Hrr2_2, #Hrr2_3, #Hrr2_4, #Hrr2_5, #Hrr2_6, #Hrr2_7⟩, #Hlev⟩, ⟨Ht1, Ht2, Ht3, ⟨Hts0_0, Hts1_0, Hts0_1, Hts1_1, Hts0_2, Hts1_2, Hts0_3, Hts1_3, Hts0_4, Hts1_4, Hts0_5, Hts1_5, Hts0_6, Hts1_6, Hts0_7, Hts1_7, Hts2_0, Hts2_1, Hts2_2, Hts2_3, Hts2_4, Hts2_5, Hts2_6, Hts2_7⟩, ⟨Htp0_0, Htp1_0, Htp0_1, Htp1_1, Htp0_2, Htp1_2, Htp0_3, Htp1_3, Htp0_4, Htp1_4, Htp0_5, Htp1_5, Htp0_6, Htp1_6, Htp0_7, Htp1_7, Htp2_0, Htp2_1, Htp2_2, Htp2_3, Htp2_4, Htp2_5, Htp2_6, Htp2_7⟩, HatB, ⟨Has0_0, Has1_0, Has0_1, Has1_1, Has0_2, Has1_2, Has0_3, Has1_3, Has0_4, Has1_4, Has0_5, Has1_5, Has0_6, Has1_6, Has0_7, Has1_7, Has2_0, Has2_1, Has2_2, Has2_3, Has2_4, Has2_5, Has2_6, Has2_7⟩, ⟨Har0_0, Har1_0, Har0_1, Har1_1, Har0_2, Har1_2, Har0_3, Har1_3, Har0_4, Har1_4, Har0_5, Har1_5, Har0_6, Har1_6, Har0_7, Har1_7, Har2_0, Har2_1, Har2_2, Har2_3, Har2_4, Har2_5, Har2_6, Har2_7⟩, HcB, ⟨Hcr0_0, Hcr1_0, Hcr0_1, Hcr1_1, Hcr0_2, Hcr1_2, Hcr0_3, Hcr1_3, Hcr0_4, Hcr1_4, Hcr0_5, Hcr1_5, Hcr0_6, Hcr1_6, Hcr0_7, Hcr1_7, Hcr2_0, Hcr2_1, Hcr2_2, Hcr2_3, Hcr2_4, Hcr2_5, Hcr2_6, Hcr2_7⟩, HC2_0, HC2_1, HC2_2, HC2_3, HC2_4, HC2_5, HC2_6, HC2_7, HC1_0, HC1_1, HC1_2, HC1_3, HC1_4, HC1_5, HC1_6, HC1_7, HC0_0, HC0_1, HC0_2, HC0_3, HC0_4, HC0_5, HC0_6, HC0_7, ⟨HB0_0, HB1_0, HB0_1, HB1_1, HB0_2, HB1_2, HB0_3, HB1_3, HB0_4, HB1_4, HB0_5, HB1_5, HB0_6, HB1_6, HB0_7, HB1_7, HB2_0, HB2_1, HB2_2, HB2_3, HB2_4, HB2_5, HB2_6, HB2_7⟩, HX48, HX49, HX50, HX51, HX52, HW53, HW54, HW55, HOut, HS1, HS2, HS4, HS5, ⟨Hd48, Hd49, Hd50, Hd51, Hd52, Hd53, Hd54, Hd55, Hd56, Hd57, Hd58, Hd59, Hd60, Hd61, Hd62, Hd63⟩, HO⟩, HXr, HWr⟩

  have hmw : ∀ (sm : SemLoc sig) (O' : CellTallies nD τ sig Unit), lowSem sm = true → Above O' → ((levAts L lv : sProp 𝕄) ⊢ MayWait (c : Thread nD τ) sm () O') := fun sm O' h₁ h₂ => mayWait_lowSem c sm h₁ O' h₂

  sl_exec (disch := above_tac)

  ihave HD := (own_bar_split (F := F) c) $$ HatB_pay1
  icases HD with ⟨⟨%fd0_0, HD0_0⟩, ⟨%fd1_0, HD1_0⟩, ⟨%fd0_1, HD0_1⟩, ⟨%fd1_1, HD1_1⟩, ⟨%fd0_2, HD0_2⟩, ⟨%fd1_2, HD1_2⟩, ⟨%fd0_3, HD0_3⟩, ⟨%fd1_3, HD1_3⟩, ⟨%fd0_4, HD0_4⟩, ⟨%fd1_4, HD1_4⟩, ⟨%fd0_5, HD0_5⟩, ⟨%fd1_5, HD1_5⟩, ⟨%fd0_6, HD0_6⟩, ⟨%fd1_6, HD1_6⟩, ⟨%fd0_7, HD0_7⟩, ⟨%fd1_7, HD1_7⟩, ⟨%fd2_0, HD2_0⟩, ⟨%fd2_1, HD2_1⟩, ⟨%fd2_2, HD2_2⟩, ⟨%fd2_3, HD2_3⟩, ⟨%fd2_4, HD2_4⟩, ⟨%fd2_5, HD2_5⟩, ⟨%fd2_6, HD2_6⟩, ⟨%fd2_7, HD2_7⟩⟩

  iapply (send_step m c _ (peer c 1) 0 0 0 (dev4_eq c) rfl rfl _ _ _ rfl) $$ [HB0_0 HD0_0 HO Hts0_0 Htp0_0]
  · isplitr
    rotate_left
    · iframe
      isplitr; · iexact HIs0_0
      isplitr; · iexact HIp0_0
      isplitr; · iexact Hrs0_0
      iexact Hrp0_0
    · ipureintro
      sl_unfold_run_names
      simp (disch := decide) only [Cert.A2aGemm.Slabs.readAt_write_reshape_sep, Cert.A2aGemm.Slabs.readAt_slab_write_slab_same]
      exact read_sbuf_sent m c 0 0 f3
  iintro ⟨Hcs0_0, HO⟩
  sl_exec (disch := above_tac)

  iapply (send_step m c _ (peer c 3) 1 2 0 (dev5_eq c) rfl rfl _ _ _ rfl) $$ [HB1_0 HD1_0 HO Hts1_0 Htp1_0]
  · isplitr
    rotate_left
    · iframe
      isplitr; · iexact HIs1_0
      isplitr; · iexact HIp1_0
      isplitr; · iexact Hrs1_0
      iexact Hrp1_0
    · ipureintro
      sl_unfold_run_names
      simp (disch := decide) only [Cert.A2aGemm.Slabs.readAt_write_reshape_sep, Cert.A2aGemm.Slabs.readAt_slab_write_slab_same]
      exact read_sbuf_sent m c 1 0 f3
  iintro ⟨Hcs1_0, HO⟩
  sl_exec (disch := above_tac)

  iapply (send_step m c _ (peer c 1) 0 0 1 (dev6_eq c) rfl rfl _ _ _ rfl) $$ [HB0_1 HD0_1 HO Hts0_1 Htp0_1]
  · isplitr
    rotate_left
    · iframe
      isplitr; · iexact HIs0_1
      isplitr; · iexact HIp0_1
      isplitr; · iexact Hrs0_1
      iexact Hrp0_1
    · ipureintro
      sl_unfold_run_names
      simp (disch := decide) only [Cert.A2aGemm.Slabs.readAt_write_reshape_sep, Cert.A2aGemm.Slabs.readAt_slab_write_slab_same]
      exact read_sbuf_sent m c 0 1 f3
  iintro ⟨Hcs0_1, HO⟩
  sl_exec (disch := above_tac)

  iapply (send_step m c _ (peer c 3) 1 2 1 (dev7_eq c) rfl rfl _ _ _ rfl) $$ [HB1_1 HD1_1 HO Hts1_1 Htp1_1]
  · isplitr
    rotate_left
    · iframe
      isplitr; · iexact HIs1_1
      isplitr; · iexact HIp1_1
      isplitr; · iexact Hrs1_1
      iexact Hrp1_1
    · ipureintro
      sl_unfold_run_names
      simp (disch := decide) only [Cert.A2aGemm.Slabs.readAt_write_reshape_sep, Cert.A2aGemm.Slabs.readAt_slab_write_slab_same]
      exact read_sbuf_sent m c 1 1 f3
  iintro ⟨Hcs1_1, HO⟩
  sl_exec (disch := above_tac)

  iapply (send_step m c _ (peer c 1) 0 0 2 (dev8_eq c) rfl rfl _ _ _ rfl) $$ [HB0_2 HD0_2 HO Hts0_2 Htp0_2]
  · isplitr
    rotate_left
    · iframe
      isplitr; · iexact HIs0_2
      isplitr; · iexact HIp0_2
      isplitr; · iexact Hrs0_2
      iexact Hrp0_2
    · ipureintro
      sl_unfold_run_names
      simp (disch := decide) only [Cert.A2aGemm.Slabs.readAt_write_reshape_sep, Cert.A2aGemm.Slabs.readAt_slab_write_slab_same]
      exact read_sbuf_sent m c 0 2 f3
  iintro ⟨Hcs0_2, HO⟩
  sl_exec (disch := above_tac)

  iapply (send_step m c _ (peer c 3) 1 2 2 (dev9_eq c) rfl rfl _ _ _ rfl) $$ [HB1_2 HD1_2 HO Hts1_2 Htp1_2]
  · isplitr
    rotate_left
    · iframe
      isplitr; · iexact HIs1_2
      isplitr; · iexact HIp1_2
      isplitr; · iexact Hrs1_2
      iexact Hrp1_2
    · ipureintro
      sl_unfold_run_names
      simp (disch := decide) only [Cert.A2aGemm.Slabs.readAt_write_reshape_sep, Cert.A2aGemm.Slabs.readAt_slab_write_slab_same]
      exact read_sbuf_sent m c 1 2 f3
  iintro ⟨Hcs1_2, HO⟩
  sl_exec (disch := above_tac)

  iapply (send_step m c _ (peer c 1) 0 0 3 (dev10_eq c) rfl rfl _ _ _ rfl) $$ [HB0_3 HD0_3 HO Hts0_3 Htp0_3]
  · isplitr
    rotate_left
    · iframe
      isplitr; · iexact HIs0_3
      isplitr; · iexact HIp0_3
      isplitr; · iexact Hrs0_3
      iexact Hrp0_3
    · ipureintro
      sl_unfold_run_names
      simp (disch := decide) only [Cert.A2aGemm.Slabs.readAt_write_reshape_sep, Cert.A2aGemm.Slabs.readAt_slab_write_slab_same]
      exact read_sbuf_sent m c 0 3 f3
  iintro ⟨Hcs0_3, HO⟩
  sl_exec (disch := above_tac)

  iapply (send_step m c _ (peer c 3) 1 2 3 (dev11_eq c) rfl rfl _ _ _ rfl) $$ [HB1_3 HD1_3 HO Hts1_3 Htp1_3]
  · isplitr
    rotate_left
    · iframe
      isplitr; · iexact HIs1_3
      isplitr; · iexact HIp1_3
      isplitr; · iexact Hrs1_3
      iexact Hrp1_3
    · ipureintro
      sl_unfold_run_names
      simp (disch := decide) only [Cert.A2aGemm.Slabs.readAt_write_reshape_sep, Cert.A2aGemm.Slabs.readAt_slab_write_slab_same]
      exact read_sbuf_sent m c 1 3 f3
  iintro ⟨Hcs1_3, HO⟩
  sl_exec (disch := above_tac)

  iapply (send_step m c _ (peer c 1) 0 0 4 (dev12_eq c) rfl rfl _ _ _ rfl) $$ [HB0_4 HD0_4 HO Hts0_4 Htp0_4]
  · isplitr
    rotate_left
    · iframe
      isplitr; · iexact HIs0_4
      isplitr; · iexact HIp0_4
      isplitr; · iexact Hrs0_4
      iexact Hrp0_4
    · ipureintro
      sl_unfold_run_names
      simp (disch := decide) only [Cert.A2aGemm.Slabs.readAt_write_reshape_sep, Cert.A2aGemm.Slabs.readAt_slab_write_slab_same]
      exact read_sbuf_sent m c 0 4 f3
  iintro ⟨Hcs0_4, HO⟩
  sl_exec (disch := above_tac)

  iapply (send_step m c _ (peer c 3) 1 2 4 (dev13_eq c) rfl rfl _ _ _ rfl) $$ [HB1_4 HD1_4 HO Hts1_4 Htp1_4]
  · isplitr
    rotate_left
    · iframe
      isplitr; · iexact HIs1_4
      isplitr; · iexact HIp1_4
      isplitr; · iexact Hrs1_4
      iexact Hrp1_4
    · ipureintro
      sl_unfold_run_names
      simp (disch := decide) only [Cert.A2aGemm.Slabs.readAt_write_reshape_sep, Cert.A2aGemm.Slabs.readAt_slab_write_slab_same]
      exact read_sbuf_sent m c 1 4 f3
  iintro ⟨Hcs1_4, HO⟩
  sl_exec (disch := above_tac)

  iapply (send_step m c _ (peer c 1) 0 0 5 (dev14_eq c) rfl rfl _ _ _ rfl) $$ [HB0_5 HD0_5 HO Hts0_5 Htp0_5]
  · isplitr
    rotate_left
    · iframe
      isplitr; · iexact HIs0_5
      isplitr; · iexact HIp0_5
      isplitr; · iexact Hrs0_5
      iexact Hrp0_5
    · ipureintro
      sl_unfold_run_names
      simp (disch := decide) only [Cert.A2aGemm.Slabs.readAt_write_reshape_sep, Cert.A2aGemm.Slabs.readAt_slab_write_slab_same]
      exact read_sbuf_sent m c 0 5 f3
  iintro ⟨Hcs0_5, HO⟩
  sl_exec (disch := above_tac)

  iapply (send_step m c _ (peer c 3) 1 2 5 (dev15_eq c) rfl rfl _ _ _ rfl) $$ [HB1_5 HD1_5 HO Hts1_5 Htp1_5]
  · isplitr
    rotate_left
    · iframe
      isplitr; · iexact HIs1_5
      isplitr; · iexact HIp1_5
      isplitr; · iexact Hrs1_5
      iexact Hrp1_5
    · ipureintro
      sl_unfold_run_names
      simp (disch := decide) only [Cert.A2aGemm.Slabs.readAt_write_reshape_sep, Cert.A2aGemm.Slabs.readAt_slab_write_slab_same]
      exact read_sbuf_sent m c 1 5 f3
  iintro ⟨Hcs1_5, HO⟩
  sl_exec (disch := above_tac)

  iapply (send_step m c _ (peer c 1) 0 0 6 (dev16_eq c) rfl rfl _ _ _ rfl) $$ [HB0_6 HD0_6 HO Hts0_6 Htp0_6]
  · isplitr
    rotate_left
    · iframe
      isplitr; · iexact HIs0_6
      isplitr; · iexact HIp0_6
      isplitr; · iexact Hrs0_6
      iexact Hrp0_6
    · ipureintro
      sl_unfold_run_names
      simp (disch := decide) only [Cert.A2aGemm.Slabs.readAt_write_reshape_sep, Cert.A2aGemm.Slabs.readAt_slab_write_slab_same]
      exact read_sbuf_sent m c 0 6 f3
  iintro ⟨Hcs0_6, HO⟩
  sl_exec (disch := above_tac)

  iapply (send_step m c _ (peer c 3) 1 2 6 (dev17_eq c) rfl rfl _ _ _ rfl) $$ [HB1_6 HD1_6 HO Hts1_6 Htp1_6]
  · isplitr
    rotate_left
    · iframe
      isplitr; · iexact HIs1_6
      isplitr; · iexact HIp1_6
      isplitr; · iexact Hrs1_6
      iexact Hrp1_6
    · ipureintro
      sl_unfold_run_names
      simp (disch := decide) only [Cert.A2aGemm.Slabs.readAt_write_reshape_sep, Cert.A2aGemm.Slabs.readAt_slab_write_slab_same]
      exact read_sbuf_sent m c 1 6 f3
  iintro ⟨Hcs1_6, HO⟩
  sl_exec (disch := above_tac)

  iapply (send_step m c _ (peer c 1) 0 0 7 (dev18_eq c) rfl rfl _ _ _ rfl) $$ [HB0_7 HD0_7 HO Hts0_7 Htp0_7]
  · isplitr
    rotate_left
    · iframe
      isplitr; · iexact HIs0_7
      isplitr; · iexact HIp0_7
      isplitr; · iexact Hrs0_7
      iexact Hrp0_7
    · ipureintro
      sl_unfold_run_names
      simp (disch := decide) only [Cert.A2aGemm.Slabs.readAt_write_reshape_sep, Cert.A2aGemm.Slabs.readAt_slab_write_slab_same]
      exact read_sbuf_sent m c 0 7 f3
  iintro ⟨Hcs0_7, HO⟩
  sl_exec (disch := above_tac)

  iapply (send_step m c _ (peer c 3) 1 2 7 (dev19_eq c) rfl rfl _ _ _ rfl) $$ [HB1_7 HD1_7 HO Hts1_7 Htp1_7]
  · isplitr
    rotate_left
    · iframe
      isplitr; · iexact HIs1_7
      isplitr; · iexact HIp1_7
      isplitr; · iexact Hrs1_7
      iexact Hrp1_7
    · ipureintro
      sl_unfold_run_names
      simp (disch := decide) only [Cert.A2aGemm.Slabs.readAt_write_reshape_sep, Cert.A2aGemm.Slabs.readAt_slab_write_slab_same]
      exact read_sbuf_sent m c 1 7 f3
  iintro ⟨Hcs1_7, HO⟩
  sl_exec (disch := above_tac)

  iapply (send_step m c _ (peer c 2) 2 1 0 (dev20_eq c) rfl rfl _ _ _ rfl) $$ [HB2_0 HD2_0 HO Hts2_0 Htp2_0]
  · isplitr
    rotate_left
    · iframe
      isplitr; · iexact HIs2_0
      isplitr; · iexact HIp2_0
      isplitr; · iexact Hrs2_0
      iexact Hrp2_0
    · ipureintro
      sl_unfold_run_names
      simp (disch := decide) only [Cert.A2aGemm.Slabs.readAt_write_reshape_sep, Cert.A2aGemm.Slabs.readAt_slab_write_slab_same]
      exact read_sbuf_sent m c 2 0 f3
  iintro ⟨Hcs2_0, HO⟩
  sl_exec (disch := above_tac)

  iapply (send_step m c _ (peer c 2) 2 1 1 (dev21_eq c) rfl rfl _ _ _ rfl) $$ [HB2_1 HD2_1 HO Hts2_1 Htp2_1]
  · isplitr
    rotate_left
    · iframe
      isplitr; · iexact HIs2_1
      isplitr; · iexact HIp2_1
      isplitr; · iexact Hrs2_1
      iexact Hrp2_1
    · ipureintro
      sl_unfold_run_names
      simp (disch := decide) only [Cert.A2aGemm.Slabs.readAt_write_reshape_sep, Cert.A2aGemm.Slabs.readAt_slab_write_slab_same]
      exact read_sbuf_sent m c 2 1 f3
  iintro ⟨Hcs2_1, HO⟩
  sl_exec (disch := above_tac)

  iapply (send_step m c _ (peer c 2) 2 1 2 (dev22_eq c) rfl rfl _ _ _ rfl) $$ [HB2_2 HD2_2 HO Hts2_2 Htp2_2]
  · isplitr
    rotate_left
    · iframe
      isplitr; · iexact HIs2_2
      isplitr; · iexact HIp2_2
      isplitr; · iexact Hrs2_2
      iexact Hrp2_2
    · ipureintro
      sl_unfold_run_names
      simp (disch := decide) only [Cert.A2aGemm.Slabs.readAt_write_reshape_sep, Cert.A2aGemm.Slabs.readAt_slab_write_slab_same]
      exact read_sbuf_sent m c 2 2 f3
  iintro ⟨Hcs2_2, HO⟩
  sl_exec (disch := above_tac)

  iapply (send_step m c _ (peer c 2) 2 1 3 (dev23_eq c) rfl rfl _ _ _ rfl) $$ [HB2_3 HD2_3 HO Hts2_3 Htp2_3]
  · isplitr
    rotate_left
    · iframe
      isplitr; · iexact HIs2_3
      isplitr; · iexact HIp2_3
      isplitr; · iexact Hrs2_3
      iexact Hrp2_3
    · ipureintro
      sl_unfold_run_names
      simp (disch := decide) only [Cert.A2aGemm.Slabs.readAt_write_reshape_sep, Cert.A2aGemm.Slabs.readAt_slab_write_slab_same]
      exact read_sbuf_sent m c 2 3 f3
  iintro ⟨Hcs2_3, HO⟩
  sl_exec (disch := above_tac)

  iapply (send_step m c _ (peer c 2) 2 1 4 (dev24_eq c) rfl rfl _ _ _ rfl) $$ [HB2_4 HD2_4 HO Hts2_4 Htp2_4]
  · isplitr
    rotate_left
    · iframe
      isplitr; · iexact HIs2_4
      isplitr; · iexact HIp2_4
      isplitr; · iexact Hrs2_4
      iexact Hrp2_4
    · ipureintro
      sl_unfold_run_names
      simp (disch := decide) only [Cert.A2aGemm.Slabs.readAt_write_reshape_sep, Cert.A2aGemm.Slabs.readAt_slab_write_slab_same]
      exact read_sbuf_sent m c 2 4 f3
  iintro ⟨Hcs2_4, HO⟩
  sl_exec (disch := above_tac)

  iapply (send_step m c _ (peer c 2) 2 1 5 (dev25_eq c) rfl rfl _ _ _ rfl) $$ [HB2_5 HD2_5 HO Hts2_5 Htp2_5]
  · isplitr
    rotate_left
    · iframe
      isplitr; · iexact HIs2_5
      isplitr; · iexact HIp2_5
      isplitr; · iexact Hrs2_5
      iexact Hrp2_5
    · ipureintro
      sl_unfold_run_names
      simp (disch := decide) only [Cert.A2aGemm.Slabs.readAt_write_reshape_sep, Cert.A2aGemm.Slabs.readAt_slab_write_slab_same]
      exact read_sbuf_sent m c 2 5 f3
  iintro ⟨Hcs2_5, HO⟩
  sl_exec (disch := above_tac)

  iapply (send_step m c _ (peer c 2) 2 1 6 (dev26_eq c) rfl rfl _ _ _ rfl) $$ [HB2_6 HD2_6 HO Hts2_6 Htp2_6]
  · isplitr
    rotate_left
    · iframe
      isplitr; · iexact HIs2_6
      isplitr; · iexact HIp2_6
      isplitr; · iexact Hrs2_6
      iexact Hrp2_6
    · ipureintro
      sl_unfold_run_names
      simp (disch := decide) only [Cert.A2aGemm.Slabs.readAt_write_reshape_sep, Cert.A2aGemm.Slabs.readAt_slab_write_slab_same]
      exact read_sbuf_sent m c 2 6 f3
  iintro ⟨Hcs2_6, HO⟩
  sl_exec (disch := above_tac)

  iapply (send_step m c _ (peer c 2) 2 1 7 (dev27_eq c) rfl rfl _ _ _ rfl) $$ [HB2_7 HD2_7 HO Hts2_7 Htp2_7]
  · isplitr
    rotate_left
    · iframe
      isplitr; · iexact HIs2_7
      isplitr; · iexact HIp2_7
      isplitr; · iexact Hrs2_7
      iexact Hrp2_7
    · ipureintro
      sl_unfold_run_names
      simp (disch := decide) only [Cert.A2aGemm.Slabs.readAt_write_reshape_sep, Cert.A2aGemm.Slabs.readAt_slab_write_slab_same]
      exact read_sbuf_sent m c 2 7 f3
  iintro ⟨Hcs2_7, HO⟩
  sl_exec (disch := above_tac)

  have hx : run_flat.sl.v1302 m c s2 = xlocV m c := by
    unfold run_flat.sl.v1302 run_flat.sl.dma0_4
    exact read_own m c s2
  have hw0 : run_flat.sl.v1303 m c s4 = wV m c 0 := by
    unfold run_flat.sl.v1303
    sl_unfold_run_names
    simp (disch := decide) only [Cert.A2aGemm.Slabs.readAt_write_reshape_sep, Cert.A2aGemm.Slabs.readAt_slab_write_slab_same]
    exact wV_of_slice m c 0
  have hw3 : run_flat.sl.v1354 m c s4 = wV m c 3 := by
    unfold run_flat.sl.v1354
    sl_unfold_run_names
    simp (disch := decide) only [Cert.A2aGemm.Slabs.readAt_write_reshape_sep, Cert.A2aGemm.Slabs.readAt_slab_write_slab_same]
    exact wV_of_slice m c 3
  have hw1 : run_flat.sl.v1379 m c s4 = wV m c 1 := by
    unfold run_flat.sl.v1379
    sl_unfold_run_names
    simp (disch := decide) only [Cert.A2aGemm.Slabs.readAt_write_reshape_sep, Cert.A2aGemm.Slabs.readAt_slab_write_slab_same]
    exact wV_of_slice m c 1
  have hw2 : run_flat.sl.v1759 m c s4 = wV m c 2 := by
    unfold run_flat.sl.v1759
    sl_unfold_run_names
    simp (disch := decide) only [Cert.A2aGemm.Slabs.readAt_write_reshape_sep, Cert.A2aGemm.Slabs.readAt_slab_write_slab_same]
    exact wV_of_slice m c 2
  have hA0 : run_flat.sl.v1350 m c s2 s4 = acc0 m c 0 := by
    unfold run_flat.sl.v1350 run_flat.sl.HS5_1
    rw [hx, hw0]
    exact cov_acc0 m c 0 0 rfl _ _
  have hB0 : run_flat.sl.v1375 m c s2 s4 = k0_pay30 (acc0 m c 0) (cmV m c 0 0) (wV m c 3) := by
    unfold run_flat.sl.v1375 run_flat.sl.HS5_2
    rw [cov_hit 0, hA0, hw3]
    exact congrArg (fun z => k0_pay30 (acc0 m c 0) z (wV m c 3)) (read_cm m c 0 0)
  have hC0 : run_flat.sl.v1755 m c s2 s4 = k0_pay30 (k0_pay30 (acc0 m c 0) (cmV m c 0 0) (wV m c 3)) (cmV m c 1 0) (wV m c 1) := by
    unfold run_flat.sl.v1755 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3
    rw [cov_skip 896 0 (by decide), cov_skip 896 0 (by decide), cov_skip 768 0 (by decide), cov_skip 768 0 (by decide), cov_skip 640 0 (by decide), cov_skip 640 0 (by decide), cov_skip 512 0 (by decide), cov_skip 512 0 (by decide), cov_skip 384 0 (by decide), cov_skip 384 0 (by decide), cov_skip 256 0 (by decide), cov_skip 256 0 (by decide), cov_skip 128 0 (by decide), cov_skip 128 0 (by decide)]
    rw [cov_hit 0, hB0, hw1]
    exact congrArg (fun z => k0_pay30 (k0_pay30 (acc0 m c 0) (cmV m c 0 0) (wV m c 3)) z (wV m c 1)) (read_cm m c 1 0)
  have hd0 : run_flat.sl.dma89 m c s2 s4 s5 = chunkFinal m c 0 := by
    unfold run_flat.sl.dma89 run_flat.sl.HS5_18
    refine (out_band_eq 0 _ _ s5 _ _).trans ?_
    rw [hC0, hw2]
    exact congrArg (fun z => k0_pay30 (k0_pay30 (k0_pay30 (acc0 m c 0) (cmV m c 0 0) (wV m c 3)) (cmV m c 1 0) (wV m c 1)) z (wV m c 2)) (read_cm m c 2 0)
  have hA1 : run_flat.sl.v1400 m c s2 s4 = acc0 m c 1 := by
    unfold run_flat.sl.v1400 run_flat.sl.HS5_3 run_flat.sl.HS5_2 run_flat.sl.HS5_1
    rw [cov_skip 0 128 (by decide), cov_skip 0 128 (by decide)]
    rw [hx, hw0]
    exact cov_acc0 m c 128 1 rfl _ _
  have hB1 : run_flat.sl.v1425 m c s2 s4 = k0_pay30 (acc0 m c 1) (cmV m c 0 1) (wV m c 3) := by
    unfold run_flat.sl.v1425 run_flat.sl.HS5_4
    rw [cov_hit 128, hA1, hw3]
    exact congrArg (fun z => k0_pay30 (acc0 m c 1) z (wV m c 3)) (read_cm m c 0 1)
  have hC1 : run_flat.sl.v1784 m c s2 s4 = k0_pay30 (k0_pay30 (acc0 m c 1) (cmV m c 0 1) (wV m c 3)) (cmV m c 1 1) (wV m c 1) := by
    unfold run_flat.sl.v1784 run_flat.sl.HS5_18 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5
    rw [cov_skip 0 128 (by decide), cov_skip 896 128 (by decide), cov_skip 896 128 (by decide), cov_skip 768 128 (by decide), cov_skip 768 128 (by decide), cov_skip 640 128 (by decide), cov_skip 640 128 (by decide), cov_skip 512 128 (by decide), cov_skip 512 128 (by decide), cov_skip 384 128 (by decide), cov_skip 384 128 (by decide), cov_skip 256 128 (by decide), cov_skip 256 128 (by decide)]
    rw [cov_hit 128, hB1, hw1]
    exact congrArg (fun z => k0_pay30 (k0_pay30 (acc0 m c 1) (cmV m c 0 1) (wV m c 3)) z (wV m c 1)) (read_cm m c 1 1)
  have hd1 : run_flat.sl.dma94 m c s2 s4 s5 = chunkFinal m c 1 := by
    unfold run_flat.sl.dma94 run_flat.sl.HS5_19
    refine (out_band_eq 128 _ _ s5 _ _).trans ?_
    rw [hC1, hw2]
    exact congrArg (fun z => k0_pay30 (k0_pay30 (k0_pay30 (acc0 m c 1) (cmV m c 0 1) (wV m c 3)) (cmV m c 1 1) (wV m c 1)) z (wV m c 2)) (read_cm m c 2 1)
  have hA2 : run_flat.sl.v1450 m c s2 s4 = acc0 m c 2 := by
    unfold run_flat.sl.v1450 run_flat.sl.HS5_5 run_flat.sl.HS5_4 run_flat.sl.HS5_3 run_flat.sl.HS5_2 run_flat.sl.HS5_1
    rw [cov_skip 128 256 (by decide), cov_skip 128 256 (by decide), cov_skip 0 256 (by decide), cov_skip 0 256 (by decide)]
    rw [hx, hw0]
    exact cov_acc0 m c 256 2 rfl _ _
  have hB2 : run_flat.sl.v1475 m c s2 s4 = k0_pay30 (acc0 m c 2) (cmV m c 0 2) (wV m c 3) := by
    unfold run_flat.sl.v1475 run_flat.sl.HS5_6
    rw [cov_hit 256, hA2, hw3]
    exact congrArg (fun z => k0_pay30 (acc0 m c 2) z (wV m c 3)) (read_cm m c 0 2)
  have hC2 : run_flat.sl.v1813 m c s2 s4 = k0_pay30 (k0_pay30 (acc0 m c 2) (cmV m c 0 2) (wV m c 3)) (cmV m c 1 2) (wV m c 1) := by
    unfold run_flat.sl.v1813 run_flat.sl.HS5_19 run_flat.sl.HS5_18 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7
    rw [cov_skip 128 256 (by decide), cov_skip 0 256 (by decide), cov_skip 896 256 (by decide), cov_skip 896 256 (by decide), cov_skip 768 256 (by decide), cov_skip 768 256 (by decide), cov_skip 640 256 (by decide), cov_skip 640 256 (by decide), cov_skip 512 256 (by decide), cov_skip 512 256 (by decide), cov_skip 384 256 (by decide), cov_skip 384 256 (by decide)]
    rw [cov_hit 256, hB2, hw1]
    exact congrArg (fun z => k0_pay30 (k0_pay30 (acc0 m c 2) (cmV m c 0 2) (wV m c 3)) z (wV m c 1)) (read_cm m c 1 2)
  have hd2 : run_flat.sl.dma99 m c s2 s4 s5 = chunkFinal m c 2 := by
    unfold run_flat.sl.dma99 run_flat.sl.HS5_20
    refine (out_band_eq 256 _ _ s5 _ _).trans ?_
    rw [hC2, hw2]
    exact congrArg (fun z => k0_pay30 (k0_pay30 (k0_pay30 (acc0 m c 2) (cmV m c 0 2) (wV m c 3)) (cmV m c 1 2) (wV m c 1)) z (wV m c 2)) (read_cm m c 2 2)
  have hA3 : run_flat.sl.v1500 m c s2 s4 = acc0 m c 3 := by
    unfold run_flat.sl.v1500 run_flat.sl.HS5_7 run_flat.sl.HS5_6 run_flat.sl.HS5_5 run_flat.sl.HS5_4 run_flat.sl.HS5_3 run_flat.sl.HS5_2 run_flat.sl.HS5_1
    rw [cov_skip 256 384 (by decide), cov_skip 256 384 (by decide), cov_skip 128 384 (by decide), cov_skip 128 384 (by decide), cov_skip 0 384 (by decide), cov_skip 0 384 (by decide)]
    rw [hx, hw0]
    exact cov_acc0 m c 384 3 rfl _ _
  have hB3 : run_flat.sl.v1525 m c s2 s4 = k0_pay30 (acc0 m c 3) (cmV m c 0 3) (wV m c 3) := by
    unfold run_flat.sl.v1525 run_flat.sl.HS5_8
    rw [cov_hit 384, hA3, hw3]
    exact congrArg (fun z => k0_pay30 (acc0 m c 3) z (wV m c 3)) (read_cm m c 0 3)
  have hC3 : run_flat.sl.v1842 m c s2 s4 = k0_pay30 (k0_pay30 (acc0 m c 3) (cmV m c 0 3) (wV m c 3)) (cmV m c 1 3) (wV m c 1) := by
    unfold run_flat.sl.v1842 run_flat.sl.HS5_20 run_flat.sl.HS5_19 run_flat.sl.HS5_18 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9
    rw [cov_skip 256 384 (by decide), cov_skip 128 384 (by decide), cov_skip 0 384 (by decide), cov_skip 896 384 (by decide), cov_skip 896 384 (by decide), cov_skip 768 384 (by decide), cov_skip 768 384 (by decide), cov_skip 640 384 (by decide), cov_skip 640 384 (by decide), cov_skip 512 384 (by decide), cov_skip 512 384 (by decide)]
    rw [cov_hit 384, hB3, hw1]
    exact congrArg (fun z => k0_pay30 (k0_pay30 (acc0 m c 3) (cmV m c 0 3) (wV m c 3)) z (wV m c 1)) (read_cm m c 1 3)
  have hd3 : run_flat.sl.dma104 m c s2 s4 s5 = chunkFinal m c 3 := by
    unfold run_flat.sl.dma104 run_flat.sl.HS5_21
    refine (out_band_eq 384 _ _ s5 _ _).trans ?_
    rw [hC3, hw2]
    exact congrArg (fun z => k0_pay30 (k0_pay30 (k0_pay30 (acc0 m c 3) (cmV m c 0 3) (wV m c 3)) (cmV m c 1 3) (wV m c 1)) z (wV m c 2)) (read_cm m c 2 3)
  have hA4 : run_flat.sl.v1550 m c s2 s4 = acc0 m c 4 := by
    unfold run_flat.sl.v1550 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 384 512 (by decide), cov_skip 384 512 (by decide), cov_skip 256 512 (by decide), cov_skip 256 512 (by decide), cov_skip 128 512 (by decide), cov_skip 128 512 (by decide), cov_skip 0 512 (by decide), cov_skip 0 512 (by decide)]
    rw [hx, hw0]
    exact cov_acc0 m c 512 4 rfl _ _
  have hB4 : run_flat.sl.v1575 m c s2 s4 = k0_pay30 (acc0 m c 4) (cmV m c 0 4) (wV m c 3) := by
    unfold run_flat.sl.v1575 run_flat.sl.HS5_10
    rw [cov_hit 512, hA4, hw3]
    exact congrArg (fun z => k0_pay30 (acc0 m c 4) z (wV m c 3)) (read_cm m c 0 4)
  have hC4 : run_flat.sl.v1871 m c s2 s4 = k0_pay30 (k0_pay30 (acc0 m c 4) (cmV m c 0 4) (wV m c 3)) (cmV m c 1 4) (wV m c 1) := by
    unfold run_flat.sl.v1871 run_flat.sl.HS5_21 run_flat.sl.HS5_20 run_flat.sl.HS5_19 run_flat.sl.HS5_18 run_flat.sl.HS5_17 run_flat.sl.HS5_16 run_flat.sl.HS5_15 run_flat.sl.HS5_14 run_flat.sl.HS5_13 run_flat.sl.HS5_12 run_flat.sl.HS5_11
    rw [cov_skip 384 512 (by decide), cov_skip 256 512 (by decide), cov_skip 128 512 (by decide), cov_skip 0 512 (by decide), cov_skip 896 512 (by decide), cov_skip 896 512 (by decide), cov_skip 768 512 (by decide), cov_skip 768 512 (by decide), cov_skip 640 512 (by decide), cov_skip 640 512 (by decide)]
    rw [cov_hit 512, hB4, hw1]
    exact congrArg (fun z => k0_pay30 (k0_pay30 (acc0 m c 4) (cmV m c 0 4) (wV m c 3)) z (wV m c 1)) (read_cm m c 1 4)
  have hd4 : run_flat.sl.dma109 m c s2 s4 s5 = chunkFinal m c 4 := by
    unfold run_flat.sl.dma109 run_flat.sl.HS5_22
    refine (out_band_eq 512 _ _ s5 _ _).trans ?_
    rw [hC4, hw2]
    exact congrArg (fun z => k0_pay30 (k0_pay30 (k0_pay30 (acc0 m c 4) (cmV m c 0 4) (wV m c 3)) (cmV m c 1 4) (wV m c 1)) z (wV m c 2)) (read_cm m c 2 4)
  have hA5 : run_flat.sl.v1600 m c s2 s4 = acc0 m c 5 := by
    unfold run_flat.sl.v1600 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 512 640 (by decide), cov_skip 512 640 (by decide), cov_skip 384 640 (by decide), cov_skip 384 640 (by decide), cov_skip 256 640 (by decide), cov_skip 256 640 (by decide), cov_skip 128 640 (by decide), cov_skip 128 640 (by decide), cov_skip 0 640 (by decide), cov_skip 0 640 (by decide)]
    rw [hx, hw0]
    exact cov_acc0 m c 640 5 rfl _ _
  have hB5 : run_flat.sl.v1625 m c s2 s4 = k0_pay30 (acc0 m c 5) (cmV m c 0 5) (wV m c 3) := by
    unfold run_flat.sl.v1625 run_flat.sl.HS5_12
    rw [cov_hit 640, hA5, hw3]
    exact congrArg (fun z => k0_pay30 (acc0 m c 5) z (wV m c 3)) (read_cm m c 0 5)
  have hC5 : run_flat.sl.v1900 m c s2 s4 = k0_pay30 (k0_pay30 (acc0 m c 5) (cmV m c 0 5) (wV m c 3)) (cmV m c 1 5) (wV m c 1) := by
    unfold run_flat.sl.v1900 run_flat.sl.HS5_22 run_flat.sl.HS5_21 run_flat.sl.HS5_20 run_flat.sl.HS5_19 run_flat.sl.HS5_18 run_flat.sl.HS5_17 run_flat.sl.HS5_16 run_flat.sl.HS5_15 run_flat.sl.HS5_14 run_flat.sl.HS5_13
    rw [cov_skip 512 640 (by decide), cov_skip 384 640 (by decide), cov_skip 256 640 (by decide), cov_skip 128 640 (by decide), cov_skip 0 640 (by decide), cov_skip 896 640 (by decide), cov_skip 896 640 (by decide), cov_skip 768 640 (by decide), cov_skip 768 640 (by decide)]
    rw [cov_hit 640, hB5, hw1]
    exact congrArg (fun z => k0_pay30 (k0_pay30 (acc0 m c 5) (cmV m c 0 5) (wV m c 3)) z (wV m c 1)) (read_cm m c 1 5)
  have hd5 : run_flat.sl.dma114 m c s2 s4 s5 = chunkFinal m c 5 := by
    unfold run_flat.sl.dma114 run_flat.sl.HS5_23 run_flat.sl.r_5
    refine (out_band_eq 640 _ _ s5 _ _).trans ?_
    rw [hC5, hw2]
    exact congrArg (fun z => k0_pay30 (k0_pay30 (k0_pay30 (acc0 m c 5) (cmV m c 0 5) (wV m c 3)) (cmV m c 1 5) (wV m c 1)) z (wV m c 2)) (read_cm m c 2 5)
  have hA6 : run_flat.sl.v1650 m c s2 s4 = acc0 m c 6 := by
    unfold run_flat.sl.v1650 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 640 768 (by decide), cov_skip 640 768 (by decide), cov_skip 512 768 (by decide), cov_skip 512 768 (by decide), cov_skip 384 768 (by decide), cov_skip 384 768 (by decide), cov_skip 256 768 (by decide), cov_skip 256 768 (by decide), cov_skip 128 768 (by decide), cov_skip 128 768 (by decide), cov_skip 0 768 (by decide), cov_skip 0 768 (by decide)]
    rw [hx, hw0]
    exact cov_acc0 m c 768 6 rfl _ _
  have hB6 : run_flat.sl.v m c s2 s4 = k0_pay30 (acc0 m c 6) (cmV m c 0 6) (wV m c 3) := by
    unfold run_flat.sl.v run_flat.sl.HS5_14
    rw [cov_hit 768, hA6, hw3]
    exact congrArg (fun z => k0_pay30 (acc0 m c 6) z (wV m c 3)) (read_cm m c 0 6)
  have hC6 : run_flat.sl.v1929 m c s2 s4 = k0_pay30 (k0_pay30 (acc0 m c 6) (cmV m c 0 6) (wV m c 3)) (cmV m c 1 6) (wV m c 1) := by
    unfold run_flat.sl.v1929 run_flat.sl.HS5_23 run_flat.sl.HS5_22 run_flat.sl.HS5_21 run_flat.sl.HS5_20 run_flat.sl.HS5_19 run_flat.sl.HS5_18 run_flat.sl.HS5_17 run_flat.sl.HS5_16 run_flat.sl.HS5_15
    rw [cov_skip 640 768 (by decide), cov_skip 512 768 (by decide), cov_skip 384 768 (by decide), cov_skip 256 768 (by decide), cov_skip 128 768 (by decide), cov_skip 0 768 (by decide), cov_skip 896 768 (by decide), cov_skip 896 768 (by decide)]
    rw [cov_hit 768, hB6, hw1]
    exact congrArg (fun z => k0_pay30 (k0_pay30 (acc0 m c 6) (cmV m c 0 6) (wV m c 3)) z (wV m c 1)) (read_cm m c 1 6)
  have hd6 : run_flat.sl.dma119 m c s2 s4 s5 = chunkFinal m c 6 := by
    unfold run_flat.sl.dma119 run_flat.sl.HS5_24 run_flat.sl.r_6
    refine (out_band_eq 768 _ _ s5 _ _).trans ?_
    rw [hC6, hw2]
    exact congrArg (fun z => k0_pay30 (k0_pay30 (k0_pay30 (acc0 m c 6) (cmV m c 0 6) (wV m c 3)) (cmV m c 1 6) (wV m c 1)) z (wV m c 2)) (read_cm m c 2 6)
  have hA7 : run_flat.sl.v_1 m c s2 s4 = acc0 m c 7 := by
    unfold run_flat.sl.v_1 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 768 896 (by decide), cov_skip 768 896 (by decide), cov_skip 640 896 (by decide), cov_skip 640 896 (by decide), cov_skip 512 896 (by decide), cov_skip 512 896 (by decide), cov_skip 384 896 (by decide), cov_skip 384 896 (by decide), cov_skip 256 896 (by decide), cov_skip 256 896 (by decide), cov_skip 128 896 (by decide), cov_skip 128 896 (by decide), cov_skip 0 896 (by decide), cov_skip 0 896 (by decide)]
    rw [hx, hw0]
    exact cov_acc0 m c 896 7 rfl _ _
  have hB7 : run_flat.sl.v1725 m c s2 s4 = k0_pay30 (acc0 m c 7) (cmV m c 0 7) (wV m c 3) := by
    unfold run_flat.sl.v1725 run_flat.sl.HS5_16
    rw [cov_hit 896, hA7, hw3]
    exact congrArg (fun z => k0_pay30 (acc0 m c 7) z (wV m c 3)) (read_cm m c 0 7)
  have hC7 : run_flat.sl.v_2 m c s2 s4 = k0_pay30 (k0_pay30 (acc0 m c 7) (cmV m c 0 7) (wV m c 3)) (cmV m c 1 7) (wV m c 1) := by
    unfold run_flat.sl.v_2 run_flat.sl.HS5_24 run_flat.sl.HS5_23 run_flat.sl.HS5_22 run_flat.sl.HS5_21 run_flat.sl.HS5_20 run_flat.sl.HS5_19 run_flat.sl.HS5_18 run_flat.sl.HS5_17 run_flat.sl.r_4
    rw [cov_skip 768 896 (by decide), cov_skip 640 896 (by decide), cov_skip 512 896 (by decide), cov_skip 384 896 (by decide), cov_skip 256 896 (by decide), cov_skip 128 896 (by decide), cov_skip 0 896 (by decide)]
    rw [cov_hit 896, hB7, hw1]
    exact congrArg (fun z => k0_pay30 (k0_pay30 (acc0 m c 7) (cmV m c 0 7) (wV m c 3)) z (wV m c 1)) (read_cm m c 1 7)
  have hd7 : run_flat.sl.dma124 m c s2 s4 s5 = chunkFinal m c 7 := by
    unfold run_flat.sl.dma124 run_flat.sl.HS5_25
    refine (out_band_eq 896 _ _ s5 _ _).trans ?_
    rw [hC7, hw2]
    exact congrArg (fun z => k0_pay30 (k0_pay30 (k0_pay30 (acc0 m c 7) (cmV m c 0 7) (wV m c 3)) (cmV m c 1 7) (wV m c 1)) z (wV m c 2)) (read_cm m c 2 7)
  have hspec := out_spec_of_bands m c (m ((c : Thread nD τ).loc main_v1)) _ _ _ _ _ _ _ _ hd0 hd1 hd2 hd3 hd4 hd5 hd6 hd7

  rw [wp_ret]
  iapply (exit_all m K c _ _ hspec) $$ [Has0_0 Has1_0 Has0_1 Has1_1 Has0_2 Has1_2 Has0_3 Has1_3 Has0_4 Has1_4 Has0_5 Has1_5 Has0_6 Has1_6 Has0_7 Has1_7 Has2_0 Has2_1 Has2_2 Has2_3 Has2_4 Has2_5 Has2_6 Has2_7 Har0_0 Har1_0 Har0_1 Har1_1 Har0_2 Har1_2 Har0_3 Har1_3 Har0_4 Har1_4 Har0_5 Har1_5 Har0_6 Har1_6 Har0_7 Har1_7 Har2_0 Har2_1 Har2_2 Har2_3 Har2_4 Har2_5 Har2_6 Har2_7 Hd48 Hd49 Hd50 Hd51 Hd52 Hd53 Hd54 Hd55 Hd56 Hd57 Hd58 Hd59 Hd60 Hd61 Hd62 Hd63 Har0_0_pay1 Har1_0_pay1 Har0_1_pay1 Har1_1_pay1 Har0_2_pay1 Har1_2_pay1 Har0_3_pay1 Har1_3_pay1 Har0_4_pay1 Har1_4_pay1 Har0_5_pay1 Har1_5_pay1 Har0_6_pay1 Har1_6_pay1 Har0_7_pay1 Har1_7_pay1 Har2_0_pay1 Har2_1_pay1 Har2_2_pay1 Har2_3_pay1 Har2_4_pay1 Har2_5_pay1 Har2_6_pay1 Har2_7_pay1 Has0_0_pay1 Has1_0_pay1 Has0_1_pay1 Has1_1_pay1 Has0_2_pay1 Has1_2_pay1 Has0_3_pay1 Has1_3_pay1 Has0_4_pay1 Has1_4_pay1 Has0_5_pay1 Has1_5_pay1 Has0_6_pay1 Has1_6_pay1 Has0_7_pay1 Has1_7_pay1 Has2_0_pay1 Has2_1_pay1 Has2_2_pay1 Has2_3_pay1 Has2_4_pay1 Has2_5_pay1 Has2_6_pay1 Has2_7_pay1 HS1 HS2 HS4 HS5 HX48 HX49 HX50 HX51 HX52 HXr HW53 HW54 HW55 HWr HOut HO]
  unfold flat24 localsFlat argsOut
  beta_reduce
  iframe Has0_0 Has1_0 Has0_1 Has1_1 Has0_2 Has1_2 Has0_3 Has1_3 Has0_4 Has1_4 Has0_5 Has1_5 Has0_6 Has1_6 Has0_7 Has1_7 Has2_0 Has2_1 Has2_2 Has2_3 Has2_4 Has2_5 Has2_6 Has2_7 Har0_0 Har1_0 Har0_1 Har1_1 Har0_2 Har1_2 Har0_3 Har1_3 Har0_4 Har1_4 Har0_5 Har1_5 Har0_6 Har1_6 Har0_7 Har1_7 Har2_0 Har2_1 Har2_2 Har2_3 Har2_4 Har2_5 Har2_6 Har2_7 Hd48 Hd49 Hd50 Hd51 Hd52 Hd53 Hd54 Hd55 Hd56 Hd57 Hd58 Hd59 Hd60 Hd61 Hd62 Hd63 HX48 HX49 HX50 HX51 HX52 HXr HW53 HW54 HW55 HWr HOut HO
  isplitr
  · isplitr
    · isplitr; · iexact HIs0_0
      isplitr; · iexact HIs1_0
      isplitr; · iexact HIs0_1
      isplitr; · iexact HIs1_1
      isplitr; · iexact HIs0_2
      isplitr; · iexact HIs1_2
      isplitr; · iexact HIs0_3
      isplitr; · iexact HIs1_3
      isplitr; · iexact HIs0_4
      isplitr; · iexact HIs1_4
      isplitr; · iexact HIs0_5
      isplitr; · iexact HIs1_5
      isplitr; · iexact HIs0_6
      isplitr; · iexact HIs1_6
      isplitr; · iexact HIs0_7
      isplitr; · iexact HIs1_7
      isplitr; · iexact HIs2_0
      isplitr; · iexact HIs2_1
      isplitr; · iexact HIs2_2
      isplitr; · iexact HIs2_3
      isplitr; · iexact HIs2_4
      isplitr; · iexact HIs2_5
      isplitr; · iexact HIs2_6
      iexact HIs2_7
    isplitr; · iexact HIr0_0
    isplitr; · iexact HIr1_0
    isplitr; · iexact HIr0_1
    isplitr; · iexact HIr1_1
    isplitr; · iexact HIr0_2
    isplitr; · iexact HIr1_2
    isplitr; · iexact HIr0_3
    isplitr; · iexact HIr1_3
    isplitr; · iexact HIr0_4
    isplitr; · iexact HIr1_4
    isplitr; · iexact HIr0_5
    isplitr; · iexact HIr1_5
    isplitr; · iexact HIr0_6
    isplitr; · iexact HIr1_6
    isplitr; · iexact HIr0_7
    isplitr; · iexact HIr1_7
    isplitr; · iexact HIr2_0
    isplitr; · iexact HIr2_1
    isplitr; · iexact HIr2_2
    isplitr; · iexact HIr2_3
    isplitr; · iexact HIr2_4
    isplitr; · iexact HIr2_5
    isplitr; · iexact HIr2_6
    iexact HIr2_7
  isplitl [Har0_0_pay1 Har1_0_pay1 Har0_1_pay1 Har1_1_pay1 Har0_2_pay1 Har1_2_pay1 Har0_3_pay1 Har1_3_pay1 Har0_4_pay1 Har1_4_pay1 Har0_5_pay1 Har1_5_pay1 Har0_6_pay1 Har1_6_pay1 Har0_7_pay1 Har1_7_pay1 Har2_0_pay1 Har2_1_pay1 Har2_2_pay1 Har2_3_pay1 Har2_4_pay1 Har2_5_pay1 Har2_6_pay1 Har2_7_pay1]
  · isplitl [Har0_0_pay1]; · (iexists _; iexact Har0_0_pay1)
    isplitl [Har1_0_pay1]; · (iexists _; iexact Har1_0_pay1)
    isplitl [Har0_1_pay1]; · (iexists _; iexact Har0_1_pay1)
    isplitl [Har1_1_pay1]; · (iexists _; iexact Har1_1_pay1)
    isplitl [Har0_2_pay1]; · (iexists _; iexact Har0_2_pay1)
    isplitl [Har1_2_pay1]; · (iexists _; iexact Har1_2_pay1)
    isplitl [Har0_3_pay1]; · (iexists _; iexact Har0_3_pay1)
    isplitl [Har1_3_pay1]; · (iexists _; iexact Har1_3_pay1)
    isplitl [Har0_4_pay1]; · (iexists _; iexact Har0_4_pay1)
    isplitl [Har1_4_pay1]; · (iexists _; iexact Har1_4_pay1)
    isplitl [Har0_5_pay1]; · (iexists _; iexact Har0_5_pay1)
    isplitl [Har1_5_pay1]; · (iexists _; iexact Har1_5_pay1)
    isplitl [Har0_6_pay1]; · (iexists _; iexact Har0_6_pay1)
    isplitl [Har1_6_pay1]; · (iexists _; iexact Har1_6_pay1)
    isplitl [Har0_7_pay1]; · (iexists _; iexact Har0_7_pay1)
    isplitl [Har1_7_pay1]; · (iexists _; iexact Har1_7_pay1)
    isplitl [Har2_0_pay1]; · (iexists _; iexact Har2_0_pay1)
    isplitl [Har2_1_pay1]; · (iexists _; iexact Har2_1_pay1)
    isplitl [Har2_2_pay1]; · (iexists _; iexact Har2_2_pay1)
    isplitl [Har2_3_pay1]; · (iexists _; iexact Har2_3_pay1)
    isplitl [Har2_4_pay1]; · (iexists _; iexact Har2_4_pay1)
    isplitl [Har2_5_pay1]; · (iexists _; iexact Har2_5_pay1)
    isplitl [Har2_6_pay1]; · (iexists _; iexact Har2_6_pay1)
    iexists _; iexact Har2_7_pay1
  isplitl [Has0_0_pay1 Has1_0_pay1 Has0_1_pay1 Has1_1_pay1 Has0_2_pay1 Has1_2_pay1 Has0_3_pay1 Has1_3_pay1 Has0_4_pay1 Has1_4_pay1 Has0_5_pay1 Has1_5_pay1 Has0_6_pay1 Has1_6_pay1 Has0_7_pay1 Has1_7_pay1 Has2_0_pay1 Has2_1_pay1 Has2_2_pay1 Has2_3_pay1 Has2_4_pay1 Has2_5_pay1 Has2_6_pay1 Has2_7_pay1]
  · isplitl [Has0_0_pay1]; · (iexists _; iexact Has0_0_pay1)
    isplitl [Has1_0_pay1]; · (iexists _; iexact Has1_0_pay1)
    isplitl [Has0_1_pay1]; · (iexists _; iexact Has0_1_pay1)
    isplitl [Has1_1_pay1]; · (iexists _; iexact Has1_1_pay1)
    isplitl [Has0_2_pay1]; · (iexists _; iexact Has0_2_pay1)
    isplitl [Has1_2_pay1]; · (iexists _; iexact Has1_2_pay1)
    isplitl [Has0_3_pay1]; · (iexists _; iexact Has0_3_pay1)
    isplitl [Has1_3_pay1]; · (iexists _; iexact Has1_3_pay1)
    isplitl [Has0_4_pay1]; · (iexists _; iexact Has0_4_pay1)
    isplitl [Has1_4_pay1]; · (iexists _; iexact Has1_4_pay1)
    isplitl [Has0_5_pay1]; · (iexists _; iexact Has0_5_pay1)
    isplitl [Has1_5_pay1]; · (iexists _; iexact Has1_5_pay1)
    isplitl [Has0_6_pay1]; · (iexists _; iexact Has0_6_pay1)
    isplitl [Has1_6_pay1]; · (iexists _; iexact Has1_6_pay1)
    isplitl [Has0_7_pay1]; · (iexists _; iexact Has0_7_pay1)
    isplitl [Has1_7_pay1]; · (iexists _; iexact Has1_7_pay1)
    isplitl [Has2_0_pay1]; · (iexists _; iexact Has2_0_pay1)
    isplitl [Has2_1_pay1]; · (iexists _; iexact Has2_1_pay1)
    isplitl [Has2_2_pay1]; · (iexists _; iexact Has2_2_pay1)
    isplitl [Has2_3_pay1]; · (iexists _; iexact Has2_3_pay1)
    isplitl [Has2_4_pay1]; · (iexists _; iexact Has2_4_pay1)
    isplitl [Has2_5_pay1]; · (iexists _; iexact Has2_5_pay1)
    isplitl [Has2_6_pay1]; · (iexists _; iexact Has2_6_pay1)
    iexists _; iexact Has2_7_pay1
  isplitl [HS1]; · (iexists _; iexact HS1)
  isplitl [HS2]; · (iexists _; iexact HS2)
  isplitl [HS4]; · (iexists _; iexact HS4)
  iexists _; iexact HS5

theorem sound_body (c : Dev nD) :
    bodyPre m c ⊢ wp frame (wpE (defs₀ (F := F)) 𝒱₀ (c : Thread nD τ) none) Set.univ (Gen.bodyAt0 (F := F) t₀) (fun _ => bodyPost m c) := by
  refine (enter m c).trans ?_
  iintro ⟨%K, %s1, %s2, %s4, %s5, %f0, %f3, %W, HP, HL, HXr, HWr⟩
  iapply (run_flat m c K s1 s2 s4 s5 f0 f3 W)
  isplitl [HP]; · iexact HP
  isplitl [HL]; · iexact HL
  isplitl [HXr]; · iexact HXr
  iexact HWr

end Cert.KernelIdealPf

end
-- ==== Proof.Bits.Resources.lean ====
import proofs.«900612_g7700000000000613_dist_a2a_gemm_m4096_k4096_n2048_f32_none_v7x_i4_1_alg».proof.Proof.Bits.Proto0
import Idealize.ShloMosaic.Rules.PointsTo
import Idealize.ShloMosaic.Lib.Transfers

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem mem_chunkRect (i : Fin 3) (k : Fin 8) (x : S3x1024x1024.Idx) :
    x ∈ (chunkRect i k).set ↔ (x 0).val = i.val ∧ 128 * k.val ≤ (x 1).val ∧ (x 1).val < 128 * k.val + 128 := by
  rw [Rect.mem_set_unit]
  constructor
  · intro h
    have h0 := h 0; have h1 := h 1
    simp only [Matrix.cons_val_zero, Matrix.cons_val_one] at h0 h1
    change i.val ≤ (x 0).val ∧ (x 0).val < i.val + 1 at h0
    change 128 * k.val ≤ (x 1).val ∧ (x 1).val < 128 * k.val + 128 at h1
    omega
  · rintro ⟨h0, h1, h2⟩ a
    have h3 := (x 2).isLt
    change (x 2).val < 1024 at h3
    fin_cases a
    · change i.val ≤ (x 0).val ∧ (x 0).val < i.val + 1; omega
    · change 128 * k.val ≤ (x 1).val ∧ (x 1).val < 128 * k.val + 128; omega
    · change 0 ≤ (x 2).val ∧ (x 2).val < 0 + 1024; omega

theorem chunkRect_disjoint (t t' : TK) (h : t ≠ t') : Disjoint (chunkRect t.1 t.2).set (chunkRect t'.1 t'.2).set := by
  rw [Finset.disjoint_left]
  intro x hx hx'
  rw [mem_chunkRect] at hx hx'
  apply h
  obtain ⟨i, k⟩ := t; obtain ⟨i', k'⟩ := t'
  simp only at hx hx'
  have : i = i' := Fin.ext (by omega)
  have : k = k' := Fin.ext (by omega)
  subst_vars; rfl

def chunkOf (x : S3x1024x1024.Idx) : TK :=
  (⟨(x 0).val, (x 0).isLt⟩, ⟨(x 1).val / 128, by have h := (x 1).isLt; change (x 1).val < 1024 at h; omega⟩)

theorem mem_chunkOf (x : S3x1024x1024.Idx) : x ∈ (chunkRect (chunkOf x).1 (chunkOf x).2).set := by
  rw [mem_chunkRect]
  refine ⟨rfl, ?_, ?_⟩
  · show 128 * ((x 1).val / 128) ≤ (x 1).val; omega
  · show (x 1).val < 128 * ((x 1).val / 128) + 128; omega

theorem comm_chunk_set (i : Fin 3) (k : Fin 8) : (chunkM commM i k).view.set = (chunkRect i k).set :=
  (View.set_reshape _ _).trans (View.set_slice_whole cc0_scratch0 (chunkRect i k))

theorem sbuf_chunk_set (i : Fin 3) (k : Fin 8) : (chunkM sbufM i k).view.set = (chunkRect i k).set :=
  (View.set_reshape _ _).trans (View.set_slice_whole cc0_scratch3 (chunkRect i k))

section Partition

variable {ℓ : Loc nD τ sig} (K : TK → Finset (Idx ℓ))

theorem univ_eq_biUnion (hc : ∀ x, ∃ t, x ∈ K t) : (Finset.univ : Finset (Idx ℓ)) = Finset.univ.biUnion K := by
  ext x
  simp only [Finset.mem_univ, Finset.mem_biUnion, true_and, true_iff]
  exact hc x

theorem pointsTo_partition (hd : ∀ t t', t ≠ t' → Disjoint (K t) (K t')) (hc : ∀ x, ∃ t, x ∈ K t)
    (q : PosShare TreeShare) (f : Buf (Elt F) ℓ) :
    (ℓ ↦{q} f : sProp 𝕄) = bigSep (Finset.univ : Finset TK) fun t => ℓ ↦[K t]{q} f := by
  rw [univ_eq_biUnion K hc]
  exact pointsTo_biUnion Finset.univ K fun t _ t' _ h => hd t t' h

theorem pointsTo_partition_join (hd : ∀ t t', t ≠ t' → Disjoint (K t) (K t')) (pick : Idx ℓ → TK) (hp : ∀ x, x ∈ K (pick x))
    (q : PosShare TreeShare) (g : TK → Buf (Elt F) ℓ) :
    bigSep (Finset.univ : Finset TK) (fun t => ℓ ↦[K t]{q} g t) ⊢ (ℓ ↦{q} (fun x => g (pick x) x) : sProp 𝕄) := by
  have hpick : ∀ t x, x ∈ K t → pick x = t := fun t x hx => by
    by_contra hne
    exact Finset.disjoint_left.mp (hd _ _ hne) (hp x) hx
  refine (pointsTo_biUnion_join Finset.univ K g (g ((0 : Fin 3), (0 : Fin 8))) fun t _ t' _ h => hd t t' h).trans ?_
  iintro ⟨%g', %hg', H⟩
  rw [univ_eq_biUnion K fun x => ⟨pick x, hp x⟩,
    pointsTo_congr (f := fun x => g (pick x) x) (g := g') fun i hi => by
      obtain ⟨t, -, ht⟩ := Finset.mem_biUnion.mp hi
      rw [hpick t i ht]; exact (hg' t (Finset.mem_univ t) i ht).symm]
  iexact H

end Partition

theorem comm_split (c : Dev nD) (f : Buf (Elt F) ((c : Thread nD τ).loc cc0_scratch0)) :
    (((c : Thread nD τ).loc cc0_scratch0) ↦{fullShare} f : sProp 𝕄)
      ⊢ bigSep (Finset.univ : Finset TK) fun ik => chunkPts c commM ik.1 ik.2 fullShare f :=
  Entails.of_eq (pointsTo_partition (ℓ := (c : Thread nD τ).loc cc0_scratch0) (fun ik : TK => (chunkM commM ik.1 ik.2).view.set)
    (fun t t' h => by rw [comm_chunk_set, comm_chunk_set]; exact chunkRect_disjoint t t' h)
    (fun x => ⟨chunkOf x, by rw [comm_chunk_set]; exact mem_chunkOf x⟩) fullShare f)

theorem comm_join (c : Dev nD) (g : TK → Buf (Elt F) ((c : Thread nD τ).loc cc0_scratch0)) :
    bigSep (Finset.univ : Finset TK) (fun ik => chunkPts c commM ik.1 ik.2 fullShare (g ik))
      ⊢ (((c : Thread nD τ).loc cc0_scratch0) ↦{fullShare} (fun x => g (chunkOf x) x) : sProp 𝕄) :=
  pointsTo_partition_join (ℓ := (c : Thread nD τ).loc cc0_scratch0) (fun ik : TK => (chunkM commM ik.1 ik.2).view.set)
    (fun t t' h => by rw [comm_chunk_set, comm_chunk_set]; exact chunkRect_disjoint t t' h)
    chunkOf (fun x => by rw [comm_chunk_set]; exact mem_chunkOf x) fullShare g

theorem sbuf_split (c : Dev nD) (f : Buf (Elt F) ((c : Thread nD τ).loc cc0_scratch3)) :
    (((c : Thread nD τ).loc cc0_scratch3) ↦{fullShare} f : sProp 𝕄)
      ⊢ bigSep (Finset.univ : Finset TK) fun ik => chunkPts c sbufM ik.1 ik.2 fullShare f :=
  Entails.of_eq (pointsTo_partition (ℓ := (c : Thread nD τ).loc cc0_scratch3) (fun ik : TK => (chunkM sbufM ik.1 ik.2).view.set)
    (fun t t' h => by rw [sbuf_chunk_set, sbuf_chunk_set]; exact chunkRect_disjoint t t' h)
    (fun x => ⟨chunkOf x, by rw [sbuf_chunk_set]; exact mem_chunkOf x⟩) fullShare f)

theorem sbuf_join (c : Dev nD) (g : TK → Buf (Elt F) ((c : Thread nD τ).loc cc0_scratch3)) :
    bigSep (Finset.univ : Finset TK) (fun ik => chunkPts c sbufM ik.1 ik.2 fullShare (g ik))
      ⊢ (((c : Thread nD τ).loc cc0_scratch3) ↦{fullShare} (fun x => g (chunkOf x) x) : sProp 𝕄) :=
  pointsTo_partition_join (ℓ := (c : Thread nD τ).loc cc0_scratch3) (fun ik : TK => (chunkM sbufM ik.1 ik.2).view.set)
    (fun t t' h => by rw [sbuf_chunk_set, sbuf_chunk_set]; exact chunkRect_disjoint t t' h)
    chunkOf (fun x => by rw [sbuf_chunk_set]; exact mem_chunkOf x) fullShare g

theorem bigSep_exists {I X : Type} [DecidableEq I] (Φ : I → X → sProp 𝕄) {s : Finset I} (hs : s.Nonempty) :
    bigSep s (fun i => iprop(∃ x, Φ i x)) ⊢ iprop(∃ g : I → X, bigSep s fun i => Φ i (g i)) := by
  induction hs using Finset.Nonempty.cons_induction with
  | singleton i =>
    rw [bigSep_singleton]
    iintro ⟨%x, Hi⟩
    iexists fun _ => x
    rw [bigSep_singleton]
    iexact Hi
  | cons i s hi hs ih =>
    have hsplit : ∀ Ψ : I → sProp 𝕄, bigSep (Finset.cons i s hi) Ψ = iprop(Ψ i ∗ bigSep s Ψ) := fun Ψ => by
      rw [Finset.cons_eq_insert, bigSep_insert hi]; rfl
    rw [hsplit]
    iintro ⟨⟨%x, Hi⟩, Hs⟩
    ihave Hs := ih $$ Hs
    icases Hs with ⟨%g, Hs⟩
    iexists Function.update g i x
    have hcongr : bigSep s (fun j => Φ j (Function.update g i x j)) = bigSep s fun j => Φ j (g j) :=
      bigSep_congr fun j hj => by
        have hne : j ≠ i := fun e => hi (e ▸ hj)
        rw [Function.update_of_ne hne]
    rw [hsplit, Function.update_self, hcongr]
    isplitl [Hi] <;> iassumption

theorem comm_choose (c : Dev nD) :
    bigSep (Finset.univ : Finset TK) (fun ik => iprop(∃ f, chunkPts (F := F) c commM ik.1 ik.2 fullShare f))
      ⊢ iprop(∃ g : TK → Buf (Elt F) ((c : Thread nD τ).loc cc0_scratch0),
          bigSep (Finset.univ : Finset TK) (fun ik => chunkPts (F := F) c commM ik.1 ik.2 fullShare (g ik))) :=
  bigSep_exists (I := TK) (X := Buf (Elt F) ((c : Thread nD τ).loc cc0_scratch0))
    (fun ik f => chunkPts (F := F) c commM ik.1 ik.2 fullShare f) (s := Finset.univ) Finset.univ_nonempty

theorem comm_join_any (c : Dev nD) :
    bigSep (Finset.univ : Finset TK) (fun ik => iprop(∃ f, chunkPts (F := F) c commM ik.1 ik.2 fullShare f))
      ⊢ iprop(∃ f, (((c : Thread nD τ).loc cc0_scratch0) ↦{fullShare} f : sProp 𝕄)) := by
  refine (comm_choose c).trans ?_
  iintro ⟨%g, H⟩
  iexists (fun x => g (chunkOf x) x)
  iapply (comm_join c g)
  iexact H

theorem sbuf_choose (c : Dev nD) :
    bigSep (Finset.univ : Finset TK) (fun ik => iprop(∃ f, chunkPts (F := F) c sbufM ik.1 ik.2 fullShare f))
      ⊢ iprop(∃ g : TK → Buf (Elt F) ((c : Thread nD τ).loc cc0_scratch3),
          bigSep (Finset.univ : Finset TK) (fun ik => chunkPts (F := F) c sbufM ik.1 ik.2 fullShare (g ik))) :=
  bigSep_exists (I := TK) (X := Buf (Elt F) ((c : Thread nD τ).loc cc0_scratch3))
    (fun ik f => chunkPts (F := F) c sbufM ik.1 ik.2 fullShare f) (s := Finset.univ) Finset.univ_nonempty

theorem sbuf_join_any (c : Dev nD) :
    bigSep (Finset.univ : Finset TK) (fun ik => iprop(∃ f, chunkPts (F := F) c sbufM ik.1 ik.2 fullShare f))
      ⊢ iprop(∃ f, (((c : Thread nD τ).loc cc0_scratch3) ↦{fullShare} f : sProp 𝕄)) := by
  refine (sbuf_choose c).trans ?_
  iintro ⟨%g, H⟩
  iexists (fun x => g (chunkOf x) x)
  iapply (sbuf_join c g)
  iexact H

section Tokens

variable (ℓ : Loc nD τ sig) (x : Buf (Elt F) ℓ)

def tokRest (lo hi : ℕ) : sProp 𝕄 :=
  iprop((ℓ ↦{Transfers.shareDrop fullShare hi} x)
    ∗ bigSep (Finset.range lo) fun i => (ℓ ↦{Transfers.shareTokN fullShare i} x : sProp 𝕄))

theorem tokRest_all (hi : ℕ) : (ℓ ↦{fullShare} x : sProp 𝕄) ⊣⊢ tokRest ℓ x hi hi :=
  Transfers.pointsTo_toks_range fullShare hi

theorem tokRest_peel (lo hi : ℕ) :
    tokRest ℓ x (lo + 1) hi ⊣⊢ iprop((ℓ ↦{Transfers.shareTokN fullShare lo} x : sProp 𝕄) ∗ tokRest ℓ x lo hi) := by
  have hb : bigSep (Finset.range (lo + 1)) (fun i => (ℓ ↦{Transfers.shareTokN fullShare i} x : sProp 𝕄))
      = iprop((ℓ ↦{Transfers.shareTokN fullShare lo} x)
          ∗ bigSep (Finset.range lo) fun i => (ℓ ↦{Transfers.shareTokN fullShare i} x : sProp 𝕄)) := by
    rw [Finset.range_add_one, bigSep_insert Finset.notMem_range_self]; rfl
  unfold tokRest
  rw [hb]
  constructor
  · iintro ⟨Hd, Ht, Hts⟩
    isplitl [Ht]; · iexact Ht
    isplitl [Hd] <;> iassumption
  · iintro ⟨Ht, Hd, Hts⟩
    isplitl [Hd]; · iexact Hd
    isplitl [Ht] <;> iassumption

end Tokens

theorem x_toks (c : Dev nD) (x : Buf (Elt F) ((c : Thread nD τ).loc main_arg0)) :
    (((c : Thread nD τ).loc main_arg0) ↦{fullShare} x : sProp 𝕄) ⊣⊢
      iprop(((Memref.whole main_arg0).view.loc (c : Thread nD τ) ↦{Transfers.shareTokN fullShare 48} x)
        ∗ ((Memref.whole main_arg0).view.loc (c : Thread nD τ) ↦{Transfers.shareTokN fullShare 49} x)
        ∗ ((Memref.whole main_arg0).view.loc (c : Thread nD τ) ↦{Transfers.shareTokN fullShare 50} x)
        ∗ ((Memref.whole main_arg0).view.loc (c : Thread nD τ) ↦{Transfers.shareTokN fullShare 51} x)
        ∗ ((Memref.whole main_arg0).view.loc (c : Thread nD τ) ↦{Transfers.shareTokN fullShare 52} x)
        ∗ tokRest ((c : Thread nD τ).loc main_arg0) x 48 53) := by
  have h52 := tokRest_peel ((c : Thread nD τ).loc main_arg0) x 52 53
  have h51 := tokRest_peel ((c : Thread nD τ).loc main_arg0) x 51 53
  have h50 := tokRest_peel ((c : Thread nD τ).loc main_arg0) x 50 53
  have h49 := tokRest_peel ((c : Thread nD τ).loc main_arg0) x 49 53
  have h48 := tokRest_peel ((c : Thread nD τ).loc main_arg0) x 48 53
  constructor
  · iintro H
    ihave H := (tokRest_all ((c : Thread nD τ).loc main_arg0) x 53).1 $$ H
    ihave H := h52.1 $$ H
    icases H with ⟨H52, H⟩
    ihave H := h51.1 $$ H
    icases H with ⟨H51, H⟩
    ihave H := h50.1 $$ H
    icases H with ⟨H50, H⟩
    ihave H := h49.1 $$ H
    icases H with ⟨H49, H⟩
    ihave H := h48.1 $$ H
    icases H with ⟨H48, H⟩
    isplitl [H48]; · iexact H48
    isplitl [H49]; · iexact H49
    isplitl [H50]; · iexact H50
    isplitl [H51]; · iexact H51
    isplitl [H52]; · iexact H52
    iexact H
  · iintro ⟨H48, H49, H50, H51, H52, H⟩
    iapply (tokRest_all ((c : Thread nD τ).loc main_arg0) x 53).2
    iapply h52.2
    isplitl [H52]; · iexact H52
    iapply h51.2
    isplitl [H51]; · iexact H51
    iapply h50.2
    isplitl [H50]; · iexact H50
    iapply h49.2
    isplitl [H49]; · iexact H49
    iapply h48.2
    isplitl [H48]; · iexact H48
    iexact H

theorem w_toks (c : Dev nD) (w : Buf (Elt F) ((c : Thread nD τ).loc main_arg1)) :
    (((c : Thread nD τ).loc main_arg1) ↦{fullShare} w : sProp 𝕄) ⊣⊢
      iprop(((Memref.whole main_arg1).view.loc (c : Thread nD τ) ↦{Transfers.shareTokN fullShare 53} w)
        ∗ ((Memref.whole main_arg1).view.loc (c : Thread nD τ) ↦{Transfers.shareTokN fullShare 54} w)
        ∗ ((Memref.whole main_arg1).view.loc (c : Thread nD τ) ↦{Transfers.shareTokN fullShare 55} w)
        ∗ tokRest ((c : Thread nD τ).loc main_arg1) w 53 56) := by
  have h55 := tokRest_peel ((c : Thread nD τ).loc main_arg1) w 55 56
  have h54 := tokRest_peel ((c : Thread nD τ).loc main_arg1) w 54 56
  have h53 := tokRest_peel ((c : Thread nD τ).loc main_arg1) w 53 56
  constructor
  · iintro H
    ihave H := (tokRest_all ((c : Thread nD τ).loc main_arg1) w 56).1 $$ H
    ihave H := h55.1 $$ H
    icases H with ⟨H55, H⟩
    ihave H := h54.1 $$ H
    icases H with ⟨H54, H⟩
    ihave H := h53.1 $$ H
    icases H with ⟨H53, H⟩
    isplitl [H53]; · iexact H53
    isplitl [H54]; · iexact H54
    isplitl [H55]; · iexact H55
    iexact H
  · iintro ⟨H53, H54, H55, H⟩
    iapply (tokRest_all ((c : Thread nD τ).loc main_arg1) w 56).2
    iapply h55.2
    isplitl [H55]; · iexact H55
    iapply h54.2
    isplitl [H54]; · iexact H54
    iapply h53.2
    isplitl [H53]; · iexact H53
    iexact H

end Cert.KernelPf

end
-- ==== Proof.Bits.Resources2.lean ====
import proofs.«900612_g7700000000000613_dist_a2a_gemm_m4096_k4096_n2048_f32_none_v7x_i4_1_alg».proof.Proof.Bits.Resources
import Idealize.ShloMosaic.Lib.Pipeline.Kit

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem cTile_cTile (t : Fin 3) : cTile (cTile t) = t := by revert t; decide

def tileSwap : TK ≃ TK where
  toFun tk := (cTile tk.1, tk.2)
  invFun tk := (cTile tk.1, tk.2)
  left_inv tk := Prod.ext (cTile_cTile tk.1) rfl
  right_inv tk := Prod.ext (cTile_cTile tk.1) rfl

theorem bigSep_TK_ord (Φ : TK → sProp 𝕄) : bigSep Finset.univ Φ = iprop(Φ ((0 : Fin 3), (0 : Fin 8)) ∗ Φ ((1 : Fin 3), (0 : Fin 8)) ∗ Φ ((0 : Fin 3), (1 : Fin 8)) ∗ Φ ((1 : Fin 3), (1 : Fin 8)) ∗ Φ ((0 : Fin 3), (2 : Fin 8)) ∗ Φ ((1 : Fin 3), (2 : Fin 8)) ∗ Φ ((0 : Fin 3), (3 : Fin 8)) ∗ Φ ((1 : Fin 3), (3 : Fin 8)) ∗ Φ ((0 : Fin 3), (4 : Fin 8)) ∗ Φ ((1 : Fin 3), (4 : Fin 8)) ∗ Φ ((0 : Fin 3), (5 : Fin 8)) ∗ Φ ((1 : Fin 3), (5 : Fin 8)) ∗ Φ ((0 : Fin 3), (6 : Fin 8)) ∗ Φ ((1 : Fin 3), (6 : Fin 8)) ∗ Φ ((0 : Fin 3), (7 : Fin 8)) ∗ Φ ((1 : Fin 3), (7 : Fin 8)) ∗ Φ ((2 : Fin 3), (0 : Fin 8)) ∗ Φ ((2 : Fin 3), (1 : Fin 8)) ∗ Φ ((2 : Fin 3), (2 : Fin 8)) ∗ Φ ((2 : Fin 3), (3 : Fin 8)) ∗ Φ ((2 : Fin 3), (4 : Fin 8)) ∗ Φ ((2 : Fin 3), (5 : Fin 8)) ∗ Φ ((2 : Fin 3), (6 : Fin 8)) ∗ Φ ((2 : Fin 3), (7 : Fin 8))) :=
  bigSep_univ_eq_bigSepL [((0 : Fin 3), (0 : Fin 8)), ((1 : Fin 3), (0 : Fin 8)), ((0 : Fin 3), (1 : Fin 8)), ((1 : Fin 3), (1 : Fin 8)), ((0 : Fin 3), (2 : Fin 8)), ((1 : Fin 3), (2 : Fin 8)), ((0 : Fin 3), (3 : Fin 8)), ((1 : Fin 3), (3 : Fin 8)), ((0 : Fin 3), (4 : Fin 8)), ((1 : Fin 3), (4 : Fin 8)), ((0 : Fin 3), (5 : Fin 8)), ((1 : Fin 3), (5 : Fin 8)), ((0 : Fin 3), (6 : Fin 8)), ((1 : Fin 3), (6 : Fin 8)), ((0 : Fin 3), (7 : Fin 8)), ((1 : Fin 3), (7 : Fin 8)), ((2 : Fin 3), (0 : Fin 8)), ((2 : Fin 3), (1 : Fin 8)), ((2 : Fin 3), (2 : Fin 8)), ((2 : Fin 3), (3 : Fin 8)), ((2 : Fin 3), (4 : Fin 8)), ((2 : Fin 3), (5 : Fin 8)), ((2 : Fin 3), (6 : Fin 8)), ((2 : Fin 3), (7 : Fin 8))] (by decide) (by decide) Φ

-- `flat24 Φ` writes `Φ d t k` out over the 24 chunks in the order their copies are issued, `d` the destination's offset.
def flat24 (Φ : ℕ → Fin 3 → Fin 8 → sProp 𝕄) : sProp 𝕄 :=
  iprop(Φ 1 0 0 ∗ Φ 3 1 0 ∗ Φ 1 0 1 ∗ Φ 3 1 1 ∗ Φ 1 0 2 ∗ Φ 3 1 2 ∗ Φ 1 0 3 ∗ Φ 3 1 3 ∗ Φ 1 0 4 ∗ Φ 3 1 4 ∗ Φ 1 0 5 ∗ Φ 3 1 5 ∗ Φ 1 0 6 ∗ Φ 3 1 6 ∗ Φ 1 0 7 ∗ Φ 3 1 7 ∗ Φ 2 2 0 ∗ Φ 2 2 1 ∗ Φ 2 2 2 ∗ Φ 2 2 3 ∗ Φ 2 2 4 ∗ Φ 2 2 5 ∗ Φ 2 2 6 ∗ Φ 2 2 7)

theorem flat24_eq (Φ : ℕ → Fin 3 → Fin 8 → sProp 𝕄) : flat24 Φ = bigSep (Finset.univ : Finset TK) fun tk => Φ (dOf tk.1) tk.1 tk.2 :=
  (bigSep_TK_ord fun tk => Φ (dOf tk.1) tk.1 tk.2).symm

theorem comm_join_any_cTile (c : Dev nD) :
    bigSep (Finset.univ : Finset TK) (fun tk => iprop(∃ f, chunkPts (F := F) c commM (cTile tk.1) tk.2 fullShare f))
      ⊢ iprop(∃ f, (((c : Thread nD τ).loc cc0_scratch0) ↦{fullShare} f : sProp 𝕄)) :=
  (Entails.of_eq (bigSep_univ_equiv tileSwap fun ik : TK => iprop(∃ f, chunkPts (F := F) c commM ik.1 ik.2 fullShare f)).symm).trans
    (comm_join_any c)

end Cert.KernelPf

end
-- ==== Proof.Bits.Flat.lean ====
import proofs.«900612_g7700000000000613_dist_a2a_gemm_m4096_k4096_n2048_f32_none_v7x_i4_1_alg».proof.Proof.Bits.Tables
import proofs.«900612_g7700000000000613_dist_a2a_gemm_m4096_k4096_n2048_f32_none_v7x_i4_1_alg».proof.Proof.Bits.Resources2

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev tokX (c : Dev nD) (i : ℕ) (x : Buf (Elt F) ((Memref.whole main_arg0).view.loc (c : Thread nD τ))) : sProp 𝕄 :=
  (Memref.whole main_arg0).view.loc (c : Thread nD τ) ↦{Transfers.shareTokN fullShare i} x
abbrev tokW (c : Dev nD) (i : ℕ) (w : Buf (Elt F) ((Memref.whole main_arg1).view.loc (c : Thread nD τ))) : sProp 𝕄 :=
  (Memref.whole main_arg1).view.loc (c : Thread nD τ) ↦{Transfers.shareTokN fullShare i} w
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
abbrev dsem (i : ℕ) (h : i < 64 := by decide) : DmaSem sig := ⟨i, h⟩

def owedSum (c : Dev nD) : CellTallies nD τ sig Unit :=
  (((((((((((((((((((((((((((owedFrom c 27 + tallyAt (recvCell (peer c 2) 2 7) () NC) + tallyAt (recvCell (peer c 2) 2 6) () NC) + tallyAt (recvCell (peer c 2) 2 5) () NC) + tallyAt (recvCell (peer c 2) 2 4) () NC) + tallyAt (recvCell (peer c 2) 2 3) () NC) + tallyAt (recvCell (peer c 2) 2 2) () NC) + tallyAt (recvCell (peer c 2) 2 1) () NC) + tallyAt (recvCell (peer c 2) 2 0) () NC) + tallyAt (recvCell (peer c 3) 1 7) () NC) + tallyAt (recvCell (peer c 1) 0 7) () NC) + tallyAt (recvCell (peer c 3) 1 6) () NC) + tallyAt (recvCell (peer c 1) 0 6) () NC) + tallyAt (recvCell (peer c 3) 1 5) () NC) + tallyAt (recvCell (peer c 1) 0 5) () NC) + tallyAt (recvCell (peer c 3) 1 4) () NC) + tallyAt (recvCell (peer c 1) 0 4) () NC) + tallyAt (recvCell (peer c 3) 1 3) () NC) + tallyAt (recvCell (peer c 1) 0 3) () NC) + tallyAt (recvCell (peer c 3) 1 2) () NC) + tallyAt (recvCell (peer c 1) 0 2) () NC) + tallyAt (recvCell (peer c 3) 1 1) () NC) + tallyAt (recvCell (peer c 1) 0 1) () NC) + tallyAt (recvCell (peer c 3) 1 0) () NC) + tallyAt (recvCell (peer c 1) 0 0) () NC) + tallyAt (barCell (peer c 3)) () 1) + tallyAt (barCell (peer c 2)) () 1) + tallyAt (barCell (peer c 1)) () 1)

def localsFlat (c : Dev nD) : sProp 𝕄 :=
  iprop(semVal ((c : Thread nD τ), SemLoc.dma (dsem 48)) 0
    ∗ semVal ((c : Thread nD τ), SemLoc.dma (dsem 49)) 0
    ∗ semVal ((c : Thread nD τ), SemLoc.dma (dsem 50)) 0
    ∗ semVal ((c : Thread nD τ), SemLoc.dma (dsem 51)) 0
    ∗ semVal ((c : Thread nD τ), SemLoc.dma (dsem 52)) 0
    ∗ semVal ((c : Thread nD τ), SemLoc.dma (dsem 53)) 0
    ∗ semVal ((c : Thread nD τ), SemLoc.dma (dsem 54)) 0
    ∗ semVal ((c : Thread nD τ), SemLoc.dma (dsem 55)) 0
    ∗ semVal ((c : Thread nD τ), SemLoc.dma (dsem 56)) 0
    ∗ semVal ((c : Thread nD τ), SemLoc.dma (dsem 57)) 0
    ∗ semVal ((c : Thread nD τ), SemLoc.dma (dsem 58)) 0
    ∗ semVal ((c : Thread nD τ), SemLoc.dma (dsem 59)) 0
    ∗ semVal ((c : Thread nD τ), SemLoc.dma (dsem 60)) 0
    ∗ semVal ((c : Thread nD τ), SemLoc.dma (dsem 61)) 0
    ∗ semVal ((c : Thread nD τ), SemLoc.dma (dsem 62)) 0
    ∗ semVal ((c : Thread nD τ), SemLoc.dma (dsem 63)) 0)

def flatPers (c : Dev nD) (K : GSem nD τ sig → ℕ) : sProp 𝕄 :=
  iprop(cellInv ER (sch m) (K (barCell c)) (barCell c)
    ∗ cellInv ER (sch m) (K (barCell (peer c 1))) (barCell (peer c 1)) ∗ cellInv ER (sch m) (K (barCell (peer c 2))) (barCell (peer c 2)) ∗ cellInv ER (sch m) (K (barCell (peer c 3))) (barCell (peer c 3))
    ∗ flat24 (fun _ t k => cellInv ER (sch m) (K (sendCell c t k)) (sendCell c t k))
    ∗ flat24 (fun d t k => cellInv ER (sch m) (K (recvCell (peer c d) t k)) (recvCell (peer c d) t k))
    ∗ flat24 (fun _ t k => cellInv ER (sch m) (K (recvCell c t k)) (recvCell c t k))
    ∗ reached ER (barCell c) 0
    ∗ reached ER (barCell (peer c 1)) 0 ∗ reached ER (barCell (peer c 2)) 0 ∗ reached ER (barCell (peer c 3)) 0
    ∗ flat24 (fun _ t k => reached ER (sendCell c t k) 0)
    ∗ flat24 (fun d t k => reached ER (recvCell (peer c d) t k) 0)
    ∗ flat24 (fun _ t k => reached ER (recvCell c t k) 0)
    ∗ levAts L lv)

def flatLin (c : Dev nD)
    (x : Buf (Elt F) ((Memref.whole main_arg0).view.loc (c : Thread nD τ)))
    (w : Buf (Elt F) ((Memref.whole main_arg1).view.loc (c : Thread nD τ)))
    (o : Buf (Elt F) ((Memref.whole main_v1).view.loc (c : Thread nD τ)))
    (s1 : Buf (Elt F) ((Memref.whole cc0_scratch1).view.loc (c : Thread nD τ)))
    (s2 : Buf (Elt F) ((Memref.whole cc0_scratch2).view.loc (c : Thread nD τ)))
    (s4 : Buf (Elt F) ((Memref.whole cc0_scratch4).view.loc (c : Thread nD τ)))
    (s5 : Buf (Elt F) ((Memref.whole cc0_scratch5).view.loc (c : Thread nD τ)))
    (f0 : Buf (Elt F) ((c : Thread nD τ).loc cc0_scratch0))
    (f3 : Buf (Elt F) ((c : Thread nD τ).loc cc0_scratch3))
    (W : Waits sig Unit) : sProp 𝕄 :=
  iprop(dutyTok ER (barCell (peer c 1)) 0 (0 : Fin 3) ∗ dutyTok ER (barCell (peer c 2)) 0 (1 : Fin 3) ∗ dutyTok ER (barCell (peer c 3)) 0 (2 : Fin 3)
    ∗ flat24 (fun _ t k => dutyTok ER (sendCell c t k) 0 (0 : Fin 3))
    ∗ flat24 (fun d t k => dutyTok ER (recvCell (peer c d) t k) 0 (0 : Fin 3))
    ∗ atPos ER (barCell c) 0 ∅ 0
    ∗ flat24 (fun _ t k => atPos ER (sendCell c t k) 0 ∅ 0)
    ∗ flat24 (fun _ t k => atPos ER (recvCell c t k) 0 ∅ 0)
    ∗ cred (tallyAt (barCell c) () 3)
    ∗ flat24 (fun _ t k => cred (tallyAt (recvCell c t k) () NC))
    ∗ chunkPts c commM 2 0 fullShare f0 ∗ chunkPts c commM 2 1 fullShare f0 ∗ chunkPts c commM 2 2 fullShare f0 ∗ chunkPts c commM 2 3 fullShare f0 ∗ chunkPts c commM 2 4 fullShare f0 ∗ chunkPts c commM 2 5 fullShare f0 ∗ chunkPts c commM 2 6 fullShare f0 ∗ chunkPts c commM 2 7 fullShare f0
    ∗ chunkPts c commM 1 0 fullShare f0 ∗ chunkPts c commM 1 1 fullShare f0 ∗ chunkPts c commM 1 2 fullShare f0 ∗ chunkPts c commM 1 3 fullShare f0 ∗ chunkPts c commM 1 4 fullShare f0 ∗ chunkPts c commM 1 5 fullShare f0 ∗ chunkPts c commM 1 6 fullShare f0 ∗ chunkPts c commM 1 7 fullShare f0
    ∗ chunkPts c commM 0 0 fullShare f0 ∗ chunkPts c commM 0 1 fullShare f0 ∗ chunkPts c commM 0 2 fullShare f0 ∗ chunkPts c commM 0 3 fullShare f0 ∗ chunkPts c commM 0 4 fullShare f0 ∗ chunkPts c commM 0 5 fullShare f0 ∗ chunkPts c commM 0 6 fullShare f0 ∗ chunkPts c commM 0 7 fullShare f0
    ∗ flat24 (fun _ t k => chunkPts c sbufM t k fullShare f3)
    ∗ tokX c 48 x ∗ tokX c 49 x ∗ tokX c 50 x ∗ tokX c 51 x ∗ tokX c 52 x
    ∗ tokW c 53 w ∗ tokW c 54 w ∗ tokW c 55 w
    ∗ pt c (Memref.whole main_v1) o
    ∗ pt c (Memref.whole cc0_scratch1) s1 ∗ pt c (Memref.whole cc0_scratch2) s2
    ∗ pt c (Memref.whole cc0_scratch4) s4 ∗ pt c (Memref.whole cc0_scratch5) s5
    ∗ localsFlat c
    ∗ owes (c : Thread nD τ) (owedSum c) W)

end Cert.KernelPf

end
-- ==== Proof.Bits.Ctx.lean ====
import proofs.«900612_g7700000000000613_dist_a2a_gemm_m4096_k4096_n2048_f32_none_v7x_i4_1_alg».proof.Proof.Bits.Proto

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ UU ℕ

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_TK (Φ : TK → sProp 𝕄) : bigSep Finset.univ Φ = iprop(Φ ((0 : Fin 3), (0 : Fin 8)) ∗ Φ ((0 : Fin 3), (1 : Fin 8)) ∗ Φ ((0 : Fin 3), (2 : Fin 8)) ∗ Φ ((0 : Fin 3), (3 : Fin 8)) ∗ Φ ((0 : Fin 3), (4 : Fin 8)) ∗ Φ ((0 : Fin 3), (5 : Fin 8)) ∗ Φ ((0 : Fin 3), (6 : Fin 8)) ∗ Φ ((0 : Fin 3), (7 : Fin 8)) ∗ Φ ((1 : Fin 3), (0 : Fin 8)) ∗ Φ ((1 : Fin 3), (1 : Fin 8)) ∗ Φ ((1 : Fin 3), (2 : Fin 8)) ∗ Φ ((1 : Fin 3), (3 : Fin 8)) ∗ Φ ((1 : Fin 3), (4 : Fin 8)) ∗ Φ ((1 : Fin 3), (5 : Fin 8)) ∗ Φ ((1 : Fin 3), (6 : Fin 8)) ∗ Φ ((1 : Fin 3), (7 : Fin 8)) ∗ Φ ((2 : Fin 3), (0 : Fin 8)) ∗ Φ ((2 : Fin 3), (1 : Fin 8)) ∗ Φ ((2 : Fin 3), (2 : Fin 8)) ∗ Φ ((2 : Fin 3), (3 : Fin 8)) ∗ Φ ((2 : Fin 3), (4 : Fin 8)) ∗ Φ ((2 : Fin 3), (5 : Fin 8)) ∗ Φ ((2 : Fin 3), (6 : Fin 8)) ∗ Φ ((2 : Fin 3), (7 : Fin 8))) :=
  bigSep_univ_eq_bigSepL [((0 : Fin 3), (0 : Fin 8)), ((0 : Fin 3), (1 : Fin 8)), ((0 : Fin 3), (2 : Fin 8)), ((0 : Fin 3), (3 : Fin 8)), ((0 : Fin 3), (4 : Fin 8)), ((0 : Fin 3), (5 : Fin 8)), ((0 : Fin 3), (6 : Fin 8)), ((0 : Fin 3), (7 : Fin 8)), ((1 : Fin 3), (0 : Fin 8)), ((1 : Fin 3), (1 : Fin 8)), ((1 : Fin 3), (2 : Fin 8)), ((1 : Fin 3), (3 : Fin 8)), ((1 : Fin 3), (4 : Fin 8)), ((1 : Fin 3), (5 : Fin 8)), ((1 : Fin 3), (6 : Fin 8)), ((1 : Fin 3), (7 : Fin 8)), ((2 : Fin 3), (0 : Fin 8)), ((2 : Fin 3), (1 : Fin 8)), ((2 : Fin 3), (2 : Fin 8)), ((2 : Fin 3), (3 : Fin 8)), ((2 : Fin 3), (4 : Fin 8)), ((2 : Fin 3), (5 : Fin 8)), ((2 : Fin 3), (6 : Fin 8)), ((2 : Fin 3), (7 : Fin 8))] (by decide) (by decide) Φ

end Cert.KernelPf

end
-- ==== Proof.Bits.BodyCtx.lean ====
import proofs.«900612_g7700000000000613_dist_a2a_gemm_m4096_k4096_n2048_f32_none_v7x_i4_1_alg».proof.Proof.Bits.Ctx
import proofs.«900612_g7700000000000613_dist_a2a_gemm_m4096_k4096_n2048_f32_none_v7x_i4_1_alg».proof.Proof.Bits.Tables
import proofs.«900612_g7700000000000613_dist_a2a_gemm_m4096_k4096_n2048_f32_none_v7x_i4_1_alg».proof.Proof.Bits.Resources

noncomputable section

namespace Cert.KernelPf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem barPay_at1 (c : Dev nD) : barPay (F := F) (peer c 1) 0 = iprop((∃ f, chunkPts (F := F) c commM 2 0 fullShare f) ∗ (∃ f, chunkPts (F := F) c commM 2 1 fullShare f) ∗ (∃ f, chunkPts (F := F) c commM 2 2 fullShare f) ∗ (∃ f, chunkPts (F := F) c commM 2 3 fullShare f) ∗ (∃ f, chunkPts (F := F) c commM 2 4 fullShare f) ∗ (∃ f, chunkPts (F := F) c commM 2 5 fullShare f) ∗ (∃ f, chunkPts (F := F) c commM 2 6 fullShare f) ∗ (∃ f, chunkPts (F := F) c commM 2 7 fullShare f)) := by
  have h : peer (peer c 1) (3 - (0 : Fin 3).val) = c := peer_bar_back c 0
  unfold barPay; rw [bigSep_fin8, h]; rfl
theorem barPay_at2 (c : Dev nD) : barPay (F := F) (peer c 2) 1 = iprop((∃ f, chunkPts (F := F) c commM 1 0 fullShare f) ∗ (∃ f, chunkPts (F := F) c commM 1 1 fullShare f) ∗ (∃ f, chunkPts (F := F) c commM 1 2 fullShare f) ∗ (∃ f, chunkPts (F := F) c commM 1 3 fullShare f) ∗ (∃ f, chunkPts (F := F) c commM 1 4 fullShare f) ∗ (∃ f, chunkPts (F := F) c commM 1 5 fullShare f) ∗ (∃ f, chunkPts (F := F) c commM 1 6 fullShare f) ∗ (∃ f, chunkPts (F := F) c commM 1 7 fullShare f)) := by
  have h : peer (peer c 2) (3 - (1 : Fin 3).val) = c := peer_bar_back c 1
  unfold barPay; rw [bigSep_fin8, h]; rfl
theorem barPay_at3 (c : Dev nD) : barPay (F := F) (peer c 3) 2 = iprop((∃ f, chunkPts (F := F) c commM 0 0 fullShare f) ∗ (∃ f, chunkPts (F := F) c commM 0 1 fullShare f) ∗ (∃ f, chunkPts (F := F) c commM 0 2 fullShare f) ∗ (∃ f, chunkPts (F := F) c commM 0 3 fullShare f) ∗ (∃ f, chunkPts (F := F) c commM 0 4 fullShare f) ∗ (∃ f, chunkPts (F := F) c commM 0 5 fullShare f) ∗ (∃ f, chunkPts (F := F) c commM 0 6 fullShare f) ∗ (∃ f, chunkPts (F := F) c commM 0 7 fullShare f)) := by
  have h : peer (peer c 3) (3 - (2 : Fin 3).val) = c := peer_bar_back c 2
  unfold barPay; rw [bigSep_fin8, h]; rfl

theorem barPay_own0 (c : Dev nD) : barPay (F := F) c 0 = iprop((∃ f, chunkPts (F := F) (peer c 3) commM 2 0 fullShare f) ∗ (∃ f, chunkPts (F := F) (peer c 3) commM 2 1 fullShare f) ∗ (∃ f, chunkPts (F := F) (peer c 3) commM 2 2 fullShare f) ∗ (∃ f, chunkPts (F := F) (peer c 3) commM 2 3 fullShare f) ∗ (∃ f, chunkPts (F := F) (peer c 3) commM 2 4 fullShare f) ∗ (∃ f, chunkPts (F := F) (peer c 3) commM 2 5 fullShare f) ∗ (∃ f, chunkPts (F := F) (peer c 3) commM 2 6 fullShare f) ∗ (∃ f, chunkPts (F := F) (peer c 3) commM 2 7 fullShare f)) := by
  unfold barPay; rw [bigSep_fin8]; rfl
theorem barPay_own1 (c : Dev nD) : barPay (F := F) c 1 = iprop((∃ f, chunkPts (F := F) (peer c 2) commM 1 0 fullShare f) ∗ (∃ f, chunkPts (F := F) (peer c 2) commM 1 1 fullShare f) ∗ (∃ f, chunkPts (F := F) (peer c 2) commM 1 2 fullShare f) ∗ (∃ f, chunkPts (F := F) (peer c 2) commM 1 3 fullShare f) ∗ (∃ f, chunkPts (F := F) (peer c 2) commM 1 4 fullShare f) ∗ (∃ f, chunkPts (F := F) (peer c 2) commM 1 5 fullShare f) ∗ (∃ f, chunkPts (F := F) (peer c 2) commM 1 6 fullShare f) ∗ (∃ f, chunkPts (F := F) (peer c 2) commM 1 7 fullShare f)) := by
  unfold barPay; rw [bigSep_fin8]; rfl
theorem barPay_own2 (c : Dev nD) : barPay (F := F) c 2 = iprop((∃ f, chunkPts (F := F) (peer c 1) commM 0 0 fullShare f) ∗ (∃ f, chunkPts (F := F) (peer c 1) commM 0 1 fullShare f) ∗ (∃ f, chunkPts (F := F) (peer c 1) commM 0 2 fullShare f) ∗ (∃ f, chunkPts (F := F) (peer c 1) commM 0 3 fullShare f) ∗ (∃ f, chunkPts (F := F) (peer c 1) commM 0 4 fullShare f) ∗ (∃ f, chunkPts (F := F) (peer c 1) commM 0 5 fullShare f) ∗ (∃ f, chunkPts (F := F) (peer c 1) commM 0 6 fullShare f) ∗ (∃ f, chunkPts (F := F) (peer c 1) commM 0 7 fullShare f)) := by
  unfold barPay; rw [bigSep_fin8]; rfl

theorem own_bar_split (c : Dev nD) :
    (bigSep (Finset.univ : Finset (Fin 3)) fun d => barPay (F := F) c d)
      ⊢ iprop((∃ f, chunkPts (F := F) (peer c 1) commM 0 0 fullShare f)
        ∗ (∃ f, chunkPts (F := F) (peer c 3) commM 2 0 fullShare f)
        ∗ (∃ f, chunkPts (F := F) (peer c 1) commM 0 1 fullShare f)
        ∗ (∃ f, chunkPts (F := F) (peer c 3) commM 2 1 fullShare f)
        ∗ (∃ f, chunkPts (F := F) (peer c 1) commM 0 2 fullShare f)
        ∗ (∃ f, chunkPts (F := F) (peer c 3) commM 2 2 fullShare f)
        ∗ (∃ f, chunkPts (F := F) (peer c 1) commM 0 3 fullShare f)
        ∗ (∃ f, chunkPts (F := F) (peer c 3) commM 2 3 fullShare f)
        ∗ (∃ f, chunkPts (F := F) (peer c 1) commM 0 4 fullShare f)
        ∗ (∃ f, chunkPts (F := F) (peer c 3) commM 2 4 fullShare f)
        ∗ (∃ f, chunkPts (F := F) (peer c 1) commM 0 5 fullShare f)
        ∗ (∃ f, chunkPts (F := F) (peer c 3) commM 2 5 fullShare f)
        ∗ (∃ f, chunkPts (F := F) (peer c 1) commM 0 6 fullShare f)
        ∗ (∃ f, chunkPts (F := F) (peer c 3) commM 2 6 fullShare f)
        ∗ (∃ f, chunkPts (F := F) (peer c 1) commM 0 7 fullShare f)
        ∗ (∃ f, chunkPts (F := F) (peer c 3) commM 2 7 fullShare f)
        ∗ (∃ f, chunkPts (F := F) (peer c 2) commM 1 0 fullShare f)
        ∗ (∃ f, chunkPts (F := F) (peer c 2) commM 1 1 fullShare f)
        ∗ (∃ f, chunkPts (F := F) (peer c 2) commM 1 2 fullShare f)
        ∗ (∃ f, chunkPts (F := F) (peer c 2) commM 1 3 fullShare f)
        ∗ (∃ f, chunkPts (F := F) (peer c 2) commM 1 4 fullShare f)
        ∗ (∃ f, chunkPts (F := F) (peer c 2) commM 1 5 fullShare f)
        ∗ (∃ f, chunkPts (F := F) (peer c 2) commM 1 6 fullShare f)
        ∗ (∃ f, chunkPts (F := F) (peer c 2) commM 1 7 fullShare f)) := by
  rw [bigSep_fin3, barPay_own0, barPay_own1, barPay_own2]
  iintro ⟨⟨H0_0, H0_1, H0_2, H0_3, H0_4, H0_5, H0_6, H0_7⟩, ⟨H1_0, H1_1, H1_2, H1_3, H1_4, H1_5, H1_6, H1_7⟩, H2_0, H2_1, H2_2, H2_3, H2_4, H2_5, H2_6, H2_7⟩
  isplitl [H2_0]; · iexact H2_0
  isplitl [H0_0]; · iexact H0_0
  isplitl [H2_1]; · iexact H2_1
  isplitl [H0_1]; · iexact H0_1
  isplitl [H2_2]; · iexact H2_2
  isplitl [H0_2]; · iexact H0_2
  isplitl [H2_3]; · iexact H2_3
  isplitl [H0_3]; · iexact H0_3
  isplitl [H2_4]; · iexact H2_4
  isplitl [H0_4]; · iexact H0_4
  isplitl [H2_5]; · iexact H2_5
  isplitl [H0_5]; · iexact H0_5
  isplitl [H2_6]; · iexact H2_6
  isplitl [H0_6]; · iexact H0_6
  isplitl [H2_7]; · iexact H2_7
  isplitl [H0_7]; · iexact H0_7
  isplitl [H1_0]; · iexact H1_0
  isplitl [H1_1]; · iexact H1_1
  isplitl [H1_2]; · iexact H1_2
  isplitl [H1_3]; · iexact H1_3
  isplitl [H1_4]; · iexact H1_4
  isplitl [H1_5]; · iexact H1_5
  isplitl [H1_6]; · iexact H1_6
  iexact H1_7

theorem sendPay_eq (c : Dev nD) (t : Fin 3) (k : Fin 8) : sendPay (F := F) c t k
    = (iprop(∃ f : Buf (Elt F) ((chunkM sbufM t k).view.loc (c : Thread nD τ)),
        (chunkM sbufM t k).view.loc (c : Thread nD τ) ↦[(chunkM sbufM t k).view.set]{fullShare} f) : sProp 𝕄) := rfl
theorem recvPay_eq (c : Dev nD) (t : Fin 3) (k : Fin 8) : recvPay m c t k
    = ((chunkM commM (cTile t) k).view.loc (c : Thread nD τ) ↦[(chunkM commM (cTile t) k).view.set]{fullShare} landed m c t k : sProp 𝕄) := rfl

theorem comm_entry (c : Dev nD) (f : Buf (Elt F) ((c : Thread nD τ).loc cc0_scratch0)) :
    (((c : Thread nD τ).loc cc0_scratch0) ↦{fullShare} f : sProp 𝕄)
      ⊢ iprop(chunkPts c commM 2 0 fullShare f ∗ chunkPts c commM 2 1 fullShare f ∗ chunkPts c commM 2 2 fullShare f ∗ chunkPts c commM 2 3 fullShare f ∗ chunkPts c commM 2 4 fullShare f ∗ chunkPts c commM 2 5 fullShare f ∗ chunkPts c commM 2 6 fullShare f ∗ chunkPts c commM 2 7 fullShare f ∗ chunkPts c commM 1 0 fullShare f ∗ chunkPts c commM 1 1 fullShare f ∗ chunkPts c commM 1 2 fullShare f ∗ chunkPts c commM 1 3 fullShare f ∗ chunkPts c commM 1 4 fullShare f ∗ chunkPts c commM 1 5 fullShare f ∗ chunkPts c commM 1 6 fullShare f ∗ chunkPts c commM 1 7 fullShare f ∗ chunkPts c commM 0 0 fullShare f ∗ chunkPts c commM 0 1 fullShare f ∗ chunkPts c commM 0 2 fullShare f ∗ chunkPts c commM 0 3 fullShare f ∗ chunkPts c commM 0 4 fullShare f ∗ chunkPts c commM 0 5 fullShare f ∗ chunkPts c commM 0 6 fullShare f ∗ chunkPts c commM 0 7 fullShare f) := by
  refine (comm_split c f).trans ?_
  rw [bigSep_TK]
  iintro ⟨H0_0, H0_1, H0_2, H0_3, H0_4, H0_5, H0_6, H0_7, H1_0, H1_1, H1_2, H1_3, H1_4, H1_5, H1_6, H1_7, H2_0, H2_1, H2_2, H2_3, H2_4, H2_5, H2_6, H2_7⟩
  isplitl [H2_0]; · iexact H2_0
  isplitl [H2_1]; · iexact H2_1
  isplitl [H2_2]; · iexact H2_2
  isplitl [H2_3]; · iexact H2_3
  isplitl [H2_4]; · iexact H2_4
  isplitl [H2_5]; · iexact H2_5
  isplitl [H2_6]; · iexact H2_6
  isplitl [H2_7]; · iexact H2_7
  isplitl [H1_0]; · iexact H1_0
  isplitl [H1_1]; · iexact H1_1
  isplitl [H1_2]; · iexact H1_2
  isplitl [H1_3]; · iexact H1_3
  isplitl [H1_4]; · iexact H1_4
  isplitl [H1_5]; · iexact H1_5
  isplitl [H1_6]; · iexact H1_6
  isplitl [H1_7]; · iexact H1_7
  isplitl [H0_0]; · iexact H0_0
  isplitl [H0_1]; · iexact H0_1
  isplitl [H0_2]; · iexact H0_2
  isplitl [H0_3]; · iexact H0_3
  isplitl [H0_4]; · iexact H0_4
  isplitl [H0_5]; · iexact H0_5
  isplitl [H0_6]; · iexact H0_6
  iexact H0_7

attribute [sl_rounds] barPay_at1 barPay_at2 barPay_at3 sendPay_eq recvPay_eq

end Cert.KernelPf

end
-- ==== Proof.Bits.Entry.lean ====
import proofs.«900612_g7700000000000613_dist_a2a_gemm_m4096_k4096_n2048_f32_none_v7x_i4_1_alg».proof.Proof.Bits.Flat
import proofs.«900612_g7700000000000613_dist_a2a_gemm_m4096_k4096_n2048_f32_none_v7x_i4_1_alg».proof.Proof.Bits.BodyCtx

noncomputable section

namespace Cert.KernelPf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance flat24_persistent (Φ : ℕ → Fin 3 → Fin 8 → sProp 𝕄) [∀ d t k, BI.Persistent (Φ d t k)] : BI.Persistent (flat24 Φ) := by
  unfold flat24
  iterate 23 refine @sep_persistent _ _ _ _ inferInstance ?_
  exact inferInstance

instance flatPers_persistent (c : Dev nD) (K : GSem nD τ sig → ℕ) : BI.Persistent (flatPers m c K) := by
  unfold flatPers
  iterate 14 refine @sep_persistent _ _ _ _ inferInstance ?_
  exact inferInstance

theorem owedSum_eq (c : Dev nD) : owedSum c = O₀ c := by
  unfold owedSum O₀
  rw [owedFrom_end]
  unfold owedFrom
  rw [List.drop_zero, owedList_eq]
  simp only [List.sum_cons, List.sum_nil, add_zero, zero_add]
  ac_rfl

theorem pers_enter (c : Dev nD) (K : GSem nD τ sig → ℕ) :
    iprop(invs m K c ∗ reacheds (F := F) c ∗ levAts L lv) ⊢ flatPers m c K := by
  unfold invs reacheds flatPers
  simp only [flat24_eq, bigSep_sep', bigSep_fin3]
  iintro ⟨⟨Ib, ⟨I1, I2, I3⟩, IS, IRo, IRp⟩, ⟨Rb, ⟨R1, R2, R3⟩, RS, RRo, RRp⟩, Hlv⟩
  isplitl [Ib]; · iexact Ib
  isplitl [I1]; · iexact I1
  isplitl [I2]; · iexact I2
  isplitl [I3]; · iexact I3
  isplitl [IS]; · iexact IS
  isplitl [IRp]; · iexact IRp
  isplitl [IRo]; · iexact IRo
  isplitl [Rb]; · iexact Rb
  isplitl [R1]; · iexact R1
  isplitl [R2]; · iexact R2
  isplitl [R3]; · iexact R3
  isplitl [RS]; · iexact RS
  isplitl [RRp]; · iexact RRp
  isplitl [RRo]; · iexact RRo
  iexact Hlv

theorem lin_enter (c : Dev nD)
    (x : Buf (Elt F) ((Memref.whole main_arg0).view.loc (c : Thread nD τ)))
    (w : Buf (Elt F) ((Memref.whole main_arg1).view.loc (c : Thread nD τ)))
    (o : Buf (Elt F) ((Memref.whole main_v1).view.loc (c : Thread nD τ)))
    (s1 : Buf (Elt F) ((Memref.whole cc0_scratch1).view.loc (c : Thread nD τ)))
    (s2 : Buf (Elt F) ((Memref.whole cc0_scratch2).view.loc (c : Thread nD τ)))
    (s4 : Buf (Elt F) ((Memref.whole cc0_scratch4).view.loc (c : Thread nD τ)))
    (s5 : Buf (Elt F) ((Memref.whole cc0_scratch5).view.loc (c : Thread nD τ)))
    (f0 : Buf (Elt F) ((c : Thread nD τ).loc cc0_scratch0))
    (f3 : Buf (Elt F) ((c : Thread nD τ).loc cc0_scratch3))
    (W : Waits sig Unit) :
    iprop(linear (F := F) c ∗ localSems (F := F) c ∗ creds (F := F) c
        ∗ (((c : Thread nD τ).loc cc0_scratch0) ↦{fullShare} f0)
        ∗ (((c : Thread nD τ).loc cc0_scratch3) ↦{fullShare} f3)
        ∗ tokX c 48 x ∗ tokX c 49 x ∗ tokX c 50 x ∗ tokX c 51 x ∗ tokX c 52 x
        ∗ tokW c 53 w ∗ tokW c 54 w ∗ tokW c 55 w
        ∗ (((c : Thread nD τ).loc main_v1) ↦{fullShare} o)
        ∗ (((c : Thread nD τ).loc cc0_scratch1) ↦{fullShare} s1)
        ∗ (((c : Thread nD τ).loc cc0_scratch2) ↦{fullShare} s2)
        ∗ (((c : Thread nD τ).loc cc0_scratch4) ↦{fullShare} s4)
        ∗ (((c : Thread nD τ).loc cc0_scratch5) ↦{fullShare} s5)
        ∗ owes (c : Thread nD τ) (O₀ c) W)
      ⊢ flatLin (F := F) c x w o s1 s2 s4 s5 f0 f3 W := by
  unfold linear localSems creds flatLin localsFlat
  simp only [flat24_eq, bigSep_sep', bigSep_fin3, bigSep_fin16]
  rw [owedSum_eq]
  iintro ⟨⟨Ab, ⟨AS, AR⟩, ⟨Db1, Db2, Db3⟩, DS, DR⟩, ⟨Sm48, Sm49, Sm50, Sm51, Sm52, Sm53, Sm54, Sm55, Sm56, Sm57, Sm58, Sm59, Sm60, Sm61, Sm62, Sm63⟩, ⟨Cb, Cr⟩, H0, H3, X48, X49, X50, X51, X52, W53, W54, W55, Ho, H1, H2, H4, H5, HO⟩
  ihave HM := (comm_entry c f0) $$ H0
  icases HM with ⟨M_2_0, M_2_1, M_2_2, M_2_3, M_2_4, M_2_5, M_2_6, M_2_7, M_1_0, M_1_1, M_1_2, M_1_3, M_1_4, M_1_5, M_1_6, M_1_7, M_0_0, M_0_1, M_0_2, M_0_3, M_0_4, M_0_5, M_0_6, M_0_7⟩
  ihave HB := (sbuf_split c f3) $$ H3
  isplitl [Db1]; · iexact Db1
  isplitl [Db2]; · iexact Db2
  isplitl [Db3]; · iexact Db3
  isplitl [DS]; · iexact DS
  isplitl [DR]; · iexact DR
  isplitl [Ab]; · iexact Ab
  isplitl [AS]; · iexact AS
  isplitl [AR]; · iexact AR
  isplitl [Cb]; · iexact Cb
  isplitl [Cr]; · iexact Cr
  isplitl [M_2_0]; · iexact M_2_0
  isplitl [M_2_1]; · iexact M_2_1
  isplitl [M_2_2]; · iexact M_2_2
  isplitl [M_2_3]; · iexact M_2_3
  isplitl [M_2_4]; · iexact M_2_4
  isplitl [M_2_5]; · iexact M_2_5
  isplitl [M_2_6]; · iexact M_2_6
  isplitl [M_2_7]; · iexact M_2_7
  isplitl [M_1_0]; · iexact M_1_0
  isplitl [M_1_1]; · iexact M_1_1
  isplitl [M_1_2]; · iexact M_1_2
  isplitl [M_1_3]; · iexact M_1_3
  isplitl [M_1_4]; · iexact M_1_4
  isplitl [M_1_5]; · iexact M_1_5
  isplitl [M_1_6]; · iexact M_1_6
  isplitl [M_1_7]; · iexact M_1_7
  isplitl [M_0_0]; · iexact M_0_0
  isplitl [M_0_1]; · iexact M_0_1
  isplitl [M_0_2]; · iexact M_0_2
  isplitl [M_0_3]; · iexact M_0_3
  isplitl [M_0_4]; · iexact M_0_4
  isplitl [M_0_5]; · iexact M_0_5
  isplitl [M_0_6]; · iexact M_0_6
  isplitl [M_0_7]; · iexact M_0_7
  isplitl [HB]; · iexact HB
  isplitl [X48]; · iexact X48
  isplitl [X49]; · iexact X49
  isplitl [X50]; · iexact X50
  isplitl [X51]; · iexact X51
  isplitl [X52]; · iexact X52
  isplitl [W53]; · iexact W53
  isplitl [W54]; · iexact W54
  isplitl [W55]; · iexact W55
  isplitl [Ho]; · iexact Ho
  isplitl [H1]; · iexact H1
  isplitl [H2]; · iexact H2
  isplitl [H4]; · iexact H4
  isplitl [H5]; · iexact H5
  isplitl [Sm48 Sm49 Sm50 Sm51 Sm52 Sm53 Sm54 Sm55 Sm56 Sm57 Sm58 Sm59 Sm60 Sm61 Sm62 Sm63]
  · isplitl [Sm48]; · iexact Sm48
    isplitl [Sm49]; · iexact Sm49
    isplitl [Sm50]; · iexact Sm50
    isplitl [Sm51]; · iexact Sm51
    isplitl [Sm52]; · iexact Sm52
    isplitl [Sm53]; · iexact Sm53
    isplitl [Sm54]; · iexact Sm54
    isplitl [Sm55]; · iexact Sm55
    isplitl [Sm56]; · iexact Sm56
    isplitl [Sm57]; · iexact Sm57
    isplitl [Sm58]; · iexact Sm58
    isplitl [Sm59]; · iexact Sm59
    isplitl [Sm60]; · iexact Sm60
    isplitl [Sm61]; · iexact Sm61
    isplitl [Sm62]; · iexact Sm62
    iexact Sm63
  iexact HO

theorem enter (c : Dev nD) : bodyPre m c ⊢ iprop(∃ K s1 s2 s4 s5 f0 f3 W,
    flatPers m c K
    ∗ flatLin (F := F) c (m ((c : Thread nD τ).loc main_arg0)) (m ((c : Thread nD τ).loc main_arg1)) (m ((c : Thread nD τ).loc main_v1)) s1 s2 s4 s5 f0 f3 W
    ∗ tokRest ((c : Thread nD τ).loc main_arg0) (m ((c : Thread nD τ).loc main_arg0)) 48 53
    ∗ tokRest ((c : Thread nD τ).loc main_arg1) (m ((c : Thread nD τ).loc main_arg1)) 53 56) := by
  unfold bodyPre Φ₀ start ghost args scratch
  iintro ⟨⟨⟨⟨%K, Hinv, Hreach, Hlin⟩, Hsems, Hcreds, Hlv, Hx, Hw, Ho⟩, ⟨%f0, H0⟩, ⟨%s1, H1⟩, ⟨%s2, H2⟩, ⟨%f3, H3⟩, ⟨%s4, H4⟩, ⟨%s5, H5⟩⟩, ⟨%W, -, HO⟩⟩
  ihave HX := (x_toks c (m ((c : Thread nD τ).loc main_arg0))).1 $$ Hx
  icases HX with ⟨X48, X49, X50, X51, X52, Xr⟩
  ihave HW := (w_toks c (m ((c : Thread nD τ).loc main_arg1))).1 $$ Hw
  icases HW with ⟨W53, W54, W55, Wr⟩
  iexists K, s1, s2, s4, s5, f0, f3, W
  isplitl [Hinv Hreach Hlv]
  · iapply (pers_enter m c K)
    isplitl [Hinv]; · iexact Hinv
    isplitl [Hreach]; · iexact Hreach
    iexact Hlv
  isplitr [Xr Wr]
  · iapply (lin_enter c (m ((c : Thread nD τ).loc main_arg0)) (m ((c : Thread nD τ).loc main_arg1)) (m ((c : Thread nD τ).loc main_v1)) s1 s2 s4 s5 f0 f3 W)
    isplitl [Hlin]; · iexact Hlin
    isplitl [Hsems]; · iexact Hsems
    isplitl [Hcreds]; · iexact Hcreds
    isplitl [H0]; · iexact H0
    isplitl [H3]; · iexact H3
    isplitl [X48]; · iexact X48
    isplitl [X49]; · iexact X49
    isplitl [X50]; · iexact X50
    isplitl [X51]; · iexact X51
    isplitl [X52]; · iexact X52
    isplitl [W53]; · iexact W53
    isplitl [W54]; · iexact W54
    isplitl [W55]; · iexact W55
    isplitl [Ho]; · iexact Ho
    isplitl [H1]; · iexact H1
    isplitl [H2]; · iexact H2
    isplitl [H4]; · iexact H4
    isplitl [H5]; · iexact H5
    iexact HO
  isplitl [Xr]; · iexact Xr
  iexact Wr

end Cert.KernelPf

end
-- ==== Proof.Bits.Exit.lean ====
import proofs.«900612_g7700000000000613_dist_a2a_gemm_m4096_k4096_n2048_f32_none_v7x_i4_1_alg».proof.Proof.Bits.Ctx
import proofs.«900612_g7700000000000613_dist_a2a_gemm_m4096_k4096_n2048_f32_none_v7x_i4_1_alg».proof.Proof.Bits.Flat

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- A cell whose only round is finished closes: nothing is scheduled on it from round 1 on.
theorem close_cell (κ : ℕ) (g : GSem nD τ sig) :
    iprop(cellInv ER (sch m) κ g ∗ atPos ER g 1 ∅ 0) ⊢ (iprop(|={Set.univ}=> semVal g 0) : sProp 𝕄) :=
  Rounds.cell_close ER (sch m) (Set.mem_univ κ) (fun h => h) (R := 1) (duties_later m g)

theorem post_intro (c : Dev nD) (W : Waits sig Unit) :
    iprop((∃ o, ⌜OutSpec m c o⌝ ∗ args m c o) ∗ scratch c
        ∗ (bigSep (Finset.univ : Finset (Fin 64)) fun i => semVal ((c : Thread nD τ), osem i) 0)
        ∗ owes (c : Thread nD τ) 0 W)
      ⊢ bodyPost m c := by
  unfold bodyPost Φ₁ Dat.owesAt Pipeline.owesWithin
  rw [show (dats m 0 c).owed t₀.succ = 0 from rfl]
  iintro ⟨HA, HS, HV, HO⟩
  isplitl [HA HS HV]
  · isplitl [HA]; · iexact HA
    isplitl [HS]; · iexact HS
    iexact HV
  · iexists W
    isplitr; · ipureintro; exact fun _ _ => Or.inl trivial
    iexact HO

theorem post_intro_owed (c : Dev nD) (W : Waits sig Unit) :
    iprop((∃ o, ⌜OutSpec m c o⌝ ∗ args m c o) ∗ scratch c
        ∗ (bigSep (Finset.univ : Finset (Fin 64)) fun i => semVal ((c : Thread nD τ), osem i) 0)
        ∗ owes (c : Thread nD τ) (owedFrom c 27) W)
      ⊢ bodyPost m c := by
  rw [owedFrom_end]
  exact post_intro m c W

end Cert.KernelPf

end
-- ==== Proof.Bits.Exit2.lean ====
import proofs.«900612_g7700000000000613_dist_a2a_gemm_m4096_k4096_n2048_f32_none_v7x_i4_1_alg».proof.Proof.Bits.Exit
import proofs.«900612_g7700000000000613_dist_a2a_gemm_m4096_k4096_n2048_f32_none_v7x_i4_1_alg».proof.Proof.Bits.Fund

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def argsOut (c : Dev nD) (o' : Buf (Elt F) ((c : Thread nD τ).loc main_v1)) : sProp 𝕄 :=
  iprop(tokX c 48 (m ((c : Thread nD τ).loc main_arg0)) ∗ tokX c 49 (m ((c : Thread nD τ).loc main_arg0)) ∗ tokX c 50 (m ((c : Thread nD τ).loc main_arg0)) ∗ tokX c 51 (m ((c : Thread nD τ).loc main_arg0)) ∗ tokX c 52 (m ((c : Thread nD τ).loc main_arg0))
    ∗ tokRest ((c : Thread nD τ).loc main_arg0) (m ((c : Thread nD τ).loc main_arg0)) 48 53
    ∗ tokW c 53 (m ((c : Thread nD τ).loc main_arg1)) ∗ tokW c 54 (m ((c : Thread nD τ).loc main_arg1)) ∗ tokW c 55 (m ((c : Thread nD τ).loc main_arg1))
    ∗ tokRest ((c : Thread nD τ).loc main_arg1) (m ((c : Thread nD τ).loc main_arg1)) 53 56
    ∗ pt c (Memref.whole main_v1) o')

-- Each finished cell closes by itself; the updates of a family of cells combine into one.
theorem close_cells (K : GSem nD τ sig → ℕ) (cell : Fin 3 → Fin 8 → GSem nD τ sig) :
    (bigSep (Finset.univ : Finset TK) fun tk => iprop(cellInv ER (sch m) (K (cell tk.1 tk.2)) (cell tk.1 tk.2) ∗ atPos ER (cell tk.1 tk.2) 1 ∅ 0))
      ⊢ (iprop(|={Set.univ}=> bigSep (Finset.univ : Finset TK) fun tk => semVal (cell tk.1 tk.2) 0) : sProp 𝕄) :=
  (bigSep_mono fun tk _ => close_cell m (K (cell tk.1 tk.2)) (cell tk.1 tk.2)).trans (bigSep_fupd _ _)

-- The 64 semaphores of a device are its 24 departure cells, its 24 arrival cells and the 16 local ones.
theorem sems_join (c : Dev nD) :
    iprop((bigSep (Finset.univ : Finset TK) fun tk => semVal (sendCell c tk.1 tk.2) 0)
        ∗ (bigSep (Finset.univ : Finset TK) fun tk => semVal (recvCell c tk.1 tk.2) 0) ∗ localsFlat (F := F) c)
      ⊢ (bigSep (Finset.univ : Finset (Fin 64)) fun i => semVal ((c : Thread nD τ), osem i) 0 : sProp 𝕄) := by
  have h := ownSems0_eq (F := F) c
  unfold Pipeline.ownSems0 at h
  rw [h]
  unfold localsFlat localSems
  rw [bigSep_fin16]
  exact Entails.rfl

theorem args_exit (c : Dev nD) (o' : Buf (Elt F) ((c : Thread nD τ).loc main_v1)) : argsOut m c o' ⊢ args m c o' := by
  unfold argsOut args
  iintro ⟨HX48, HX49, HX50, HX51, HX52, HXr, HW53, HW54, HW55, HWr, HOut⟩
  isplitl [HX48 HX49 HX50 HX51 HX52 HXr]
  · iapply (x_toks c (m ((c : Thread nD τ).loc main_arg0))).2
    iframe HX48 HX49 HX50 HX51 HX52 HXr
  isplitl [HW53 HW54 HW55 HWr]
  · iapply (w_toks c (m ((c : Thread nD τ).loc main_arg1))).2
    iframe HW53 HW54 HW55 HWr
  iexact HOut

-- From what the run leaves: the cells close, the chunks rejoin their buffers, the shares rejoin the arguments.
theorem exit_all (K : GSem nD τ sig → ℕ) (c : Dev nD) (W : Waits sig Unit)
    (o' : Buf (Elt F) ((c : Thread nD τ).loc main_v1)) (hspec : OutSpec m c o') :
    (iprop((flat24 (fun _ t k => iprop(cellInv ER (sch m) (K (sendCell c t k)) (sendCell c t k) ∗ atPos ER (sendCell c t k) 1 ∅ 0))
          ∗ flat24 (fun _ t k => iprop(cellInv ER (sch m) (K (recvCell c t k)) (recvCell c t k) ∗ atPos ER (recvCell c t k) 1 ∅ 0))
          ∗ localsFlat c)
        ∗ (flat24 (fun _ t k => iprop(∃ f, chunkPts (F := F) c commM (cTile t) k fullShare f))
          ∗ flat24 (fun _ t k => iprop(∃ f, chunkPts (F := F) c sbufM t k fullShare f))
          ∗ (∃ s, pt c (Memref.whole cc0_scratch1) s) ∗ (∃ s, pt c (Memref.whole cc0_scratch2) s)
          ∗ (∃ s, pt c (Memref.whole cc0_scratch4) s) ∗ (∃ s, pt c (Memref.whole cc0_scratch5) s))
        ∗ argsOut m c o'
        ∗ owes (c : Thread nD τ) (owedFrom c 27) W) : sProp 𝕄)
      ⊢ iprop(|={Set.univ}=> bodyPost m c) := by
  simp only [flat24_eq]
  iintro ⟨⟨HS, HR, HL⟩, ⟨HC, HB, H1, H2, H4, H5⟩, H3, HO⟩
  imod (close_cells m K (sendCell c)) $$ HS with HS
  imod (close_cells m K (recvCell c)) $$ HR with HR
  imodintro
  iapply (post_intro_owed m c W)
  isplitl [H3]
  · iexists o'
    isplitr; · ipureintro; exact hspec
    iapply (args_exit m c o'); iexact H3
  isplitl [HC HB H1 H2 H4 H5]
  · unfold scratch
    isplitl [HC]; · iapply (comm_join_any_cTile c); iexact HC
    isplitl [H1]; · iexact H1
    isplitl [H2]; · iexact H2
    isplitl [HB]; · iapply (sbuf_join_any c); iexact HB
    isplitl [H4]; · iexact H4
    iexact H5
  isplitl [HS HR HL]
  · iapply (sems_join c)
    isplitl [HS]; · iexact HS
    isplitl [HR]; · iexact HR
    iexact HL
  iexact HO

end Cert.KernelPf

end
-- ==== Proof.Bits.Moves.lean ====
import proofs.«900612_g7700000000000613_dist_a2a_gemm_m4096_k4096_n2048_f32_none_v7x_i4_1_alg».proof.Proof.Bits.Proto0
import Idealize.ShloMosaic.Lib.Pipeline.Value
import Idealize.ShloMosaic.Lib.ValueIdx
import Idealize.ShloMosaic.Lib.ValueLayout

noncomputable section

namespace Cert.A2aGemmB.Moves

open Idealize.ShloMosaic Idealize.ShloMosaic.ValueIdx Idealize.ShloMosaic.TcCoe
open Cert.Kernel Cert.Kernel.Gen Cert.KernelPf

def at8 (k : Fin 8) (r : Fin 128) : Fin 1024 := ⟨128 * k.val + r.val, by omega⟩

@[simp] theorem at8_val (k : Fin 8) (r : Fin 128) : (at8 k r).val = 128 * k.val + r.val := rfl

theorem chunkRect_emb (i : Fin 3) (k : Fin 8) (u : Fin 1) (r : Fin 128) (q : Fin 1024) :
    (chunkRect i k).emb (ix3 u r q) = ix3 i (at8 k r) q := by
  have hu : u.val = 0 := by omega
  funext a
  match a with
  | ⟨0, _⟩ => exact Fin.ext (by show i.val + 1 * u.val = i.val; omega)
  | ⟨1, _⟩ => exact Fin.ext (by show 128 * k.val + 1 * r.val = 128 * k.val + r.val; omega)
  | ⟨2, _⟩ => exact Fin.ext (by show 0 + 1 * q.val = q.val; omega)

section Views
variable {Val : EltTy → Type}

theorem read_whole (b : Ref sig .tc) (f : b.ty.Contents Val) : (View.whole b : View sig .tc _ _ _).read Val f = f := rfl

theorem read_chunkM (M : Memref sig .tc .vmem S3x1024x1024 .bf16) (i : Fin 3) (k : Fin 8) (f : M.view.ty.Contents Val)
    (r : Fin 128) (q : Fin 1024) :
    (chunkM M i k).view.read Val f (ix2 r q) = M.view.read Val f (ix3 i (at8 k r) q) := by
  show M.view.read Val f ((chunkRect i k).emb (Shape.reshapeEquiv _ (ix2 r q))) = _
  rw [reshapeEquiv_ix2_1ab, chunkRect_emb]

theorem read_access_chunk (M : Memref sig .tc .vmem S3x1024x1024 .bf16) (i : Fin 3) (k : Fin 8) (f : M.view.ty.Contents Val)
    (u : Fin 1) (r : Fin 128) (q : Fin 1024) :
    (M.access (chunkRect i k)).read Val f (ix3 u r q) = M.view.read Val f (ix3 i (at8 k r) q) := by
  show M.view.read Val f ((chunkRect i k).emb (ix3 u r q)) = _
  rw [chunkRect_emb]

theorem readAt_chunk (M : Memref sig .tc .vmem S3x1024x1024 .bf16) (i : Fin 3) (k : Fin 8) (f : M.view.ty.Contents Val)
    (u : Fin 1) (r : Fin 128) (q : Fin 1024) :
    M.view.readAt Val (chunkRect i k).toLoadRect f (ix3 u r q) = M.view.read Val f (ix3 i (at8 k r) q) :=
  read_access_chunk M i k f u r q

theorem read_chunkM_write_access (M : Memref sig .tc .vmem S3x1024x1024 .bf16) (i : Fin 3) (k : Fin 8) (f : M.view.ty.Contents Val)
    (v : S1x128x1024.Idx → Val .bf16) (r : Fin 128) (q : Fin 1024) :
    (chunkM M i k).view.read Val ((M.access (chunkRect i k)).write Val f v Finset.univ) (ix2 r q)
      = v (ix3 (0 : Fin 1) r q) := by
  show (M.access (chunkRect i k)).read Val ((M.access (chunkRect i k)).write Val f v Finset.univ)
      (Shape.reshapeEquiv _ (ix2 r q)) = _
  rw [View.read_write_univ, reshapeEquiv_ix2_1ab]
  rfl

theorem read_chunkM_write_access_eq (M : Memref sig .tc .vmem S3x1024x1024 .bf16) (i : Fin 3) (k : Fin 8) (f : M.view.ty.Contents Val)
    (v : S1x128x1024.Idx → Val .bf16) :
    (chunkM M i k).view.read Val ((M.access (chunkRect i k)).write Val f v Finset.univ)
      = fun j : S128x1024.Idx => v (ix3 (0 : Fin 1) (j 0) (j 1)) := by
  funext j
  obtain ⟨r, q, rfl⟩ : ∃ (r : Fin 128) (q : Fin 1024), j = ix2 r q := ⟨j 0, j 1, eq_ix2 j⟩
  exact read_chunkM_write_access M i k f v r q

end Views

theorem off1_eq (c : Dev nD) (r₁ : Fin 3) (r₂ : Fin 8) :
    k0_off1 c (BitVec.ofNat 32 (1 + r₁.val)) (BitVec.ofNat 32 (128 * r₂.val))
      = ![1024 * ((c.val + 1 + r₁.val) % 4) + 128 * r₂.val, 0] := by
  revert c r₁ r₂; decide +kernel

theorem off3_eq (c : Dev nD) (r : Fin 4) :
    k0_off3 c (BitVec.ofNat 32 r.val) = ![1024 * ((c.val + r.val) % 4), 0] := by
  revert c r; decide +kernel

theorem off2_eq (c : Dev nD) : k0_off2 c = ![1024 * c.val, 0] := by
  revert c; decide +kernel

theorem one_add_cTile (t : Fin 3) : 1 + (cTile t).val = dOf t := by revert t; decide

section Staged
variable {Val : EltTy → Type}

def srcRow (s : Dev nD) (t : Fin 3) (k : Fin 8) (r : Fin 128) : Fin 4096 :=
  ⟨1024 * ((s.val + dOf t) % 4) + 128 * k.val + r.val, by have := Nat.mod_lt (s.val + dOf t) (show 0 < 4 by decide); omega⟩

@[simp] theorem srcRow_val (s : Dev nD) (t : Fin 3) (k : Fin 8) (r : Fin 128) :
    (srcRow s t k r).val = 1024 * ((s.val + dOf t) % 4) + 128 * k.val + r.val := rfl

theorem xSlice_emb (s : Dev nD) (t : Fin 3) (k : Fin 8) (r : Fin 128) (q : Fin 1024) :
    (xSlice s t k).view.emb (ix2 r q) = ix2 (srcRow s t k r) q := by
  funext a
  match a with
  | ⟨0, _⟩ =>
    refine Fin.ext ?_
    show k0_off1 s (BitVec.ofNat 32 (1 + (cTile t).val)) (BitVec.ofNat 32 (128 * k.val)) 0 + 1 * r.val = _
    rw [off1_eq, Nat.add_assoc s.val, one_add_cTile]
    show 1024 * ((s.val + dOf t) % 4) + 128 * k.val + 1 * r.val = 1024 * ((s.val + dOf t) % 4) + 128 * k.val + r.val
    omega
  | ⟨1, _⟩ =>
    refine Fin.ext ?_
    show k0_off1 s (BitVec.ofNat 32 (1 + (cTile t).val)) (BitVec.ofNat 32 (128 * k.val)) 1 + 1 * q.val = _
    rw [off1_eq]
    show 0 + 1 * q.val = q.val
    omega

theorem read_xSlice (s : Dev nD) (t : Fin 3) (k : Fin 8) (x : (⟨S4096x1024, .f32⟩ : BufTy).Contents Val) (r : Fin 128) (q : Fin 1024) :
    (xSlice s t k).view.read Val x (ix2 r q) = x (ix2 (srcRow s t k r) q) := by
  show x ((xSlice s t k).view.emb (ix2 r q)) = _
  rw [xSlice_emb]

end Staged

theorem sentVal_apply (m : (ℓ : Loc nD τ sig) → Buf (Elt Ideal) ℓ) (s : Dev nD) (t : Fin 3) (k : Fin 8) (r : Fin 128) (q : Fin 1024) :
    sentVal (F := Ideal) m s t k (ix2 r q) = m ((s : Thread nD τ).loc main_arg0) (ix2 (srcRow s t k r) q) := by
  unfold sentVal
  rw [truncf_apply, read_xSlice]

end Cert.A2aGemmB.Moves

end
-- ==== Proof.Bits.Moves2.lean ====
import proofs.«900612_g7700000000000613_dist_a2a_gemm_m4096_k4096_n2048_f32_none_v7x_i4_1_alg».proof.Proof.Bits.Moves
import proofs.«900612_g7700000000000613_dist_a2a_gemm_m4096_k4096_n2048_f32_none_v7x_i4_1_alg».proof.Proof.BlockSum

noncomputable section

namespace Cert.A2aGemmB.Moves

open Idealize.ShloMosaic Idealize.ShloMosaic.ValueIdx Idealize.ShloMosaic.TcCoe
open Cert.Kernel Cert.Kernel.Gen Cert.KernelPf Cert.A2aGemm

variable {Val : EltTy → Type}

abbrev wSlice (c : Dev nD) (r : Fin 4) : Memref sig .tc .hbm S1024x2048 .f32 :=
  (Memref.whole main_arg1 : Memref sig .tc .hbm S4096x2048 .f32).slice
    (Rect.unit (s := S4096x2048) (k0_off3 c (BitVec.ofNat 32 r.val)) S1024x2048.size (k0_off3_inb c r)) (fun _ => rfl)

abbrev xOwn (c : Dev nD) : Memref sig .tc .hbm S1024x1024 .f32 :=
  (Memref.whole main_arg0 : Memref sig .tc .hbm S4096x1024 .f32).slice
    (Rect.unit (s := S4096x1024) (k0_off2 c) S1024x1024.size (k0_off2_inb c)) (fun _ => rfl)

theorem wSlice_emb (c : Dev nD) (r : Fin 4) (q : Fin 1024) (j : Fin 2048) :
    (wSlice c r).view.emb (ix2 q j) = ix2 (at4 (peer c r.val) q) j := by
  funext a
  match a with
  | ⟨0, _⟩ =>
    refine Fin.ext ?_
    show k0_off3 c (BitVec.ofNat 32 r.val) 0 + 1 * q.val = _
    rw [off3_eq]
    show 1024 * ((c.val + r.val) % 4) + 1 * q.val = 1024 * ((c.val + r.val) % 4) + q.val
    omega
  | ⟨1, _⟩ =>
    refine Fin.ext ?_
    show k0_off3 c (BitVec.ofNat 32 r.val) 1 + 1 * j.val = _
    rw [off3_eq]
    show 0 + 1 * j.val = j.val
    omega

theorem read_wSlice (c : Dev nD) (r : Fin 4) (w : (⟨S4096x2048, .f32⟩ : BufTy).Contents Val) (q : Fin 1024) (j : Fin 2048) :
    (wSlice c r).view.read Val w (ix2 q j) = w (ix2 (at4 (peer c r.val) q) j) := by
  show w ((wSlice c r).view.emb (ix2 q j)) = _
  rw [wSlice_emb]

theorem xOwn_emb (c : Dev nD) (p : Fin 1024) (q : Fin 1024) :
    (xOwn c).view.emb (ix2 p q) = ix2 (at4 c p) q := by
  funext a
  match a with
  | ⟨0, _⟩ =>
    refine Fin.ext ?_
    show k0_off2 c 0 + 1 * p.val = _
    rw [off2_eq]
    show 1024 * c.val + 1 * p.val = 1024 * c.val + p.val
    omega
  | ⟨1, _⟩ =>
    refine Fin.ext ?_
    show k0_off2 c 1 + 1 * q.val = _
    rw [off2_eq]
    show 0 + 1 * q.val = q.val
    omega

theorem read_xOwn (c : Dev nD) (x : (⟨S4096x1024, .f32⟩ : BufTy).Contents Val) (p : Fin 1024) (q : Fin 1024) :
    (xOwn c).view.read Val x (ix2 p q) = x (ix2 (at4 c p) q) := by
  show x ((xOwn c).view.emb (ix2 p q)) = _
  rw [xOwn_emb]

theorem write_whole_univ (b : Ref sig .tc) (f w : b.ty.Contents Val) :
    (View.whole b : View sig .tc _ _ _).write Val f w Finset.univ = w := by
  funext i
  exact View.write_emb_of_mem (v := (View.whole b : View sig .tc _ _ _)) f w (x := i) (Finset.mem_univ i)

end Cert.A2aGemmB.Moves

end
-- ==== Proof.Bits.SendValue.lean ====
import proofs.«900612_g7700000000000613_dist_a2a_gemm_m4096_k4096_n2048_f32_none_v7x_i4_1_alg».proof.Proof.Bits.Proto
import proofs.«900612_g7700000000000613_dist_a2a_gemm_m4096_k4096_n2048_f32_none_v7x_i4_1_alg».proof.Proof.Bits.Moves

noncomputable section

namespace Cert.KernelPf

open Cert.Kernel Cert.Kernel.Gen
open Idealize.ShloMosaic Idealize.ShloMosaic.ValueIdx
open Idealize.ShloMosaic.TcCoe
open Cert.A2aGemmB.Moves

variable {F : FTy → Type} [FloatOps F]

variable (m : (ℓ : Loc nD τ sig) → Buf (Elt F) ℓ)

theorem pay1_apply (v : Vec F S1x128x1024 .f32) (u : Fin 1) (r : Fin 128) (q : Fin 1024) :
    k0_pay1 (F := F) v (ix3 u r q) = FloatOps.truncf .bf16 bitsLt_bf16_f32 (v (ix3 (0 : Fin 1) r q)) := by
  unfold k0_pay1
  rw [shapeCast_ab_1ab_apply]
  show FloatOps.truncf .bf16 _ (shapeCast S128x1024 v shapeCasts_S1x128x1024_S128x1024 (ix2 r q)) = _
  rw [shapeCast_1ab_ab_apply]

theorem sent_of_staged (p : FVec F S128x1024 .f32) :
    (fun j : S128x1024.Idx => k0_pay1 (F := F) (fun y : S1x128x1024.Idx => p (ix2 (y 1) (y 2))) (ix3 (0 : Fin 1) (j 0) (j 1)))
      = truncf .bf16 p bitsLt_bf16_f32 := by
  funext j
  refine (pay1_apply (F := F) (fun y : S1x128x1024.Idx => p (ix2 (y 1) (y 2))) 0 (j 0) (j 1)).trans ?_
  exact congrArg (fun z => FloatOps.truncf .bf16 bitsLt_bf16_f32 (p z)) (eq_ix2 j).symm

theorem read_sbuf_store (t : Fin 3) (k : Fin 8) (f3 : (cc0_scratch3 : Ref sig .tc).ty.Contents (Elt F)) (V : Vec F S1x128x1024 .f32) :
    (chunkM sbufM t k).view.read (Elt F) ((sbufM.access (chunkRect t k)).write (Elt F) f3 (k0_pay1 (F := F) V) Finset.univ)
      = fun j : S128x1024.Idx => k0_pay1 (F := F) V (ix3 (0 : Fin 1) (j 0) (j 1)) :=
  read_chunkM_write_access_eq sbufM t k f3 (k0_pay1 (F := F) V)

theorem read_sbuf_staged (t : Fin 3) (k : Fin 8) (f3 : (cc0_scratch3 : Ref sig .tc).ty.Contents (Elt F)) (p : FVec F S128x1024 .f32) :
    (chunkM sbufM t k).view.read (Elt F)
        ((sbufM.access (chunkRect t k)).write (Elt F) f3 (k0_pay1 (F := F) (fun y : S1x128x1024.Idx => p (ix2 (y 1) (y 2)))) Finset.univ)
      = truncf .bf16 p bitsLt_bf16_f32 :=
  (read_sbuf_store t k f3 _).trans (sent_of_staged p)

theorem read_sbuf_sent (c : Dev nD) (t : Fin 3) (k : Fin 8) (f3 : (cc0_scratch3 : Ref sig .tc).ty.Contents (Elt F)) :
    (chunkM sbufM t k).view.read (Elt F)
        ((sbufM.access (chunkRect t k)).write (Elt F) f3
          (k0_pay1 (F := F) (fun y : S1x128x1024.Idx =>
            ((xSlice c t k).view.read (Elt F) (m ((c : Thread nD τ).loc main_arg0)) : FVec F S128x1024 .f32) (ix2 (y 1) (y 2)))) Finset.univ)
      = sentVal m c t k :=
  read_sbuf_staged t k f3 _

theorem read_landed (c : Dev nD) (t : Fin 3) (k : Fin 8) (r : Fin 128) (q : Fin 1024) :
    (Memref.whole cc0_scratch0 : Memref sig .tc .vmem S3x1024x1024 .bf16).view.readAt (Elt F) (chunkRect (cTile t) k).toLoadRect
        (landed m c t k) (ix3 (0 : Fin 1) r q)
      = sentVal m (peer c (4 - dOf t)) t k (ix2 r q) := by
  rw [readAt_chunk]
  show landed m c t k (ix3 (cTile t) (at8 k r) q) = _
  unfold landed
  have h1 : (⟨((ix3 (cTile t) (at8 k r) q : S3x1024x1024.Idx) 1).val % 128, idx_lt_128 _⟩ : Fin 128) = r :=
    Fin.ext (by show (128 * k.val + r.val) % 128 = r.val; omega)
  have h2 : (⟨((ix3 (cTile t) (at8 k r) q : S3x1024x1024.Idx) 2).val, idx_lt_1024 _⟩ : Fin 1024) = q := Fin.ext rfl
  exact congrArg (sentVal m (peer c (4 - dOf t)) t k) (congrArg₂ ix2 h1 h2)

theorem read_landed_eq (c : Dev nD) (t : Fin 3) (k : Fin 8) :
    (Memref.whole cc0_scratch0 : Memref sig .tc .vmem S3x1024x1024 .bf16).view.readAt (Elt F) (chunkRect (cTile t) k).toLoadRect
        (landed m c t k)
      = fun y : S1x128x1024.Idx => sentVal m (peer c (4 - dOf t)) t k (ix2 (y 1) (y 2)) := by
  funext y
  obtain ⟨u, r, q, rfl⟩ : ∃ (u : Fin 1) (r : Fin 128) (q : Fin 1024), y = ix3 u r q := ⟨y 0, y 1, y 2, eq_ix3 y⟩
  have hu : u = 0 := Subsingleton.elim _ _
  rw [hu]
  exact read_landed m c t k r q

end Cert.KernelPf

end
-- ==== Proof.Bits.KernelDot.lean ====
import proofs.«900612_g7700000000000613_dist_a2a_gemm_m4096_k4096_n2048_f32_none_v7x_i4_1_alg».proof.Proof.Gen.Kernel
import Idealize.ShloMosaic.Lib.ValueIdx
import Idealize.ShloMosaic.PureOps.Ideal.Laws

noncomputable section

namespace Cert.A2aGemmB.KernelDot

open Idealize.ShloMosaic Idealize.ShloMosaic.ValueIdx
open Cert.Kernel Cert.Kernel.Gen

theorem lhs_mm1024_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem lhs_mm1024_1 (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem rhs_mm1024_0 (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem rhs_mm1024_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

theorem mm1024_apply {φ₁ φ₂ : FTy} (l : FVec Ideal S1024x1024 φ₁) (r : FVec Ideal S1024x2048 φ₂) (p : Fin 1024) (j : Fin 2048) :
    matmul (F := Ideal) dot_S1024x1024_S1024x2048_S1024x2048_1_0_0_1_n_n none l r (constant (F := Ideal) S1024x2048 .f32 0x00000000#32) (ix2 p j)
      = ∑ q : Fin 1024, l (ix2 p q) * r (ix2 q j) := by
  show FloatOps.matmul dot_S1024x1024_S1024x2048_S1024x2048_1_0_0_1_n_n none l r (constant S1024x2048 .f32 0x00000000#32) (ix2 p j) = _
  rw [Ideal.matmul_constant_zero_apply, ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 p j) ((contrEquiv1 dot_S1024x1024_S1024x2048_S1024x2048_1_0_0_1_n_n 1024 rfl rfl).symm k) = ix2 p k := funext fun a => Fin.ext (by
    match a with
    | ⟨0, _⟩ => exact lhs_mm1024_0 _ _
    | ⟨1, _⟩ => exact (lhs_mm1024_1 _ _).trans hk)
  have er : dot_S1024x1024_S1024x2048_S1024x2048_1_0_0_1_n_n.rhsIdx (ix2 p j) ((contrEquiv1 dot_S1024x1024_S1024x2048_S1024x2048_1_0_0_1_n_n 1024 rfl rfl).symm k) = ix2 k j := funext fun a => Fin.ext (by
    match a with
    | ⟨0, _⟩ => exact (rhs_mm1024_0 _ _).trans hk
    | ⟨1, _⟩ => exact rhs_mm1024_1 _ _)
  rw [el, er]

theorem lhs_mm128_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem lhs_mm128_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
theorem rhs_mm128_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
theorem rhs_mm128_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

theorem mm128_apply {φ₁ φ₂ : FTy} (l : FVec Ideal S128x1024 φ₁) (r : FVec Ideal S1024x2048 φ₂) (p : Fin 128) (j : Fin 2048) :
    matmul (F := Ideal) dot_S128x1024_S1024x2048_S128x2048_1_0_0_1_n_n none l r (constant (F := Ideal) S128x2048 .f32 0x00000000#32) (ix2 p j)
      = ∑ q : Fin 1024, l (ix2 p q) * r (ix2 q j) := by
  show FloatOps.matmul dot_S128x1024_S1024x2048_S128x2048_1_0_0_1_n_n none l r (constant S128x2048 .f32 0x00000000#32) (ix2 p j) = _
  rw [Ideal.matmul_constant_zero_apply, ← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p j) ((contrEquiv1 dot_S128x1024_S1024x2048_S128x2048_1_0_0_1_n_n 1024 rfl rfl).symm k) = ix2 p k := funext fun a => Fin.ext (by
    match a with
    | ⟨0, _⟩ => exact lhs_mm128_0 _ _
    | ⟨1, _⟩ => exact (lhs_mm128_1 _ _).trans hk)
  have er : dot_S128x1024_S1024x2048_S128x2048_1_0_0_1_n_n.rhsIdx (ix2 p j) ((contrEquiv1 dot_S128x1024_S1024x2048_S128x2048_1_0_0_1_n_n 1024 rfl rfl).symm k) = ix2 k j := funext fun a => Fin.ext (by
    match a with
    | ⟨0, _⟩ => exact (rhs_mm128_0 _ _).trans hk
    | ⟨1, _⟩ => exact rhs_mm128_1 _ _)
  rw [el, er]

end Cert.A2aGemmB.KernelDot

end
-- ==== Proof.Bits.PayloadValue.lean ====
import proofs.«900612_g7700000000000613_dist_a2a_gemm_m4096_k4096_n2048_f32_none_v7x_i4_1_alg».proof.Proof.Gen.Kernel.Skeleton
import proofs.«900612_g7700000000000613_dist_a2a_gemm_m4096_k4096_n2048_f32_none_v7x_i4_1_alg».proof.Proof.Bits.KernelDot
import Idealize.ShloMosaic.Lib.ValueIdx
import Idealize.ShloMosaic.Lib.ValueLayout
import Idealize.ShloMosaic.Lib.Pipeline.Value
import Idealize.ShloMosaic.PureOps.Ideal.Laws

noncomputable section

namespace Cert.A2aGemmB.PayloadValue

open Idealize.ShloMosaic Idealize.ShloMosaic.ValueIdx
open Cert.Kernel Cert.Kernel.Gen

theorem pay29_apply_sum (a : Vec Ideal S1024x1024 .f32) (w : Vec Ideal S1x1024x2048 .f32) (p : Fin 1024) (j : Fin 2048) :
    k0_pay29 (F := Ideal) a w (ix2 p j) = ∑ q : Fin 1024, a (ix2 p q) * w (ix3 (0 : Fin 1) q j) := by
  unfold k0_pay29
  rw [shapeCast_self, KernelDot.mm1024_apply]
  refine Finset.sum_congr rfl fun q _ => ?_
  rw [shapeCast_1ab_ab_apply]

theorem pay29_apply (a : Vec Ideal S1024x1024 .f32) (w : Vec Ideal S1x1024x2048 .f32) (p : Fin 1024) (j : Fin 2048) :
    k0_pay29 (F := Ideal) a w (ix2 p j) = 0 + ∑ q : Fin 1024, a (ix2 p q) * w (ix3 (0 : Fin 1) q j) := by
  rw [pay29_apply_sum, zero_add]

theorem chunkUpd_apply_sum (acc : Vec Ideal S128x2048 .f32) (cm : Vec Ideal S1x128x1024 .bf16) (w : Vec Ideal S1x1024x2048 .f32)
    (p : Fin 128) (j : Fin 2048) :
    k0_pay30 (F := Ideal) acc cm w (ix2 p j)
      = acc (ix2 p j) + ∑ q : Fin 1024, cm (ix3 (0 : Fin 1) p q) * w (ix3 (0 : Fin 1) q j) := by
  unfold k0_pay30
  rw [shapeCast_self, addf_apply, KernelDot.mm128_apply]
  refine congrArg (acc (ix2 p j) + ·) (Finset.sum_congr rfl fun q _ => ?_)
  rw [extf_apply, shapeCast_1ab_ab_apply, shapeCast_1ab_ab_apply]

theorem chunkUpd_apply (acc : Vec Ideal S128x2048 .f32) (cm : Vec Ideal S1x128x1024 .bf16) (w : Vec Ideal S1x1024x2048 .f32)
    (p : Fin 128) (j : Fin 2048) :
    k0_pay30 (F := Ideal) acc cm w (ix2 p j)
      = acc (ix2 p j) + (0 + ∑ q : Fin 1024, cm (ix3 (0 : Fin 1) p q) * w (ix3 (0 : Fin 1) q j)) := by
  rw [chunkUpd_apply_sum, zero_add]

section Same
variable {F : FTy → Type} [FloatOps F]

end Same

end Cert.A2aGemmB.PayloadValue

end
-- ==== Proof.Bits.AccValue.lean ====
import proofs.«900612_g7700000000000613_dist_a2a_gemm_m4096_k4096_n2048_f32_none_v7x_i4_1_alg».proof.Proof.Bits.Moves2
import proofs.«900612_g7700000000000613_dist_a2a_gemm_m4096_k4096_n2048_f32_none_v7x_i4_1_alg».proof.Proof.Slabs
import proofs.«900612_g7700000000000613_dist_a2a_gemm_m4096_k4096_n2048_f32_none_v7x_i4_1_alg».proof.Proof.Bits.SendValue
import proofs.«900612_g7700000000000613_dist_a2a_gemm_m4096_k4096_n2048_f32_none_v7x_i4_1_alg».proof.Proof.Bits.PayloadValue
import Idealize.ShloMosaic.Lib.Pipeline.RowLoads
import Idealize.ShloMosaic.Lib.Pipeline.FrameBody
import Idealize.ShloMosaic.Lib.WritesUnit

noncomputable section

namespace Cert.KernelPf

open Cert.Kernel Cert.Kernel.Gen
open Idealize.ShloMosaic Idealize.ShloMosaic.ValueIdx
open Idealize.ShloMosaic.TcCoe
open Cert.A2aGemm Cert.A2aGemmB.Moves Cert.A2aGemm.Slabs

variable {F : FTy → Type} [FloatOps F]

variable (m : (ℓ : Loc nD τ sig) → Buf (Elt F) ℓ)

theorem at4_eq_blkRow (b : Dev nD) (p : Fin 1024) : at4 b p = blkRow b p := rfl
theorem xlocV_of_slice (c : Dev nD) :
    ((xOwn c).view.read (Elt F) (m ((c : Thread nD τ).loc main_arg0)) : Vec F S1024x1024 .f32) = xlocV m c := by
  funext i
  obtain ⟨p, q, rfl⟩ : ∃ (p : Fin 1024) (q : Fin 1024), i = ix2 p q := ⟨i 0, i 1, eq_ix2 i⟩
  rw [read_xOwn, xlocV_apply, at4_eq_blkRow]

theorem read_own (c : Dev nD) (s2 : (cc0_scratch2 : Ref sig .tc).ty.Contents (Elt F)) :
    (Memref.whole cc0_scratch2 : Memref sig .tc .vmem S1024x1024 .f32).view.readAt (Elt F)
        (Rect.unit (s := S1024x1024) ![0, 0] S1024x1024.size inb_S1024x1024_S1024x1024_0_0).toLoadRect
        ((Memref.whole cc0_scratch2 : Memref sig .tc .vmem S1024x1024 .f32).view.write (Elt F) s2
          ((xOwn c).view.read (Elt F) (m ((c : Thread nD τ).loc main_arg0))) Finset.univ)
      = xlocV m c := by
  rw [show (Memref.whole cc0_scratch2 : Memref sig .tc .vmem S1024x1024 .f32).view.write (Elt F) s2
        ((xOwn c).view.read (Elt F) (m ((c : Thread nD τ).loc main_arg0))) Finset.univ
      = ((xOwn c).view.read (Elt F) (m ((c : Thread nD τ).loc main_arg0))) from write_whole_univ cc0_scratch2 s2 _,
    xlocV_of_slice]
  funext i
  obtain ⟨p, q, rfl⟩ : ∃ (p : Fin 1024) (q : Fin 1024), i = ix2 p q := ⟨i 0, i 1, eq_ix2 i⟩
  rw [readAt_rect2_apply]
  show xlocV m c (ix2 ⟨0 + p.val, _⟩ ⟨0 + q.val, _⟩) = _
  congr 1
  exact congrArg₂ ix2 (Fin.ext (Nat.zero_add _)) (Fin.ext (Nat.zero_add _))

theorem wV_of_slice (c : Dev nD) (r : Fin 4) :
    (fun y : S1x1024x2048.Idx =>
        ((wSlice c r).view.read (Elt F) (m ((c : Thread nD τ).loc main_arg1)) : Vec F S1024x2048 .f32) (ix2 (y 1) (y 2)))
      = wV m c r.val := by
  funext y
  obtain ⟨u, q, j, rfl⟩ : ∃ (u : Fin 1) (q : Fin 1024) (j : Fin 2048), y = ix3 u q j := ⟨y 0, y 1, y 2, eq_ix3 y⟩
  show (wSlice c r).view.read (Elt F) (m ((c : Thread nD τ).loc main_arg1)) (ix2 q j) = _
  rw [read_wSlice, wV_apply, at4_eq_blkRow]

theorem read_cm (c : Dev nD) (t : Fin 3) (k : Fin 8) :
    (Memref.whole cc0_scratch0 : Memref sig .tc .vmem S3x1024x1024 .bf16).view.readAt (Elt F) (chunkRect (cTile t) k).toLoadRect
        (landed m c t k)
      = cmV m c t k :=
  read_landed_eq m c t k

theorem read_band_write_whole (k : Fin 8) (inbk : ∀ a, (![128 * k.val, 0] : Fin 2 → ℕ) a + S128x2048.size a ≤ S1024x2048.size a)
    (s5 : (cc0_scratch5 : Ref sig .tc).ty.Contents (Elt F)) (P : Vec F S1024x2048 .f32) :
    (Memref.whole cc0_scratch5 : Memref sig .tc .vmem S1024x2048 .f32).view.readAt (Elt F)
        (Rect.unit (s := S1024x2048) ![128 * k.val, 0] S128x2048.size inbk).toLoadRect
        (((Memref.whole cc0_scratch5 : Memref sig .tc .vmem S1024x2048 .f32).view.slice
            (Rect.unit (s := S1024x2048) ![0, 0] S1024x2048.size inb_S1024x2048_S1024x2048_0_0)).write (Elt F) s5 P Finset.univ)
      = fun y : S128x2048.Idx => P (ix2 (chunkRow k ⟨(y 0).val, idx2_lt0 y⟩) (⟨(y 1).val, idx2_lt1 y⟩ : Fin 2048)) := by
  funext y
  obtain ⟨p, j, rfl⟩ : ∃ (p : Fin 128) (j : Fin 2048), y = ix2 p j := ⟨y 0, y 1, eq_ix2 y⟩
  exact readAt_write_rect2_inside (Memref.whole cc0_scratch5 : Memref sig .tc .vmem S1024x2048 .f32).view ![128 * k.val, 0] ![0, 0]
    inbk inb_S1024x2048_S1024x2048_0_0 s5 P p j (chunkRow k p) j (by show 0 + (128 * k.val + p.val) = 128 * k.val + p.val; omega)
    (by show 0 + j.val = 0 + j.val; rfl)

section Cov
open Idealize.ShloMosaic.View

theorem cov_skip (o o' : ℕ) (h : o + 128 ≤ o' ∨ o' + 128 ≤ o) (x : Vec F S128x2048 .f32)
    (L : List (Piece (Elt F) S1024x2048 .f32))
    (inb : ∀ a, (![o, 0] : Fin 2 → ℕ) a + S128x2048.size a ≤ S1024x2048.size a)
    (inb' : ∀ a, (![o', 0] : Fin 2 → ℕ) a + S128x2048.size a ≤ S1024x2048.size a) :
    (Memref.whole cc0_scratch5 : Memref sig .tc .vmem S1024x2048 .f32).view.readCov
        ((⟨Rect.unit (s := S1024x2048) ![o, 0] S128x2048.size inb, x⟩ : Piece (Elt F) S1024x2048 .f32) :: L)
        (Rect.unit (s := S1024x2048) ![o', 0] S128x2048.size inb').toLoadRect
      = (Memref.whole cc0_scratch5 : Memref sig .tc .vmem S1024x2048 .f32).view.readCov L
          (Rect.unit (s := S1024x2048) ![o', 0] S128x2048.size inb').toLoadRect :=
  View.readCov_cons_of_rows_disjoint (Memref.whole cc0_scratch5 : Memref sig .tc .vmem S1024x2048 .f32).view o o' h x L inb inb'

theorem cov_hit (o : ℕ) (x : Vec F S128x2048 .f32) (L : List (Piece (Elt F) S1024x2048 .f32))
    (inb inb' : ∀ a, (![o, 0] : Fin 2 → ℕ) a + S128x2048.size a ≤ S1024x2048.size a) :
    (Memref.whole cc0_scratch5 : Memref sig .tc .vmem S1024x2048 .f32).view.readCov
        ((⟨Rect.unit (s := S1024x2048) ![o, 0] S128x2048.size inb, x⟩ : Piece (Elt F) S1024x2048 .f32) :: L)
        (Rect.unit (s := S1024x2048) ![o, 0] S128x2048.size inb').toLoadRect
      = x :=
  View.readCov_cons_toLoadRect (Memref.whole cc0_scratch5 : Memref sig .tc .vmem S1024x2048 .f32).view
    (Rect.unit (s := S1024x2048) ![o, 0] S128x2048.size inb) x L

theorem cov_whole (o : ℕ) (k : Fin 8) (ho : o = 128 * k.val) (P : Vec F S1024x2048 .f32)
    (inb0 : ∀ a, (![0, 0] : Fin 2 → ℕ) a + S1024x2048.size a ≤ S1024x2048.size a)
    (inb : ∀ a, (![o, 0] : Fin 2 → ℕ) a + S128x2048.size a ≤ S1024x2048.size a) :
    (Memref.whole cc0_scratch5 : Memref sig .tc .vmem S1024x2048 .f32).view.readCov
        [(⟨Rect.unit (s := S1024x2048) ![0, 0] S1024x2048.size inb0, P⟩ : Piece (Elt F) S1024x2048 .f32)]
        (Rect.unit (s := S1024x2048) ![o, 0] S128x2048.size inb).toLoadRect
      = fun y : S128x2048.Idx => P (ix2 (chunkRow k ⟨(y 0).val, idx2_lt0 y⟩) (⟨(y 1).val, idx2_lt1 y⟩ : Fin 2048)) := by
  subst ho
  unfold View.readCov
  exact read_band_write_whole k inb _ P

theorem cov_acc0 (c : Dev nD) (o : ℕ) (k : Fin 8) (ho : o = 128 * k.val)
    (inb0 : ∀ a, (![0, 0] : Fin 2 → ℕ) a + S1024x2048.size a ≤ S1024x2048.size a)
    (inb : ∀ a, (![o, 0] : Fin 2 → ℕ) a + S128x2048.size a ≤ S1024x2048.size a) :
    (Memref.whole cc0_scratch5 : Memref sig .tc .vmem S1024x2048 .f32).view.readCov
        [(⟨Rect.unit (s := S1024x2048) ![0, 0] S1024x2048.size inb0, k0_pay29 (xlocV m c) (wV m c 0)⟩ : Piece (Elt F) S1024x2048 .f32)]
        (Rect.unit (s := S1024x2048) ![o, 0] S128x2048.size inb).toLoadRect
      = acc0 m c k :=
  cov_whole o k ho _ inb0 inb

end Cov

section Out
open Idealize.ShloMosaic.View

theorem out_band_eq (o : ℕ) (inb : ∀ a, (![o, 0] : Fin 2 → ℕ) a + S128x2048.size a ≤ S1024x2048.size a)
    (prf : ∀ a, (Rect.unit (s := S1024x2048) ![o, 0] S128x2048.size inb).stride a = 1)
    (s5 : (cc0_scratch5 : Ref sig .tc).ty.Contents (Elt F)) (w : Vec F S128x2048 .f32) (L : List (Piece (Elt F) S1024x2048 .f32)) :
    View.read (Elt F) ((Memref.whole cc0_scratch5 : Memref sig .tc .vmem S1024x2048 .f32).slice
        (Rect.unit (s := S1024x2048) ![o, 0] S128x2048.size inb) prf).view
      ((Memref.whole cc0_scratch5 : Memref sig .tc .vmem S1024x2048 .f32).view.writes (Elt F) s5
        ((⟨Rect.unit (s := S1024x2048) ![o, 0] S128x2048.size inb, w⟩ : Piece (Elt F) S1024x2048 .f32) :: L))
      = w :=
  View.read_write_univ (v := (Memref.whole cc0_scratch5 : Memref sig .tc .vmem S1024x2048 .f32).view.slice
    (Rect.unit (s := S1024x2048) ![o, 0] S128x2048.size inb)) _ w

variable {κ : Kind} {sp : Space}

theorem wr_skip (v : View sig κ sp S1024x2048 .f32) (f : v.ty.Contents (Elt F)) (o : ℕ) (x : Vec F S128x2048 .f32)
    (L : List (Piece (Elt F) S1024x2048 .f32)) (inb : ∀ a, (![o, 0] : Fin 2 → ℕ) a + S128x2048.size a ≤ S1024x2048.size a)
    (i : Fin 1024) (j : Fin 2048) (h : i.val < o ∨ o + 128 ≤ i.val) :
    v.read (Elt F) (v.writes (Elt F) f ((⟨Rect.unit (s := S1024x2048) ![o, 0] S128x2048.size inb, x⟩ : Piece (Elt F) S1024x2048 .f32) :: L)) (ix2 i j)
      = v.read (Elt F) (v.writes (Elt F) f L) (ix2 i j) :=
  View.read_writes_cons_unit_of_not_mem (v := v) (f := f) inb x L (ix2 i j) rfl 0 h

theorem wr_hit (v : View sig κ sp S1024x2048 .f32) (f : v.ty.Contents (Elt F)) (o : ℕ) (x : Vec F S128x2048 .f32)
    (L : List (Piece (Elt F) S1024x2048 .f32)) (inb : ∀ a, (![o, 0] : Fin 2 → ℕ) a + S128x2048.size a ≤ S1024x2048.size a)
    (i : Fin 1024) (j : Fin 2048) (p : Fin 128) (hi : i.val = o + p.val) :
    v.read (Elt F) (v.writes (Elt F) f ((⟨Rect.unit (s := S1024x2048) ![o, 0] S128x2048.size inb, x⟩ : Piece (Elt F) S1024x2048 .f32) :: L)) (ix2 i j)
      = x (ix2 p j) :=
  View.read_writes_cons_unit_of_mem (v := v) (f := f) inb x L (ix2 i j) (ix2 p j) rfl
    (fun a => match a with
      | ⟨0, _⟩ => hi
      | ⟨1, _⟩ => (Nat.zero_add _).symm)

theorem out_spec_of_bands (c : Dev nD) (o₀ : (main_v1 : Ref sig .tc).ty.Contents (Elt F))
    (P0 P1 P2 P3 P4 P5 P6 P7 : Vec F S128x2048 .f32)
    (h0 : P0 = chunkFinal m c 0) (h1 : P1 = chunkFinal m c 1) (h2 : P2 = chunkFinal m c 2) (h3 : P3 = chunkFinal m c 3)
    (h4 : P4 = chunkFinal m c 4) (h5 : P5 = chunkFinal m c 5) (h6 : P6 = chunkFinal m c 6) (h7 : P7 = chunkFinal m c 7) :
    OutSpec' m c ((Memref.whole main_v1 : Memref sig .tc .hbm S1024x2048 .f32).view.writes (Elt F) o₀
      [(⟨Rect.unit (s := S1024x2048) ![896, 0] S128x2048.size inb_S1024x2048_S128x2048_896_0, P7⟩ : Piece (Elt F) S1024x2048 .f32),
        (⟨Rect.unit (s := S1024x2048) ![768, 0] S128x2048.size inb_S1024x2048_S128x2048_768_0, P6⟩ : Piece (Elt F) S1024x2048 .f32),
        (⟨Rect.unit (s := S1024x2048) ![640, 0] S128x2048.size inb_S1024x2048_S128x2048_640_0, P5⟩ : Piece (Elt F) S1024x2048 .f32),
        (⟨Rect.unit (s := S1024x2048) ![512, 0] S128x2048.size inb_S1024x2048_S128x2048_512_0, P4⟩ : Piece (Elt F) S1024x2048 .f32),
        (⟨Rect.unit (s := S1024x2048) ![384, 0] S128x2048.size inb_S1024x2048_S128x2048_384_0, P3⟩ : Piece (Elt F) S1024x2048 .f32),
        (⟨Rect.unit (s := S1024x2048) ![256, 0] S128x2048.size inb_S1024x2048_S128x2048_256_0, P2⟩ : Piece (Elt F) S1024x2048 .f32),
        (⟨Rect.unit (s := S1024x2048) ![128, 0] S128x2048.size inb_S1024x2048_S128x2048_128_0, P1⟩ : Piece (Elt F) S1024x2048 .f32),
        (⟨Rect.unit (s := S1024x2048) ![0, 0] S128x2048.size inb_S1024x2048_S128x2048_0_0, P0⟩ : Piece (Elt F) S1024x2048 .f32)]) := by
  subst h0 h1 h2 h3 h4 h5 h6 h7
  intro k p j
  match k with
  | ⟨0, _⟩ =>
    refine (congrFun (Cert.A2aGemmB.Moves.read_whole (Val := Elt F) main_v1 _) (ix2 (chunkRow 0 p) j)).symm.trans ?_
    rw [wr_skip _ _ 896 _ _ _ (chunkRow 0 p) j (by have := p.isLt; have h : (chunkRow 0 p).val = 128 * 0 + p.val := rfl; omega),
      wr_skip _ _ 768 _ _ _ (chunkRow 0 p) j (by have := p.isLt; have h : (chunkRow 0 p).val = 128 * 0 + p.val := rfl; omega),
      wr_skip _ _ 640 _ _ _ (chunkRow 0 p) j (by have := p.isLt; have h : (chunkRow 0 p).val = 128 * 0 + p.val := rfl; omega),
      wr_skip _ _ 512 _ _ _ (chunkRow 0 p) j (by have := p.isLt; have h : (chunkRow 0 p).val = 128 * 0 + p.val := rfl; omega),
      wr_skip _ _ 384 _ _ _ (chunkRow 0 p) j (by have := p.isLt; have h : (chunkRow 0 p).val = 128 * 0 + p.val := rfl; omega),
      wr_skip _ _ 256 _ _ _ (chunkRow 0 p) j (by have := p.isLt; have h : (chunkRow 0 p).val = 128 * 0 + p.val := rfl; omega),
      wr_skip _ _ 128 _ _ _ (chunkRow 0 p) j (by have := p.isLt; have h : (chunkRow 0 p).val = 128 * 0 + p.val := rfl; omega),
      wr_hit _ _ 0 _ _ _ (chunkRow 0 p) j p (by show 128 * 0 + p.val = 0 + p.val; omega)]
    all_goals rfl
  | ⟨1, _⟩ =>
    refine (congrFun (Cert.A2aGemmB.Moves.read_whole (Val := Elt F) main_v1 _) (ix2 (chunkRow 1 p) j)).symm.trans ?_
    rw [wr_skip _ _ 896 _ _ _ (chunkRow 1 p) j (by have := p.isLt; have h : (chunkRow 1 p).val = 128 * 1 + p.val := rfl; omega),
      wr_skip _ _ 768 _ _ _ (chunkRow 1 p) j (by have := p.isLt; have h : (chunkRow 1 p).val = 128 * 1 + p.val := rfl; omega),
      wr_skip _ _ 640 _ _ _ (chunkRow 1 p) j (by have := p.isLt; have h : (chunkRow 1 p).val = 128 * 1 + p.val := rfl; omega),
      wr_skip _ _ 512 _ _ _ (chunkRow 1 p) j (by have := p.isLt; have h : (chunkRow 1 p).val = 128 * 1 + p.val := rfl; omega),
      wr_skip _ _ 384 _ _ _ (chunkRow 1 p) j (by have := p.isLt; have h : (chunkRow 1 p).val = 128 * 1 + p.val := rfl; omega),
      wr_skip _ _ 256 _ _ _ (chunkRow 1 p) j (by have := p.isLt; have h : (chunkRow 1 p).val = 128 * 1 + p.val := rfl; omega),
      wr_hit _ _ 128 _ _ _ (chunkRow 1 p) j p (by show 128 * 1 + p.val = 128 + p.val; omega)]
    all_goals rfl
  | ⟨2, _⟩ =>
    refine (congrFun (Cert.A2aGemmB.Moves.read_whole (Val := Elt F) main_v1 _) (ix2 (chunkRow 2 p) j)).symm.trans ?_
    rw [wr_skip _ _ 896 _ _ _ (chunkRow 2 p) j (by have := p.isLt; have h : (chunkRow 2 p).val = 128 * 2 + p.val := rfl; omega),
      wr_skip _ _ 768 _ _ _ (chunkRow 2 p) j (by have := p.isLt; have h : (chunkRow 2 p).val = 128 * 2 + p.val := rfl; omega),
      wr_skip _ _ 640 _ _ _ (chunkRow 2 p) j (by have := p.isLt; have h : (chunkRow 2 p).val = 128 * 2 + p.val := rfl; omega),
      wr_skip _ _ 512 _ _ _ (chunkRow 2 p) j (by have := p.isLt; have h : (chunkRow 2 p).val = 128 * 2 + p.val := rfl; omega),
      wr_skip _ _ 384 _ _ _ (chunkRow 2 p) j (by have := p.isLt; have h : (chunkRow 2 p).val = 128 * 2 + p.val := rfl; omega),
      wr_hit _ _ 256 _ _ _ (chunkRow 2 p) j p (by show 128 * 2 + p.val = 256 + p.val; omega)]
    all_goals rfl
  | ⟨3, _⟩ =>
    refine (congrFun (Cert.A2aGemmB.Moves.read_whole (Val := Elt F) main_v1 _) (ix2 (chunkRow 3 p) j)).symm.trans ?_
    rw [wr_skip _ _ 896 _ _ _ (chunkRow 3 p) j (by have := p.isLt; have h : (chunkRow 3 p).val = 128 * 3 + p.val := rfl; omega),
      wr_skip _ _ 768 _ _ _ (chunkRow 3 p) j (by have := p.isLt; have h : (chunkRow 3 p).val = 128 * 3 + p.val := rfl; omega),
      wr_skip _ _ 640 _ _ _ (chunkRow 3 p) j (by have := p.isLt; have h : (chunkRow 3 p).val = 128 * 3 + p.val := rfl; omega),
      wr_skip _ _ 512 _ _ _ (chunkRow 3 p) j (by have := p.isLt; have h : (chunkRow 3 p).val = 128 * 3 + p.val := rfl; omega),
      wr_hit _ _ 384 _ _ _ (chunkRow 3 p) j p (by show 128 * 3 + p.val = 384 + p.val; omega)]
    all_goals rfl
  | ⟨4, _⟩ =>
    refine (congrFun (Cert.A2aGemmB.Moves.read_whole (Val := Elt F) main_v1 _) (ix2 (chunkRow 4 p) j)).symm.trans ?_
    rw [wr_skip _ _ 896 _ _ _ (chunkRow 4 p) j (by have := p.isLt; have h : (chunkRow 4 p).val = 128 * 4 + p.val := rfl; omega),
      wr_skip _ _ 768 _ _ _ (chunkRow 4 p) j (by have := p.isLt; have h : (chunkRow 4 p).val = 128 * 4 + p.val := rfl; omega),
      wr_skip _ _ 640 _ _ _ (chunkRow 4 p) j (by have := p.isLt; have h : (chunkRow 4 p).val = 128 * 4 + p.val := rfl; omega),
      wr_hit _ _ 512 _ _ _ (chunkRow 4 p) j p (by show 128 * 4 + p.val = 512 + p.val; omega)]
    all_goals rfl
  | ⟨5, _⟩ =>
    refine (congrFun (Cert.A2aGemmB.Moves.read_whole (Val := Elt F) main_v1 _) (ix2 (chunkRow 5 p) j)).symm.trans ?_
    rw [wr_skip _ _ 896 _ _ _ (chunkRow 5 p) j (by have := p.isLt; have h : (chunkRow 5 p).val = 128 * 5 + p.val := rfl; omega),
      wr_skip _ _ 768 _ _ _ (chunkRow 5 p) j (by have := p.isLt; have h : (chunkRow 5 p).val = 128 * 5 + p.val := rfl; omega),
      wr_hit _ _ 640 _ _ _ (chunkRow 5 p) j p (by show 128 * 5 + p.val = 640 + p.val; omega)]
    all_goals rfl
  | ⟨6, _⟩ =>
    refine (congrFun (Cert.A2aGemmB.Moves.read_whole (Val := Elt F) main_v1 _) (ix2 (chunkRow 6 p) j)).symm.trans ?_
    rw [wr_skip _ _ 896 _ _ _ (chunkRow 6 p) j (by have := p.isLt; have h : (chunkRow 6 p).val = 128 * 6 + p.val := rfl; omega),
      wr_hit _ _ 768 _ _ _ (chunkRow 6 p) j p (by show 128 * 6 + p.val = 768 + p.val; omega)]
    all_goals rfl
  | ⟨7, _⟩ =>
    refine (congrFun (Cert.A2aGemmB.Moves.read_whole (Val := Elt F) main_v1 _) (ix2 (chunkRow 7 p) j)).symm.trans ?_
    rw [wr_hit _ _ 896 _ _ _ (chunkRow 7 p) j p (by show 128 * 7 + p.val = 896 + p.val; omega)]
    all_goals rfl

end Out

end Cert.KernelPf

end
-- ==== Proof.Bits.Ledger.lean ====
import proofs.«900612_g7700000000000613_dist_a2a_gemm_m4096_k4096_n2048_f32_none_v7x_i4_1_alg».proof.Proof.Bits.Tables

noncomputable section

namespace Cert.KernelPf

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def Above (O : CellTallies nD τ sig Unit) : Prop :=
  ∀ (g : GSem nD τ sig) (u : Unit), 0 < O g u → u ∈ L g ∧ lv g u = 2

theorem Above.zero : Above 0 := fun g u h => by
  rw [Pi.zero_apply, Finsupp.coe_zero, Pi.zero_apply] at h
  exact absurd h (Nat.lt_irrefl 0)

theorem Above.add {O₁ O₂ : CellTallies nD τ sig Unit} (h₁ : Above O₁) (h₂ : Above O₂) : Above (O₁ + O₂) := fun g u h => by
  rw [Pi.add_apply, Finsupp.add_apply] at h
  by_cases h1 : 0 < O₁ g u
  · exact h₁ g u h1
  · exact h₂ g u (by omega)

theorem Above.tally_dma (p : Dev nD) (s : DmaSem sig) (hs : 24 ≤ s.val ∧ s.val < 48) (n : ℕ) :
    Above (tallyAt ((p : Thread nD τ), SemLoc.dma s) () n) := fun g u h => by
  obtain rfl : g = ((p : Thread nD τ), SemLoc.dma s) := tallyAt_pos h
  exact ⟨by rw [L_tc]; exact Finset.mem_singleton_self _, if_pos hs⟩

theorem Above.tally (p : Dev nD) (t : Fin 3) (k : Fin 8) (n : ℕ) : Above (tallyAt (recvCell p t k) () n) :=
  Above.tally_dma p (recvS t k) ⟨recvS_ge t k, recvS_lt t k⟩ n

theorem Above.owed (c : Dev nD) (n : ℕ) (hn : 3 ≤ n) : Above (owedFrom c n) :=
  fun g u h => ⟨owed_mem_L h, owed_lv_recv hn h⟩

macro "above_tac" : tactic => `(tactic|
  (repeat' with_reducible first
    | exact Above.zero
    | exact Above.owed _ _ (by omega)
    | exact Above.tally _ _ _ _
    | exact Above.tally_dma _ _ (by decide) _
    | apply Above.add
   done))

theorem mayWait_any (c : Dev nD) (sm : SemLoc sig) (hsm : lv ((c : Thread nD τ), sm) () < 2)
    (O : CellTallies nD τ sig Unit) (h : Above O) :
    (levAts L lv : sProp 𝕄) ⊢ MayWait (c : Thread nD τ) sm () O :=
  MayOwe.of_cut (L := L) (lev := lv) 1
    (fun p hp => by rw [Finset.mem_singleton.mp hp, L_tc]; exact Finset.mem_singleton_self _)
    (fun g u hg => (h g u hg).1)
    (fun p hp => by rw [Finset.mem_singleton.mp hp]; exact Nat.le_of_lt_succ hsm)
    (fun g u hg => by rw [(h g u hg).2]; decide)

def semLv (sm : SemLoc sig) : ℕ :=
  match sm with
  | .reg _ => 1
  | .dma s => if 24 ≤ s.val ∧ s.val < 48 then 2 else 0

theorem lv_eq_semLv (g : GSem nD τ sig) (u : Unit) : lv g u = semLv g.2 := by
  obtain ⟨th, sm⟩ := g
  cases sm <;> rfl

def lowSem (sm : SemLoc sig) : Bool := decide (semLv sm < 2)

theorem mayWait_lowSem (c : Dev nD) (sm : SemLoc sig) (hsm : lowSem sm = true)
    (O : CellTallies nD τ sig Unit) (h : Above O) :
    (levAts L lv : sProp 𝕄) ⊢ MayWait (c : Thread nD τ) sm () O :=
  mayWait_any c sm (by rw [lv_eq_semLv]; exact of_decide_eq_true hsm) O h

end Cert.KernelPf

end
-- ==== Proof.Bits.Send.lean ====
import proofs.«900612_g7700000000000613_dist_a2a_gemm_m4096_k4096_n2048_f32_none_v7x_i4_1_alg».proof.Proof.Bits.Tables
import proofs.«900612_g7700000000000613_dist_a2a_gemm_m4096_k4096_n2048_f32_none_v7x_i4_1_alg».proof.Proof.Bits.Moves

noncomputable section

namespace Cert.KernelPf

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.A2aGemmB.Moves

variable {F : FTy → Type} [FloatOps F]

local notation "𝕄" => MT nD τ sig Unit (Elt F) ℕ UU ℕ

variable (m : (ℓ : Loc nD τ sig) → Buf (Elt F) ℓ)

theorem cast_cancel {α β : Type} (h : α = β) {a b : α} (hab : cast h a = cast h b) : a = b := by subst h; exact hab

theorem agree_of_read {Val : EltTy → Type} {sp : Space} {S : Shape} {e : EltTy} (v : View sig .tc sp S e) (f g : v.ty.Contents Val)
    (h : v.read Val f = v.read Val g) : ∀ i ∈ v.set, f i = g i := by
  intro i hi
  obtain ⟨y, rfl⟩ := View.exists_emb_of_mem_set v hi
  have hy := congrFun h y
  rw [View.read_apply, View.read_apply] at hy
  exact cast_cancel _ hy

theorem read_landed_sent (c p : Dev nD) (t i : Fin 3) (k : Fin 8) (hp : p = peer c (dOf t)) :
    (chunkM commM i k).view.read (Elt F) (landed m p t k) = sentVal m c t k := by
  subst hp
  funext y
  obtain ⟨r, q, rfl⟩ : ∃ r q, y = ix2 r q := ⟨y 0, y 1, eq_ix2 y⟩
  rw [read_chunkM]
  show sentVal m (peer (peer c (dOf t)) (4 - dOf t)) t k (ix2 (⟨(at8 k r).val % 128, _⟩ : Fin 128) (⟨q.val, _⟩ : Fin 1024)) = _
  rw [peer_peer]
  have e1 : (⟨(at8 k r).val % 128, Nat.mod_lt _ (by decide)⟩ : Fin 128) = r :=
    Fin.ext (by show (128 * k.val + r.val) % 128 = r.val; have := r.isLt; omega)
  rw [e1]

theorem send_step (c d p : Dev nD) (t i : Fin 3) (k : Fin 8) (hd : d = p) (hp : p = peer c (dOf t)) (hi : i = cTile t) (κs κr : ℕ)
    {O₀ : CellTallies nD τ sig Unit} (O : CellTallies nD τ sig Unit) (hO : O₀ = O + tallyAt (recvCell p t k) () NC) {W : Waits sig Unit}
    {fs : Buf (Elt F) ((chunkM sbufM t k).view.loc (c : Thread nD τ))} {fd : Buf (Elt F) ((chunkM commM i k).view.loc (p : Thread nD τ))}
    {α : Type} {kont : PUnit → Prog (TpuEff nD τ sig (Elt F) Λ₀ .tc) α} {Q : α → sProp 𝕄} {𝒱₀ : Variants}
    {hsc : (chunkM commM i k).view.ref.isScScratch = false} {hsrc : (chunkM sbufM t k).view.WordExact} {hdst : (chunkM commM i k).view.WordExact}
    {hsem : DmaTarget.Typed (nD := nD) (τ := τ) .vmem (.dma (recvS t k)) (.remote (Dev.tc d) (chunkM commM i k) (.dma (sendS t k)) hsc)} :
    iprop(⌜(chunkM sbufM t k).view.read (Elt F) fs = sentVal m c t k⌝
        ∗ cellInv ER (sch m) κs (sendCell c t k) ∗ cellInv ER (sch m) κr (recvCell p t k)
        ∗ chunkPts c sbufM t k fullShare fs ∗ chunkPts p commM i k fullShare fd
        ∗ owes (c : Thread nD τ) O₀ W
        ∗ dutyTok ER (sendCell c t k) 0 (0 : Fin 3) ∗ reached ER (sendCell c t k) 0
        ∗ dutyTok ER (recvCell p t k) 0 (0 : Fin 3) ∗ reached ER (recvCell p t k) 0)
      ⊢ iprop(((cred (tallyAt (sendCell c t k) () NC) ∗ owes (c : Thread nD τ) O W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkM sbufM t k) (.remote (Dev.tc d) (chunkM commM i k) (.dma (sendS t k)) hsc) (.dma (recvS t k)) hsrc hdst hsem) kont) Q) := by
  subst hd
  subst hi
  iintro ⟨%hfs, H⟩
  have hd₁ : (0 : Fin 3) ∈ (sch m).duties (sendCell c t k) 0 := by rw [duties_send]; exact Finset.mem_singleton_self _
  have hd₂ : (0 : Fin 3) ∈ (sch m).duties (recvCell d t k) 0 := by rw [duties_recv]; exact Finset.mem_singleton_self _
  have hN : (chunkM commM (cTile t) k).view.amount (SemLoc.dma (recvS t k)) = NC := rfl
  have hk₁ : (sch m).amount (sendCell c t k) 0 (0 : Fin 3) = NC := rfl
  have hk₂ : (sch m).amount (recvCell d t k) 0 (0 : Fin 3) = NC := rfl
  have hpay₁ : ((chunkM sbufM t k).view.loc (c : Thread nD τ) ↦[(chunkM sbufM t k).view.set]{fullShare} fs : sProp 𝕄)
      ⊢ (sch m).payload (sendCell c t k) 0 (0 : Fin 3) := by
    rw [payload_send]; unfold sendPay; iintro H; iexists fs; iexact H
  have hpay₂ : ((chunkM commM (cTile t) k).view.loc (d : Thread nD τ) ↦[(chunkM commM (cTile t) k).view.set]{fullShare}
        ((chunkM commM (cTile t) k).view.write (Elt F) fd ((chunkM sbufM t k).view.read (Elt F) fs) Finset.univ) : sProp 𝕄)
      ⊢ (sch m).payload (recvCell d t k) 0 (0 : Fin 3) := by
    rw [payload_recv]; unfold recvPay
    refine Entails.of_eq (pointsTo_congr (agree_of_read (chunkM commM (cTile t) k).view _ _ ?_))
    rw [View.read_write_univ, hfs, read_landed_sent m c d t (cTile t) k hp]
  iapply (Rounds.wp_send_pointsTo (defs := defs₀ (F := F)) 𝒱₀ ER (sch m) (c : Thread nD τ) none (Γ := .empty) (Q := Q)
    (c' := (d : Thread nD τ)) (src := chunkM sbufM t k) (dst := chunkM commM (cTile t) k) (hsc := hsc)
    (sS := .dma (sendS t k)) (sem := .dma (recvS t k)) (hsrc := hsrc) (hdst := hdst) (hsem := hsem) (k := kont)
    (q := fullShare) (fs := fs) (fd := fd) (r₁ := 0) (r₂ := 0) (d₁ := (0 : Fin 3)) (d₂ := (0 : Fin 3)) (κ₁ := κs) (κ₂ := κr)
    hd₁ hd₂ () () NC hN hk₁ hk₂ (O₀ := O₀) O hO (W := W) hpay₁ hpay₂ (Es := Set.univ))
  iexact H

end Cert.KernelPf

end
-- ==== Proof.Bits.Body.lean ====
import proofs.«900612_g7700000000000613_dist_a2a_gemm_m4096_k4096_n2048_f32_none_v7x_i4_1_alg».proof.Proof.Bits.Entry
import proofs.«900612_g7700000000000613_dist_a2a_gemm_m4096_k4096_n2048_f32_none_v7x_i4_1_alg».proof.Proof.Bits.Exit2
import proofs.«900612_g7700000000000613_dist_a2a_gemm_m4096_k4096_n2048_f32_none_v7x_i4_1_alg».proof.Proof.Bits.AccValue
import proofs.«900612_g7700000000000613_dist_a2a_gemm_m4096_k4096_n2048_f32_none_v7x_i4_1_alg».proof.Proof.Bits.Ledger
import proofs.«900612_g7700000000000613_dist_a2a_gemm_m4096_k4096_n2048_f32_none_v7x_i4_1_alg».proof.Proof.Bits.Send

noncomputable section

namespace Cert.KernelPf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

set_option sl_exec.dmaWindow true in
set_option maxHeartbeats 8000000 in

theorem run_flat (c : Dev nD) (K : GSem nD τ sig → ℕ)
    (s1 : Buf (Elt F) ((Memref.whole cc0_scratch1).view.loc (c : Thread nD τ)))
    (s2 : Buf (Elt F) ((Memref.whole cc0_scratch2).view.loc (c : Thread nD τ)))
    (s4 : Buf (Elt F) ((Memref.whole cc0_scratch4).view.loc (c : Thread nD τ)))
    (s5 : Buf (Elt F) ((Memref.whole cc0_scratch5).view.loc (c : Thread nD τ)))
    (f0 : Buf (Elt F) ((c : Thread nD τ).loc cc0_scratch0))
    (f3 : Buf (Elt F) ((c : Thread nD τ).loc cc0_scratch3))
    (W : Waits sig Unit) :
    iprop(flatPers m c K ∗ flatLin (F := F) c (m ((c : Thread nD τ).loc main_arg0)) (m ((c : Thread nD τ).loc main_arg1)) (m ((c : Thread nD τ).loc main_v1)) s1 s2 s4 s5 f0 f3 W
        ∗ tokRest ((c : Thread nD τ).loc main_arg0) (m ((c : Thread nD τ).loc main_arg0)) 48 53
        ∗ tokRest ((c : Thread nD τ).loc main_arg1) (m ((c : Thread nD τ).loc main_arg1)) 53 56)
      ⊢ wp frame (wpE (defs₀ (F := F)) 𝒱₀ (c : Thread nD τ) none) Set.univ
          (Gen.bodyAt0 (F := F) t₀) (fun _ => bodyPost m c) := by
  unfold flatPers flatLin owedSum flat24 localsFlat
  beta_reduce
  iintro ⟨⟨#HIb, #HIb1, #HIb2, #HIb3, ⟨#HIs0_0, #HIs1_0, #HIs0_1, #HIs1_1, #HIs0_2, #HIs1_2, #HIs0_3, #HIs1_3, #HIs0_4, #HIs1_4, #HIs0_5, #HIs1_5, #HIs0_6, #HIs1_6, #HIs0_7, #HIs1_7, #HIs2_0, #HIs2_1, #HIs2_2, #HIs2_3, #HIs2_4, #HIs2_5, #HIs2_6, #HIs2_7⟩, ⟨#HIp0_0, #HIp1_0, #HIp0_1, #HIp1_1, #HIp0_2, #HIp1_2, #HIp0_3, #HIp1_3, #HIp0_4, #HIp1_4, #HIp0_5, #HIp1_5, #HIp0_6, #HIp1_6, #HIp0_7, #HIp1_7, #HIp2_0, #HIp2_1, #HIp2_2, #HIp2_3, #HIp2_4, #HIp2_5, #HIp2_6, #HIp2_7⟩, ⟨#HIr0_0, #HIr1_0, #HIr0_1, #HIr1_1, #HIr0_2, #HIr1_2, #HIr0_3, #HIr1_3, #HIr0_4, #HIr1_4, #HIr0_5, #HIr1_5, #HIr0_6, #HIr1_6, #HIr0_7, #HIr1_7, #HIr2_0, #HIr2_1, #HIr2_2, #HIr2_3, #HIr2_4, #HIr2_5, #HIr2_6, #HIr2_7⟩, #Hrb, #Hrb1, #Hrb2, #Hrb3, ⟨#Hrs0_0, #Hrs1_0, #Hrs0_1, #Hrs1_1, #Hrs0_2, #Hrs1_2, #Hrs0_3, #Hrs1_3, #Hrs0_4, #Hrs1_4, #Hrs0_5, #Hrs1_5, #Hrs0_6, #Hrs1_6, #Hrs0_7, #Hrs1_7, #Hrs2_0, #Hrs2_1, #Hrs2_2, #Hrs2_3, #Hrs2_4, #Hrs2_5, #Hrs2_6, #Hrs2_7⟩, ⟨#Hrp0_0, #Hrp1_0, #Hrp0_1, #Hrp1_1, #Hrp0_2, #Hrp1_2, #Hrp0_3, #Hrp1_3, #Hrp0_4, #Hrp1_4, #Hrp0_5, #Hrp1_5, #Hrp0_6, #Hrp1_6, #Hrp0_7, #Hrp1_7, #Hrp2_0, #Hrp2_1, #Hrp2_2, #Hrp2_3, #Hrp2_4, #Hrp2_5, #Hrp2_6, #Hrp2_7⟩, ⟨#Hrr0_0, #Hrr1_0, #Hrr0_1, #Hrr1_1, #Hrr0_2, #Hrr1_2, #Hrr0_3, #Hrr1_3, #Hrr0_4, #Hrr1_4, #Hrr0_5, #Hrr1_5, #Hrr0_6, #Hrr1_6, #Hrr0_7, #Hrr1_7, #Hrr2_0, #Hrr2_1, #Hrr2_2, #Hrr2_3, #Hrr2_4, #Hrr2_5, #Hrr2_6, #Hrr2_7⟩, #Hlev⟩, ⟨Ht1, Ht2, Ht3, ⟨Hts0_0, Hts1_0, Hts0_1, Hts1_1, Hts0_2, Hts1_2, Hts0_3, Hts1_3, Hts0_4, Hts1_4, Hts0_5, Hts1_5, Hts0_6, Hts1_6, Hts0_7, Hts1_7, Hts2_0, Hts2_1, Hts2_2, Hts2_3, Hts2_4, Hts2_5, Hts2_6, Hts2_7⟩, ⟨Htp0_0, Htp1_0, Htp0_1, Htp1_1, Htp0_2, Htp1_2, Htp0_3, Htp1_3, Htp0_4, Htp1_4, Htp0_5, Htp1_5, Htp0_6, Htp1_6, Htp0_7, Htp1_7, Htp2_0, Htp2_1, Htp2_2, Htp2_3, Htp2_4, Htp2_5, Htp2_6, Htp2_7⟩, HatB, ⟨Has0_0, Has1_0, Has0_1, Has1_1, Has0_2, Has1_2, Has0_3, Has1_3, Has0_4, Has1_4, Has0_5, Has1_5, Has0_6, Has1_6, Has0_7, Has1_7, Has2_0, Has2_1, Has2_2, Has2_3, Has2_4, Has2_5, Has2_6, Has2_7⟩, ⟨Har0_0, Har1_0, Har0_1, Har1_1, Har0_2, Har1_2, Har0_3, Har1_3, Har0_4, Har1_4, Har0_5, Har1_5, Har0_6, Har1_6, Har0_7, Har1_7, Har2_0, Har2_1, Har2_2, Har2_3, Har2_4, Har2_5, Har2_6, Har2_7⟩, HcB, ⟨Hcr0_0, Hcr1_0, Hcr0_1, Hcr1_1, Hcr0_2, Hcr1_2, Hcr0_3, Hcr1_3, Hcr0_4, Hcr1_4, Hcr0_5, Hcr1_5, Hcr0_6, Hcr1_6, Hcr0_7, Hcr1_7, Hcr2_0, Hcr2_1, Hcr2_2, Hcr2_3, Hcr2_4, Hcr2_5, Hcr2_6, Hcr2_7⟩, HC2_0, HC2_1, HC2_2, HC2_3, HC2_4, HC2_5, HC2_6, HC2_7, HC1_0, HC1_1, HC1_2, HC1_3, HC1_4, HC1_5, HC1_6, HC1_7, HC0_0, HC0_1, HC0_2, HC0_3, HC0_4, HC0_5, HC0_6, HC0_7, ⟨HB0_0, HB1_0, HB0_1, HB1_1, HB0_2, HB1_2, HB0_3, HB1_3, HB0_4, HB1_4, HB0_5, HB1_5, HB0_6, HB1_6, HB0_7, HB1_7, HB2_0, HB2_1, HB2_2, HB2_3, HB2_4, HB2_5, HB2_6, HB2_7⟩, HX48, HX49, HX50, HX51, HX52, HW53, HW54, HW55, HOut, HS1, HS2, HS4, HS5, ⟨Hd48, Hd49, Hd50, Hd51, Hd52, Hd53, Hd54, Hd55, Hd56, Hd57, Hd58, Hd59, Hd60, Hd61, Hd62, Hd63⟩, HO⟩, HXr, HWr⟩

  have hmw : ∀ (sm : SemLoc sig) (O' : CellTallies nD τ sig Unit), lowSem sm = true → Above O' → ((levAts L lv : sProp 𝕄) ⊢ MayWait (c : Thread nD τ) sm () O') := fun sm O' h₁ h₂ => mayWait_lowSem c sm h₁ O' h₂

  sl_exec (disch := above_tac)

  ihave HD := (own_bar_split (F := F) c) $$ HatB_pay1
  icases HD with ⟨⟨%fd0_0, HD0_0⟩, ⟨%fd1_0, HD1_0⟩, ⟨%fd0_1, HD0_1⟩, ⟨%fd1_1, HD1_1⟩, ⟨%fd0_2, HD0_2⟩, ⟨%fd1_2, HD1_2⟩, ⟨%fd0_3, HD0_3⟩, ⟨%fd1_3, HD1_3⟩, ⟨%fd0_4, HD0_4⟩, ⟨%fd1_4, HD1_4⟩, ⟨%fd0_5, HD0_5⟩, ⟨%fd1_5, HD1_5⟩, ⟨%fd0_6, HD0_6⟩, ⟨%fd1_6, HD1_6⟩, ⟨%fd0_7, HD0_7⟩, ⟨%fd1_7, HD1_7⟩, ⟨%fd2_0, HD2_0⟩, ⟨%fd2_1, HD2_1⟩, ⟨%fd2_2, HD2_2⟩, ⟨%fd2_3, HD2_3⟩, ⟨%fd2_4, HD2_4⟩, ⟨%fd2_5, HD2_5⟩, ⟨%fd2_6, HD2_6⟩, ⟨%fd2_7, HD2_7⟩⟩

  iapply (send_step m c _ (peer c 1) 0 0 0 (dev4_eq c) rfl rfl _ _ _ rfl) $$ [HB0_0 HD0_0 HO Hts0_0 Htp0_0]
  · isplitr
    rotate_left
    · iframe
      isplitr; · iexact HIs0_0
      isplitr; · iexact HIp0_0
      isplitr; · iexact Hrs0_0
      iexact Hrp0_0
    · ipureintro
      sl_unfold_run_names
      simp (disch := decide) only [Cert.A2aGemm.Slabs.readAt_write_reshape_sep, Cert.A2aGemm.Slabs.readAt_slab_write_slab_same]
      exact read_sbuf_sent m c 0 0 f3
  iintro ⟨Hcs0_0, HO⟩
  sl_exec (disch := above_tac)

  iapply (send_step m c _ (peer c 3) 1 2 0 (dev5_eq c) rfl rfl _ _ _ rfl) $$ [HB1_0 HD1_0 HO Hts1_0 Htp1_0]
  · isplitr
    rotate_left
    · iframe
      isplitr; · iexact HIs1_0
      isplitr; · iexact HIp1_0
      isplitr; · iexact Hrs1_0
      iexact Hrp1_0
    · ipureintro
      sl_unfold_run_names
      simp (disch := decide) only [Cert.A2aGemm.Slabs.readAt_write_reshape_sep, Cert.A2aGemm.Slabs.readAt_slab_write_slab_same]
      exact read_sbuf_sent m c 1 0 f3
  iintro ⟨Hcs1_0, HO⟩
  sl_exec (disch := above_tac)

  iapply (send_step m c _ (peer c 1) 0 0 1 (dev6_eq c) rfl rfl _ _ _ rfl) $$ [HB0_1 HD0_1 HO Hts0_1 Htp0_1]
  · isplitr
    rotate_left
    · iframe
      isplitr; · iexact HIs0_1
      isplitr; · iexact HIp0_1
      isplitr; · iexact Hrs0_1
      iexact Hrp0_1
    · ipureintro
      sl_unfold_run_names
      simp (disch := decide) only [Cert.A2aGemm.Slabs.readAt_write_reshape_sep, Cert.A2aGemm.Slabs.readAt_slab_write_slab_same]
      exact read_sbuf_sent m c 0 1 f3
  iintro ⟨Hcs0_1, HO⟩
  sl_exec (disch := above_tac)

  iapply (send_step m c _ (peer c 3) 1 2 1 (dev7_eq c) rfl rfl _ _ _ rfl) $$ [HB1_1 HD1_1 HO Hts1_1 Htp1_1]
  · isplitr
    rotate_left
    · iframe
      isplitr; · iexact HIs1_1
      isplitr; · iexact HIp1_1
      isplitr; · iexact Hrs1_1
      iexact Hrp1_1
    · ipureintro
      sl_unfold_run_names
      simp (disch := decide) only [Cert.A2aGemm.Slabs.readAt_write_reshape_sep, Cert.A2aGemm.Slabs.readAt_slab_write_slab_same]
      exact read_sbuf_sent m c 1 1 f3
  iintro ⟨Hcs1_1, HO⟩
  sl_exec (disch := above_tac)

  iapply (send_step m c _ (peer c 1) 0 0 2 (dev8_eq c) rfl rfl _ _ _ rfl) $$ [HB0_2 HD0_2 HO Hts0_2 Htp0_2]
  · isplitr
    rotate_left
    · iframe
      isplitr; · iexact HIs0_2
      isplitr; · iexact HIp0_2
      isplitr; · iexact Hrs0_2
      iexact Hrp0_2
    · ipureintro
      sl_unfold_run_names
      simp (disch := decide) only [Cert.A2aGemm.Slabs.readAt_write_reshape_sep, Cert.A2aGemm.Slabs.readAt_slab_write_slab_same]
      exact read_sbuf_sent m c 0 2 f3
  iintro ⟨Hcs0_2, HO⟩
  sl_exec (disch := above_tac)

  iapply (send_step m c _ (peer c 3) 1 2 2 (dev9_eq c) rfl rfl _ _ _ rfl) $$ [HB1_2 HD1_2 HO Hts1_2 Htp1_2]
  · isplitr
    rotate_left
    · iframe
      isplitr; · iexact HIs1_2
      isplitr; · iexact HIp1_2
      isplitr; · iexact Hrs1_2
      iexact Hrp1_2
    · ipureintro
      sl_unfold_run_names
      simp (disch := decide) only [Cert.A2aGemm.Slabs.readAt_write_reshape_sep, Cert.A2aGemm.Slabs.readAt_slab_write_slab_same]
      exact read_sbuf_sent m c 1 2 f3
  iintro ⟨Hcs1_2, HO⟩
  sl_exec (disch := above_tac)

  iapply (send_step m c _ (peer c 1) 0 0 3 (dev10_eq c) rfl rfl _ _ _ rfl) $$ [HB0_3 HD0_3 HO Hts0_3 Htp0_3]
  · isplitr
    rotate_left
    · iframe
      isplitr; · iexact HIs0_3
      isplitr; · iexact HIp0_3
      isplitr; · iexact Hrs0_3
      iexact Hrp0_3
    · ipureintro
      sl_unfold_run_names
      simp (disch := decide) only [Cert.A2aGemm.Slabs.readAt_write_reshape_sep, Cert.A2aGemm.Slabs.readAt_slab_write_slab_same]
      exact read_sbuf_sent m c 0 3 f3
  iintro ⟨Hcs0_3, HO⟩
  sl_exec (disch := above_tac)

  iapply (send_step m c _ (peer c 3) 1 2 3 (dev11_eq c) rfl rfl _ _ _ rfl) $$ [HB1_3 HD1_3 HO Hts1_3 Htp1_3]
  · isplitr
    rotate_left
    · iframe
      isplitr; · iexact HIs1_3
      isplitr; · iexact HIp1_3
      isplitr; · iexact Hrs1_3
      iexact Hrp1_3
    · ipureintro
      sl_unfold_run_names
      simp (disch := decide) only [Cert.A2aGemm.Slabs.readAt_write_reshape_sep, Cert.A2aGemm.Slabs.readAt_slab_write_slab_same]
      exact read_sbuf_sent m c 1 3 f3
  iintro ⟨Hcs1_3, HO⟩
  sl_exec (disch := above_tac)

  iapply (send_step m c _ (peer c 1) 0 0 4 (dev12_eq c) rfl rfl _ _ _ rfl) $$ [HB0_4 HD0_4 HO Hts0_4 Htp0_4]
  · isplitr
    rotate_left
    · iframe
      isplitr; · iexact HIs0_4
      isplitr; · iexact HIp0_4
      isplitr; · iexact Hrs0_4
      iexact Hrp0_4
    · ipureintro
      sl_unfold_run_names
      simp (disch := decide) only [Cert.A2aGemm.Slabs.readAt_write_reshape_sep, Cert.A2aGemm.Slabs.readAt_slab_write_slab_same]
      exact read_sbuf_sent m c 0 4 f3
  iintro ⟨Hcs0_4, HO⟩
  sl_exec (disch := above_tac)

  iapply (send_step m c _ (peer c 3) 1 2 4 (dev13_eq c) rfl rfl _ _ _ rfl) $$ [HB1_4 HD1_4 HO Hts1_4 Htp1_4]
  · isplitr
    rotate_left
    · iframe
      isplitr; · iexact HIs1_4
      isplitr; · iexact HIp1_4
      isplitr; · iexact Hrs1_4
      iexact Hrp1_4
    · ipureintro
      sl_unfold_run_names
      simp (disch := decide) only [Cert.A2aGemm.Slabs.readAt_write_reshape_sep, Cert.A2aGemm.Slabs.readAt_slab_write_slab_same]
      exact read_sbuf_sent m c 1 4 f3
  iintro ⟨Hcs1_4, HO⟩
  sl_exec (disch := above_tac)

  iapply (send_step m c _ (peer c 1) 0 0 5 (dev14_eq c) rfl rfl _ _ _ rfl) $$ [HB0_5 HD0_5 HO Hts0_5 Htp0_5]
  · isplitr
    rotate_left
    · iframe
      isplitr; · iexact HIs0_5
      isplitr; · iexact HIp0_5
      isplitr; · iexact Hrs0_5
      iexact Hrp0_5
    · ipureintro
      sl_unfold_run_names
      simp (disch := decide) only [Cert.A2aGemm.Slabs.readAt_write_reshape_sep, Cert.A2aGemm.Slabs.readAt_slab_write_slab_same]
      exact read_sbuf_sent m c 0 5 f3
  iintro ⟨Hcs0_5, HO⟩
  sl_exec (disch := above_tac)

  iapply (send_step m c _ (peer c 3) 1 2 5 (dev15_eq c) rfl rfl _ _ _ rfl) $$ [HB1_5 HD1_5 HO Hts1_5 Htp1_5]
  · isplitr
    rotate_left
    · iframe
      isplitr; · iexact HIs1_5
      isplitr; · iexact HIp1_5
      isplitr; · iexact Hrs1_5
      iexact Hrp1_5
    · ipureintro
      sl_unfold_run_names
      simp (disch := decide) only [Cert.A2aGemm.Slabs.readAt_write_reshape_sep, Cert.A2aGemm.Slabs.readAt_slab_write_slab_same]
      exact read_sbuf_sent m c 1 5 f3
  iintro ⟨Hcs1_5, HO⟩
  sl_exec (disch := above_tac)

  iapply (send_step m c _ (peer c 1) 0 0 6 (dev16_eq c) rfl rfl _ _ _ rfl) $$ [HB0_6 HD0_6 HO Hts0_6 Htp0_6]
  · isplitr
    rotate_left
    · iframe
      isplitr; · iexact HIs0_6
      isplitr; · iexact HIp0_6
      isplitr; · iexact Hrs0_6
      iexact Hrp0_6
    · ipureintro
      sl_unfold_run_names
      simp (disch := decide) only [Cert.A2aGemm.Slabs.readAt_write_reshape_sep, Cert.A2aGemm.Slabs.readAt_slab_write_slab_same]
      exact read_sbuf_sent m c 0 6 f3
  iintro ⟨Hcs0_6, HO⟩
  sl_exec (disch := above_tac)

  iapply (send_step m c _ (peer c 3) 1 2 6 (dev17_eq c) rfl rfl _ _ _ rfl) $$ [HB1_6 HD1_6 HO Hts1_6 Htp1_6]
  · isplitr
    rotate_left
    · iframe
      isplitr; · iexact HIs1_6
      isplitr; · iexact HIp1_6
      isplitr; · iexact Hrs1_6
      iexact Hrp1_6
    · ipureintro
      sl_unfold_run_names
      simp (disch := decide) only [Cert.A2aGemm.Slabs.readAt_write_reshape_sep, Cert.A2aGemm.Slabs.readAt_slab_write_slab_same]
      exact read_sbuf_sent m c 1 6 f3
  iintro ⟨Hcs1_6, HO⟩
  sl_exec (disch := above_tac)

  iapply (send_step m c _ (peer c 1) 0 0 7 (dev18_eq c) rfl rfl _ _ _ rfl) $$ [HB0_7 HD0_7 HO Hts0_7 Htp0_7]
  · isplitr
    rotate_left
    · iframe
      isplitr; · iexact HIs0_7
      isplitr; · iexact HIp0_7
      isplitr; · iexact Hrs0_7
      iexact Hrp0_7
    · ipureintro
      sl_unfold_run_names
      simp (disch := decide) only [Cert.A2aGemm.Slabs.readAt_write_reshape_sep, Cert.A2aGemm.Slabs.readAt_slab_write_slab_same]
      exact read_sbuf_sent m c 0 7 f3
  iintro ⟨Hcs0_7, HO⟩
  sl_exec (disch := above_tac)

  iapply (send_step m c _ (peer c 3) 1 2 7 (dev19_eq c) rfl rfl _ _ _ rfl) $$ [HB1_7 HD1_7 HO Hts1_7 Htp1_7]
  · isplitr
    rotate_left
    · iframe
      isplitr; · iexact HIs1_7
      isplitr; · iexact HIp1_7
      isplitr; · iexact Hrs1_7
      iexact Hrp1_7
    · ipureintro
      sl_unfold_run_names
      simp (disch := decide) only [Cert.A2aGemm.Slabs.readAt_write_reshape_sep, Cert.A2aGemm.Slabs.readAt_slab_write_slab_same]
      exact read_sbuf_sent m c 1 7 f3
  iintro ⟨Hcs1_7, HO⟩
  sl_exec (disch := above_tac)

  iapply (send_step m c _ (peer c 2) 2 1 0 (dev20_eq c) rfl rfl _ _ _ rfl) $$ [HB2_0 HD2_0 HO Hts2_0 Htp2_0]
  · isplitr
    rotate_left
    · iframe
      isplitr; · iexact HIs2_0
      isplitr; · iexact HIp2_0
      isplitr; · iexact Hrs2_0
      iexact Hrp2_0
    · ipureintro
      sl_unfold_run_names
      simp (disch := decide) only [Cert.A2aGemm.Slabs.readAt_write_reshape_sep, Cert.A2aGemm.Slabs.readAt_slab_write_slab_same]
      exact read_sbuf_sent m c 2 0 f3
  iintro ⟨Hcs2_0, HO⟩
  sl_exec (disch := above_tac)

  iapply (send_step m c _ (peer c 2) 2 1 1 (dev21_eq c) rfl rfl _ _ _ rfl) $$ [HB2_1 HD2_1 HO Hts2_1 Htp2_1]
  · isplitr
    rotate_left
    · iframe
      isplitr; · iexact HIs2_1
      isplitr; · iexact HIp2_1
      isplitr; · iexact Hrs2_1
      iexact Hrp2_1
    · ipureintro
      sl_unfold_run_names
      simp (disch := decide) only [Cert.A2aGemm.Slabs.readAt_write_reshape_sep, Cert.A2aGemm.Slabs.readAt_slab_write_slab_same]
      exact read_sbuf_sent m c 2 1 f3
  iintro ⟨Hcs2_1, HO⟩
  sl_exec (disch := above_tac)

  iapply (send_step m c _ (peer c 2) 2 1 2 (dev22_eq c) rfl rfl _ _ _ rfl) $$ [HB2_2 HD2_2 HO Hts2_2 Htp2_2]
  · isplitr
    rotate_left
    · iframe
      isplitr; · iexact HIs2_2
      isplitr; · iexact HIp2_2
      isplitr; · iexact Hrs2_2
      iexact Hrp2_2
    · ipureintro
      sl_unfold_run_names
      simp (disch := decide) only [Cert.A2aGemm.Slabs.readAt_write_reshape_sep, Cert.A2aGemm.Slabs.readAt_slab_write_slab_same]
      exact read_sbuf_sent m c 2 2 f3
  iintro ⟨Hcs2_2, HO⟩
  sl_exec (disch := above_tac)

  iapply (send_step m c _ (peer c 2) 2 1 3 (dev23_eq c) rfl rfl _ _ _ rfl) $$ [HB2_3 HD2_3 HO Hts2_3 Htp2_3]
  · isplitr
    rotate_left
    · iframe
      isplitr; · iexact HIs2_3
      isplitr; · iexact HIp2_3
      isplitr; · iexact Hrs2_3
      iexact Hrp2_3
    · ipureintro
      sl_unfold_run_names
      simp (disch := decide) only [Cert.A2aGemm.Slabs.readAt_write_reshape_sep, Cert.A2aGemm.Slabs.readAt_slab_write_slab_same]
      exact read_sbuf_sent m c 2 3 f3
  iintro ⟨Hcs2_3, HO⟩
  sl_exec (disch := above_tac)

  iapply (send_step m c _ (peer c 2) 2 1 4 (dev24_eq c) rfl rfl _ _ _ rfl) $$ [HB2_4 HD2_4 HO Hts2_4 Htp2_4]
  · isplitr
    rotate_left
    · iframe
      isplitr; · iexact HIs2_4
      isplitr; · iexact HIp2_4
      isplitr; · iexact Hrs2_4
      iexact Hrp2_4
    · ipureintro
      sl_unfold_run_names
      simp (disch := decide) only [Cert.A2aGemm.Slabs.readAt_write_reshape_sep, Cert.A2aGemm.Slabs.readAt_slab_write_slab_same]
      exact read_sbuf_sent m c 2 4 f3
  iintro ⟨Hcs2_4, HO⟩
  sl_exec (disch := above_tac)

  iapply (send_step m c _ (peer c 2) 2 1 5 (dev25_eq c) rfl rfl _ _ _ rfl) $$ [HB2_5 HD2_5 HO Hts2_5 Htp2_5]
  · isplitr
    rotate_left
    · iframe
      isplitr; · iexact HIs2_5
      isplitr; · iexact HIp2_5
      isplitr; · iexact Hrs2_5
      iexact Hrp2_5
    · ipureintro
      sl_unfold_run_names
      simp (disch := decide) only [Cert.A2aGemm.Slabs.readAt_write_reshape_sep, Cert.A2aGemm.Slabs.readAt_slab_write_slab_same]
      exact read_sbuf_sent m c 2 5 f3
  iintro ⟨Hcs2_5, HO⟩
  sl_exec (disch := above_tac)

  iapply (send_step m c _ (peer c 2) 2 1 6 (dev26_eq c) rfl rfl _ _ _ rfl) $$ [HB2_6 HD2_6 HO Hts2_6 Htp2_6]
  · isplitr
    rotate_left
    · iframe
      isplitr; · iexact HIs2_6
      isplitr; · iexact HIp2_6
      isplitr; · iexact Hrs2_6
      iexact Hrp2_6
    · ipureintro
      sl_unfold_run_names
      simp (disch := decide) only [Cert.A2aGemm.Slabs.readAt_write_reshape_sep, Cert.A2aGemm.Slabs.readAt_slab_write_slab_same]
      exact read_sbuf_sent m c 2 6 f3
  iintro ⟨Hcs2_6, HO⟩
  sl_exec (disch := above_tac)

  iapply (send_step m c _ (peer c 2) 2 1 7 (dev27_eq c) rfl rfl _ _ _ rfl) $$ [HB2_7 HD2_7 HO Hts2_7 Htp2_7]
  · isplitr
    rotate_left
    · iframe
      isplitr; · iexact HIs2_7
      isplitr; · iexact HIp2_7
      isplitr; · iexact Hrs2_7
      iexact Hrp2_7
    · ipureintro
      sl_unfold_run_names
      simp (disch := decide) only [Cert.A2aGemm.Slabs.readAt_write_reshape_sep, Cert.A2aGemm.Slabs.readAt_slab_write_slab_same]
      exact read_sbuf_sent m c 2 7 f3
  iintro ⟨Hcs2_7, HO⟩
  sl_exec (disch := above_tac)

  have hx : run_flat.sl.v1302 m c s2 = xlocV m c := by
    unfold run_flat.sl.v1302 run_flat.sl.dma0_4
    exact read_own m c s2
  have hw0 : run_flat.sl.v1303 m c s4 = wV m c 0 := by
    unfold run_flat.sl.v1303
    sl_unfold_run_names
    simp (disch := decide) only [Cert.A2aGemm.Slabs.readAt_write_reshape_sep, Cert.A2aGemm.Slabs.readAt_slab_write_slab_same]
    exact wV_of_slice m c 0
  have hw3 : run_flat.sl.v1354 m c s4 = wV m c 3 := by
    unfold run_flat.sl.v1354
    sl_unfold_run_names
    simp (disch := decide) only [Cert.A2aGemm.Slabs.readAt_write_reshape_sep, Cert.A2aGemm.Slabs.readAt_slab_write_slab_same]
    exact wV_of_slice m c 3
  have hw1 : run_flat.sl.v1379 m c s4 = wV m c 1 := by
    unfold run_flat.sl.v1379
    sl_unfold_run_names
    simp (disch := decide) only [Cert.A2aGemm.Slabs.readAt_write_reshape_sep, Cert.A2aGemm.Slabs.readAt_slab_write_slab_same]
    exact wV_of_slice m c 1
  have hw2 : run_flat.sl.v1759 m c s4 = wV m c 2 := by
    unfold run_flat.sl.v1759
    sl_unfold_run_names
    simp (disch := decide) only [Cert.A2aGemm.Slabs.readAt_write_reshape_sep, Cert.A2aGemm.Slabs.readAt_slab_write_slab_same]
    exact wV_of_slice m c 2
  have hA0 : run_flat.sl.v1350 m c s2 s4 = acc0 m c 0 := by
    unfold run_flat.sl.v1350 run_flat.sl.HS5_1
    rw [hx, hw0]
    exact cov_acc0 m c 0 0 rfl _ _
  have hB0 : run_flat.sl.v1375 m c s2 s4 = k0_pay30 (acc0 m c 0) (cmV m c 0 0) (wV m c 3) := by
    unfold run_flat.sl.v1375 run_flat.sl.HS5_2
    rw [cov_hit 0, hA0, hw3]
    exact congrArg (fun z => k0_pay30 (acc0 m c 0) z (wV m c 3)) (read_cm m c 0 0)
  have hC0 : run_flat.sl.v1755 m c s2 s4 = k0_pay30 (k0_pay30 (acc0 m c 0) (cmV m c 0 0) (wV m c 3)) (cmV m c 1 0) (wV m c 1) := by
    unfold run_flat.sl.v1755 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3
    rw [cov_skip 896 0 (by decide), cov_skip 896 0 (by decide), cov_skip 768 0 (by decide), cov_skip 768 0 (by decide), cov_skip 640 0 (by decide), cov_skip 640 0 (by decide), cov_skip 512 0 (by decide), cov_skip 512 0 (by decide), cov_skip 384 0 (by decide), cov_skip 384 0 (by decide), cov_skip 256 0 (by decide), cov_skip 256 0 (by decide), cov_skip 128 0 (by decide), cov_skip 128 0 (by decide)]
    rw [cov_hit 0, hB0, hw1]
    exact congrArg (fun z => k0_pay30 (k0_pay30 (acc0 m c 0) (cmV m c 0 0) (wV m c 3)) z (wV m c 1)) (read_cm m c 1 0)
  have hd0 : run_flat.sl.dma89 m c s2 s4 s5 = chunkFinal m c 0 := by
    unfold run_flat.sl.dma89 run_flat.sl.HS5_18
    refine (out_band_eq 0 _ _ s5 _ _).trans ?_
    rw [hC0, hw2]
    exact congrArg (fun z => k0_pay30 (k0_pay30 (k0_pay30 (acc0 m c 0) (cmV m c 0 0) (wV m c 3)) (cmV m c 1 0) (wV m c 1)) z (wV m c 2)) (read_cm m c 2 0)
  have hA1 : run_flat.sl.v1400 m c s2 s4 = acc0 m c 1 := by
    unfold run_flat.sl.v1400 run_flat.sl.HS5_3 run_flat.sl.HS5_2 run_flat.sl.HS5_1
    rw [cov_skip 0 128 (by decide), cov_skip 0 128 (by decide)]
    rw [hx, hw0]
    exact cov_acc0 m c 128 1 rfl _ _
  have hB1 : run_flat.sl.v1425 m c s2 s4 = k0_pay30 (acc0 m c 1) (cmV m c 0 1) (wV m c 3) := by
    unfold run_flat.sl.v1425 run_flat.sl.HS5_4
    rw [cov_hit 128, hA1, hw3]
    exact congrArg (fun z => k0_pay30 (acc0 m c 1) z (wV m c 3)) (read_cm m c 0 1)
  have hC1 : run_flat.sl.v1784 m c s2 s4 = k0_pay30 (k0_pay30 (acc0 m c 1) (cmV m c 0 1) (wV m c 3)) (cmV m c 1 1) (wV m c 1) := by
    unfold run_flat.sl.v1784 run_flat.sl.HS5_18 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5
    rw [cov_skip 0 128 (by decide), cov_skip 896 128 (by decide), cov_skip 896 128 (by decide), cov_skip 768 128 (by decide), cov_skip 768 128 (by decide), cov_skip 640 128 (by decide), cov_skip 640 128 (by decide), cov_skip 512 128 (by decide), cov_skip 512 128 (by decide), cov_skip 384 128 (by decide), cov_skip 384 128 (by decide), cov_skip 256 128 (by decide), cov_skip 256 128 (by decide)]
    rw [cov_hit 128, hB1, hw1]
    exact congrArg (fun z => k0_pay30 (k0_pay30 (acc0 m c 1) (cmV m c 0 1) (wV m c 3)) z (wV m c 1)) (read_cm m c 1 1)
  have hd1 : run_flat.sl.dma94 m c s2 s4 s5 = chunkFinal m c 1 := by
    unfold run_flat.sl.dma94 run_flat.sl.HS5_19
    refine (out_band_eq 128 _ _ s5 _ _).trans ?_
    rw [hC1, hw2]
    exact congrArg (fun z => k0_pay30 (k0_pay30 (k0_pay30 (acc0 m c 1) (cmV m c 0 1) (wV m c 3)) (cmV m c 1 1) (wV m c 1)) z (wV m c 2)) (read_cm m c 2 1)
  have hA2 : run_flat.sl.v1450 m c s2 s4 = acc0 m c 2 := by
    unfold run_flat.sl.v1450 run_flat.sl.HS5_5 run_flat.sl.HS5_4 run_flat.sl.HS5_3 run_flat.sl.HS5_2 run_flat.sl.HS5_1
    rw [cov_skip 128 256 (by decide), cov_skip 128 256 (by decide), cov_skip 0 256 (by decide), cov_skip 0 256 (by decide)]
    rw [hx, hw0]
    exact cov_acc0 m c 256 2 rfl _ _
  have hB2 : run_flat.sl.v1475 m c s2 s4 = k0_pay30 (acc0 m c 2) (cmV m c 0 2) (wV m c 3) := by
    unfold run_flat.sl.v1475 run_flat.sl.HS5_6
    rw [cov_hit 256, hA2, hw3]
    exact congrArg (fun z => k0_pay30 (acc0 m c 2) z (wV m c 3)) (read_cm m c 0 2)
  have hC2 : run_flat.sl.v1813 m c s2 s4 = k0_pay30 (k0_pay30 (acc0 m c 2) (cmV m c 0 2) (wV m c 3)) (cmV m c 1 2) (wV m c 1) := by
    unfold run_flat.sl.v1813 run_flat.sl.HS5_19 run_flat.sl.HS5_18 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7
    rw [cov_skip 128 256 (by decide), cov_skip 0 256 (by decide), cov_skip 896 256 (by decide), cov_skip 896 256 (by decide), cov_skip 768 256 (by decide), cov_skip 768 256 (by decide), cov_skip 640 256 (by decide), cov_skip 640 256 (by decide), cov_skip 512 256 (by decide), cov_skip 512 256 (by decide), cov_skip 384 256 (by decide), cov_skip 384 256 (by decide)]
    rw [cov_hit 256, hB2, hw1]
    exact congrArg (fun z => k0_pay30 (k0_pay30 (acc0 m c 2) (cmV m c 0 2) (wV m c 3)) z (wV m c 1)) (read_cm m c 1 2)
  have hd2 : run_flat.sl.dma99 m c s2 s4 s5 = chunkFinal m c 2 := by
    unfold run_flat.sl.dma99 run_flat.sl.HS5_20
    refine (out_band_eq 256 _ _ s5 _ _).trans ?_
    rw [hC2, hw2]
    exact congrArg (fun z => k0_pay30 (k0_pay30 (k0_pay30 (acc0 m c 2) (cmV m c 0 2) (wV m c 3)) (cmV m c 1 2) (wV m c 1)) z (wV m c 2)) (read_cm m c 2 2)
  have hA3 : run_flat.sl.v1500 m c s2 s4 = acc0 m c 3 := by
    unfold run_flat.sl.v1500 run_flat.sl.HS5_7 run_flat.sl.HS5_6 run_flat.sl.HS5_5 run_flat.sl.HS5_4 run_flat.sl.HS5_3 run_flat.sl.HS5_2 run_flat.sl.HS5_1
    rw [cov_skip 256 384 (by decide), cov_skip 256 384 (by decide), cov_skip 128 384 (by decide), cov_skip 128 384 (by decide), cov_skip 0 384 (by decide), cov_skip 0 384 (by decide)]
    rw [hx, hw0]
    exact cov_acc0 m c 384 3 rfl _ _
  have hB3 : run_flat.sl.v1525 m c s2 s4 = k0_pay30 (acc0 m c 3) (cmV m c 0 3) (wV m c 3) := by
    unfold run_flat.sl.v1525 run_flat.sl.HS5_8
    rw [cov_hit 384, hA3, hw3]
    exact congrArg (fun z => k0_pay30 (acc0 m c 3) z (wV m c 3)) (read_cm m c 0 3)
  have hC3 : run_flat.sl.v1842 m c s2 s4 = k0_pay30 (k0_pay30 (acc0 m c 3) (cmV m c 0 3) (wV m c 3)) (cmV m c 1 3) (wV m c 1) := by
    unfold run_flat.sl.v1842 run_flat.sl.HS5_20 run_flat.sl.HS5_19 run_flat.sl.HS5_18 run_flat.sl.HS5_17 run_flat.sl.HS5_16 run_flat.sl.HS5_15 run_flat.sl.HS5_14 run_flat.sl.HS5_13 run_flat.sl.HS5_12 run_flat.sl.HS5_11 run_flat.sl.HS5_10 run_flat.sl.HS5_9
    rw [cov_skip 256 384 (by decide), cov_skip 128 384 (by decide), cov_skip 0 384 (by decide), cov_skip 896 384 (by decide), cov_skip 896 384 (by decide), cov_skip 768 384 (by decide), cov_skip 768 384 (by decide), cov_skip 640 384 (by decide), cov_skip 640 384 (by decide), cov_skip 512 384 (by decide), cov_skip 512 384 (by decide)]
    rw [cov_hit 384, hB3, hw1]
    exact congrArg (fun z => k0_pay30 (k0_pay30 (acc0 m c 3) (cmV m c 0 3) (wV m c 3)) z (wV m c 1)) (read_cm m c 1 3)
  have hd3 : run_flat.sl.dma104 m c s2 s4 s5 = chunkFinal m c 3 := by
    unfold run_flat.sl.dma104 run_flat.sl.HS5_21
    refine (out_band_eq 384 _ _ s5 _ _).trans ?_
    rw [hC3, hw2]
    exact congrArg (fun z => k0_pay30 (k0_pay30 (k0_pay30 (acc0 m c 3) (cmV m c 0 3) (wV m c 3)) (cmV m c 1 3) (wV m c 1)) z (wV m c 2)) (read_cm m c 2 3)
  have hA4 : run_flat.sl.v1550 m c s2 s4 = acc0 m c 4 := by
    unfold run_flat.sl.v1550 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 384 512 (by decide), cov_skip 384 512 (by decide), cov_skip 256 512 (by decide), cov_skip 256 512 (by decide), cov_skip 128 512 (by decide), cov_skip 128 512 (by decide), cov_skip 0 512 (by decide), cov_skip 0 512 (by decide)]
    rw [hx, hw0]
    exact cov_acc0 m c 512 4 rfl _ _
  have hB4 : run_flat.sl.v1575 m c s2 s4 = k0_pay30 (acc0 m c 4) (cmV m c 0 4) (wV m c 3) := by
    unfold run_flat.sl.v1575 run_flat.sl.HS5_10
    rw [cov_hit 512, hA4, hw3]
    exact congrArg (fun z => k0_pay30 (acc0 m c 4) z (wV m c 3)) (read_cm m c 0 4)
  have hC4 : run_flat.sl.v1871 m c s2 s4 = k0_pay30 (k0_pay30 (acc0 m c 4) (cmV m c 0 4) (wV m c 3)) (cmV m c 1 4) (wV m c 1) := by
    unfold run_flat.sl.v1871 run_flat.sl.HS5_21 run_flat.sl.HS5_20 run_flat.sl.HS5_19 run_flat.sl.HS5_18 run_flat.sl.HS5_17 run_flat.sl.HS5_16 run_flat.sl.HS5_15 run_flat.sl.HS5_14 run_flat.sl.HS5_13 run_flat.sl.HS5_12 run_flat.sl.HS5_11
    rw [cov_skip 384 512 (by decide), cov_skip 256 512 (by decide), cov_skip 128 512 (by decide), cov_skip 0 512 (by decide), cov_skip 896 512 (by decide), cov_skip 896 512 (by decide), cov_skip 768 512 (by decide), cov_skip 768 512 (by decide), cov_skip 640 512 (by decide), cov_skip 640 512 (by decide)]
    rw [cov_hit 512, hB4, hw1]
    exact congrArg (fun z => k0_pay30 (k0_pay30 (acc0 m c 4) (cmV m c 0 4) (wV m c 3)) z (wV m c 1)) (read_cm m c 1 4)
  have hd4 : run_flat.sl.dma109 m c s2 s4 s5 = chunkFinal m c 4 := by
    unfold run_flat.sl.dma109 run_flat.sl.HS5_22
    refine (out_band_eq 512 _ _ s5 _ _).trans ?_
    rw [hC4, hw2]
    exact congrArg (fun z => k0_pay30 (k0_pay30 (k0_pay30 (acc0 m c 4) (cmV m c 0 4) (wV m c 3)) (cmV m c 1 4) (wV m c 1)) z (wV m c 2)) (read_cm m c 2 4)
  have hA5 : run_flat.sl.v1600 m c s2 s4 = acc0 m c 5 := by
    unfold run_flat.sl.v1600 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 512 640 (by decide), cov_skip 512 640 (by decide), cov_skip 384 640 (by decide), cov_skip 384 640 (by decide), cov_skip 256 640 (by decide), cov_skip 256 640 (by decide), cov_skip 128 640 (by decide), cov_skip 128 640 (by decide), cov_skip 0 640 (by decide), cov_skip 0 640 (by decide)]
    rw [hx, hw0]
    exact cov_acc0 m c 640 5 rfl _ _
  have hB5 : run_flat.sl.v1625 m c s2 s4 = k0_pay30 (acc0 m c 5) (cmV m c 0 5) (wV m c 3) := by
    unfold run_flat.sl.v1625 run_flat.sl.HS5_12
    rw [cov_hit 640, hA5, hw3]
    exact congrArg (fun z => k0_pay30 (acc0 m c 5) z (wV m c 3)) (read_cm m c 0 5)
  have hC5 : run_flat.sl.v1900 m c s2 s4 = k0_pay30 (k0_pay30 (acc0 m c 5) (cmV m c 0 5) (wV m c 3)) (cmV m c 1 5) (wV m c 1) := by
    unfold run_flat.sl.v1900 run_flat.sl.HS5_22 run_flat.sl.HS5_21 run_flat.sl.HS5_20 run_flat.sl.HS5_19 run_flat.sl.HS5_18 run_flat.sl.HS5_17 run_flat.sl.HS5_16 run_flat.sl.HS5_15 run_flat.sl.HS5_14 run_flat.sl.HS5_13
    rw [cov_skip 512 640 (by decide), cov_skip 384 640 (by decide), cov_skip 256 640 (by decide), cov_skip 128 640 (by decide), cov_skip 0 640 (by decide), cov_skip 896 640 (by decide), cov_skip 896 640 (by decide), cov_skip 768 640 (by decide), cov_skip 768 640 (by decide)]
    rw [cov_hit 640, hB5, hw1]
    exact congrArg (fun z => k0_pay30 (k0_pay30 (acc0 m c 5) (cmV m c 0 5) (wV m c 3)) z (wV m c 1)) (read_cm m c 1 5)
  have hd5 : run_flat.sl.dma114 m c s2 s4 s5 = chunkFinal m c 5 := by
    unfold run_flat.sl.dma114 run_flat.sl.HS5_23 run_flat.sl.r_5
    refine (out_band_eq 640 _ _ s5 _ _).trans ?_
    rw [hC5, hw2]
    exact congrArg (fun z => k0_pay30 (k0_pay30 (k0_pay30 (acc0 m c 5) (cmV m c 0 5) (wV m c 3)) (cmV m c 1 5) (wV m c 1)) z (wV m c 2)) (read_cm m c 2 5)
  have hA6 : run_flat.sl.v1650 m c s2 s4 = acc0 m c 6 := by
    unfold run_flat.sl.v1650 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 640 768 (by decide), cov_skip 640 768 (by decide), cov_skip 512 768 (by decide), cov_skip 512 768 (by decide), cov_skip 384 768 (by decide), cov_skip 384 768 (by decide), cov_skip 256 768 (by decide), cov_skip 256 768 (by decide), cov_skip 128 768 (by decide), cov_skip 128 768 (by decide), cov_skip 0 768 (by decide), cov_skip 0 768 (by decide)]
    rw [hx, hw0]
    exact cov_acc0 m c 768 6 rfl _ _
  have hB6 : run_flat.sl.v m c s2 s4 = k0_pay30 (acc0 m c 6) (cmV m c 0 6) (wV m c 3) := by
    unfold run_flat.sl.v run_flat.sl.HS5_14
    rw [cov_hit 768, hA6, hw3]
    exact congrArg (fun z => k0_pay30 (acc0 m c 6) z (wV m c 3)) (read_cm m c 0 6)
  have hC6 : run_flat.sl.v1929 m c s2 s4 = k0_pay30 (k0_pay30 (acc0 m c 6) (cmV m c 0 6) (wV m c 3)) (cmV m c 1 6) (wV m c 1) := by
    unfold run_flat.sl.v1929 run_flat.sl.HS5_23 run_flat.sl.HS5_22 run_flat.sl.HS5_21 run_flat.sl.HS5_20 run_flat.sl.HS5_19 run_flat.sl.HS5_18 run_flat.sl.HS5_17 run_flat.sl.HS5_16 run_flat.sl.HS5_15
    rw [cov_skip 640 768 (by decide), cov_skip 512 768 (by decide), cov_skip 384 768 (by decide), cov_skip 256 768 (by decide), cov_skip 128 768 (by decide), cov_skip 0 768 (by decide), cov_skip 896 768 (by decide), cov_skip 896 768 (by decide)]
    rw [cov_hit 768, hB6, hw1]
    exact congrArg (fun z => k0_pay30 (k0_pay30 (acc0 m c 6) (cmV m c 0 6) (wV m c 3)) z (wV m c 1)) (read_cm m c 1 6)
  have hd6 : run_flat.sl.dma119 m c s2 s4 s5 = chunkFinal m c 6 := by
    unfold run_flat.sl.dma119 run_flat.sl.HS5_24 run_flat.sl.r_6
    refine (out_band_eq 768 _ _ s5 _ _).trans ?_
    rw [hC6, hw2]
    exact congrArg (fun z => k0_pay30 (k0_pay30 (k0_pay30 (acc0 m c 6) (cmV m c 0 6) (wV m c 3)) (cmV m c 1 6) (wV m c 1)) z (wV m c 2)) (read_cm m c 2 6)
  have hA7 : run_flat.sl.v_1 m c s2 s4 = acc0 m c 7 := by
    unfold run_flat.sl.v_1 run_flat.sl.HS5_15 run_flat.sl.HS5_14 run_flat.sl.HS5_13 run_flat.sl.HS5_12 run_flat.sl.HS5_11 run_flat.sl.HS5_10 run_flat.sl.HS5_9 run_flat.sl.HS5_8 run_flat.sl.HS5_7 run_flat.sl.HS5_6 run_flat.sl.HS5_5 run_flat.sl.HS5_4 run_flat.sl.HS5_3 run_flat.sl.HS5_2 run_flat.sl.HS5_1
    rw [cov_skip 768 896 (by decide), cov_skip 768 896 (by decide), cov_skip 640 896 (by decide), cov_skip 640 896 (by decide), cov_skip 512 896 (by decide), cov_skip 512 896 (by decide), cov_skip 384 896 (by decide), cov_skip 384 896 (by decide), cov_skip 256 896 (by decide), cov_skip 256 896 (by decide), cov_skip 128 896 (by decide), cov_skip 128 896 (by decide), cov_skip 0 896 (by decide), cov_skip 0 896 (by decide)]
    rw [hx, hw0]
    exact cov_acc0 m c 896 7 rfl _ _
  have hB7 : run_flat.sl.v1725 m c s2 s4 = k0_pay30 (acc0 m c 7) (cmV m c 0 7) (wV m c 3) := by
    unfold run_flat.sl.v1725 run_flat.sl.HS5_16
    rw [cov_hit 896, hA7, hw3]
    exact congrArg (fun z => k0_pay30 (acc0 m c 7) z (wV m c 3)) (read_cm m c 0 7)
  have hC7 : run_flat.sl.v_2 m c s2 s4 = k0_pay30 (k0_pay30 (acc0 m c 7) (cmV m c 0 7) (wV m c 3)) (cmV m c 1 7) (wV m c 1) := by
    unfold run_flat.sl.v_2 run_flat.sl.HS5_24 run_flat.sl.HS5_23 run_flat.sl.HS5_22 run_flat.sl.HS5_21 run_flat.sl.HS5_20 run_flat.sl.HS5_19 run_flat.sl.HS5_18 run_flat.sl.HS5_17 run_flat.sl.r_4
    rw [cov_skip 768 896 (by decide), cov_skip 640 896 (by decide), cov_skip 512 896 (by decide), cov_skip 384 896 (by decide), cov_skip 256 896 (by decide), cov_skip 128 896 (by decide), cov_skip 0 896 (by decide)]
    rw [cov_hit 896, hB7, hw1]
    exact congrArg (fun z => k0_pay30 (k0_pay30 (acc0 m c 7) (cmV m c 0 7) (wV m c 3)) z (wV m c 1)) (read_cm m c 1 7)
  have hd7 : run_flat.sl.dma124 m c s2 s4 s5 = chunkFinal m c 7 := by
    unfold run_flat.sl.dma124 run_flat.sl.HS5_25
    refine (out_band_eq 896 _ _ s5 _ _).trans ?_
    rw [hC7, hw2]
    exact congrArg (fun z => k0_pay30 (k0_pay30 (k0_pay30 (acc0 m c 7) (cmV m c 0 7) (wV m c 3)) (cmV m c 1 7) (wV m c 1)) z (wV m c 2)) (read_cm m c 2 7)
  have hspec := out_spec_of_bands m c (m ((c : Thread nD τ).loc main_v1)) _ _ _ _ _ _ _ _ hd0 hd1 hd2 hd3 hd4 hd5 hd6 hd7

  rw [wp_ret]
  iapply (exit_all m K c _ _ hspec) $$ [Has0_0 Has1_0 Has0_1 Has1_1 Has0_2 Has1_2 Has0_3 Has1_3 Has0_4 Has1_4 Has0_5 Has1_5 Has0_6 Has1_6 Has0_7 Has1_7 Has2_0 Has2_1 Has2_2 Has2_3 Has2_4 Has2_5 Has2_6 Has2_7 Har0_0 Har1_0 Har0_1 Har1_1 Har0_2 Har1_2 Har0_3 Har1_3 Har0_4 Har1_4 Har0_5 Har1_5 Har0_6 Har1_6 Har0_7 Har1_7 Har2_0 Har2_1 Har2_2 Har2_3 Har2_4 Har2_5 Har2_6 Har2_7 Hd48 Hd49 Hd50 Hd51 Hd52 Hd53 Hd54 Hd55 Hd56 Hd57 Hd58 Hd59 Hd60 Hd61 Hd62 Hd63 Har0_0_pay1 Har1_0_pay1 Har0_1_pay1 Har1_1_pay1 Har0_2_pay1 Har1_2_pay1 Har0_3_pay1 Har1_3_pay1 Har0_4_pay1 Har1_4_pay1 Har0_5_pay1 Har1_5_pay1 Har0_6_pay1 Har1_6_pay1 Har0_7_pay1 Har1_7_pay1 Har2_0_pay1 Har2_1_pay1 Har2_2_pay1 Har2_3_pay1 Har2_4_pay1 Har2_5_pay1 Har2_6_pay1 Har2_7_pay1 Has0_0_pay1 Has1_0_pay1 Has0_1_pay1 Has1_1_pay1 Has0_2_pay1 Has1_2_pay1 Has0_3_pay1 Has1_3_pay1 Has0_4_pay1 Has1_4_pay1 Has0_5_pay1 Has1_5_pay1 Has0_6_pay1 Has1_6_pay1 Has0_7_pay1 Has1_7_pay1 Has2_0_pay1 Has2_1_pay1 Has2_2_pay1 Has2_3_pay1 Has2_4_pay1 Has2_5_pay1 Has2_6_pay1 Has2_7_pay1 HS1 HS2 HS4 HS5 HX48 HX49 HX50 HX51 HX52 HXr HW53 HW54 HW55 HWr HOut HO]
  unfold flat24 localsFlat argsOut
  beta_reduce
  iframe Has0_0 Has1_0 Has0_1 Has1_1 Has0_2 Has1_2 Has0_3 Has1_3 Has0_4 Has1_4 Has0_5 Has1_5 Has0_6 Has1_6 Has0_7 Has1_7 Has2_0 Has2_1 Has2_2 Has2_3 Has2_4 Has2_5 Has2_6 Has2_7 Har0_0 Har1_0 Har0_1 Har1_1 Har0_2 Har1_2 Har0_3 Har1_3 Har0_4 Har1_4 Har0_5 Har1_5 Har0_6 Har1_6 Har0_7 Har1_7 Har2_0 Har2_1 Har2_2 Har2_3 Har2_4 Har2_5 Har2_6 Har2_7 Hd48 Hd49 Hd50 Hd51 Hd52 Hd53 Hd54 Hd55 Hd56 Hd57 Hd58 Hd59 Hd60 Hd61 Hd62 Hd63 HX48 HX49 HX50 HX51 HX52 HXr HW53 HW54 HW55 HWr HOut HO
  isplitr
  · isplitr
    · isplitr; · iexact HIs0_0
      isplitr; · iexact HIs1_0
      isplitr; · iexact HIs0_1
      isplitr; · iexact HIs1_1
      isplitr; · iexact HIs0_2
      isplitr; · iexact HIs1_2
      isplitr; · iexact HIs0_3
      isplitr; · iexact HIs1_3
      isplitr; · iexact HIs0_4
      isplitr; · iexact HIs1_4
      isplitr; · iexact HIs0_5
      isplitr; · iexact HIs1_5
      isplitr; · iexact HIs0_6
      isplitr; · iexact HIs1_6
      isplitr; · iexact HIs0_7
      isplitr; · iexact HIs1_7
      isplitr; · iexact HIs2_0
      isplitr; · iexact HIs2_1
      isplitr; · iexact HIs2_2
      isplitr; · iexact HIs2_3
      isplitr; · iexact HIs2_4
      isplitr; · iexact HIs2_5
      isplitr; · iexact HIs2_6
      iexact HIs2_7
    isplitr; · iexact HIr0_0
    isplitr; · iexact HIr1_0
    isplitr; · iexact HIr0_1
    isplitr; · iexact HIr1_1
    isplitr; · iexact HIr0_2
    isplitr; · iexact HIr1_2
    isplitr; · iexact HIr0_3
    isplitr; · iexact HIr1_3
    isplitr; · iexact HIr0_4
    isplitr; · iexact HIr1_4
    isplitr; · iexact HIr0_5
    isplitr; · iexact HIr1_5
    isplitr; · iexact HIr0_6
    isplitr; · iexact HIr1_6
    isplitr; · iexact HIr0_7
    isplitr; · iexact HIr1_7
    isplitr; · iexact HIr2_0
    isplitr; · iexact HIr2_1
    isplitr; · iexact HIr2_2
    isplitr; · iexact HIr2_3
    isplitr; · iexact HIr2_4
    isplitr; · iexact HIr2_5
    isplitr; · iexact HIr2_6
    iexact HIr2_7
  isplitl [Har0_0_pay1 Har1_0_pay1 Har0_1_pay1 Har1_1_pay1 Har0_2_pay1 Har1_2_pay1 Har0_3_pay1 Har1_3_pay1 Har0_4_pay1 Har1_4_pay1 Har0_5_pay1 Har1_5_pay1 Har0_6_pay1 Har1_6_pay1 Har0_7_pay1 Har1_7_pay1 Har2_0_pay1 Har2_1_pay1 Har2_2_pay1 Har2_3_pay1 Har2_4_pay1 Har2_5_pay1 Har2_6_pay1 Har2_7_pay1]
  · isplitl [Har0_0_pay1]; · (iexists _; iexact Har0_0_pay1)
    isplitl [Har1_0_pay1]; · (iexists _; iexact Har1_0_pay1)
    isplitl [Har0_1_pay1]; · (iexists _; iexact Har0_1_pay1)
    isplitl [Har1_1_pay1]; · (iexists _; iexact Har1_1_pay1)
    isplitl [Har0_2_pay1]; · (iexists _; iexact Har0_2_pay1)
    isplitl [Har1_2_pay1]; · (iexists _; iexact Har1_2_pay1)
    isplitl [Har0_3_pay1]; · (iexists _; iexact Har0_3_pay1)
    isplitl [Har1_3_pay1]; · (iexists _; iexact Har1_3_pay1)
    isplitl [Har0_4_pay1]; · (iexists _; iexact Har0_4_pay1)
    isplitl [Har1_4_pay1]; · (iexists _; iexact Har1_4_pay1)
    isplitl [Har0_5_pay1]; · (iexists _; iexact Har0_5_pay1)
    isplitl [Har1_5_pay1]; · (iexists _; iexact Har1_5_pay1)
    isplitl [Har0_6_pay1]; · (iexists _; iexact Har0_6_pay1)
    isplitl [Har1_6_pay1]; · (iexists _; iexact Har1_6_pay1)
    isplitl [Har0_7_pay1]; · (iexists _; iexact Har0_7_pay1)
    isplitl [Har1_7_pay1]; · (iexists _; iexact Har1_7_pay1)
    isplitl [Har2_0_pay1]; · (iexists _; iexact Har2_0_pay1)
    isplitl [Har2_1_pay1]; · (iexists _; iexact Har2_1_pay1)
    isplitl [Har2_2_pay1]; · (iexists _; iexact Har2_2_pay1)
    isplitl [Har2_3_pay1]; · (iexists _; iexact Har2_3_pay1)
    isplitl [Har2_4_pay1]; · (iexists _; iexact Har2_4_pay1)
    isplitl [Har2_5_pay1]; · (iexists _; iexact Har2_5_pay1)
    isplitl [Har2_6_pay1]; · (iexists _; iexact Har2_6_pay1)
    iexists _; iexact Har2_7_pay1
  isplitl [Has0_0_pay1 Has1_0_pay1 Has0_1_pay1 Has1_1_pay1 Has0_2_pay1 Has1_2_pay1 Has0_3_pay1 Has1_3_pay1 Has0_4_pay1 Has1_4_pay1 Has0_5_pay1 Has1_5_pay1 Has0_6_pay1 Has1_6_pay1 Has0_7_pay1 Has1_7_pay1 Has2_0_pay1 Has2_1_pay1 Has2_2_pay1 Has2_3_pay1 Has2_4_pay1 Has2_5_pay1 Has2_6_pay1 Has2_7_pay1]
  · isplitl [Has0_0_pay1]; · (iexists _; iexact Has0_0_pay1)
    isplitl [Has1_0_pay1]; · (iexists _; iexact Has1_0_pay1)
    isplitl [Has0_1_pay1]; · (iexists _; iexact Has0_1_pay1)
    isplitl [Has1_1_pay1]; · (iexists _; iexact Has1_1_pay1)
    isplitl [Has0_2_pay1]; · (iexists _; iexact Has0_2_pay1)
    isplitl [Has1_2_pay1]; · (iexists _; iexact Has1_2_pay1)
    isplitl [Has0_3_pay1]; · (iexists _; iexact Has0_3_pay1)
    isplitl [Has1_3_pay1]; · (iexists _; iexact Has1_3_pay1)
    isplitl [Has0_4_pay1]; · (iexists _; iexact Has0_4_pay1)
    isplitl [Has1_4_pay1]; · (iexists _; iexact Has1_4_pay1)
    isplitl [Has0_5_pay1]; · (iexists _; iexact Has0_5_pay1)
    isplitl [Has1_5_pay1]; · (iexists _; iexact Has1_5_pay1)
    isplitl [Has0_6_pay1]; · (iexists _; iexact Has0_6_pay1)
    isplitl [Has1_6_pay1]; · (iexists _; iexact Has1_6_pay1)
    isplitl [Has0_7_pay1]; · (iexists _; iexact Has0_7_pay1)
    isplitl [Has1_7_pay1]; · (iexists _; iexact Has1_7_pay1)
    isplitl [Has2_0_pay1]; · (iexists _; iexact Has2_0_pay1)
    isplitl [Has2_1_pay1]; · (iexists _; iexact Has2_1_pay1)
    isplitl [Has2_2_pay1]; · (iexists _; iexact Has2_2_pay1)
    isplitl [Has2_3_pay1]; · (iexists _; iexact Has2_3_pay1)
    isplitl [Has2_4_pay1]; · (iexists _; iexact Has2_4_pay1)
    isplitl [Has2_5_pay1]; · (iexists _; iexact Has2_5_pay1)
    isplitl [Has2_6_pay1]; · (iexists _; iexact Has2_6_pay1)
    iexists _; iexact Has2_7_pay1
  isplitl [HS1]; · (iexists _; iexact HS1)
  isplitl [HS2]; · (iexists _; iexact HS2)
  isplitl [HS4]; · (iexists _; iexact HS4)
  iexists _; iexact HS5

theorem sound_body (c : Dev nD) :
    bodyPre m c ⊢ wp frame (wpE (defs₀ (F := F)) 𝒱₀ (c : Thread nD τ) none) Set.univ (Gen.bodyAt0 (F := F) t₀) (fun _ => bodyPost m c) := by
  refine (enter m c).trans ?_
  iintro ⟨%K, %s1, %s2, %s4, %s5, %f0, %f3, %W, HP, HL, HXr, HWr⟩
  iapply (run_flat m c K s1 s2 s4 s5 f0 f3 W)
  isplitl [HP]; · iexact HP
  isplitl [HL]; · iexact HL
  isplitl [HXr]; · iexact HXr
  iexact HWr

end Cert.KernelPf

end
-- ==== Proof.lean ====
import proofs.«900612_g7700000000000613_dist_a2a_gemm_m4096_k4096_n2048_f32_none_v7x_i4_1_alg».proof.Defs
import proofs.«900612_g7700000000000613_dist_a2a_gemm_m4096_k4096_n2048_f32_none_v7x_i4_1_alg».proof.Proof.Assemble
import proofs.«900612_g7700000000000613_dist_a2a_gemm_m4096_k4096_n2048_f32_none_v7x_i4_1_alg».proof.Proof.Body
import proofs.«900612_g7700000000000613_dist_a2a_gemm_m4096_k4096_n2048_f32_none_v7x_i4_1_alg».proof.Proof.Bits.Body

noncomputable section

namespace Cert.Proof

open Idealize.ShloMosaic Idealize.SL.Sem

theorem claim : Cert.Claim :=
  Cert.Proof.A2a.claim_of_sound (fun m c => Cert.KernelIdealPf.sound_body m c) (fun m c => Cert.KernelPf.sound_body m c)

end Cert.Proof

end
